-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v292) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S8x1x512x4096 : Shape := ⟨4, ![8, 1, 512, 4096]⟩
abbrev S8x1x1x512 : Shape := ⟨4, ![8, 1, 1, 512]⟩
abbrev S8x1x1x4096 : Shape := ⟨4, ![8, 1, 1, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S8x1x1x4096 : S_.BroadcastsInDim S8x1x1x4096 (![] : Fin 0 → Fin S8x1x1x4096.rank)
  reducesTo_S8x1x1x4096_S_d0_1_2_3 : S8x1x1x4096.ReducesTo [0, 1, 2, 3] S_

variable [Facts]

def fn_part1 {F : FTy → Type} [FloatOps F] (main_arg6 : IVec S4096 32) (main_v13 : IVec S_ 1) (main_v16 : IVec S8x1x1x4096 1) : IVec S_ 1 :=
  let main_c_5 : IVec S_ 1 := constantI S_ 1 1#1
  let main_v17 : IVec S_ 1 := (fun x v => Host.reduce IntOp.andi x v reducesTo_S8x1x1x4096_S_d0_1_2_3 h_S_) main_v16 main_c_5
  let main_v18 : IVec S_ 1 := andi main_v13 main_v17
  let main_c_6 : IVec S_ 32 := constantI S_ 32 0#32
  let main_v19 : IVec S4096 32 := broadcastInDim S4096 ![] bcast_S_S4096 main_c_6
  let main_v20 : IVec S4096 1 := cmpi .sge main_arg6 main_v19
  let main_c_7 : IVec S_ 32 := constantI S_ 32 8#32
  let main_v21 : IVec S4096 32 := broadcastInDim S4096 ![] bcast_S_S4096 main_c_7
  let main_v22 : IVec S4096 1 := cmpi .slt main_arg6 main_v21
  let main_v23 : IVec S4096 1 := andi main_v20 main_v22
  let main_c_8 : IVec S_ 1 := constantI S_ 1 1#1
  let main_v24 : IVec S_ 1 := (fun x v => Host.reduce IntOp.andi x v reducesTo_S4096_S_d0 h_S_) main_v23 main_c_8
  let main_v25 : IVec S_ 1 := andi main_v18 main_v24
  main_v25

def fn {F : FTy → Type} [FloatOps F] (main_arg0 : FVec F S4096x4096 .f32) (main_arg1 : FVec F S4096x4096 .f32) (main_arg2 : FVec F S4096 .f32) (main_arg3 : IVec S8x1x512x4096 32) (main_arg4 : IVec S8x1x1x512 32) (main_arg5 : FVec F S8x1x1x4096 .f32) (main_arg6 : IVec S4096 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8x1x1x4096 .f32 := Host.absf main_arg5
  let main_cst_4 : FVec F S_ .f32 := constant S_ .f32 0x7F800000#32
  let main_v15 : FVec F S8x1x1x4096 .f32 := broadcastInDim S8x1x1x4096 ![] bcast_S_S8x1x1x4096 main_cst_4
  let main_v16 : IVec S8x1x1x4096 1 := cmpf .olt main_v14 main_v15
  fn_part1 (F := F) main_arg6 main_v13 main_v16
-- ==== Kernel.lean ====
abbrev S4096x4096 : Shape := ⟨2, ![4096, 4096]⟩
abbrev S4096 : Shape := ⟨1, ![4096]⟩
abbrev S8x1x512x4096 : Shape := ⟨4, ![8, 1, 512, 4096]⟩
abbrev S8x1x1x512 : Shape := ⟨4, ![8, 1, 1, 512]⟩
abbrev S8x1x1x4096 : Shape := ⟨4, ![8, 1, 1, 4096]⟩
abbrev S256x512 : Shape := ⟨2, ![256, 512]⟩
abbrev S4096x512 : Shape := ⟨2, ![4096, 512]⟩
abbrev S256x4096 : Shape := ⟨2, ![256, 4096]⟩
abbrev S8 : Shape := ⟨1, ![8]⟩
abbrev S1x4096 : Shape := ⟨2, ![1, 4096]⟩
abbrev S8x1 : Shape := ⟨2, ![8, 1]⟩
abbrev S8x4096 : Shape := ⟨2, ![8, 4096]⟩
abbrev S_ : Shape := ⟨0, ![]⟩
abbrev S1 : Shape := ⟨1, ![1]⟩
abbrev S7 : Shape := ⟨1, ![7]⟩
abbrev S4096x1 : Shape := ⟨2, ![4096, 1]⟩
abbrev S24 : Shape := ⟨1, ![24]⟩
abbrev S1x8 : Shape := ⟨2, ![1, 8]⟩
abbrev S24x1 : Shape := ⟨2, ![24, 1]⟩
abbrev S24x8 : Shape := ⟨2, ![24, 8]⟩
abbrev S6144x4096 : Shape := ⟨2, ![6144, 4096]⟩
abbrev S8x512x4096 : Shape := ⟨3, ![8, 512, 4096]⟩
abbrev S8x512 : Shape := ⟨2, ![8, 512]⟩
abbrev S8x512x1 : Shape := ⟨3, ![8, 512, 1]⟩
abbrev S1x1x8 : Shape := ⟨3, ![1, 1, 8]⟩
abbrev S8x512x8 : Shape := ⟨3, ![8, 512, 8]⟩
abbrev S8x1x4096 : Shape := ⟨3, ![8, 1, 4096]⟩
abbrev S1x64x4096 : Shape := ⟨3, ![1, 64, 4096]⟩
abbrev S1x1x4096 : Shape := ⟨3, ![1, 1, 4096]⟩
abbrev S64x4096 : Shape := ⟨2, ![64, 4096]⟩
abbrev S1x8x1 : Shape := ⟨3, ![1, 8, 1]⟩
abbrev S64x1x4096 : Shape := ⟨3, ![64, 1, 4096]⟩
abbrev S64x8x4096 : Shape := ⟨3, ![64, 8, 4096]⟩
abbrev S512x4096 : Shape := ⟨2, ![512, 4096]⟩
abbrev S256 : Shape := ⟨1, ![256]⟩
abbrev S256x1 : Shape := ⟨2, ![256, 1]⟩

abbrev nBuf : Space → Nat
  | .hbm => 153
  | .vmem => 18
  | .smem => 1
  | _ => 0

abbrev hbmTy0_0 (i : Nat) : BufTy := match i % 128 with
  | 0 => ⟨S4096x4096, .f32⟩
  | 1 => ⟨S4096x4096, .f32⟩
  | 2 => ⟨S4096, .f32⟩
  | 3 => ⟨S8x1x512x4096, .i32⟩
  | 4 => ⟨S8x1x1x512, .i32⟩
  | 5 => ⟨S8x1x1x4096, .f32⟩
  | 6 => ⟨S4096, .i32⟩
  | 7 => ⟨S4096x4096, .bf16⟩
  | 8 => ⟨S4096x4096, .bf16⟩
  | 9 => ⟨S4096x4096, .f32⟩
  | 10 => ⟨S8, .i32⟩
  | 11 => ⟨S1x4096, .i32⟩
  | 12 => ⟨S8x1, .i32⟩
  | 13 => ⟨S8x4096, .i32⟩
  | 14 => ⟨S8x4096, .i32⟩
  | 15 => ⟨S8x4096, .i1⟩
  | 16 => ⟨S8x4096, .i32⟩
  | 17 => ⟨S_, .i32⟩
  | 18 => ⟨S8, .i32⟩
  | 19 => ⟨S_, .i32⟩
  | 20 => ⟨S1, .i32⟩
  | 21 => ⟨S_, .i32⟩
  | 22 => ⟨S_, .i32⟩
  | 23 => ⟨S8, .i32⟩
  | 24 => ⟨S7, .i32⟩
  | 25 => ⟨S8, .i32⟩
  | 26 => ⟨S_, .i32⟩
  | 27 => ⟨S8, .i32⟩
  | 28 => ⟨S8, .i32⟩
  | 29 => ⟨S_, .i32⟩
  | 30 => ⟨S8, .i32⟩
  | 31 => ⟨S8, .i32⟩
  | 32 => ⟨S_, .i32⟩
  | 33 => ⟨S_, .i32⟩
  | 34 => ⟨S8, .i32⟩
  | 35 => ⟨S8, .i32⟩
  | 36 => ⟨S8, .i32⟩
  | 37 => ⟨S_, .i32⟩
  | 38 => ⟨S8, .i32⟩
  | 39 => ⟨S8, .i1⟩
  | 40 => ⟨S8, .i32⟩
  | 41 => ⟨S8, .i32⟩
  | 42 => ⟨S_, .i32⟩
  | 43 => ⟨S8, .i32⟩
  | 44 => ⟨S8, .i1⟩
  | 45 => ⟨S8, .i1⟩
  | 46 => ⟨S_, .i32⟩
  | 47 => ⟨S8, .i32⟩
  | 48 => ⟨S8, .i32⟩
  | 49 => ⟨S8, .i32⟩
  | 50 => ⟨S_, .i32⟩
  | 51 => ⟨S8, .i32⟩
  | 52 => ⟨S8, .i32⟩
  | 53 => ⟨S_, .i32⟩
  | 54 => ⟨S1, .i32⟩
  | 55 => ⟨S_, .i32⟩
  | 56 => ⟨S_, .i32⟩
  | 57 => ⟨S8, .i32⟩
  | 58 => ⟨S7, .i32⟩
  | 59 => ⟨S8, .i32⟩
  | 60 => ⟨S8, .i32⟩
  | 61 => ⟨S4096, .i32⟩
  | 62 => ⟨S4096, .i32⟩
  | 63 => ⟨S4096, .i32⟩
  | 64 => ⟨S4096, .i32⟩
  | 65 => ⟨S_, .i32⟩
  | 66 => ⟨S4096, .i32⟩
  | 67 => ⟨S4096, .i1⟩
  | 68 => ⟨S_, .i32⟩
  | 69 => ⟨S4096, .i32⟩
  | 70 => ⟨S4096, .i32⟩
  | 71 => ⟨S4096, .i32⟩
  | 72 => ⟨S4096x1, .i32⟩
  | 73 => ⟨S4096, .i32⟩
  | 74 => ⟨S4096, .i32⟩
  | 75 => ⟨S4096, .i32⟩
  | 76 => ⟨S_, .i32⟩
  | 77 => ⟨S4096, .i32⟩
  | 78 => ⟨S_, .i32⟩
  | 79 => ⟨S4096, .i32⟩
  | 80 => ⟨S4096, .i1⟩
  | 81 => ⟨S_, .i32⟩
  | 82 => ⟨S4096, .i32⟩
  | 83 => ⟨S4096, .i32⟩
  | 84 => ⟨S4096, .i32⟩
  | 85 => ⟨S4096x1, .i32⟩
  | 86 => ⟨S4096, .i32⟩
  | 87 => ⟨S_, .i32⟩
  | 88 => ⟨S_, .i32⟩
  | 89 => ⟨S8, .i32⟩
  | 90 => ⟨S24, .i32⟩
  | 91 => ⟨S_, .i32⟩
  | 92 => ⟨S24, .i32⟩
  | 93 => ⟨S24, .i32⟩
  | 94 => ⟨S1x8, .i32⟩
  | 95 => ⟨S24x1, .i32⟩
  | 96 => ⟨S24x8, .i32⟩
  | 97 => ⟨S24x8, .i32⟩
  | 98 => ⟨S24x8, .i1⟩
  | 99 => ⟨S24x8, .i32⟩
  | 100 => ⟨S_, .i32⟩
  | 101 => ⟨S24, .i32⟩
  | 102 => ⟨S_, .i32⟩
  | 103 => ⟨S_, .i32⟩
  | 104 => ⟨S_, .i32⟩
  | 105 => ⟨S24, .i32⟩
  | 106 => ⟨S24, .i32⟩
  | 107 => ⟨S_, .i32⟩
  | 108 => ⟨S24, .i32⟩
  | 109 => ⟨S_, .bf16⟩
  | 110 => ⟨S6144x4096, .bf16⟩
  | 111 => ⟨S_, .i32⟩
  | 112 => ⟨S4096, .i32⟩
  | 113 => ⟨S4096, .i1⟩
  | 114 => ⟨S_, .i32⟩
  | 115 => ⟨S4096, .i32⟩
  | 116 => ⟨S4096, .i32⟩
  | 117 => ⟨S4096, .i32⟩
  | 118 => ⟨S4096x1, .i32⟩
  | 119 => ⟨S6144x4096, .bf16⟩
  | 120 => ⟨S8x512x4096, .i32⟩
  | 121 => ⟨S8x512, .i32⟩
  | 122 => ⟨S8, .i32⟩
  | 123 => ⟨S_, .i32⟩
  | 124 => ⟨S8, .i32⟩
  | 125 => ⟨S8, .i32⟩
  | 126 => ⟨S8x512x1, .i32⟩
  | 127 => ⟨S1x1x8, .i32⟩
  | _ => ⟨S4096x4096, .f32⟩

abbrev hbmTy0_1 (i : Nat) : BufTy := match i % 128 with
  | 0 => ⟨S8x512x8, .i32⟩
  | 1 => ⟨S8x512x8, .i32⟩
  | 2 => ⟨S8x512x8, .i32⟩
  | 3 => ⟨S_, .i32⟩
  | 4 => ⟨S8x512x8, .i32⟩
  | 5 => ⟨S8x512x8, .i32⟩
  | 6 => ⟨S8x4096, .i32⟩
  | 7 => ⟨S8x4096, .f32⟩
  | 8 => ⟨S8x1x4096, .f32⟩
  | 9 => ⟨S8x4096, .f32⟩
  | 10 => ⟨S8x1x4096, .f32⟩
  | 11 => ⟨S6144x4096, .f32⟩
  | 12 => ⟨S_, .i32⟩
  | 13 => ⟨S4096, .i32⟩
  | 14 => ⟨S4096, .i1⟩
  | 15 => ⟨S_, .i32⟩
  | 16 => ⟨S4096, .i32⟩
  | 17 => ⟨S4096, .i32⟩
  | 18 => ⟨S4096, .i32⟩
  | 19 => ⟨S4096x1, .i32⟩
  | 20 => ⟨S4096x4096, .f32⟩
  | 21 => ⟨S4096x4096, .f32⟩
  | 22 => ⟨S1x4096, .f32⟩
  | 23 => ⟨S4096x4096, .f32⟩
  | 24 => ⟨S4096x4096, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x512, .bf16⟩
  | .local _ .vmem, ⟨8, _⟩ => ⟨S256x512, .bf16⟩
  | .local _ .vmem, ⟨9, _⟩ => ⟨S1x64x4096, .i32⟩
  | .local _ .vmem, ⟨10, _⟩ => ⟨S1x64x4096, .i32⟩
  | .local _ .vmem, ⟨11, _⟩ => ⟨S1x1x4096, .f32⟩
  | .local _ .vmem, ⟨12, _⟩ => ⟨S1x1x4096, .f32⟩
  | .local _ .vmem, ⟨13, _⟩ => ⟨S1x1x4096, .f32⟩
  | .local _ .vmem, ⟨14, _⟩ => ⟨S1x1x4096, .f32⟩
  | .local _ .vmem, ⟨15, _⟩ => ⟨S256x4096, .f32⟩
  | .local _ .vmem, ⟨16, _⟩ => ⟨S256x4096, .f32⟩
  | .local _ .vmem, ⟨17, _⟩ => ⟨S256x4096, .f32⟩
  | .local _ .smem, ⟨0, _⟩ => ⟨S24, .i32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_call0_call0_c : Ref sig .tc := ⟨.hbm, 21, rfl⟩
abbrev main_call0_call0_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v19 : Ref sig .tc := ⟨.hbm, 49, rfl⟩
abbrev main_c_4 : Ref sig .tc := ⟨.hbm, 50, rfl⟩
abbrev main_v20 : Ref sig .tc := ⟨.hbm, 51, rfl⟩
abbrev main_v21 : Ref sig .tc := ⟨.hbm, 52, rfl⟩
abbrev main_c_5 : Ref sig .tc := ⟨.hbm, 53, rfl⟩
abbrev main_v22 : Ref sig .tc := ⟨.hbm, 54, rfl⟩
abbrev main_call2_call0_c : Ref sig .tc := ⟨.hbm, 55, rfl⟩
abbrev main_call2_call0_v0 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_call3_v0 : Ref sig .tc := ⟨.hbm, 61, rfl⟩
abbrev main_call3_v1_0 : Ref sig .tc := ⟨.hbm, 62, rfl⟩
abbrev main_v27 : Ref sig .tc := ⟨.hbm, 63, rfl⟩
abbrev main_v28 : Ref sig .tc := ⟨.hbm, 64, rfl⟩
abbrev main_c_6 : Ref sig .tc := ⟨.hbm, 65, rfl⟩
abbrev main_v29 : Ref sig .tc := ⟨.hbm, 66, rfl⟩
abbrev main_v30 : Ref sig .tc := ⟨.hbm, 67, rfl⟩
abbrev main_c_7 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_c_8 : Ref sig .tc := ⟨.hbm, 76, rfl⟩
abbrev main_v38 : Ref sig .tc := ⟨.hbm, 77, rfl⟩
abbrev main_c_9 : Ref sig .tc := ⟨.hbm, 78, rfl⟩
abbrev main_v39 : Ref sig .tc := ⟨.hbm, 79, rfl⟩
abbrev main_v40 : Ref sig .tc := ⟨.hbm, 80, rfl⟩
abbrev main_c_10 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_call5_call0_c : Ref sig .tc := ⟨.hbm, 87, rfl⟩
abbrev main_call5_call0_v0 : Ref sig .tc := ⟨.hbm, 88, rfl⟩
abbrev main_v46 : Ref sig .tc := ⟨.hbm, 89, rfl⟩
abbrev main_v47 : Ref sig .tc := ⟨.hbm, 90, rfl⟩
abbrev main_c_11 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_c_12 : Ref sig .tc := ⟨.hbm, 100, rfl⟩
abbrev main_v56 : Ref sig .tc := ⟨.hbm, 101, rfl⟩
abbrev main_c_13 : Ref sig .tc := ⟨.hbm, 102, rfl⟩
abbrev main_c_14 : Ref sig .tc := ⟨.hbm, 103, rfl⟩
abbrev main_call6_v0 : Ref sig .tc := ⟨.hbm, 104, rfl⟩
abbrev main_call6_v1 : Ref sig .tc := ⟨.hbm, 105, rfl⟩
abbrev main_call6_v2 : Ref sig .tc := ⟨.hbm, 106, rfl⟩
abbrev main_call6_v3 : Ref sig .tc := ⟨.hbm, 107, rfl⟩
abbrev main_call6_v4 : Ref sig .tc := ⟨.hbm, 108, rfl⟩
abbrev main_cst : Ref sig .tc := ⟨.hbm, 109, rfl⟩
abbrev main_v58 : Ref sig .tc := ⟨.hbm, 110, rfl⟩
abbrev main_c_15 : Ref sig .tc := ⟨.hbm, 111, rfl⟩
abbrev main_v59 : Ref sig .tc := ⟨.hbm, 112, rfl⟩
abbrev main_v60 : Ref sig .tc := ⟨.hbm, 113, rfl⟩
abbrev main_c_16 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_c_17 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_c_18 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_c_19 : Ref sig .tc := ⟨.hbm, 140, rfl⟩
abbrev main_v84 : Ref sig .tc := ⟨.hbm, 141, rfl⟩
abbrev main_v85 : Ref sig .tc := ⟨.hbm, 142, rfl⟩
abbrev main_c_20 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v57 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![24, 8], ![false, false]⟩

abbrev pre1 : Pipeline.Prefetch sig := ⟨1, ![main_v57.idx], fun | 0 => main_v57.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond2 (i : grid1.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_16 : BitVec 32 := 0#32
  let v40 : BitVec 1 := Scalar.cmpi .ne v39 c0_i32_16
  v40

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (k1_off1_inb : ∀ i : grid1.Coords, ∀ a, (k1_off1 i) a + S1.size a ≤ S24.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k1_off1_inb i)) numel1_S1
  let c0_i32 : BitVec 32 := 0#32
  let c0_i32_0 : BitVec 32 := 0#32
  ![v1.toNat, arg1.toNat, c0_i32.toNat]

def cc1_transform_2 (k1_off1_inb : ∀ i : grid1.Coords, ∀ a, (k1_off1 i) a + S1.size a ≤ S24.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (k1_off1_inb : ∀ i : grid1.Coords, ∀ a, (k1_off1 i) a + S1.size a ≤ S24.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  bcast_S4096_S1x4096_1 : S4096.BroadcastsInDim S1x4096 (![1] : Fin 1 → Fin S1x4096.rank)
  bcast_S8_S8x1_0 : S8.BroadcastsInDim S8x1 (![0] : Fin 1 → Fin S8x1.rank)
  bcast_S1x4096_S8x4096_0_1 : S1x4096.BroadcastsInDim S8x4096 (![0, 1] : Fin 2 → Fin S8x4096.rank)
  bcast_S8x1_S8x4096_0_1 : S8x1.BroadcastsInDim S8x4096 (![0, 1] : Fin 2 → Fin S8x4096.rank)
  natLt_1_32 : 1 < 32
  reducesTo_S8x4096_S8_d1 : S8x4096.ReducesTo [1] S8
  h_S_ : 0 < S_.numel
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  slices_S8_S7_0 : S8.Slices ![0] S7
  concatenates_S1_S7_S8_d0 : Shape.Concatenates [S1, S7] S8 0
  bcast_S_S8 : S_.BroadcastsInDim S8 (![] : Fin 0 → Fin S8.rank)
  bcast_S_S4096 : S_.BroadcastsInDim S4096 (![] : Fin 0 → Fin S4096.rank)
  bcast_S4096_S4096x1_0 : S4096.BroadcastsInDim S4096x1 (![0] : Fin 1 → Fin S4096x1.rank)
  bcast_S_S24 : S_.BroadcastsInDim S24 (![] : Fin 0 → Fin S24.rank)
  bcast_S8_S1x8_1 : S8.BroadcastsInDim S1x8 (![1] : Fin 1 → Fin S1x8.rank)
  bcast_S24_S24x1_0 : S24.BroadcastsInDim S24x1 (![0] : Fin 1 → Fin S24x1.rank)
  bcast_S1x8_S24x8_0_1 : S1x8.BroadcastsInDim S24x8 (![0, 1] : Fin 2 → Fin S24x8.rank)
  bcast_S24x1_S24x8_0_1 : S24x1.BroadcastsInDim S24x8 (![0, 1] : Fin 2 → Fin S24x8.rank)
  reducesTo_S24x8_S24_d1 : S24x8.ReducesTo [1] S24
  bcast_S_S6144x4096 : S_.BroadcastsInDim S6144x4096 (![] : Fin 0 → Fin S6144x4096.rank)
  shapeCasts_S8x1x512x4096_S8x512x4096 : S8x1x512x4096.ShapeCasts S8x512x4096
  shapeCasts_S8x1x1x512_S8x512 : S8x1x1x512.ShapeCasts S8x512
  bcast_S8x512_S8x512x1_0_1 : S8x512.BroadcastsInDim S8x512x1 (![0, 1] : Fin 2 → Fin S8x512x1.rank)
  bcast_S8_S1x1x8_2 : S8.BroadcastsInDim S1x1x8 (![2] : Fin 1 → Fin S1x1x8.rank)
  bcast_S8x512x1_S8x512x8_0_1_2 : S8x512x1.BroadcastsInDim S8x512x8 (![0, 1, 2] : Fin 3 → Fin S8x512x8.rank)
  bcast_S1x1x8_S8x512x8_0_1_2 : S1x1x8.BroadcastsInDim S8x512x8 (![0, 1, 2] : Fin 3 → Fin S8x512x8.rank)
  bcast_S_S8x512x8 : S_.BroadcastsInDim S8x512x8 (![] : Fin 0 → Fin S8x512x8.rank)
  shapeCasts_S8x512x8_S8x4096 : S8x512x8.ShapeCasts S8x4096
  shapeCasts_S8x4096_S8x1x4096 : S8x4096.ShapeCasts S8x1x4096
  shapeCasts_S8x1x1x4096_S8x4096 : S8x1x1x4096.ShapeCasts S8x4096
  numel1_S1 : S1.numel = 1
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  iota_S1x8x1_d1_w32 : S1x8x1.Iotas .tc 32 [1]
  shapeCasts_S64x4096_S64x1x4096 : S64x4096.ShapeCasts S64x1x4096
  broadcasts_S64x1x4096_S64x8x4096 : S64x1x4096.Broadcasts S64x8x4096
  broadcasts_S1x8x1_S64x8x4096 : S1x8x1.Broadcasts S64x8x4096
  shapeCasts_S64x8x4096_S512x4096 : S64x8x4096.ShapeCasts S512x4096
  reduces_S256x512_S256 : S256x512.Reduces [1] S256
  shapeCasts_S256_S256x1 : S256.ShapeCasts S256x1
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  broadcasts_S1x4096_S256x4096 : S1x4096.Broadcasts S256x4096
  broadcasts_S256x1_S256x4096 : S256x1.Broadcasts S256x4096
  bcast_S1x4096_S4096x4096_0_1 : S1x4096.BroadcastsInDim S4096x4096 (![0, 1] : Fin 2 → Fin S4096x4096.rank)
  dot_S256x512_S4096x512_S256x4096_1_1_0_0_n_n_wf : DotDims.WF S256x512 S4096x512 S256x4096 [1] [1] [0] [0] [] []
  gather_S8_S4096x1_S4096_n_0_n_n_0_1_1_wf : GatherDims.WF S8 S4096x1 S4096 [] [0] [] [0] [] 1 ![1]
  scatter_S4096_S4096x1_S4096_n_0_0_1_wf : ScatterDims.WF S4096 S4096x1 S4096 [] [0] [0] 1
  scatter_S6144x4096_S4096x1_S4096x4096_1_0_0_1_wf : ScatterDims.WF S6144x4096 S4096x1 S4096x4096 [1] [0] [0] 1
  dot_S256x512_S512x4096_S256x4096_1_0_0_1_n_n_wf : DotDims.WF S256x512 S512x4096 S256x4096 [1] [0] [0] [1] [] []
  gather_S6144x4096_S4096x1_S4096x4096_1_0_n_n_0_1_14096_wf : GatherDims.WF S6144x4096 S4096x1 S4096x4096 [1] [0] [] [0] [] 1 ![1, 4096]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x4096.size a
  hwx0_0 : ∀ i : grid0.Coords, EltTy.bits .bf16 = 32 ∨ (Rect.block (s := S4096x4096) S256x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hrank1 : 0 < grid1.rank
  k1_off1_inb : ∀ i : grid1.Coords, ∀ a, (k1_off1 i) a + S1.size a ≤ S24.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S6144x4096.size a
  hwx1_0 : ∀ i : grid1.Coords, EltTy.bits .bf16 = 32 ∨ (Rect.block (s := S6144x4096) S256x512.size (cc1_transform_0 i) (hinb1_0 i)).WholeWords (EltTy.packing .bf16)
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1 pf i = cc1_transform_3 k1_off1_inb numel1_S1 pf i'
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x4096.size a ≤ S6144x4096.size a
  hwx1_4 : ∀ i : grid1.Coords, EltTy.bits .f32 = 32 ∨ (Rect.block (s := S6144x4096) S256x4096.size (cc1_transform_4 i) (hinb1_4 i)).WholeWords (EltTy.packing .f32)

variable [Facts₀]

def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf
def comparator_i32_i32_d0 : BitVec 32 × BitVec 32 → BitVec 32 × BitVec 32 → BitVec 1 :=
  fun l r =>
    let v2 := IntOp.cmpi .slt l.1 r.1
    v2
def comparator_i32_d0 : BitVec 32 → BitVec 32 → BitVec 1 :=
  fun l r =>
    let v1 := IntOp.cmpi .slt l r
    v1
def gather_S8_S4096x1_S4096_n_0_n_n_0_1_1 : GatherDims S8 S4096x1 S4096 where
  offsetDims := []
  collapsedSliceDims := [0]
  operandBatchingDims := []
  startIndicesBatchingDims := []
  startIndexMap := [0]
  indexVectorDim := 1
  sliceSizes := ![1]
  wf := gather_S8_S4096x1_S4096_n_0_n_n_0_1_1_wf
def scatter_S4096_S4096x1_S4096_n_0_0_1 : ScatterDims S4096 S4096x1 S4096 where
  updateWindowDims := []
  insertedWindowDims := [0]
  scatterDimsToOperandDims := [0]
  indexVectorDim := 1
  wf := scatter_S4096_S4096x1_S4096_n_0_0_1_wf
def scatter_S6144x4096_S4096x1_S4096x4096_1_0_0_1 : ScatterDims S6144x4096 S4096x1 S4096x4096 where
  updateWindowDims := [1]
  insertedWindowDims := [0]
  scatterDimsToOperandDims := [0]
  indexVectorDim := 1
  wf := scatter_S6144x4096_S4096x1_S4096x4096_1_0_0_1_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf
def gather_S6144x4096_S4096x1_S4096x4096_1_0_n_n_0_1_14096 : GatherDims S6144x4096 S4096x1 S4096x4096 where
  offsetDims := [1]
  collapsedSliceDims := [0]
  operandBatchingDims := []
  startIndicesBatchingDims := []
  startIndexMap := [0]
  indexVectorDim := 1
  sliceSizes := ![1, 4096]
  wf := gather_S6144x4096_S4096x1_S4096x4096_1_0_n_n_0_1_14096_wf

abbrev win0_0 : Pipeline.Window sig grid0 :=
  Pipeline.Window.ofSpec (Memref.whole main_v0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev spec1_0 : Pipeline.WinSpec sig grid1.rank :=
  Pipeline.WinSpec.ofSpec (Memref.whole main_v65) S256x512.size reads1_0 false false 2 stage1_0 sem1_0 nbuf1_0 hstage1_0

abbrev spec1_1 : Pipeline.WinSpec sig grid1.rank :=
  Pipeline.WinSpec.ofSpec (Memref.whole main_v66) S1x64x4096.size reads1_1 false false 2 stage1_1 sem1_1 nbuf1_1 hstage1_1

abbrev spec1_2 : Pipeline.WinSpec sig grid1.rank :=
  Pipeline.WinSpec.ofSpec (Memref.whole main_v80) S1x1x4096.size reads1_2 false false 2 stage1_2 sem1_2 nbuf1_2 hstage1_2

abbrev spec1_3 : Pipeline.WinSpec sig grid1.rank :=
  Pipeline.WinSpec.ofSpec (Memref.whole main_v82) S1x1x4096.size reads1_3 false false 2 stage1_3 sem1_3 nbuf1_3 hstage1_3

abbrev spec1_4 : Pipeline.WinSpec sig grid1.rank :=
  Pipeline.WinSpec.ofSpec (Memref.whole main_v83) S256x4096.size reads1_4 true false 2 stage1_4 sem1_4 nbuf1_4 hstage1_4

abbrev spec1 : Fin 5 → Pipeline.WinSpec sig grid1.rank := fun | 0 => spec1_0 | 1 => spec1_1 | 2 => spec1_2 | 3 => spec1_3 | 4 => spec1_4 | ⟨_ + 5, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | ⟨_ + 5, h⟩ => absurd h (Nat.not_lt.2 (Nat.le_add_left _ _))
abbrev ix1 (pf : pre1.Contents (Elt F)) : (w : Fin 5) → grid1.Coords → Fin (spec1 w).shape.rank → Nat := fun | 0 => cc1_transform_0 | 1 => cc1_transform_1 k1_off1_inb numel1_S1 pf | 2 => cc1_transform_2 k1_off1_inb numel1_S1 pf | 3 => cc1_transform_3 k1_off1_inb numel1_S1 pf | 4 => cc1_transform_4 | ⟨_ + 5, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 pf | 2 => hreads1_2 pf | 3 => hreads1_3 pf | 4 => hreads1_4 | ⟨_ + 5, h⟩ => absurd h (Nat.not_lt.2 (Nat.le_add_left _ _))
def ok1 (pf : pre1.Contents (Elt F)) : Prop :=
  (∀ i : grid1.Coords, ∃ h : (∀ a, (cc1_transform_1 k1_off1_inb numel1_S1 pf i a + 1) * S1x64x4096.size a ≤ S8x512x4096.size a), EltTy.bits .i32 = 32 ∨ (Rect.block (s := S8x512x4096) S1x64x4096.size (cc1_transform_1 k1_off1_inb numel1_S1 pf i) h).WholeWords (EltTy.packing .i32)) ∧
  (∀ i : grid1.Coords, ∃ h : (∀ a, (cc1_transform_2 k1_off1_inb numel1_S1 pf i a + 1) * S1x1x4096.size a ≤ S8x1x4096.size a), EltTy.bits .f32 = 32 ∨ (Rect.block (s := S8x1x4096) S1x1x4096.size (cc1_transform_2 k1_off1_inb numel1_S1 pf i) h).WholeWords (EltTy.packing .f32)) ∧
  (∀ i : grid1.Coords, ∃ h : (∀ a, (cc1_transform_3 k1_off1_inb numel1_S1 pf i a + 1) * S1x1x4096.size a ≤ S8x1x4096.size a), EltTy.bits .f32 = 32 ∨ (Rect.block (s := S8x1x4096) S1x1x4096.size (cc1_transform_3 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => hinb1_0 | 1 => fun i a => (hok.1 i).elim fun h _ => h a | 2 => fun i a => (hok.2.1 i).elim fun h _ => h a | 3 => fun i a => (hok.2.2 i).elim fun h _ => h a | 4 => hinb1_4 | ⟨_ + 5, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => hwx1_0 | 1 => fun i => (hok.1 i).elim fun _ h => h | 2 => fun i => (hok.2.1 i).elim fun _ h => h | 3 => fun i => (hok.2.2 i).elim fun _ h => h | 4 => hwx1_4 | ⟨_ + 5, h⟩ => absurd h (Nat.not_lt.2 (Nat.le_add_left _ _))
abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where
  harr1 : ∀ w, (spec1 w).arr.IsWhole

variable [Facts]
-- ==== ReferenceIdeal.lean ====
abbrev S4096x4096 : Shape := ⟨2, ![4096, 4096]⟩
abbrev S4096 : Shape := ⟨1, ![4096]⟩
abbrev S8x1x512x4096 : Shape := ⟨4, ![8, 1, 512, 4096]⟩
abbrev S8x1x1x512 : Shape := ⟨4, ![8, 1, 1, 512]⟩
abbrev S8x1x1x4096 : Shape := ⟨4, ![8, 1, 1, 4096]⟩
abbrev S8 : Shape := ⟨1, ![8]⟩
abbrev S1x1x512x4096 : Shape := ⟨4, ![1, 1, 512, 4096]⟩
abbrev S512x4096 : Shape := ⟨2, ![512, 4096]⟩
abbrev S512x1x4096 : Shape := ⟨3, ![512, 1, 4096]⟩
abbrev S1x8x1 : Shape := ⟨3, ![1, 8, 1]⟩
abbrev S512x8x4096 : Shape := ⟨3, ![512, 8, 4096]⟩
abbrev S_ : Shape := ⟨0, ![]⟩
abbrev S1x1x1x512 : Shape := ⟨4, ![1, 1, 1, 512]⟩
abbrev S512 : Shape := ⟨1, ![512]⟩
abbrev S512x1 : Shape := ⟨2, ![512, 1]⟩
abbrev S1x8 : Shape := ⟨2, ![1, 8]⟩
abbrev S512x8 : Shape := ⟨2, ![512, 8]⟩
abbrev S1x1x1x4096 : Shape := ⟨4, ![1, 1, 1, 4096]⟩
abbrev S1x4096 : Shape := ⟨2, ![1, 4096]⟩
abbrev S4096x1 : Shape := ⟨2, ![4096, 1]⟩

abbrev nBuf : Space → Nat
  | .hbm => 349
  | .vmem => 0
  | .smem => 0
  | _ => 0

abbrev hbmTy0_0 (i : Nat) : BufTy := match i % 128 with
  | 0 => ⟨S4096x4096, .f32⟩
  | 1 => ⟨S4096x4096, .f32⟩
  | 2 => ⟨S4096, .f32⟩
  | 3 => ⟨S8x1x512x4096, .i32⟩
  | 4 => ⟨S8x1x1x512, .i32⟩
  | 5 => ⟨S8x1x1x4096, .f32⟩
  | 6 => ⟨S4096, .i32⟩
  | 7 => ⟨S8, .i32⟩
  | 8 => ⟨S4096x4096, .f32⟩
  | 9 => ⟨S4096x4096, .f32⟩
  | 10 => ⟨S1x1x512x4096, .i32⟩
  | 11 => ⟨S512x4096, .i32⟩
  | 12 => ⟨S512x1x4096, .i32⟩
  | 13 => ⟨S1x8x1, .i32⟩
  | 14 => ⟨S512x8x4096, .i32⟩
  | 15 => ⟨S512x8x4096, .i32⟩
  | 16 => ⟨S512x8x4096, .i32⟩
  | 17 => ⟨S_, .i32⟩
  | 18 => ⟨S512x8x4096, .i32⟩
  | 19 => ⟨S512x8x4096, .i32⟩
  | 20 => ⟨S4096x4096, .i32⟩
  | 21 => ⟨S4096x4096, .f32⟩
  | 22 => ⟨S1x1x1x512, .i32⟩
  | 23 => ⟨S512, .i32⟩
  | 24 => ⟨S512x1, .i32⟩
  | 25 => ⟨S1x8, .i32⟩
  | 26 => ⟨S512x8, .i32⟩
  | 27 => ⟨S512x8, .i32⟩
  | 28 => ⟨S512x8, .i32⟩
  | 29 => ⟨S_, .i32⟩
  | 30 => ⟨S512x8, .i32⟩
  | 31 => ⟨S512x8, .i32⟩
  | 32 => ⟨S4096, .i32⟩
  | 33 => ⟨S4096, .f32⟩
  | 34 => ⟨S1x1x1x4096, .f32⟩
  | 35 => ⟨S4096, .f32⟩
  | 36 => ⟨S1x4096, .f32⟩
  | 37 => ⟨S4096x4096, .f32⟩
  | 38 => ⟨S4096x4096, .f32⟩
  | 39 => ⟨S1x4096, .f32⟩
  | 40 => ⟨S4096x4096, .f32⟩
  | 41 => ⟨S4096x4096, .f32⟩
  | 42 => ⟨S_, .i32⟩
  | 43 => ⟨S4096, .i32⟩
  | 44 => ⟨S4096, .i1⟩
  | 45 => ⟨S4096x1, .i1⟩
  | 46 => ⟨S_, .f32⟩
  | 47 => ⟨S4096x4096, .i1⟩
  | 48 => ⟨S4096x4096, .f32⟩
  | 49 => ⟨S4096x4096, .f32⟩
  | 50 => ⟨S4096x4096, .f32⟩
  | 51 => ⟨S4096x4096, .f32⟩
  | 52 => ⟨S1x1x512x4096, .i32⟩
  | 53 => ⟨S512x4096, .i32⟩
  | 54 => ⟨S512x1x4096, .i32⟩
  | 55 => ⟨S1x8x1, .i32⟩
  | 56 => ⟨S512x8x4096, .i32⟩
  | 57 => ⟨S512x8x4096, .i32⟩
  | 58 => ⟨S512x8x4096, .i32⟩
  | 59 => ⟨S_, .i32⟩
  | 60 => ⟨S512x8x4096, .i32⟩
  | 61 => ⟨S512x8x4096, .i32⟩
  | 62 => ⟨S4096x4096, .i32⟩
  | 63 => ⟨S4096x4096, .f32⟩
  | 64 => ⟨S1x1x1x512, .i32⟩
  | 65 => ⟨S512, .i32⟩
  | 66 => ⟨S512x1, .i32⟩
  | 67 => ⟨S1x8, .i32⟩
  | 68 => ⟨S512x8, .i32⟩
  | 69 => ⟨S512x8, .i32⟩
  | 70 => ⟨S512x8, .i32⟩
  | 71 => ⟨S_, .i32⟩
  | 72 => ⟨S512x8, .i32⟩
  | 73 => ⟨S512x8, .i32⟩
  | 74 => ⟨S4096, .i32⟩
  | 75 => ⟨S4096, .f32⟩
  | 76 => ⟨S1x1x1x4096, .f32⟩
  | 77 => ⟨S4096, .f32⟩
  | 78 => ⟨S1x4096, .f32⟩
  | 79 => ⟨S4096x4096, .f32⟩
  | 80 => ⟨S4096x4096, .f32⟩
  | 81 => ⟨S1x4096, .f32⟩
  | 82 => ⟨S4096x4096, .f32⟩
  | 83 => ⟨S4096x4096, .f32⟩
  | 84 => ⟨S_, .i32⟩
  | 85 => ⟨S4096, .i32⟩
  | 86 => ⟨S4096, .i1⟩
  | 87 => ⟨S4096x1, .i1⟩
  | 88 => ⟨S_, .f32⟩
  | 89 => ⟨S4096x4096, .i1⟩
  | 90 => ⟨S4096x4096, .f32⟩
  | 91 => ⟨S4096x4096, .f32⟩
  | 92 => ⟨S4096x4096, .f32⟩
  | 93 => ⟨S4096x4096, .f32⟩
  | 94 => ⟨S1x1x512x4096, .i32⟩
  | 95 => ⟨S512x4096, .i32⟩
  | 96 => ⟨S512x1x4096, .i32⟩
  | 97 => ⟨S1x8x1, .i32⟩
  | 98 => ⟨S512x8x4096, .i32⟩
  | 99 => ⟨S512x8x4096, .i32⟩
  | 100 => ⟨S512x8x4096, .i32⟩
  | 101 => ⟨S_, .i32⟩
  | 102 => ⟨S512x8x4096, .i32⟩
  | 103 => ⟨S512x8x4096, .i32⟩
  | 104 => ⟨S4096x4096, .i32⟩
  | 105 => ⟨S4096x4096, .f32⟩
  | 106 => ⟨S1x1x1x512, .i32⟩
  | 107 => ⟨S512, .i32⟩
  | 108 => ⟨S512x1, .i32⟩
  | 109 => ⟨S1x8, .i32⟩
  | 110 => ⟨S512x8, .i32⟩
  | 111 => ⟨S512x8, .i32⟩
  | 112 => ⟨S512x8, .i32⟩
  | 113 => ⟨S_, .i32⟩
  | 114 => ⟨S512x8, .i32⟩
  | 115 => ⟨S512x8, .i32⟩
  | 116 => ⟨S4096, .i32⟩
  | 117 => ⟨S4096, .f32⟩
  | 118 => ⟨S1x1x1x4096, .f32⟩
  | 119 => ⟨S4096, .f32⟩
  | 120 => ⟨S1x4096, .f32⟩
  | 121 => ⟨S4096x4096, .f32⟩
  | 122 => ⟨S4096x4096, .f32⟩
  | 123 => ⟨S1x4096, .f32⟩
  | 124 => ⟨S4096x4096, .f32⟩
  | 125 => ⟨S4096x4096, .f32⟩
  | 126 => ⟨S_, .i32⟩
  | 127 => ⟨S4096, .i32⟩
  | _ => ⟨S4096x4096, .f32⟩

abbrev hbmTy0_1 (i : Nat) : BufTy := match i % 128 with
  | 0 => ⟨S4096, .i1⟩
  | 1 => ⟨S4096x1, .i1⟩
  | 2 => ⟨S_, .f32⟩
  | 3 => ⟨S4096x4096, .i1⟩
  | 4 => ⟨S4096x4096, .f32⟩
  | 5 => ⟨S4096x4096, .f32⟩
  | 6 => ⟨S4096x4096, .f32⟩
  | 7 => ⟨S4096x4096, .f32⟩
  | 8 => ⟨S1x1x512x4096, .i32⟩
  | 9 => ⟨S512x4096, .i32⟩
  | 10 => ⟨S512x1x4096, .i32⟩
  | 11 => ⟨S1x8x1, .i32⟩
  | 12 => ⟨S512x8x4096, .i32⟩
  | 13 => ⟨S512x8x4096, .i32⟩
  | 14 => ⟨S512x8x4096, .i32⟩
  | 15 => ⟨S_, .i32⟩
  | 16 => ⟨S512x8x4096, .i32⟩
  | 17 => ⟨S512x8x4096, .i32⟩
  | 18 => ⟨S4096x4096, .i32⟩
  | 19 => ⟨S4096x4096, .f32⟩
  | 20 => ⟨S1x1x1x512, .i32⟩
  | 21 => ⟨S512, .i32⟩
  | 22 => ⟨S512x1, .i32⟩
  | 23 => ⟨S1x8, .i32⟩
  | 24 => ⟨S512x8, .i32⟩
  | 25 => ⟨S512x8, .i32⟩
  | 26 => ⟨S512x8, .i32⟩
  | 27 => ⟨S_, .i32⟩
  | 28 => ⟨S512x8, .i32⟩
  | 29 => ⟨S512x8, .i32⟩
  | 30 => ⟨S4096, .i32⟩
  | 31 => ⟨S4096, .f32⟩
  | 32 => ⟨S1x1x1x4096, .f32⟩
  | 33 => ⟨S4096, .f32⟩
  | 34 => ⟨S1x4096, .f32⟩
  | 35 => ⟨S4096x4096, .f32⟩
  | 36 => ⟨S4096x4096, .f32⟩
  | 37 => ⟨S1x4096, .f32⟩
  | 38 => ⟨S4096x4096, .f32⟩
  | 39 => ⟨S4096x4096, .f32⟩
  | 40 => ⟨S_, .i32⟩
  | 41 => ⟨S4096, .i32⟩
  | 42 => ⟨S4096, .i1⟩
  | 43 => ⟨S4096x1, .i1⟩
  | 44 => ⟨S_, .f32⟩
  | 45 => ⟨S4096x4096, .i1⟩
  | 46 => ⟨S4096x4096, .f32⟩
  | 47 => ⟨S4096x4096, .f32⟩
  | 48 => ⟨S4096x4096, .f32⟩
  | 49 => ⟨S4096x4096, .f32⟩
  | 50 => ⟨S1x1x512x4096, .i32⟩
  | 51 => ⟨S512x4096, .i32⟩
  | 52 => ⟨S512x1x4096, .i32⟩
  | 53 => ⟨S1x8x1, .i32⟩
  | 54 => ⟨S512x8x4096, .i32⟩
  | 55 => ⟨S512x8x4096, .i32⟩
  | 56 => ⟨S512x8x4096, .i32⟩
  | 57 => ⟨S_, .i32⟩
  | 58 => ⟨S512x8x4096, .i32⟩
  | 59 => ⟨S512x8x4096, .i32⟩
  | 60 => ⟨S4096x4096, .i32⟩
  | 61 => ⟨S4096x4096, .f32⟩
  | 62 => ⟨S1x1x1x512, .i32⟩
  | 63 => ⟨S512, .i32⟩
  | 64 => ⟨S512x1, .i32⟩
  | 65 => ⟨S1x8, .i32⟩
  | 66 => ⟨S512x8, .i32⟩
  | 67 => ⟨S512x8, .i32⟩
  | 68 => ⟨S512x8, .i32⟩
  | 69 => ⟨S_, .i32⟩
  | 70 => ⟨S512x8, .i32⟩
  | 71 => ⟨S512x8, .i32⟩
  | 72 => ⟨S4096, .i32⟩
  | 73 => ⟨S4096, .f32⟩
  | 74 => ⟨S1x1x1x4096, .f32⟩
  | 75 => ⟨S4096, .f32⟩
  | 76 => ⟨S1x4096, .f32⟩
  | 77 => ⟨S4096x4096, .f32⟩
  | 78 => ⟨S4096x4096, .f32⟩
  | 79 => ⟨S1x4096, .f32⟩
  | 80 => ⟨S4096x4096, .f32⟩
  | 81 => ⟨S4096x4096, .f32⟩
  | 82 => ⟨S_, .i32⟩
  | 83 => ⟨S4096, .i32⟩
  | 84 => ⟨S4096, .i1⟩
  | 85 => ⟨S4096x1, .i1⟩
  | 86 => ⟨S_, .f32⟩
  | 87 => ⟨S4096x4096, .i1⟩
  | 88 => ⟨S4096x4096, .f32⟩
  | 89 => ⟨S4096x4096, .f32⟩
  | 90 => ⟨S4096x4096, .f32⟩
  | 91 => ⟨S4096x4096, .f32⟩
  | 92 => ⟨S1x1x512x4096, .i32⟩
  | 93 => ⟨S512x4096, .i32⟩
  | 94 => ⟨S512x1x4096, .i32⟩
  | 95 => ⟨S1x8x1, .i32⟩
  | 96 => ⟨S512x8x4096, .i32⟩
  | 97 => ⟨S512x8x4096, .i32⟩
  | 98 => ⟨S512x8x4096, .i32⟩
  | 99 => ⟨S_, .i32⟩
  | 100 => ⟨S512x8x4096, .i32⟩
  | 101 => ⟨S512x8x4096, .i32⟩
  | 102 => ⟨S4096x4096, .i32⟩
  | 103 => ⟨S4096x4096, .f32⟩
  | 104 => ⟨S1x1x1x512, .i32⟩
  | 105 => ⟨S512, .i32⟩
  | 106 => ⟨S512x1, .i32⟩
  | 107 => ⟨S1x8, .i32⟩
  | 108 => ⟨S512x8, .i32⟩
  | 109 => ⟨S512x8, .i32⟩
  | 110 => ⟨S512x8, .i32⟩
  | 111 => ⟨S_, .i32⟩
  | 112 => ⟨S512x8, .i32⟩
  | 113 => ⟨S512x8, .i32⟩
  | 114 => ⟨S4096, .i32⟩
  | 115 => ⟨S4096, .f32⟩
  | 116 => ⟨S1x1x1x4096, .f32⟩
  | 117 => ⟨S4096, .f32⟩
  | 118 => ⟨S1x4096, .f32⟩
  | 119 => ⟨S4096x4096, .f32⟩
  | 120 => ⟨S4096x4096, .f32⟩
  | 121 => ⟨S1x4096, .f32⟩
  | 122 => ⟨S4096x4096, .f32⟩
  | 123 => ⟨S4096x4096, .f32⟩
  | 124 => ⟨S_, .i32⟩
  | 125 => ⟨S4096, .i32⟩
  | 126 => ⟨S4096, .i1⟩
  | 127 => ⟨S4096x1, .i1⟩
  | _ => ⟨S4096x4096, .f32⟩

abbrev hbmTy0_2 (i : Nat) : BufTy := match i % 128 with
  | 0 => ⟨S_, .f32⟩
  | 1 => ⟨S4096x4096, .i1⟩
  | 2 => ⟨S4096x4096, .f32⟩
  | 3 => ⟨S4096x4096, .f32⟩
  | 4 => ⟨S4096x4096, .f32⟩
  | 5 => ⟨S4096x4096, .f32⟩
  | 6 => ⟨S1x1x512x4096, .i32⟩
  | 7 => ⟨S512x4096, .i32⟩
  | 8 => ⟨S512x1x4096, .i32⟩
  | 9 => ⟨S1x8x1, .i32⟩
  | 10 => ⟨S512x8x4096, .i32⟩
  | 11 => ⟨S512x8x4096, .i32⟩
  | 12 => ⟨S512x8x4096, .i32⟩
  | 13 => ⟨S_, .i32⟩
  | 14 => ⟨S512x8x4096, .i32⟩
  | 15 => ⟨S512x8x4096, .i32⟩
  | 16 => ⟨S4096x4096, .i32⟩
  | 17 => ⟨S4096x4096, .f32⟩
  | 18 => ⟨S1x1x1x512, .i32⟩
  | 19 => ⟨S512, .i32⟩
  | 20 => ⟨S512x1, .i32⟩
  | 21 => ⟨S1x8, .i32⟩
  | 22 => ⟨S512x8, .i32⟩
  | 23 => ⟨S512x8, .i32⟩
  | 24 => ⟨S512x8, .i32⟩
  | 25 => ⟨S_, .i32⟩
  | 26 => ⟨S512x8, .i32⟩
  | 27 => ⟨S512x8, .i32⟩
  | 28 => ⟨S4096, .i32⟩
  | 29 => ⟨S4096, .f32⟩
  | 30 => ⟨S1x1x1x4096, .f32⟩
  | 31 => ⟨S4096, .f32⟩
  | 32 => ⟨S1x4096, .f32⟩
  | 33 => ⟨S4096x4096, .f32⟩
  | 34 => ⟨S4096x4096, .f32⟩
  | 35 => ⟨S1x4096, .f32⟩
  | 36 => ⟨S4096x4096, .f32⟩
  | 37 => ⟨S4096x4096, .f32⟩
  | 38 => ⟨S_, .i32⟩
  | 39 => ⟨S4096, .i32⟩
  | 40 => ⟨S4096, .i1⟩
  | 41 => ⟨S4096x1, .i1⟩
  | 42 => ⟨S_, .f32⟩
  | 43 => ⟨S4096x4096, .i1⟩
  | 44 => ⟨S4096x4096, .f32⟩
  | 45 => ⟨S4096x4096, .f32⟩
  | 46 => ⟨S4096x4096, .f32⟩
  | 47 => ⟨S4096x4096, .f32⟩
  | 48 => ⟨S1x1x512x4096, .i32⟩
  | 49 => ⟨S512x4096, .i32⟩
  | 50 => ⟨S512x1x4096, .i32⟩
  | 51 => ⟨S1x8x1, .i32⟩
  | 52 => ⟨S512x8x4096, .i32⟩
  | 53 => ⟨S512x8x4096, .i32⟩
  | 54 => ⟨S512x8x4096, .i32⟩
  | 55 => ⟨S_, .i32⟩
  | 56 => ⟨S512x8x4096, .i32⟩
  | 57 => ⟨S512x8x4096, .i32⟩
  | 58 => ⟨S4096x4096, .i32⟩
  | 59 => ⟨S4096x4096, .f32⟩
  | 60 => ⟨S1x1x1x512, .i32⟩
  | 61 => ⟨S512, .i32⟩
  | 62 => ⟨S512x1, .i32⟩
  | 63 => ⟨S1x8, .i32⟩
  | 64 => ⟨S512x8, .i32⟩
  | 65 => ⟨S512x8, .i32⟩
  | 66 => ⟨S512x8, .i32⟩
  | 67 => ⟨S_, .i32⟩
  | 68 => ⟨S512x8, .i32⟩
  | 69 => ⟨S512x8, .i32⟩
  | 70 => ⟨S4096, .i32⟩
  | 71 => ⟨S4096, .f32⟩
  | 72 => ⟨S1x1x1x4096, .f32⟩
  | 73 => ⟨S4096, .f32⟩
  | 74 => ⟨S1x4096, .f32⟩
  | 75 => ⟨S4096x4096, .f32⟩
  | 76 => ⟨S4096x4096, .f32⟩
  | 77 => ⟨S1x4096, .f32⟩
  | 78 => ⟨S4096x4096, .f32⟩
  | 79 => ⟨S4096x4096, .f32⟩
  | 80 => ⟨S_, .i32⟩
  | 81 => ⟨S4096, .i32⟩
  | 82 => ⟨S4096, .i1⟩
  | 83 => ⟨S4096x1, .i1⟩
  | 84 => ⟨S_, .f32⟩
  | 85 => ⟨S4096x4096, .i1⟩
  | 86 => ⟨S4096x4096, .f32⟩
  | 87 => ⟨S4096x4096, .f32⟩
  | 88 => ⟨S4096x4096, .f32⟩
  | 89 => ⟨S4096x4096, .f32⟩
  | 90 => ⟨S1x4096, .f32⟩
  | 91 => ⟨S4096x4096, .f32⟩
  | 92 => ⟨S4096x4096, .f32⟩
  | _ => ⟨S4096x4096, .f32⟩

abbrev hbmTy (i : Nat) : BufTy := match i / 128 with
  | 0 => hbmTy0_0 i
  | 1 => hbmTy0_1 i
  | 2 => hbmTy0_2 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst : Ref sig .tc := ⟨.hbm, 46, rfl⟩
abbrev main_call0_v0 : Ref sig .tc := ⟨.hbm, 47, rfl⟩
abbrev main_call0_v1 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_3 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_c_4 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_c_5 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_6 : Ref sig .tc := ⟨.hbm, 88, rfl⟩
abbrev main_call1_v0 : Ref sig .tc := ⟨.hbm, 89, rfl⟩
abbrev main_call1_v1 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_c_7 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_c_8 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_c_9 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_10 : Ref sig .tc := ⟨.hbm, 130, rfl⟩
abbrev main_call2_v0 : Ref sig .tc := ⟨.hbm, 131, rfl⟩
abbrev main_call2_v1 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_c_11 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_c_12 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_c_13 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_cst_14 : Ref sig .tc := ⟨.hbm, 172, rfl⟩
abbrev main_call3_v0 : Ref sig .tc := ⟨.hbm, 173, rfl⟩
abbrev main_call3_v1 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_c_15 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_c_16 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_c_17 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_cst_18 : Ref sig .tc := ⟨.hbm, 214, rfl⟩
abbrev main_call4_v0 : Ref sig .tc := ⟨.hbm, 215, rfl⟩
abbrev main_call4_v1 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_c_19 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_c_20 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_c_21 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_cst_22 : Ref sig .tc := ⟨.hbm, 256, rfl⟩
abbrev main_call5_v0 : Ref sig .tc := ⟨.hbm, 257, rfl⟩
abbrev main_call5_v1 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_c_23 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩
abbrev main_c_24 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_c_25 : Ref sig .tc := ⟨.hbm, 294, rfl⟩
abbrev main_v248 : Ref sig .tc := ⟨.hbm, 295, rfl⟩
abbrev main_v249 : Ref sig .tc := ⟨.hbm, 296, rfl⟩
abbrev main_v250 : Ref sig .tc := ⟨.hbm, 297, rfl⟩
abbrev main_cst_26 : Ref sig .tc := ⟨.hbm, 298, rfl⟩
abbrev main_call6_v0 : Ref sig .tc := ⟨.hbm, 299, rfl⟩
abbrev main_call6_v1 : Ref sig .tc := ⟨.hbm, 300, rfl⟩
abbrev main_v251 : Ref sig .tc := ⟨.hbm, 301, rfl⟩
abbrev main_v252 : Ref sig .tc := ⟨.hbm, 302, rfl⟩
abbrev main_v253 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_v257 : Ref sig .tc := ⟨.hbm, 307, rfl⟩
abbrev main_v258 : Ref sig .tc := ⟨.hbm, 308, rfl⟩
abbrev main_v259 : Ref sig .tc := ⟨.hbm, 309, rfl⟩
abbrev main_v260 : Ref sig .tc := ⟨.hbm, 310, rfl⟩
abbrev main_c_27 : Ref sig .tc := ⟨.hbm, 311, rfl⟩
abbrev main_v261 : Ref sig .tc := ⟨.hbm, 312, rfl⟩
abbrev main_v262 : Ref sig .tc := ⟨.hbm, 313, rfl⟩
abbrev main_v263 : Ref sig .tc := ⟨.hbm, 314, rfl⟩
abbrev main_v264 : Ref sig .tc := ⟨.hbm, 315, rfl⟩
abbrev main_v265 : Ref sig .tc := ⟨.hbm, 316, rfl⟩
abbrev main_v266 : Ref sig .tc := ⟨.hbm, 317, rfl⟩
abbrev main_v267 : Ref sig .tc := ⟨.hbm, 318, rfl⟩
abbrev main_v268 : Ref sig .tc := ⟨.hbm, 319, rfl⟩
abbrev main_v269 : Ref sig .tc := ⟨.hbm, 320, rfl⟩
abbrev main_v270 : Ref sig .tc := ⟨.hbm, 321, rfl⟩
abbrev main_v271 : Ref sig .tc := ⟨.hbm, 322, rfl⟩
abbrev main_c_28 : Ref sig .tc := ⟨.hbm, 323, rfl⟩
abbrev main_v272 : Ref sig .tc := ⟨.hbm, 324, rfl⟩
abbrev main_v273 : Ref sig .tc := ⟨.hbm, 325, rfl⟩
abbrev main_v274 : Ref sig .tc := ⟨.hbm, 326, rfl⟩
abbrev main_v275 : Ref sig .tc := ⟨.hbm, 327, rfl⟩
abbrev main_v276 : Ref sig .tc := ⟨.hbm, 328, rfl⟩
abbrev main_v277 : Ref sig .tc := ⟨.hbm, 329, rfl⟩
abbrev main_v278 : Ref sig .tc := ⟨.hbm, 330, rfl⟩
abbrev main_v279 : Ref sig .tc := ⟨.hbm, 331, rfl⟩
abbrev main_v280 : Ref sig .tc := ⟨.hbm, 332, rfl⟩
abbrev main_v281 : Ref sig .tc := ⟨.hbm, 333, rfl⟩
abbrev main_v282 : Ref sig .tc := ⟨.hbm, 334, rfl⟩
abbrev main_v283 : Ref sig .tc := ⟨.hbm, 335, rfl⟩
abbrev main_c_29 : Ref sig .tc := ⟨.hbm, 336, rfl⟩
abbrev main_v284 : Ref sig .tc := ⟨.hbm, 337, rfl⟩
abbrev main_v285 : Ref sig .tc := ⟨.hbm, 338, rfl⟩
abbrev main_v286 : Ref sig .tc := ⟨.hbm, 339, rfl⟩
abbrev main_cst_30 : Ref sig .tc := ⟨.hbm, 340, rfl⟩
abbrev main_call7_v0 : Ref sig .tc := ⟨.hbm, 341, rfl⟩
abbrev main_call7_v1 : Ref sig .tc := ⟨.hbm, 342, rfl⟩
abbrev main_v287 : Ref sig .tc := ⟨.hbm, 343, rfl⟩
abbrev main_v288 : Ref sig .tc := ⟨.hbm, 344, rfl⟩
abbrev main_v289 : Ref sig .tc := ⟨.hbm, 345, rfl⟩
abbrev main_v290 : Ref sig .tc := ⟨.hbm, 346, rfl⟩
abbrev main_v291 : Ref sig .tc := ⟨.hbm, 347, rfl⟩
abbrev main_v292 : Ref sig .tc := ⟨.hbm, 348, rfl⟩

abbrev nD : Nat := 1
abbrev τ : Topo := Topo.v7x

variable {F : FTy → Type} [FloatOps F]

class Facts₀ : Prop where
  transposes_S4096x4096_S4096x4096_1_0 : S4096x4096.Transposes [1, 0] S4096x4096
  slices_S8x1x512x4096_S1x1x512x4096_0_0_0_0 : S8x1x512x4096.Slices ![0, 0, 0, 0] S1x1x512x4096
  shapeCasts_S1x1x512x4096_S512x4096 : S1x1x512x4096.ShapeCasts S512x4096
  bcast_S512x4096_S512x1x4096_0_2 : S512x4096.BroadcastsInDim S512x1x4096 (![0, 2] : Fin 2 → Fin S512x1x4096.rank)
  bcast_S8_S1x8x1_1 : S8.BroadcastsInDim S1x8x1 (![1] : Fin 1 → Fin S1x8x1.rank)
  bcast_S512x1x4096_S512x8x4096_0_1_2 : S512x1x4096.BroadcastsInDim S512x8x4096 (![0, 1, 2] : Fin 3 → Fin S512x8x4096.rank)
  bcast_S1x8x1_S512x8x4096_0_1_2 : S1x8x1.BroadcastsInDim S512x8x4096 (![0, 1, 2] : Fin 3 → Fin S512x8x4096.rank)
  bcast_S_S512x8x4096 : S_.BroadcastsInDim S512x8x4096 (![] : Fin 0 → Fin S512x8x4096.rank)
  shapeCasts_S512x8x4096_S4096x4096 : S512x8x4096.ShapeCasts S4096x4096
  slices_S8x1x1x512_S1x1x1x512_0_0_0_0 : S8x1x1x512.Slices ![0, 0, 0, 0] S1x1x1x512
  shapeCasts_S1x1x1x512_S512 : S1x1x1x512.ShapeCasts S512
  bcast_S512_S512x1_0 : S512.BroadcastsInDim S512x1 (![0] : Fin 1 → Fin S512x1.rank)
  bcast_S8_S1x8_1 : S8.BroadcastsInDim S1x8 (![1] : Fin 1 → Fin S1x8.rank)
  bcast_S512x1_S512x8_0_1 : S512x1.BroadcastsInDim S512x8 (![0, 1] : Fin 2 → Fin S512x8.rank)
  bcast_S1x8_S512x8_0_1 : S1x8.BroadcastsInDim S512x8 (![0, 1] : Fin 2 → Fin S512x8.rank)
  bcast_S_S512x8 : S_.BroadcastsInDim S512x8 (![] : Fin 0 → Fin S512x8.rank)
  shapeCasts_S512x8_S4096 : S512x8.ShapeCasts S4096
  slices_S8x1x1x4096_S1x1x1x4096_0_0_0_0 : S8x1x1x4096.Slices ![0, 0, 0, 0] S1x1x1x4096
  shapeCasts_S1x1x1x4096_S4096 : S1x1x1x4096.ShapeCasts S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  slices_S8x1x512x4096_S1x1x512x4096_1_0_0_0 : S8x1x512x4096.Slices ![1, 0, 0, 0] S1x1x512x4096
  slices_S8x1x1x512_S1x1x1x512_1_0_0_0 : S8x1x1x512.Slices ![1, 0, 0, 0] S1x1x1x512
  slices_S8x1x1x4096_S1x1x1x4096_1_0_0_0 : S8x1x1x4096.Slices ![1, 0, 0, 0] S1x1x1x4096
  slices_S8x1x512x4096_S1x1x512x4096_2_0_0_0 : S8x1x512x4096.Slices ![2, 0, 0, 0] S1x1x512x4096
  slices_S8x1x1x512_S1x1x1x512_2_0_0_0 : S8x1x1x512.Slices ![2, 0, 0, 0] S1x1x1x512
  slices_S8x1x1x4096_S1x1x1x4096_2_0_0_0 : S8x1x1x4096.Slices ![2, 0, 0, 0] S1x1x1x4096
  slices_S8x1x512x4096_S1x1x512x4096_3_0_0_0 : S8x1x512x4096.Slices ![3, 0, 0, 0] S1x1x512x4096
  slices_S8x1x1x512_S1x1x1x512_3_0_0_0 : S8x1x1x512.Slices ![3, 0, 0, 0] S1x1x1x512
  slices_S8x1x1x4096_S1x1x1x4096_3_0_0_0 : S8x1x1x4096.Slices ![3, 0, 0, 0] S1x1x1x4096
  slices_S8x1x512x4096_S1x1x512x4096_4_0_0_0 : S8x1x512x4096.Slices ![4, 0, 0, 0] S1x1x512x4096
  slices_S8x1x1x512_S1x1x1x512_4_0_0_0 : S8x1x1x512.Slices ![4, 0, 0, 0] S1x1x1x512
  slices_S8x1x1x4096_S1x1x1x4096_4_0_0_0 : S8x1x1x4096.Slices ![4, 0, 0, 0] S1x1x1x4096
  slices_S8x1x512x4096_S1x1x512x4096_5_0_0_0 : S8x1x512x4096.Slices ![5, 0, 0, 0] S1x1x512x4096
  slices_S8x1x1x512_S1x1x1x512_5_0_0_0 : S8x1x1x512.Slices ![5, 0, 0, 0] S1x1x1x512
  slices_S8x1x1x4096_S1x1x1x4096_5_0_0_0 : S8x1x1x4096.Slices ![5, 0, 0, 0] S1x1x1x4096
  slices_S8x1x512x4096_S1x1x512x4096_6_0_0_0 : S8x1x512x4096.Slices ![6, 0, 0, 0] S1x1x512x4096
  slices_S8x1x1x512_S1x1x1x512_6_0_0_0 : S8x1x1x512.Slices ![6, 0, 0, 0] S1x1x1x512
  slices_S8x1x1x4096_S1x1x1x4096_6_0_0_0 : S8x1x1x4096.Slices ![6, 0, 0, 0] S1x1x1x4096
  slices_S8x1x512x4096_S1x1x512x4096_7_0_0_0 : S8x1x512x4096.Slices ![7, 0, 0, 0] S1x1x512x4096
  slices_S8x1x1x512_S1x1x1x512_7_0_0_0 : S8x1x1x512.Slices ![7, 0, 0, 0] S1x1x1x512
  slices_S8x1x1x4096_S1x1x1x4096_7_0_0_0 : S8x1x1x4096.Slices ![7, 0, 0, 0] S1x1x1x4096
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.HostIdx.lean ====
import proofs.«417603_j79766132621353_3_alg».proof.KernelIdeal
import Idealize.ShloMosaic.Lib.ValueIdx

noncomputable section

namespace Cert.KernelIdeal.Hand

open Cert.KernelIdeal Idealize.ShloMosaic Idealize.ShloMosaic.TcCoe Idealize.ShloMosaic.ValueIdx

variable {F : FTy → Type} [FloatOps F] (m : (ℓ : Loc nD τ sig) → Buf (Elt F) ℓ)

def idxW (c : Dev nD) (t : Fin 4096) : BitVec 32 :=
  (m ((c : Thread nD τ).loc main_arg6) : S4096.Idx → BitVec 32) (ValueIdx.ix1 t)

def idxN (c : Dev nD) (t : Fin 4096) : ℕ := (idxW m c t).toNat

def outsM : (J : ℕ) → (r : Ref sig .tc) → (c : Dev nD) → Buf (Elt F) ((c : Thread nD τ).loc r) :=
  fun _ r c => m ((c : Thread nD τ).loc r)

end Cert.KernelIdeal.Hand

end
-- ==== Proof.Tbl.lean ====
import proofs.«417603_j79766132621353_3_alg».proof.Proof.Gen.KernelIdeal.Regions
import proofs.«417603_j79766132621353_3_alg».proof.Proof.HostIdx

noncomputable section

namespace Cert.KernelIdeal.Hand

open Cert.KernelIdeal Cert.KernelIdeal.Gen Idealize.ShloMosaic Idealize.ShloMosaic.TcCoe

variable {F : FTy → Type} [FloatOps F] (m : (ℓ : Loc nD τ sig) → Buf (Elt F) ℓ)

def tbl : pre1.Contents (Elt F) := fun | 0 => Gen.V16 m (outsM m) (0 : Dev nD) main_v57

end Cert.KernelIdeal.Hand

end
-- ==== Proof.Reg0Body.lean ====
import proofs.«417603_j79766132621353_3_alg».proof.Proof.Gen.KernelIdeal.Launch
import proofs.«417603_j79766132621353_3_alg».proof.Proof.Gen.KernelIdeal.Skeleton
import proofs.«417603_j79766132621353_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Whole

variable {sig' : RefSig} {κ : Kind} {sp : Space} {Val : EltTy → Type}

theorem unit_whole_idx {S : Shape} (off : Fin S.rank → ℕ) (h0 : ∀ a, off a = 0) (inb : ∀ a, off a + S.size a ≤ S.size a)
    (x : (Rect.unit (s := S) off S.size inb).shape.Idx) :
    (Rect.unit (s := S) off S.size inb).toLoadRect.idx x = x := by
  funext a; apply Fin.ext
  rw [LoadRect.idx_apply]
  show off a + 1 * (x a : ℕ) = (x a : ℕ)
  rw [h0 a]; omega

theorem readAt_whole {S : Shape} {e : EltTy} {m : Memref sig' κ sp S e} (h : m.IsWhole) (X : S.Idx → Val e)
    (off : Fin S.rank → ℕ) (h0 : ∀ a, off a = 0) (inb : ∀ a, off a + S.size a ≤ S.size a) :
    View.readAt Val m.view (Rect.unit (s := S) off S.size inb).toLoadRect (h.unread X) = X := by
  funext x
  have hx : View.readAt Val m.view (Rect.unit (s := S) off S.size inb).toLoadRect (h.unread X) x
      = X ((Rect.unit (s := S) off S.size inb).toLoadRect.idx x) := congrFun (h.read_unread X) _
  rw [hx, unit_whole_idx off h0 inb x]

theorem read_writes_whole {S : Shape} {e : EltTy} (v : View sig' κ sp S e) (f : v.ty.Contents Val)
    (off : Fin S.rank → ℕ) (h0 : ∀ a, off a = 0) (inb : ∀ a, off a + S.size a ≤ S.size a)
    (w : (Rect.unit (s := S) off S.size inb).shape.Idx → Val e) (L : List (View.Piece Val S e)) :
    v.read Val (v.writes Val f (⟨Rect.unit (s := S) off S.size inb, w⟩ :: L)) = w := by
  funext x
  have hx : (Rect.unit (s := S) off S.size inb).emb x = x := unit_whole_idx off h0 inb x
  have := View.read_writes_cons_emb v f (Rect.unit (s := S) off S.size inb) w L x
  rw [hx] at this
  exact this

theorem off00 : ∀ a : Fin 2, (![0, 0] : Fin 2 → ℕ) a = 0 := by decide

theorem pay2_congr {F : FTy → Type} [FloatOps F] {a a' : Vec F S256x4096 .f32} {b b' : Vec F S256x512 .bf16} {c c' : Vec F S4096x512 .bf16}
    (ha : a = a') (hb : b = b') (hc : c = c') : k0_pay2 a b c = k0_pay2 a' b' c' := by subst ha hb hc; rfl

end Whole

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1

theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel

theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

section Runs

variable (c : Dev nD) (i : grid0.Coords)
  (arg2 : Memref sig .tc .vmem S256x512 .bf16) (harg2 : arg2.IsWhole)
  (arg3 : Memref sig .tc .vmem S4096x512 .bf16) (harg3 : arg3.IsWhole)
  (arg4 : Memref sig .tc .vmem S256x4096 .f32) (harg4 : arg4.IsWhole)
  (arg5 : Memref sig .tc .vmem S256x4096 .f32) (harg5 : arg5.IsWhole)

set_option maxHeartbeats 1000000 in

theorem run0_A (hc0 : cond0_0 i) (hc1 : ¬cond0_1 i)
    (x0 : Vec F S256x512 .bf16) (x1 : Vec F S4096x512 .bf16) (xi2 : Vec F S256x4096 .f32) (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (k0_pay2 k0_pay1 x0 x1)) -∗ K ⟨⟩))
      ⊢ wp frame (wpE (defs₀ (F := F)) Variants.none c none) E (cc0__base_kernel i arg2 harg2 arg3 harg3 arg4 harg4 arg5 harg5) K := by
  simp only [cc0__base_kernel_eq_skeleton]; unfold cc0__base_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  refine (read_writes_whole arg5.view _ _ off00 _ _ _).trans ?_
  exact pay2_congr (View.readCov_cons_toLoadRect arg5.view _ _ _) (readAt_whole harg2 x0 _ off00 _) (readAt_whole harg3 x1 _ off00 _)

set_option maxHeartbeats 1000000 in

theorem run0_B (hc0 : ¬cond0_0 i) (hc1 : ¬cond0_1 i)
    (x0 : Vec F S256x512 .bf16) (x1 : Vec F S4096x512 .bf16) (xi2 : Vec F S256x4096 .f32) (xs : Vec F S256x4096 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs
        ∗ (iprop(owns (c : Thread nD τ) arg2 fullShare x0 ∗ owns (c : Thread nD τ) arg3 fullShare x1 ∗ owns (c : Thread nD τ) arg4 fullShare xi2 ∗ owns (c : Thread nD τ) arg5 fullShare (k0_pay2 xs x0 x1)) -∗ K ⟨⟩))
      ⊢ wp frame (wpE (defs₀ (F := F)) Variants.none c none) E (cc0__base_kernel i arg2 harg2 arg3 harg3 arg4 harg4 arg5 harg5) K := by
  simp only [cc0__base_kernel_eq_skeleton]; unfold cc0__base_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2
  obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  refine (read_writes_whole arg5.view _ _ off00 _ _ _).trans ?_
  exact pay2_congr (readAt_whole harg5 xs _ off00 _) (readAt_whole harg2 x0 _ off00 _) (readAt_whole harg3 x1 _ off00 _)

set_option maxHeartbeats 1000000 in

theorem run0_C (hc0 : ¬cond0_0 i) (hc1 : cond0_1 i)
    (x0 : Vec F S256x512 .bf16) (x1 : Vec F S4096x512 .bf16) (xs : Vec F S256x4096 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay2 xs x0 x1) ∗ owns (c : Thread nD τ) arg5 fullShare (k0_pay2 xs x0 x1)) -∗ K ⟨⟩))
      ⊢ wp frame (wpE (defs₀ (F := F)) Variants.none c none) E (cc0__base_kernel i arg2 harg2 arg3 harg3 arg4 harg4 arg5 harg5) K := by
  simp only [cc0__base_kernel_eq_skeleton]; unfold cc0__base_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1
  obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (read_writes_whole arg4.view _ _ off00 _ _ _).trans ?_
    refine (View.readCov_cons_toLoadRect arg5.view _ _ _).trans ?_
    exact pay2_congr (readAt_whole harg5 xs _ off00 _) (readAt_whole harg2 x0 _ off00 _) (readAt_whole harg3 x1 _ off00 _)
  iexists _; isplitr
  swap; · iexact HS
  ipureintro
  refine (read_writes_whole arg5.view _ _ off00 _ _ _).trans ?_
  exact pay2_congr (readAt_whole harg5 xs _ off00 _) (readAt_whole harg2 x0 _ off00 _) (readAt_whole harg3 x1 _ off00 _)

end Runs

end Cert.KernelIdeal.Hand

end
-- ==== Proof.Reg0.lean ====
import proofs.«417603_j79766132621353_3_alg».proof.Proof.Reg0Body
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

def acc0 (c : Dev nD) : ℕ → Vec F S256x4096 .f32
  | 0 => k0_pay1
  | n + 1 =>
    if h : n < cfg0.N then
      k0_pay2 (if n % 8 = 0 then k0_pay1 else acc0 c n) (iblk0 V c 0 ⟨n, h⟩) (iblk0 V c 1 ⟨n, h⟩)
    else k0_pay1

theorem acc0_succ (c : Dev nD) (t : Fin cfg0.N) :
    acc0 V c (t.val + 1) = k0_pay2 (if t.val % 8 = 0 then k0_pay1 else acc0 V c t.val) (iblk0 V c 0 t) (iblk0 V c 1 t) :=
  dif_pos t.isLt

abbrev scM0 : Memref sig .tc .vmem S256x4096 .f32 := Memref.whole cc0_scratch0

def T0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(((∃ d, owns (c : Thread nD τ) scM0 fullShare d) ∗ T0 (F := F) c) ∗ (∃ r, prngReg c r)) := by
  unfold Pipeline.ΦA T0; rw [scopedRest0_eq]; simp only [scM0, owns_whole]; try rfl

def Phi0 (c : Dev nD) : ℕ → sProp 𝕄
  | 0 => Pipeline.ΦA spec0 c
  | n + 1 => iprop((owns (c : Thread nD τ) scM0 fullShare (acc0 V c (n + 1)) ∗ T0 (F := F) c) ∗ (∃ r, prngReg c r))

theorem Phi0_succ (c : Dev nD) (n : ℕ) :
    Phi0 V c (n + 1) = iprop((owns (c : Thread nD τ) scM0 fullShare (acc0 V c (n + 1)) ∗ T0 (F := F) c) ∗ (∃ r, prngReg c r)) := rfl

theorem Phi0_pos (c : Dev nD) (n : ℕ) (hz : n ≠ 0) :
    Phi0 V c n = iprop((owns (c : Thread nD τ) scM0 fullShare (acc0 V c n) ∗ T0 (F := F) c) ∗ (∃ r, prngReg c r)) := by
  cases n with
  | zero => exact absurd rfl hz
  | succ n => rfl

theorem Phi0_any (c : Dev nD) (n : ℕ) :
    Phi0 V c n ⊢ iprop(((∃ d, owns (c : Thread nD τ) scM0 fullShare d) ∗ T0 (F := F) c) ∗ (∃ r, prngReg c r)) := by
  cases n with
  | zero => rw [show Phi0 V c 0 = Pipeline.ΦA spec0 c from rfl, PhiA0_eq]; try exact Idealize.SL.BI.Entails.refl _
  | succ n =>
    rw [Phi0_succ]
    iintro ⟨⟨HS, HT⟩, Hg⟩
    isplitl [HS HT]
    · isplitl [HS]; · iexists _; iexact HS
      iexact HT
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c (t.val + 1)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c (t.val + 1) := by dsimp only [dat0]

theorem Phi0_castSucc (c : Dev nD) (t : Fin cfg0.N) : (dat0 V c).Φ t.castSucc = Phi0 V c t.val := by
  dsimp only [dat0]; simp only [Fin.coe_castSucc]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) from rfl, Phi0_succ, Phi0_castSucc]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [acc0_succ]
  have hN : t.val < 128 := lt_of_lt_of_eq t.isLt (show cfg0.N = 128 from N_0)
  by_cases h0 : t.val % 8 = 0
  · have h1 : ¬t.val % 8 = 7 := by omega
    rw [Dat.leavesExact_idle (dat0 V c) 2 t (idleAt0_2 t (fun h => h1 ((hcond0_1 t).mp h))) (noFlush0_2 t (fun h => h1 ((hcond0_1 t).mp h)))]
    rw [if_pos h0]
    iintro ⟨HΦ, Ho, ⟨%d0, H0⟩, ⟨%d1, H1⟩, ⟨%d2, H2⟩⟩
    icases (Phi0_any V c t.val) $$ HΦ with ⟨⟨HS, HT⟩, Hg⟩
    iapply (run0_A c (grid0.coords t) _ _ _ _ _ _ _ _ ((hcond0_0 t).mpr h0) (fun h => h1 ((hcond0_1 t).mp h)) (iblk0 V c 0 t) (iblk0 V c 1 t) _ Set.univ _)
    isplitl [H0]; · iexact H0
    isplitl [H1]; · iexact H1
    isplitl [H2]; · iexact H2
    isplitl [HS]; · iexact HS
    iintro ⟨H0, H1, H2, HS⟩
    isplitl [HS HT Hg]
    · isplitl [HS HT]
      · isplitl [HS]; · iexact HS
        iexact HT
      iexact Hg
    isplitl [Ho]; · iexact Ho
    isplitl [H0]; · iexact H0
    isplitl [H1]; · iexact H1
    iexists _; iexact H2
  · rw [if_neg h0, Phi0_pos V c _ (fun hz => h0 (by rw [hz]))]
    by_cases h1 : t.val % 8 = 7
    · rw [show (dat0 V c).leavesExact 2 t = owns (c : Thread nD τ) (st0_2 t) fullShare ((dat0 V c).after 2 t) from by
        unfold Dat.leavesExact; rw [liveAt0_2 t ((hcond0_1 t).mpr h1)], after0_2, acc0_succ, if_neg h0]
      iintro ⟨⟨⟨HS, HT⟩, Hg⟩, Ho, ⟨%d0, H0⟩, ⟨%d1, H1⟩, ⟨%d2, H2⟩⟩
      iapply (run0_C c (grid0.coords t) _ _ _ _ _ _ _ _ (fun h => h0 ((hcond0_0 t).mp h)) ((hcond0_1 t).mpr h1) (iblk0 V c 0 t) (iblk0 V c 1 t) _ Set.univ _)
      isplitl [H0]; · iexact H0
      isplitl [H1]; · iexact H1
      isplitl [H2]; · iexists _; iexact H2
      isplitl [HS]; · iexact HS
      iintro ⟨H0, H1, H2, HS⟩
      isplitl [HS HT Hg]
      · isplitl [HS HT]
        · isplitl [HS]; · iexact HS
          iexact HT
        iexact Hg
      isplitl [Ho]; · iexact Ho
      isplitl [H0]; · iexact H0
      isplitl [H1]; · iexact H1
      iexact H2
    · rw [Dat.leavesExact_idle (dat0 V c) 2 t (idleAt0_2 t (fun h => h1 ((hcond0_1 t).mp h))) (noFlush0_2 t (fun h => h1 ((hcond0_1 t).mp h)))]
      iintro ⟨⟨⟨HS, HT⟩, Hg⟩, Ho, ⟨%d0, H0⟩, ⟨%d1, H1⟩, ⟨%d2, H2⟩⟩
      iapply (run0_B c (grid0.coords t) _ _ _ _ _ _ _ _ (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS HT Hg]
      · isplitl [HS HT]
        · isplitl [HS]; · iexact HS
          iexact HT
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = Pipeline.ΦA spec0 c from rfl]
  try exact Idealize.SL.BI.Entails.refl _

theorem Phi0_out (c : Dev nD) (t : Fin (cfg0.N + 1)) : (dat0 V c).Φ t ⊢ Pipeline.ΦA spec0 c := by
  rw [show (dat0 V c).Φ t = Phi0 V c t.val from rfl, PhiA0_eq]
  exact Phi0_any V c t.val

theorem hout0 (c : Dev nD) : (dat0 V c).Φ (Fin.last cfg0.N) ⊢ Pipeline.ΦA spec0 c := Phi0_out V c _

end Region0

end Cert.KernelIdeal.Hand

end
-- ==== Proof.Reg1Defs.lean ====
import proofs.«417603_j79766132621353_3_alg».proof.Proof.Gen.KernelIdeal.Launch
import proofs.«417603_j79766132621353_3_alg».proof.Proof.Gen.KernelIdeal.Skeleton
import proofs.«417603_j79766132621353_3_alg».proof.Proof.Gen.KernelIdeal.Points
import Idealize.ShloMosaic.Lib.Pipeline.FrameBody

set_option maxRecDepth 16384

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev scM1 : Memref sig .tc .vmem S256x4096 .f32 := Memref.whole cc1_scratch0

section
variable (a : (pcfg1 (F := F)).Adm)
  (V : (c : Dev nD) → (b : Ref sig .tc) → Buf (Elt F) ((c : Thread nD τ).loc b))

def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

def step1 (c : Dev nD) (n : ℕ) (acc : Vec F S256x4096 .f32) : Vec F S256x4096 .f32 :=
  if h : n < (cfg1 a).N then
    k1_pay1 (k1_pay3 (iblk1 a V c 0 ⟨n, h⟩) (iblk1 a V c 1 ⟨n, h⟩) (iblk1 a V c 3 ⟨n, h⟩) (iblk1 a V c 2 ⟨n, h⟩) acc)
  else acc

def acc1 (c : Dev nD) : ℕ → Vec F S256x4096 .f32
  | 0 => step1 a V c 0 k1_pay2
  | n + 1 => step1 a V c (n + 1) (if (n + 1) % 8 = 0 then k1_pay2 else acc1 c n)

theorem acc1_succ (c : Dev nD) (n : ℕ) :
    acc1 a V c (n + 1) = step1 a V c (n + 1) (if (n + 1) % 8 = 0 then k1_pay2 else acc1 a V c n) := rfl

abbrev tab1 (c : Dev nD) : sProp 𝕄 :=
  Pipeline.prefHeld (Ix := Unit) (Name := ℕ) (U := UR sig nD τ) (Lvl := ℕ) pre1 c (fun _ => fullShare) a.1

def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f))

def Phi1 (c : Dev nD) : ℕ → sProp 𝕄
  | 0 => iprop(tab1 a c ∗ Pipeline.ΦA spec1 c)
  | n + 1 => iprop(tab1 a c ∗ others1 c ∗ owns (c : Thread nD τ) scM1 fullShare (acc1 a V c n) ∗ ∃ r, prngReg c r)

theorem Phi1_zero (c : Dev nD) : Phi1 a V c 0 = iprop(tab1 a c ∗ Pipeline.ΦA spec1 c) := rfl
theorem Phi1_succ (c : Dev nD) (n : ℕ) :
    Phi1 a V c (n + 1) = iprop(tab1 a c ∗ others1 c ∗ owns (c : Thread nD τ) scM1 fullShare (acc1 a V c n) ∗ ∃ r, prngReg c r) := rfl
theorem Phi1_pos (c : Dev nD) (n : ℕ) (hn : n ≠ 0) :
    Phi1 a V c n = iprop(tab1 a c ∗ others1 c ∗ owns (c : Thread nD τ) scM1 fullShare (acc1 a V c (n - 1)) ∗ ∃ r, prngReg c r) := by
  cases n with
  | zero => exact absurd rfl hn
  | succ n => rfl

def dat1 (c : Dev nD) : Dat τ (Elt F) Unit ℕ (UR sig nD τ) ℕ (cfg1 a) c where
  A w := V c (Pipeline.arrRef spec1 w)
  after w t := match w with
    | ⟨0, _⟩ => iblk1 a V c 0 t
    | ⟨1, _⟩ => iblk1 a V c 1 t
    | ⟨2, _⟩ => iblk1 a V c 2 t
    | ⟨3, _⟩ => iblk1 a V c 3 t
    | ⟨4, _⟩ => acc1 a V c t.val
  Φ t := Phi1 a V c t.val
  q _ := fullShare
  owed _ := 0

theorem A_eq1 (c : Dev nD) (w : Fin (cfg1 a).W) : (dat1 a V c).A w = V c (Pipeline.arrRef spec1 w) := by
  dsimp only [dat1]
theorem after1_0 (c : Dev nD) (t : Fin (cfg1 a).N) : (dat1 a V c).after 0 t = iblk1 a V c 0 t := by dsimp only [dat1]; rfl
theorem after1_1 (c : Dev nD) (t : Fin (cfg1 a).N) : (dat1 a V c).after 1 t = iblk1 a V c 1 t := by dsimp only [dat1]; rfl
theorem after1_2 (c : Dev nD) (t : Fin (cfg1 a).N) : (dat1 a V c).after 2 t = iblk1 a V c 2 t := by dsimp only [dat1]; rfl
theorem after1_3 (c : Dev nD) (t : Fin (cfg1 a).N) : (dat1 a V c).after 3 t = iblk1 a V c 3 t := by dsimp only [dat1]; rfl
theorem after1_4 (c : Dev nD) (t : Fin (cfg1 a).N) : (dat1 a V c).after 4 t = acc1 a V c t.val := by dsimp only [dat1]; rfl
end

end Cert.KernelIdeal.Hand
end
-- ==== Proof.Reg1Body.lean ====
import proofs.«417603_j79766132621353_3_alg».proof.Proof.Gen.KernelIdeal.Launch
import proofs.«417603_j79766132621353_3_alg».proof.Proof.Gen.KernelIdeal.Skeleton
import proofs.«417603_j79766132621353_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.WritesUnit

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

abbrev cond1_1 (i : grid1.Coords) : Prop := k1_cond2 i = 1#1

theorem hcond1_0 : ∀ t : Fin grid1.N, cond1_0 (grid1.coords t) ↔ t.val % 8 = 0 := by decide +kernel

theorem hcond1_1 : ∀ t : Fin grid1.N, cond1_1 (grid1.coords t) ↔ t.val % 8 = 7 := by decide +kernel

theorem idle1_4_of : ∀ t : Fin grid1.N, ¬cond1_1 (grid1.coords t) → idle1 4 (grid1.coords t) = true := by decide +kernel
theorem live1_4_of : ∀ t : Fin grid1.N, cond1_1 (grid1.coords t) → idle1 4 (grid1.coords t) = false := by decide +kernel

section
variable (a : (pcfg1 (F := F)).Adm)

theorem flush1_4 : ∀ t : Fin (cfg1 a).N, ((cfg1 a).win 4).flush t = true ↔ t.val % 8 = 7 :=
  (by decide +kernel : ∀ t : Fin grid1.N, Pipeline.Window.flushOf grid1 true cc1_transform_4 t = true ↔ t.val % 8 = 7)
end

theorem read_store_whole {sig' : RefSig} {κ : Kind} {sp : Space} (v : View sig' κ sp S256x4096 .f32) (f : v.ty.Contents (Elt F))
    (w : Vec F S256x4096 .f32) (L : List (View.Piece (Elt F) S256x4096 .f32)) :
    v.read (Elt F) (v.writes (Elt F) f (⟨Rect.unit (s := S256x4096) ![0, 0] S256x4096.size inb_S256x4096_S256x4096_0_0, w⟩ :: L)) = w :=
  funext fun y => View.read_writes_cons_unit_of_mem v f inb_S256x4096_S256x4096_0_0 w L y y rfl (fun a => by
    have h0 : (![0, 0] : Fin 2 → ℕ) a = 0 := by fin_cases a <;> rfl
    rw [h0, Nat.zero_add])

theorem readAt_unit_whole {sig' : RefSig} {κ : Kind} {sp : Space} {S : Shape} {e : EltTy} (v : View sig' κ sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

theorem zeros2 : (![0, 0] : Fin 2 → ℕ) = fun _ => 0 := by funext a; fin_cases a <;> rfl
theorem zeros3 : (![0, 0, 0] : Fin 3 → ℕ) = fun _ => 0 := by funext a; fin_cases a <;> rfl

set_option maxHeartbeats 2000000 in

theorem run1_B (c : Dev nD) (i : grid1.Coords) (arg2 : Memref sig .tc .smem S24 .i32) (harg2 : arg2.IsWhole)
    (arg3 : Memref sig .tc .vmem S256x512 .bf16) (harg3 : arg3.IsWhole) (arg4 : Memref sig .tc .vmem S1x64x4096 .i32) (harg4 : arg4.IsWhole)
    (arg5 : Memref sig .tc .vmem S1x1x4096 .f32) (harg5 : arg5.IsWhole) (arg6 : Memref sig .tc .vmem S1x1x4096 .f32) (harg6 : arg6.IsWhole)
    (arg7 : Memref sig .tc .vmem S256x4096 .f32) (harg7 : arg7.IsWhole) (arg8 : Memref sig .tc .vmem S256x4096 .f32) (harg8 : arg8.IsWhole)
    (hc0 : ¬cond1_0 i) (hc1 : ¬cond1_1 i)
    (x0 : Vec F S256x512 .bf16) (x1 : Vec F S1x64x4096 .i32) (xz : Vec F S1x1x4096 .f32) (xs : Vec F S1x1x4096 .f32) (acc : Vec F S256x4096 .f32)
    (E : Set ℕ) (K : PUnit → sProp 𝕄) :
    iprop(owns (c : Thread nD τ) arg3 fullShare x0 ∗ owns (c : Thread nD τ) arg4 fullShare x1 ∗ owns (c : Thread nD τ) arg5 fullShare xz
        ∗ owns (c : Thread nD τ) arg6 fullShare xs ∗ owns (c : Thread nD τ) arg8 fullShare acc
        ∗ (iprop(owns (c : Thread nD τ) arg3 fullShare x0 ∗ owns (c : Thread nD τ) arg4 fullShare x1 ∗ owns (c : Thread nD τ) arg5 fullShare xz
        ∗ owns (c : Thread nD τ) arg6 fullShare xs ∗ owns (c : Thread nD τ) arg8 fullShare (k1_pay1 (k1_pay3 x0 x1 xs xz acc))) -∗ K ⟨⟩))
      ⊢ wp frame (wpE (defs₀ (F := F)) Variants.none c none) E (cc1__delta_kernel i arg2 harg2 arg3 harg3 arg4 harg4 arg5 harg5 arg6 harg6 arg7 harg7 arg8 harg8) K := by
  simp only [cc1__delta_kernel_eq_skeleton]; unfold cc1__delta_kernel_skel
  unfold owns
  iintro ⟨⟨%f0, %hf0, H0⟩, ⟨%f1, %hf1, H1⟩, ⟨%f2, %hf2, H2⟩, ⟨%f3, %hf3, H3⟩, ⟨%f8, %hf8, H8⟩, Hk⟩
  subst hf0 hf1 hf2 hf3 hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H8
  ipureintro
  rw [read_store_whole]
  delta run1_B.sl.r; beta_reduce
  rw [readAt_unit_whole (S := S256x512) _ _ zeros2, readAt_unit_whole (S := S1x64x4096) _ _ zeros3, readAt_unit_whole (S := S1x1x4096) arg6.view _ zeros3, readAt_unit_whole (S := S1x1x4096) arg5.view _ zeros3]
  rw [readAt_unit_whole (S := S256x4096) _ _ zeros2]

set_option maxHeartbeats 2000000 in

theorem run1_A (c : Dev nD) (i : grid1.Coords) (arg2 : Memref sig .tc .smem S24 .i32) (harg2 : arg2.IsWhole)
    (arg3 : Memref sig .tc .vmem S256x512 .bf16) (harg3 : arg3.IsWhole) (arg4 : Memref sig .tc .vmem S1x64x4096 .i32) (harg4 : arg4.IsWhole)
    (arg5 : Memref sig .tc .vmem S1x1x4096 .f32) (harg5 : arg5.IsWhole) (arg6 : Memref sig .tc .vmem S1x1x4096 .f32) (harg6 : arg6.IsWhole)
    (arg7 : Memref sig .tc .vmem S256x4096 .f32) (harg7 : arg7.IsWhole) (arg8 : Memref sig .tc .vmem S256x4096 .f32) (harg8 : arg8.IsWhole)
    (hc0 : cond1_0 i) (hc1 : ¬cond1_1 i)
    (x0 : Vec F S256x512 .bf16) (x1 : Vec F S1x64x4096 .i32) (xz : Vec F S1x1x4096 .f32) (xs : Vec F S1x1x4096 .f32)
    (E : Set ℕ) (K : PUnit → sProp 𝕄) :
    iprop(owns (c : Thread nD τ) arg3 fullShare x0 ∗ owns (c : Thread nD τ) arg4 fullShare x1 ∗ owns (c : Thread nD τ) arg5 fullShare xz
        ∗ owns (c : Thread nD τ) arg6 fullShare xs ∗ (∃ d, owns (c : Thread nD τ) arg8 fullShare d)
        ∗ (iprop(owns (c : Thread nD τ) arg3 fullShare x0 ∗ owns (c : Thread nD τ) arg4 fullShare x1 ∗ owns (c : Thread nD τ) arg5 fullShare xz
        ∗ owns (c : Thread nD τ) arg6 fullShare xs ∗ owns (c : Thread nD τ) arg8 fullShare (k1_pay1 (k1_pay3 x0 x1 xs xz k1_pay2))) -∗ K ⟨⟩))
      ⊢ wp frame (wpE (defs₀ (F := F)) Variants.none c none) E (cc1__delta_kernel i arg2 harg2 arg3 harg3 arg4 harg4 arg5 harg5 arg6 harg6 arg7 harg7 arg8 harg8) K := by
  simp only [cc1__delta_kernel_eq_skeleton]; unfold cc1__delta_kernel_skel
  unfold owns
  iintro ⟨⟨%f0, %hf0, H0⟩, ⟨%f1, %hf1, H1⟩, ⟨%f2, %hf2, H2⟩, ⟨%f3, %hf3, H3⟩, ⟨%d8, %f8, -, H8⟩, Hk⟩
  subst hf0 hf1 hf2 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H8
  ipureintro
  rw [read_store_whole]
  delta run1_A.sl.r; beta_reduce
  delta run1_A.sl.v26; beta_reduce
  delta run1_A.sl.H8_1
  rw [View.readCov_cons_toLoadRect]
  rw [readAt_unit_whole (S := S256x512) _ _ zeros2, readAt_unit_whole (S := S1x64x4096) _ _ zeros3, readAt_unit_whole (S := S1x1x4096) arg6.view _ zeros3, readAt_unit_whole (S := S1x1x4096) arg5.view _ zeros3]

set_option maxHeartbeats 2000000 in

theorem run1_C (c : Dev nD) (i : grid1.Coords) (arg2 : Memref sig .tc .smem S24 .i32) (harg2 : arg2.IsWhole)
    (arg3 : Memref sig .tc .vmem S256x512 .bf16) (harg3 : arg3.IsWhole) (arg4 : Memref sig .tc .vmem S1x64x4096 .i32) (harg4 : arg4.IsWhole)
    (arg5 : Memref sig .tc .vmem S1x1x4096 .f32) (harg5 : arg5.IsWhole) (arg6 : Memref sig .tc .vmem S1x1x4096 .f32) (harg6 : arg6.IsWhole)
    (arg7 : Memref sig .tc .vmem S256x4096 .f32) (harg7 : arg7.IsWhole) (arg8 : Memref sig .tc .vmem S256x4096 .f32) (harg8 : arg8.IsWhole)
    (hc0 : ¬cond1_0 i) (hc1 : cond1_1 i)
    (x0 : Vec F S256x512 .bf16) (x1 : Vec F S1x64x4096 .i32) (xz : Vec F S1x1x4096 .f32) (xs : Vec F S1x1x4096 .f32) (acc : Vec F S256x4096 .f32)
    (E : Set ℕ) (K : PUnit → sProp 𝕄) :
    iprop(owns (c : Thread nD τ) arg3 fullShare x0 ∗ owns (c : Thread nD τ) arg4 fullShare x1 ∗ owns (c : Thread nD τ) arg5 fullShare xz
        ∗ owns (c : Thread nD τ) arg6 fullShare xs ∗ (∃ d, owns (c : Thread nD τ) arg7 fullShare d) ∗ owns (c : Thread nD τ) arg8 fullShare acc
        ∗ (iprop(owns (c : Thread nD τ) arg3 fullShare x0 ∗ owns (c : Thread nD τ) arg4 fullShare x1 ∗ owns (c : Thread nD τ) arg5 fullShare xz
        ∗ owns (c : Thread nD τ) arg6 fullShare xs ∗ owns (c : Thread nD τ) arg7 fullShare (k1_pay1 (k1_pay3 x0 x1 xs xz acc))
            ∗ owns (c : Thread nD τ) arg8 fullShare (k1_pay1 (k1_pay3 x0 x1 xs xz acc))) -∗ K ⟨⟩))
      ⊢ wp frame (wpE (defs₀ (F := F)) Variants.none c none) E (cc1__delta_kernel i arg2 harg2 arg3 harg3 arg4 harg4 arg5 harg5 arg6 harg6 arg7 harg7 arg8 harg8) K := by
  simp only [cc1__delta_kernel_eq_skeleton]; unfold cc1__delta_kernel_skel
  unfold owns
  iintro ⟨⟨%f0, %hf0, H0⟩, ⟨%f1, %hf1, H1⟩, ⟨%f2, %hf2, H2⟩, ⟨%f3, %hf3, H3⟩, ⟨%d7, %f7, -, H7⟩, ⟨%f8, %hf8, H8⟩, Hk⟩
  subst hf0 hf1 hf2 hf3 hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H7]
  · iexists _; isplitr
    swap; · iexact H7
    ipureintro
    rw [read_store_whole]
    delta run1_C.sl.v41; beta_reduce
    delta run1_C.sl.H8_1; beta_reduce
    rw [View.readCov_cons_toLoadRect]
    delta run1_C.sl.r; beta_reduce
    rw [readAt_unit_whole (S := S256x512) _ _ zeros2, readAt_unit_whole (S := S1x64x4096) _ _ zeros3, readAt_unit_whole (S := S1x1x4096) arg6.view _ zeros3, readAt_unit_whole (S := S1x1x4096) arg5.view _ zeros3]
    rw [readAt_unit_whole (S := S256x4096) _ _ zeros2]
  · iexists _; isplitr
    swap; · iexact H8
    ipureintro
    delta run1_C.sl.H8_1; beta_reduce
    rw [read_store_whole]
    delta run1_C.sl.r; beta_reduce
    rw [readAt_unit_whole (S := S256x512) _ _ zeros2, readAt_unit_whole (S := S1x64x4096) _ _ zeros3, readAt_unit_whole (S := S1x1x4096) arg6.view _ zeros3, readAt_unit_whole (S := S1x1x4096) arg5.view _ zeros3]
    rw [readAt_unit_whole (S := S256x4096) _ _ zeros2]

end Cert.KernelIdeal.Hand
end
-- ==== Proof.Reg1.lean ====
import proofs.«417603_j79766132621353_3_alg».proof.Proof.Reg1Defs
import proofs.«417603_j79766132621353_3_alg».proof.Proof.Reg1Body

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (a : (pcfg1 (F := F)).Adm)
  (V : (c : Dev nD) → (b : Ref sig .tc) → Buf (Elt F) ((c : Thread nD τ).loc b))

theorem before1_0 (c : Dev nD) (t : Fin (cfg1 a).N) (d) : (dat1 a V c).before 0 t d = iblk1 a V c 0 t :=
  ((dat1 a V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin (cfg1 a).N) (d) : (dat1 a V c).before 1 t d = iblk1 a V c 1 t :=
  ((dat1 a V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin (cfg1 a).N) (d) : (dat1 a V c).before 2 t d = iblk1 a V c 2 t :=
  ((dat1 a V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem before1_3 (c : Dev nD) (t : Fin (cfg1 a).N) (d) : (dat1 a V c).before 3 t d = iblk1 a V c 3 t :=
  ((dat1 a V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

theorem step1_at (c : Dev nD) (t : Fin (cfg1 a).N) (acc : Vec F S256x4096 .f32) :
    step1 a V c t.val acc = k1_pay1 (k1_pay3 (iblk1 a V c 0 t) (iblk1 a V c 1 t) (iblk1 a V c 3 t) (iblk1 a V c 2 t) acc) := by
  unfold step1; rw [dif_pos t.isLt]

theorem acc1_reset (c : Dev nD) (t : Fin (cfg1 a).N) (h : t.val % 8 = 0) :
    acc1 a V c t.val = k1_pay1 (k1_pay3 (iblk1 a V c 0 t) (iblk1 a V c 1 t) (iblk1 a V c 3 t) (iblk1 a V c 2 t) k1_pay2) := by
  rcases t with ⟨n, hn⟩
  cases n with
  | zero => exact step1_at a V c ⟨0, hn⟩ _
  | succ n =>
    have h' : (n + 1) % 8 = 0 := h
    rw [show acc1 a V c (⟨n + 1, hn⟩ : Fin (cfg1 a).N).val = acc1 a V c (n + 1) from rfl, acc1_succ, if_pos h']
    exact step1_at a V c ⟨n + 1, hn⟩ _

theorem acc1_step (c : Dev nD) (t : Fin (cfg1 a).N) (h : t.val % 8 ≠ 0) :
    acc1 a V c t.val = k1_pay1 (k1_pay3 (iblk1 a V c 0 t) (iblk1 a V c 1 t) (iblk1 a V c 3 t) (iblk1 a V c 2 t) (acc1 a V c (t.val - 1))) := by
  rcases t with ⟨n, hn⟩
  cases n with
  | zero => exact absurd rfl h
  | succ n =>
    have h' : ¬ (n + 1) % 8 = 0 := h
    rw [show acc1 a V c (⟨n + 1, hn⟩ : Fin (cfg1 a).N).val = acc1 a V c (n + 1) from rfl, acc1_succ, if_neg h']
    exact step1_at a V c ⟨n + 1, hn⟩ _

theorem PhiA1_open (c : Dev nD) :
    (Pipeline.ΦA spec1 c : sProp 𝕄) ⊢ iprop(others1 c ∗ (∃ d, owns (c : Thread nD τ) scM1 fullShare d) ∗ ∃ r, prngReg c r) := by
  unfold Pipeline.ΦA others1; rw [scopedRest1_eq]
  iintro ⟨⟨H1, H2, H3, H4, H5, H6, H7, ⟨%f, H8⟩⟩, Hg⟩
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  isplitl [H8]
  · iexists f; rw [owns_whole]; iexact H8
  iexact Hg

abbrev st1_0 (t : Fin (cfg1 a).N) := ((cfg1 a).win 0).stage ((cfg1 a).slots t 0)
abbrev st1_1 (t : Fin (cfg1 a).N) := ((cfg1 a).win 1).stage ((cfg1 a).slots t 1)
abbrev st1_2 (t : Fin (cfg1 a).N) := ((cfg1 a).win 2).stage ((cfg1 a).slots t 2)
abbrev st1_3 (t : Fin (cfg1 a).N) := ((cfg1 a).win 3).stage ((cfg1 a).slots t 3)
abbrev st1_4 (t : Fin (cfg1 a).N) := ((cfg1 a).win 4).stage ((cfg1 a).slots t 4)

abbrev bodyAt1 (t : Fin (cfg1 a).N) : Prog (TpuEff nD τ sig (Elt F) Λ₀ .tc) PUnit :=
  cc1__delta_kernel (grid1.coords t) (Memref.whole main_v57) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))
    (spec1_4.stage ((cfg1 a).slots t 4)) (hstage1_4 (((cfg1 a).slots t 4).cast nbuf1_4))
    (Memref.whole cc1_scratch0) (Memref.isWhole_whole _)

def bodyPre1 (c : Dev nD) (t : Fin (cfg1 a).N) : sProp 𝕄 :=
  iprop((dat1 a V c).Φ t.castSucc ∗ (dat1 a V c).owesAt () t.castSucc
    ∗ (∃ d, owns (c : Thread nD τ) (st1_0 a t) fullShare ((dat1 a V c).before 0 t d))
    ∗ (∃ d, owns (c : Thread nD τ) (st1_1 a t) fullShare ((dat1 a V c).before 1 t d))
    ∗ (∃ d, owns (c : Thread nD τ) (st1_2 a t) fullShare ((dat1 a V c).before 2 t d))
    ∗ (∃ d, owns (c : Thread nD τ) (st1_3 a t) fullShare ((dat1 a V c).before 3 t d))
    ∗ (∃ d, owns (c : Thread nD τ) (st1_4 a t) fullShare ((dat1 a V c).before 4 t d)))

def bodyPost1 (c : Dev nD) (t : Fin (cfg1 a).N) : sProp 𝕄 :=
  iprop((dat1 a V c).Φ t.succ ∗ (dat1 a V c).owesAt () t.succ
    ∗ (dat1 a V c).leavesExact 0 t
    ∗ (dat1 a V c).leavesExact 1 t
    ∗ (dat1 a V c).leavesExact 2 t
    ∗ (dat1 a V c).leavesExact 3 t
    ∗ (dat1 a V c).leavesExact 4 t)

set_option maxHeartbeats 4000000 in
theorem sound_body1 (c : Dev nD) (t : Fin (cfg1 a).N) :
    bodyPre1 a V c t ⊢ wp frame (wpE (defs₀ (F := F)) Variants.none c none) Set.univ (bodyAt1 a t) (fun _ => bodyPost1 a V c t) := by
  unfold bodyPre1 bodyPost1 bodyAt1
  simp only [before1_0, before1_1, before1_2, before1_3]
  rw [show (dat1 a V c).owesAt () t.succ = (dat1 a V c).owesAt () t.castSucc from rfl]
  rw [show (dat1 a V c).Φ t.succ = Phi1 a V c (t.val + 1) from rfl, Phi1_succ,
    show (dat1 a V c).Φ t.castSucc = Phi1 a V c t.val from rfl]
  rw [show (dat1 a V c).leavesExact 0 t = owns (c : Thread nD τ) (st1_0 a t) fullShare ((dat1 a V c).after 0 t) from rfl, after1_0,
    show (dat1 a V c).leavesExact 1 t = owns (c : Thread nD τ) (st1_1 a t) fullShare ((dat1 a V c).after 1 t) from rfl, after1_1,
    show (dat1 a V c).leavesExact 2 t = owns (c : Thread nD τ) (st1_2 a t) fullShare ((dat1 a V c).after 2 t) from rfl, after1_2,
    show (dat1 a V c).leavesExact 3 t = owns (c : Thread nD τ) (st1_3 a t) fullShare ((dat1 a V c).after 3 t) from rfl, after1_3]
  have hN : t.val < 192 := lt_of_lt_of_eq t.isLt (show (cfg1 a).N = 192 from N_1)
  by_cases h0 : t.val % 8 = 0
  ·
    have hc0 : cond1_0 (grid1.coords t) := (hcond1_0 t).mpr h0
    have hc1 : ¬cond1_1 (grid1.coords t) := fun h => by have := (hcond1_1 t).mp h; omega
    have hfl : ((cfg1 a).win 4).flush t = false := Bool.eq_false_iff.mpr fun h => by have := (flush1_4 a t).mp h; omega
    rw [Dat.leavesExact_idle (dat1 a V c) 4 t (idle1_4_of t hc1) hfl, acc1_reset a V c t h0]
    have hpre : Phi1 a V c t.val ⊢ iprop(tab1 a c ∗ others1 c ∗ (∃ d, owns (c : Thread nD τ) scM1 fullShare d) ∗ ∃ r, prngReg c r) := by
      by_cases hz : t.val = 0
      · rw [hz, Phi1_zero]
        iintro ⟨Ht, HA⟩
        isplitl [Ht]; · iexact Ht
        iapply PhiA1_open c; iexact HA
      · rw [Phi1_pos a V c _ hz]
        iintro ⟨Ht, Hoth, HS, Hg⟩
        isplitl [Ht]; · iexact Ht
        isplitl [Hoth]; · iexact Hoth
        isplitl [HS]; · iexists _; iexact HS
        iexact Hg
    iintro ⟨HΦ, Ho, ⟨%d0, H0⟩, ⟨%d1, H1⟩, ⟨%d2, H2⟩, ⟨%d3, H3⟩, H4⟩
    ihave HΦ' := hpre $$ HΦ
    icases HΦ' with ⟨Ht, Hoth, HS, Hg⟩
    iapply (run1_A c (grid1.coords t) _ _ _ _ _ _ _ _ _ _ _ _ _ _ hc0 hc1 (iblk1 a V c 0 t) (iblk1 a V c 1 t) (iblk1 a V c 2 t) (iblk1 a V c 3 t) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [Ht Hoth HS Hg]
    · isplitl [Ht]; · iexact Ht
      isplitl [Hoth]; · iexact Hoth
      isplitl [HS]; · iexact HS
      iexact Hg
    isplitl [Ho]; · iexact Ho
    isplitl [H0]; · iexact H0
    isplitl [H1]; · iexact H1
    isplitl [H2]; · iexact H2
    isplitl [H3]; · iexact H3
    iexact H4
  · have hz : t.val ≠ 0 := fun h => h0 (by rw [h])
    have hc0 : ¬cond1_0 (grid1.coords t) := fun h => h0 ((hcond1_0 t).mp h)
    rw [Phi1_pos a V c _ hz, acc1_step a V c t h0]
    by_cases h1 : t.val % 8 = 7
    ·
      have hc1 : cond1_1 (grid1.coords t) := (hcond1_1 t).mpr h1
      rw [show (dat1 a V c).leavesExact 4 t = owns (c : Thread nD τ) (st1_4 a t) fullShare ((dat1 a V c).after 4 t) from by
        unfold Dat.leavesExact; rw [show (cfg1 a).idle 4 ((cfg1 a).grid.coords t) = false from live1_4_of t hc1], after1_4,
        acc1_step a V c t h0]
      iintro ⟨⟨Ht, Hoth, HS, Hg⟩, Ho, ⟨%d0, H0⟩, ⟨%d1, H1⟩, ⟨%d2, H2⟩, ⟨%d3, H3⟩, ⟨%d4, H4⟩⟩
      iapply (run1_C c (grid1.coords t) _ _ _ _ _ _ _ _ _ _ _ _ _ _ hc0 hc1 (iblk1 a V c 0 t) (iblk1 a V c 1 t) (iblk1 a V c 2 t) (iblk1 a V c 3 t) (acc1 a V c (t.val - 1)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [Ht Hoth HS Hg]
      · isplitl [Ht]; · iexact Ht
        isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      iexact H4
    ·
      have hc1 : ¬cond1_1 (grid1.coords t) := fun h => h1 ((hcond1_1 t).mp h)
      have hfl : ((cfg1 a).win 4).flush t = false := Bool.eq_false_iff.mpr fun h => h1 ((flush1_4 a t).mp h)
      rw [Dat.leavesExact_idle (dat1 a V c) 4 t (idle1_4_of t hc1) hfl]
      iintro ⟨⟨Ht, Hoth, HS, Hg⟩, Ho, ⟨%d0, H0⟩, ⟨%d1, H1⟩, ⟨%d2, H2⟩, ⟨%d3, H3⟩, H4⟩
      iapply (run1_B c (grid1.coords t) _ _ _ _ _ _ _ _ _ _ _ _ _ _ hc0 hc1 (iblk1 a V c 0 t) (iblk1 a V c 1 t) (iblk1 a V c 2 t) (iblk1 a V c 3 t) (acc1 a V c (t.val - 1)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Ht Hoth HS Hg]
      · isplitl [Ht]; · iexact Ht
        isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      iexact H4

theorem body_obligation1 (c : Dev nD) : BodyObligation (dat1 a V c) (defs₀ (F := F)) Variants.none () Set.univ := fun t => by
  rw [bigSep_W1, bigSep_W1]
  exact sound_body1 a V c t

theorem hin1 (c : Dev nD) :
    iprop((∃ r, prngReg c r) ∗ Pipeline.prefHeld pre1 c (fun _ => fullShare) a.1 ∗ Pipeline.scopedRest spec1 c) ⊢ (dat1 a V c).Φ 0 := by
  rw [show (dat1 a V c).Φ 0 = Phi1 a V c 0 from rfl, Phi1_zero]; unfold Pipeline.ΦA
  iintro ⟨Hg, Ht, Hr⟩
  isplitl [Ht]; · iexact Ht
  isplitl [Hr]; · iexact Hr
  iexact Hg

theorem hout1 (c : Dev nD) :
    (dat1 a V c).Φ (Fin.last (cfg1 a).N)
      ⊢ iprop(iprop((∃ r, prngReg c r) ∗ Pipeline.prefHeld pre1 c (fun _ => fullShare) a.1) ∗ Pipeline.scopedRest spec1 c) := by
  rw [show (dat1 a V c).Φ (Fin.last (cfg1 a).N) = Phi1 a V c (cfg1 a).N from rfl,
    Phi1_pos a V c _ (by rw [show (cfg1 a).N = 192 from N_1]; decide), scopedRest1_eq]
  unfold others1
  rw [owns_whole]
  iintro ⟨Ht, ⟨H1, H2, H3, H4, H5, H6, H7⟩, HS, Hg⟩
  isplitl [Hg Ht]
  · isplitl [Hg]; · iexact Hg
    iexact Ht
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact HS

end

end Cert.KernelIdeal.Hand
end
-- ==== Proof.KRun.lean ====
import proofs.«417603_j79766132621353_3_alg».proof.Proof.Gen.KernelIdeal.Regions
import proofs.«417603_j79766132621353_3_alg».proof.Proof.Tbl
import proofs.«417603_j79766132621353_3_alg».proof.Proof.Reg0
import proofs.«417603_j79766132621353_3_alg».proof.Proof.Reg1
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

abbrev BufsAt (F : FTy → Type) : Type := (c : Dev nD) → (b : Ref sig .tc) → Buf (Elt F) ((c : Thread nD τ).loc b)

variable (m : (ℓ : Loc nD τ sig) → Buf (Elt F) ℓ) (ρ : Dev nD → PrngReg)

abbrev VR1 : BufsAt F := fun c b => Gen.V1 m c b

def W2 (c : Dev nD) : Valuation τ sig (Elt F) :=
  Pipeline.withArrays spec0 c (Gen.V1 m c) fun w => (dat0 (VR1 m) c).arrAt w cfg0.N

def outsA : Gen.Outs (F := F) := fun _ r c => W2 m c r

abbrev VR16 : BufsAt F := fun c b => Gen.V16 m (outsA m) c b

variable (hok : ok1 (tbl m))

def adm : (p : Fin 2) → (pcfgs (F := F) p).Adm
  | ⟨0, _⟩ => cfg0.toPCfg_adm
  | ⟨1, _⟩ => ⟨tbl m, hok⟩

def pdats : (p : Fin 2) → (c : Dev nD) → Dat τ (Elt F) Unit ℕ (UR sig nD τ) ℕ (Pipeline.pin (pcfgs (F := F)) (adm m hok) p) c
  | ⟨0, _⟩ => fun c => dat0 (VR1 m) c
  | ⟨1, _⟩ => fun c => dat1 (adm m hok 1) (VR16 m) c

def W17 (c : Dev nD) : Valuation τ sig (Elt F) :=
  Pipeline.withArrays spec1 c (Gen.V16 m (outsA m) c) fun w => (dat1 (adm m hok 1) (VR16 m) c).arrAt w (cfg1 (adm m hok 1)).N

def outs : Gen.Outs (F := F) := fun J r c => if J = 17 then W17 m hok c r else W2 m c r

theorem W2_arr (c : Dev nD) (w : Fin cfg0.W) :
    W2 m c (Proc.devRef .tc (Pipeline.arrRef spec0 w)) = (dat0 (VR1 m) c).arrAt w cfg0.N := by
  unfold W2; exact Pipeline.withArrays_arr spec0 (launch0 (F := F)).win.arr_inj c _ _ w
theorem W17_arr (c : Dev nD) (w : Fin (cfg1 (adm m hok 1)).W) :
    W17 m hok c (Proc.devRef .tc (Pipeline.arrRef spec1 w)) = (dat1 (adm m hok 1) (VR16 m) c).arrAt w (cfg1 (adm m hok 1)).N := by
  unfold W17; exact Pipeline.withArrays_arr spec1 (launch1 (F := F)).win.arr_inj c _ _ w

theorem outs_v2 (c : Dev nD) : outs m hok 2 main_v2 c = (dat0 (VR1 m) c).arrAt 2 cfg0.N := by
  unfold outs; rw [if_neg (by decide)]; exact W2_arr m c 2

theorem outs_v83 (c : Dev nD) : outs m hok 17 main_v83 c = (dat1 (adm m hok 1) (VR16 m) c).arrAt 4 (cfg1 (adm m hok 1)).N := by
  unfold outs; rw [if_pos rfl]; exact W17_arr m hok c 4

theorem V16_outs (c : Dev nD) : Gen.V16 m (outs m hok) c = Gen.V16 m (outsA m) c := rfl

abbrev VR2 : BufsAt F := fun c b => Gen.V2 m (outs m hok) c b
abbrev VR17 : BufsAt F := fun c b => Gen.V17 m (outs m hok) c b

theorem hF0 (c : Dev nD) : ∀ w : Fin cfg0.W, (dat0 (VR1 m) c).arrAt w cfg0.N = VR2 m hok c (Pipeline.arrRef spec0 w)
  | ⟨0, _⟩ => ((dat0 (VR1 m) c).arrAt_in 0 rfl _).trans ((A_eq0 (VR1 m) c 0).trans (V2_of m (outs m hok) c _ (by decide)).symm)
  | ⟨1, _⟩ => ((dat0 (VR1 m) c).arrAt_in 1 rfl _).trans ((A_eq0 (VR1 m) c 1).trans (V2_of m (outs m hok) c _ (by decide)).symm)
  | ⟨2, _⟩ => (outs_v2 m hok c).symm.trans (Function.update_self (Proc.devRef (τ := τ) .tc main_v2) (outs m hok 2 main_v2 c) (Gen.V1 m c)).symm
theorem hrest0 (c : Dev nD) : ∀ b, b ∉ Finset.univ.image (Pipeline.arrRef spec0) → VR2 m hok c b = VR1 m c b :=
  fun b hb => V2_of m (outs m hok) c b fun h => hb (by
    rw [List.mem_singleton] at h; subst h; exact Finset.mem_image.mpr ⟨2, Finset.mem_univ _, rfl⟩)

theorem hF1 (c : Dev nD) : ∀ w : Fin 5,
    (dat1 (adm m hok 1) (VR16 m) c).arrAt w (cfg1 (adm m hok 1)).N = VR17 m hok c (Pipeline.arrRef spec1 w)
  | ⟨0, _⟩ => ((dat1 (adm m hok 1) (VR16 m) c).arrAt_in (0 : Fin 5) rfl _).trans ((A_eq1 (adm m hok 1) (VR16 m) c (0 : Fin 5)).trans (V17_of m (outs m hok) c (Pipeline.arrRef spec1 (0 : Fin 5)) (by decide)).symm)
  | ⟨1, _⟩ => ((dat1 (adm m hok 1) (VR16 m) c).arrAt_in (1 : Fin 5) rfl _).trans ((A_eq1 (adm m hok 1) (VR16 m) c (1 : Fin 5)).trans (V17_of m (outs m hok) c (Pipeline.arrRef spec1 (1 : Fin 5)) (by decide)).symm)
  | ⟨2, _⟩ => ((dat1 (adm m hok 1) (VR16 m) c).arrAt_in (2 : Fin 5) rfl _).trans ((A_eq1 (adm m hok 1) (VR16 m) c (2 : Fin 5)).trans (V17_of m (outs m hok) c (Pipeline.arrRef spec1 (2 : Fin 5)) (by decide)).symm)
  | ⟨3, _⟩ => ((dat1 (adm m hok 1) (VR16 m) c).arrAt_in (3 : Fin 5) rfl _).trans ((A_eq1 (adm m hok 1) (VR16 m) c (3 : Fin 5)).trans (V17_of m (outs m hok) c (Pipeline.arrRef spec1 (3 : Fin 5)) (by decide)).symm)
  | ⟨4, _⟩ => (outs_v83 m hok c).symm.trans (Function.update_self (Proc.devRef (τ := τ) .tc main_v83) (outs m hok 17 main_v83 c) (Gen.V16 m (outs m hok) c)).symm
theorem hrest1 (c : Dev nD) : ∀ b, b ∉ Finset.univ.image (Pipeline.arrRef spec1) → VR17 m hok c b = VR16 m c b :=
  fun b hb => V17_of m (outs m hok) c b fun h => hb (by
    rw [List.mem_singleton] at h; subst h; exact Finset.mem_image.mpr ⟨4, Finset.mem_univ _, rfl⟩)

abbrev krL : GSem nD τ sig → Finset Unit := fun _ => ∅
abbrev krLv : GSem nD τ sig → Unit → ℕ := fun _ _ => 0

abbrev krR (c : Dev nD) : sProp 𝕄 := iprop((∃ r, prngReg c r) ∗ ∃ W, owes (c : Thread nD τ) (0 : CellTallies nD τ sig Unit) W)

set_option backward.isDefEq.respectTransparency.types false in

def reg0 : Pipeline.RegionSeg (pcfgs (F := F)) (adm m hok) (pdats m hok) () defs₀ Variants.none krL krLv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (VR1 m) c).loose
  hwaits := Pipeline.hwaits_of_owed_zero _ _ _ _ krL krLv 0 fun _ _ => rfl
  pre c := iprop(StableHlo.held (c : Thread nD τ) (Pipeline.ucRefs τ sig) (Gen.V1 m c) ∗ krR c)
  post c := iprop(StableHlo.held (c : Thread nD τ) (Pipeline.ucRefs τ sig) (Gen.V2 m (outs m hok) c) ∗ krR c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) (adm m hok) (pdats m hok) (launch0 (F := F)).win (launch0 (F := F)).arr_whole c
      ((pdats m hok 0 c).share_full fun _ => rfl) (VR1 m c) fun w => A_eq0 (VR1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (VR1 m) c)
    unfold Pipeline.ΦA
    iintro ⟨Hp, -, Hr⟩
    isplitl [Hr]; · iexact Hr
    iexact Hp
  hout c := by
    rw [Pipeline.ownSems0_none]
    refine (hout0 (VR1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m hok) (Ix := Unit) (Name := ℕ) (U := UR sig nD τ) (Lvl := ℕ)
      (launch0 (F := F)).win (launch0 (F := F)).arr_whole c (pdats m hok) ((pdats m hok 0 c).share_full fun _ => rfl)
      (VR1 m c) (VR2 m hok c) ((pdats m hok 0 c).arrAt · cfg0.N) (hF0 m hok c) (hrest0 m hok c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

variable (hindep : ∀ (o : Gen.Outs (F := F)) (c : Dev nD), Gen.V16 m o c main_v57 = Gen.V16 m (outsM m) c main_v57)

include hindep in

theorem tbl_at (c : Dev nD) : (fun k => VR16 m c (pre1.ref k)) = tbl m := by
  funext k
  match k with
  | ⟨0, _⟩ =>
    obtain rfl : c = 0 := Subsingleton.elim _ _
    exact hindep (outsA m) 0

include hindep in

theorem rest1_split (c : Dev nD) :
    (Pipeline.unscopedRest spec1 c (VR16 m c) : sProp 𝕄)
      = iprop(Pipeline.prefHeld pre1 c (fun _ => fullShare) (tbl m) ∗ Pipeline.unscopedRestP pre1 spec1 c (VR16 m c)) := by
  rw [Pipeline.unscopedRest_split preFacts1 c (VR16 m c), tbl_at m hindep c]

set_option backward.isDefEq.respectTransparency.types false in

def reg1 : Pipeline.RegionSeg (pcfgs (F := F)) (adm m hok) (pdats m hok) () defs₀ Variants.none krL krLv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (adm m hok 1) (VR16 m) c).loose
  hwaits := Pipeline.hwaits_of_owed_zero _ _ _ _ krL krLv 1 fun _ _ => rfl
  pre c := iprop(StableHlo.held (c : Thread nD τ) (Pipeline.ucRefs τ sig) (Gen.V16 m (outs m hok) c) ∗ krR c)
  post c := iprop(StableHlo.held (c : Thread nD τ) (Pipeline.ucRefs τ sig) (Gen.V17 m (outs m hok) c) ∗ krR c)
  X c := iprop(∃ r, prngReg c r)
  Y c := iprop((∃ r, prngReg c r) ∗ Pipeline.prefHeld pre1 c (fun _ => fullShare) (tbl m))
  Z c := Pipeline.unscopedRestP (Ix := Unit) (Name := ℕ) (U := UR sig nD τ) (Lvl := ℕ) pre1 spec1 c (VR16 m c)
  hentry c := by
    rw [Pipeline.ownSems0_none]
    have hsplit : (StableHlo.held (c : Thread nD τ) (Pipeline.ucRefs τ sig) (Gen.V16 m (outsA m) c) : sProp 𝕄)
        ⊢ iprop((pdats m hok 1 c).arrays ((pdats m hok 1 c).arrAt · 0) ∗ Pipeline.unscopedRest spec1 c (VR16 m c)) := by
      have h := Pipeline.arrays_of_unscopedBufs (p := 1) (pcfgs (F := F)) (adm m hok) (pdats m hok) (launch1 (F := F)).win (launch1 (F := F)).arr_whole c
        ((pdats m hok 1 c).share_full fun _ => rfl) (VR16 m c) fun w => A_eq1 (adm m hok 1) (VR16 m) c w
      rw [Pipeline.unscopedBufs_held] at h
      exact h
    rw [rest1_split m hindep c] at hsplit
    rw [V16_outs]
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (adm m hok 1) (VR16 m) c
  hout c := by
    rw [Pipeline.ownSems0_none]
    refine (hout1 (adm m hok 1) (VR16 m) c).trans ?_
    iintro ⟨HY, Hr⟩
    isplitl [HY]; · iexact HY
    isplitr; · iempintro
    iexact Hr
  hexit c := by
    have hjoin : iprop((pdats m hok 1 c).arrays ((pdats m hok 1 c).arrAt · (cfg1 (adm m hok 1)).N) ∗ Pipeline.unscopedRest spec1 c (VR16 m c))
        ⊢ (StableHlo.held (c : Thread nD τ) (Pipeline.ucRefs τ sig) (Gen.V17 m (outs m hok) c) : sProp 𝕄) := by
      have h := Pipeline.unscopedBufs_of_arrays (p := 1) (pcfgs (F := F)) (adm m hok) (Ix := Unit) (Name := ℕ) (U := UR sig nD τ) (Lvl := ℕ)
        (launch1 (F := F)).win (launch1 (F := F)).arr_whole c (pdats m hok) ((pdats m hok 1 c).share_full fun _ => rfl)
        (VR16 m c) (VR17 m hok c) ((pdats m hok 1 c).arrAt · (cfg1 (adm m hok 1)).N) (hF1 m hok c) (hrest1 m hok c)
      rw [Pipeline.unscopedBufs_held] at h
      exact h
    rw [rest1_split m hindep c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

abbrev krE : Fin 3 → Dev nD → sProp 𝕄 := fun _ c => krR c

include hindep in
set_option backward.isDefEq.respectTransparency.types false in

theorem run_main : θ_run defs (onTc (τ := τ) (main (F := F))) ⟨m, fun _ => 0, ρ⟩ (fun r => ∀ c : Dev nD,
      r.2.mem ((c.tc : Thread nD τ).loc main_v94) = Gen.V18 m (outs m hok) c main_v94
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) (adm m hok) (pdats m hok) () (cellOf_inj (adm m hok)) emb₁ defs₀ Variants.none krL krLv m ρ main
    (Gen.segs m (outs m hok) Variants.none krL krLv krE () (adm m hok) (pdats m hok) (reg0 m hok) (reg1 m hok hindep))
    (fun c Q => by
      rewrite [main_chain c, Seg.run_eq_chain,
        show (Gen.segs m (outs m hok) Variants.none krL krLv krE () (adm m hok) (pdats m hok) (reg0 m hok) (reg1 m hok hindep) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          StableHlo.seq hostOps1_13,
          Prog.lift (.customCall (Pipeline.entry 1) ()),
          StableHlo.seq hostOps2 ] from rfl]
      exact .rfl)
    (fun c => by simp only [Gen.segs, Seg.pipes_host, Seg.pipes_region, Seg.pipes_nil]; decide) (O₀ := 0) (hL := fun _ _ => rfl)
    (G := fun _ => iprop(emp))
    (u₀ := initOf (Pipeline.cells (Pipeline.pin (pcfgs (F := F)) (adm m hok)) (cellOf_inj (adm m hok))) (Pipeline.launchToks (Pipeline.pin (pcfgs (F := F)) (adm m hok)) (cellOf_inj (adm m hok))))
    (hu₀ := by
      iintro Hu; imodintro
      isplitl [Hu]
      · iapply (show (ownU (initOf (Pipeline.cells (Pipeline.pin (pcfgs (F := F)) (adm m hok)) (cellOf_inj (adm m hok))) (Pipeline.launchToks (Pipeline.pin (pcfgs (F := F)) (adm m hok)) (cellOf_inj (adm m hok)))) : sProp 𝕄)
            ⊢ BI.own (emb₁ (initOf (Pipeline.cells (Pipeline.pin (pcfgs (F := F)) (adm m hok)) (cellOf_inj (adm m hok))) (Pipeline.launchToks (Pipeline.pin (pcfgs (F := F)) (adm m hok)) (cellOf_inj (adm m hok))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ krE 0 c))
    (Tₙ := fun c => StableHlo.held (c : Thread nD τ) (Pipeline.ucRefs τ sig) (Gen.V18 m (outs m hok) c))
    (hch := fun c => ⟨.rfl, .rfl, .rfl, .rfl, .rfl, .rfl, .rfl, .rfl, .rfl, .rfl, .rfl, .rfl, .rfl, .rfl, .rfl, .rfl, .rfl, .rfl, sep_mono .rfl (by iintro ⟨-, H⟩; iexact H)⟩)
    (hinit := ?_) (QY := fun c s => s.mem ((c.tc : Thread nD τ).loc main_v94) = Gen.V18 m (outs m hok) c main_v94 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  ·
    refine Pipeline.initEach krL krLv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    ihave Hr := (pointsTo_read_all (Pipeline.ucRefs τ sig) (fun b => ((c : Thread nD τ).1, b)) (Gen.V18 m (outs m hok) c) s') $$ [Hh HSI]
    · isplitl [Hh] <;> iassumption
    icases Hr with ⟨%h, HSI⟩
    imodintro
    isplitr
    · ipureintro
      exact ⟨h (Proc.devRef .tc main_v94) (Finset.mem_filter.mpr ⟨StableHlo.devRef_mem_tcRefs main_v94, by decide⟩),
        (h (Proc.devRef .tc main_arg0) (Finset.mem_filter.mpr ⟨StableHlo.devRef_mem_tcRefs main_arg0, by decide⟩)).trans (V18_main_arg0 m (outs m hok) c),
        (h (Proc.devRef .tc main_arg1) (Finset.mem_filter.mpr ⟨StableHlo.devRef_mem_tcRefs main_arg1, by decide⟩)).trans (V18_main_arg1 m (outs m hok) c),
        (h (Proc.devRef .tc main_arg2) (Finset.mem_filter.mpr ⟨StableHlo.devRef_mem_tcRefs main_arg2, by decide⟩)).trans (V18_main_arg2 m (outs m hok) c),
        (h (Proc.devRef .tc main_arg3) (Finset.mem_filter.mpr ⟨StableHlo.devRef_mem_tcRefs main_arg3, by decide⟩)).trans (V18_main_arg3 m (outs m hok) c),
        (h (Proc.devRef .tc main_arg4) (Finset.mem_filter.mpr ⟨StableHlo.devRef_mem_tcRefs main_arg4, by decide⟩)).trans (V18_main_arg4 m (outs m hok) c),
        (h (Proc.devRef .tc main_arg5) (Finset.mem_filter.mpr ⟨StableHlo.devRef_mem_tcRefs main_arg5, by decide⟩)).trans (V18_main_arg5 m (outs m hok) c),
        (h (Proc.devRef .tc main_arg6) (Finset.mem_filter.mpr ⟨StableHlo.devRef_mem_tcRefs main_arg6, by decide⟩)).trans (V18_main_arg6 m (outs m hok) c)⟩
    · iexact HSI

include hok hindep in

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (run_main m ρ hok hindep).mono fun r h c => (h c).2

end Cert.KernelIdeal.Hand

end
-- ==== Proof.HostIdxB.lean ====
import proofs.«417603_j79766132621353_3_alg».proof.Kernel
import Idealize.ShloMosaic.Lib.ValueIdx

noncomputable section

namespace Cert.Kernel.Hand

open Cert.Kernel Idealize.ShloMosaic Idealize.ShloMosaic.TcCoe Idealize.ShloMosaic.ValueIdx

variable {F : FTy → Type} [FloatOps F] (m : (ℓ : Loc nD τ sig) → Buf (Elt F) ℓ)

def idxW (c : Dev nD) (t : Fin 4096) : BitVec 32 :=
  (m ((c : Thread nD τ).loc main_arg6) : S4096.Idx → BitVec 32) (ValueIdx.ix1 t)

def idxN (c : Dev nD) (t : Fin 4096) : ℕ := (idxW m c t).toNat

def outsM : (J : ℕ) → (r : Ref sig .tc) → (c : Dev nD) → Buf (Elt F) ((c : Thread nD τ).loc r) :=
  fun _ r c => m ((c : Thread nD τ).loc r)

end Cert.Kernel.Hand

end
-- ==== Proof.TblB.lean ====
import proofs.«417603_j79766132621353_3_alg».proof.Proof.Gen.Kernel.Regions
import proofs.«417603_j79766132621353_3_alg».proof.Proof.HostIdxB

noncomputable section

namespace Cert.Kernel.Hand

open Cert.Kernel Cert.Kernel.Gen Idealize.ShloMosaic Idealize.ShloMosaic.TcCoe

variable {F : FTy → Type} [FloatOps F] (m : (ℓ : Loc nD τ sig) → Buf (Elt F) ℓ)

def tbl : pre1.Contents (Elt F) := fun | 0 => Gen.V16 m (outsM m) (0 : Dev nD) main_v57

end Cert.Kernel.Hand

end
-- ==== Proof.Reg0BodyB.lean ====
import proofs.«417603_j79766132621353_3_alg».proof.Proof.Gen.Kernel.Launch
import proofs.«417603_j79766132621353_3_alg».proof.Proof.Gen.Kernel.Skeleton
import proofs.«417603_j79766132621353_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Whole

variable {sig' : RefSig} {κ : Kind} {sp : Space} {Val : EltTy → Type}

theorem unit_whole_idx {S : Shape} (off : Fin S.rank → ℕ) (h0 : ∀ a, off a = 0) (inb : ∀ a, off a + S.size a ≤ S.size a)
    (x : (Rect.unit (s := S) off S.size inb).shape.Idx) :
    (Rect.unit (s := S) off S.size inb).toLoadRect.idx x = x := by
  funext a; apply Fin.ext
  rw [LoadRect.idx_apply]
  show off a + 1 * (x a : ℕ) = (x a : ℕ)
  rw [h0 a]; omega

theorem readAt_whole {S : Shape} {e : EltTy} {m : Memref sig' κ sp S e} (h : m.IsWhole) (X : S.Idx → Val e)
    (off : Fin S.rank → ℕ) (h0 : ∀ a, off a = 0) (inb : ∀ a, off a + S.size a ≤ S.size a) :
    View.readAt Val m.view (Rect.unit (s := S) off S.size inb).toLoadRect (h.unread X) = X := by
  funext x
  have hx : View.readAt Val m.view (Rect.unit (s := S) off S.size inb).toLoadRect (h.unread X) x
      = X ((Rect.unit (s := S) off S.size inb).toLoadRect.idx x) := congrFun (h.read_unread X) _
  rw [hx, unit_whole_idx off h0 inb x]

theorem read_writes_whole {S : Shape} {e : EltTy} (v : View sig' κ sp S e) (f : v.ty.Contents Val)
    (off : Fin S.rank → ℕ) (h0 : ∀ a, off a = 0) (inb : ∀ a, off a + S.size a ≤ S.size a)
    (w : (Rect.unit (s := S) off S.size inb).shape.Idx → Val e) (L : List (View.Piece Val S e)) :
    v.read Val (v.writes Val f (⟨Rect.unit (s := S) off S.size inb, w⟩ :: L)) = w := by
  funext x
  have hx : (Rect.unit (s := S) off S.size inb).emb x = x := unit_whole_idx off h0 inb x
  have := View.read_writes_cons_emb v f (Rect.unit (s := S) off S.size inb) w L x
  rw [hx] at this
  exact this

theorem off00 : ∀ a : Fin 2, (![0, 0] : Fin 2 → ℕ) a = 0 := by decide

theorem pay2_congr {F : FTy → Type} [FloatOps F] {a a' : Vec F S256x4096 .f32} {b b' : Vec F S256x512 .bf16} {c c' : Vec F S4096x512 .bf16}
    (ha : a = a') (hb : b = b') (hc : c = c') : k0_pay2 a b c = k0_pay2 a' b' c' := by subst ha hb hc; rfl

end Whole

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1

theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel

theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

section Runs

variable (c : Dev nD) (i : grid0.Coords)
  (arg2 : Memref sig .tc .vmem S256x512 .bf16) (harg2 : arg2.IsWhole)
  (arg3 : Memref sig .tc .vmem S4096x512 .bf16) (harg3 : arg3.IsWhole)
  (arg4 : Memref sig .tc .vmem S256x4096 .f32) (harg4 : arg4.IsWhole)
  (arg5 : Memref sig .tc .vmem S256x4096 .f32) (harg5 : arg5.IsWhole)

set_option maxHeartbeats 1000000 in

theorem run0_A (hc0 : cond0_0 i) (hc1 : ¬cond0_1 i)
    (x0 : Vec F S256x512 .bf16) (x1 : Vec F S4096x512 .bf16) (xi2 : Vec F S256x4096 .f32) (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (k0_pay2 k0_pay1 x0 x1)) -∗ K ⟨⟩))
      ⊢ wp frame (wpE (defs₀ (F := F)) Variants.none c none) E (cc0__base_kernel i arg2 harg2 arg3 harg3 arg4 harg4 arg5 harg5) K := by
  simp only [cc0__base_kernel_eq_skeleton]; unfold cc0__base_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  refine (read_writes_whole arg5.view _ _ off00 _ _ _).trans ?_
  exact pay2_congr (View.readCov_cons_toLoadRect arg5.view _ _ _) (readAt_whole harg2 x0 _ off00 _) (readAt_whole harg3 x1 _ off00 _)

set_option maxHeartbeats 1000000 in

theorem run0_B (hc0 : ¬cond0_0 i) (hc1 : ¬cond0_1 i)
    (x0 : Vec F S256x512 .bf16) (x1 : Vec F S4096x512 .bf16) (xi2 : Vec F S256x4096 .f32) (xs : Vec F S256x4096 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs
        ∗ (iprop(owns (c : Thread nD τ) arg2 fullShare x0 ∗ owns (c : Thread nD τ) arg3 fullShare x1 ∗ owns (c : Thread nD τ) arg4 fullShare xi2 ∗ owns (c : Thread nD τ) arg5 fullShare (k0_pay2 xs x0 x1)) -∗ K ⟨⟩))
      ⊢ wp frame (wpE (defs₀ (F := F)) Variants.none c none) E (cc0__base_kernel i arg2 harg2 arg3 harg3 arg4 harg4 arg5 harg5) K := by
  simp only [cc0__base_kernel_eq_skeleton]; unfold cc0__base_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2
  obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  refine (read_writes_whole arg5.view _ _ off00 _ _ _).trans ?_
  exact pay2_congr (readAt_whole harg5 xs _ off00 _) (readAt_whole harg2 x0 _ off00 _) (readAt_whole harg3 x1 _ off00 _)

set_option maxHeartbeats 1000000 in

theorem run0_C (hc0 : ¬cond0_0 i) (hc1 : cond0_1 i)
    (x0 : Vec F S256x512 .bf16) (x1 : Vec F S4096x512 .bf16) (xs : Vec F S256x4096 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay2 xs x0 x1) ∗ owns (c : Thread nD τ) arg5 fullShare (k0_pay2 xs x0 x1)) -∗ K ⟨⟩))
      ⊢ wp frame (wpE (defs₀ (F := F)) Variants.none c none) E (cc0__base_kernel i arg2 harg2 arg3 harg3 arg4 harg4 arg5 harg5) K := by
  simp only [cc0__base_kernel_eq_skeleton]; unfold cc0__base_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1
  obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (read_writes_whole arg4.view _ _ off00 _ _ _).trans ?_
    refine (View.readCov_cons_toLoadRect arg5.view _ _ _).trans ?_
    exact pay2_congr (readAt_whole harg5 xs _ off00 _) (readAt_whole harg2 x0 _ off00 _) (readAt_whole harg3 x1 _ off00 _)
  iexists _; isplitr
  swap; · iexact HS
  ipureintro
  refine (read_writes_whole arg5.view _ _ off00 _ _ _).trans ?_
  exact pay2_congr (readAt_whole harg5 xs _ off00 _) (readAt_whole harg2 x0 _ off00 _) (readAt_whole harg3 x1 _ off00 _)

end Runs

end Cert.Kernel.Hand

end
-- ==== Proof.Reg0B.lean ====
import proofs.«417603_j79766132621353_3_alg».proof.Proof.Reg0BodyB
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

def acc0 (c : Dev nD) : ℕ → Vec F S256x4096 .f32
  | 0 => k0_pay1
  | n + 1 =>
    if h : n < cfg0.N then
      k0_pay2 (if n % 8 = 0 then k0_pay1 else acc0 c n) (iblk0 V c 0 ⟨n, h⟩) (iblk0 V c 1 ⟨n, h⟩)
    else k0_pay1

theorem acc0_succ (c : Dev nD) (t : Fin cfg0.N) :
    acc0 V c (t.val + 1) = k0_pay2 (if t.val % 8 = 0 then k0_pay1 else acc0 V c t.val) (iblk0 V c 0 t) (iblk0 V c 1 t) :=
  dif_pos t.isLt

abbrev scM0 : Memref sig .tc .vmem S256x4096 .f32 := Memref.whole cc0_scratch0

def T0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(((∃ d, owns (c : Thread nD τ) scM0 fullShare d) ∗ T0 (F := F) c) ∗ (∃ r, prngReg c r)) := by
  unfold Pipeline.ΦA T0; rw [scopedRest0_eq]; simp only [scM0, owns_whole]; try rfl

def Phi0 (c : Dev nD) : ℕ → sProp 𝕄
  | 0 => Pipeline.ΦA spec0 c
  | n + 1 => iprop((owns (c : Thread nD τ) scM0 fullShare (acc0 V c (n + 1)) ∗ T0 (F := F) c) ∗ (∃ r, prngReg c r))

theorem Phi0_succ (c : Dev nD) (n : ℕ) :
    Phi0 V c (n + 1) = iprop((owns (c : Thread nD τ) scM0 fullShare (acc0 V c (n + 1)) ∗ T0 (F := F) c) ∗ (∃ r, prngReg c r)) := rfl

theorem Phi0_pos (c : Dev nD) (n : ℕ) (hz : n ≠ 0) :
    Phi0 V c n = iprop((owns (c : Thread nD τ) scM0 fullShare (acc0 V c n) ∗ T0 (F := F) c) ∗ (∃ r, prngReg c r)) := by
  cases n with
  | zero => exact absurd rfl hz
  | succ n => rfl

theorem Phi0_any (c : Dev nD) (n : ℕ) :
    Phi0 V c n ⊢ iprop(((∃ d, owns (c : Thread nD τ) scM0 fullShare d) ∗ T0 (F := F) c) ∗ (∃ r, prngReg c r)) := by
  cases n with
  | zero => rw [show Phi0 V c 0 = Pipeline.ΦA spec0 c from rfl, PhiA0_eq]; try exact Idealize.SL.BI.Entails.refl _
  | succ n =>
    rw [Phi0_succ]
    iintro ⟨⟨HS, HT⟩, Hg⟩
    isplitl [HS HT]
    · isplitl [HS]; · iexists _; iexact HS
      iexact HT
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c (t.val + 1)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c (t.val + 1) := by dsimp only [dat0]

theorem Phi0_castSucc (c : Dev nD) (t : Fin cfg0.N) : (dat0 V c).Φ t.castSucc = Phi0 V c t.val := by
  dsimp only [dat0]; simp only [Fin.coe_castSucc]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) from rfl, Phi0_succ, Phi0_castSucc]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [acc0_succ]
  have hN : t.val < 128 := lt_of_lt_of_eq t.isLt (show cfg0.N = 128 from N_0)
  by_cases h0 : t.val % 8 = 0
  · have h1 : ¬t.val % 8 = 7 := by omega
    rw [Dat.leavesExact_idle (dat0 V c) 2 t (idleAt0_2 t (fun h => h1 ((hcond0_1 t).mp h))) (noFlush0_2 t (fun h => h1 ((hcond0_1 t).mp h)))]
    rw [if_pos h0]
    iintro ⟨HΦ, Ho, ⟨%d0, H0⟩, ⟨%d1, H1⟩, ⟨%d2, H2⟩⟩
    icases (Phi0_any V c t.val) $$ HΦ with ⟨⟨HS, HT⟩, Hg⟩
    iapply (run0_A c (grid0.coords t) _ _ _ _ _ _ _ _ ((hcond0_0 t).mpr h0) (fun h => h1 ((hcond0_1 t).mp h)) (iblk0 V c 0 t) (iblk0 V c 1 t) _ Set.univ _)
    isplitl [H0]; · iexact H0
    isplitl [H1]; · iexact H1
    isplitl [H2]; · iexact H2
    isplitl [HS]; · iexact HS
    iintro ⟨H0, H1, H2, HS⟩
    isplitl [HS HT Hg]
    · isplitl [HS HT]
      · isplitl [HS]; · iexact HS
        iexact HT
      iexact Hg
    isplitl [Ho]; · iexact Ho
    isplitl [H0]; · iexact H0
    isplitl [H1]; · iexact H1
    iexists _; iexact H2
  · rw [if_neg h0, Phi0_pos V c _ (fun hz => h0 (by rw [hz]))]
    by_cases h1 : t.val % 8 = 7
    · rw [show (dat0 V c).leavesExact 2 t = owns (c : Thread nD τ) (st0_2 t) fullShare ((dat0 V c).after 2 t) from by
        unfold Dat.leavesExact; rw [liveAt0_2 t ((hcond0_1 t).mpr h1)], after0_2, acc0_succ, if_neg h0]
      iintro ⟨⟨⟨HS, HT⟩, Hg⟩, Ho, ⟨%d0, H0⟩, ⟨%d1, H1⟩, ⟨%d2, H2⟩⟩
      iapply (run0_C c (grid0.coords t) _ _ _ _ _ _ _ _ (fun h => h0 ((hcond0_0 t).mp h)) ((hcond0_1 t).mpr h1) (iblk0 V c 0 t) (iblk0 V c 1 t) _ Set.univ _)
      isplitl [H0]; · iexact H0
      isplitl [H1]; · iexact H1
      isplitl [H2]; · iexists _; iexact H2
      isplitl [HS]; · iexact HS
      iintro ⟨H0, H1, H2, HS⟩
      isplitl [HS HT Hg]
      · isplitl [HS HT]
        · isplitl [HS]; · iexact HS
          iexact HT
        iexact Hg
      isplitl [Ho]; · iexact Ho
      isplitl [H0]; · iexact H0
      isplitl [H1]; · iexact H1
      iexact H2
    · rw [Dat.leavesExact_idle (dat0 V c) 2 t (idleAt0_2 t (fun h => h1 ((hcond0_1 t).mp h))) (noFlush0_2 t (fun h => h1 ((hcond0_1 t).mp h)))]
      iintro ⟨⟨⟨HS, HT⟩, Hg⟩, Ho, ⟨%d0, H0⟩, ⟨%d1, H1⟩, ⟨%d2, H2⟩⟩
      iapply (run0_B c (grid0.coords t) _ _ _ _ _ _ _ _ (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS HT Hg]
      · isplitl [HS HT]
        · isplitl [HS]; · iexact HS
          iexact HT
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = Pipeline.ΦA spec0 c from rfl]
  try exact Idealize.SL.BI.Entails.refl _

theorem Phi0_out (c : Dev nD) (t : Fin (cfg0.N + 1)) : (dat0 V c).Φ t ⊢ Pipeline.ΦA spec0 c := by
  rw [show (dat0 V c).Φ t = Phi0 V c t.val from rfl, PhiA0_eq]
  exact Phi0_any V c t.val

theorem hout0 (c : Dev nD) : (dat0 V c).Φ (Fin.last cfg0.N) ⊢ Pipeline.ΦA spec0 c := Phi0_out V c _

end Region0

end Cert.Kernel.Hand

end
-- ==== Proof.Reg1DefsB.lean ====
import proofs.«417603_j79766132621353_3_alg».proof.Proof.Gen.Kernel.Launch
import proofs.«417603_j79766132621353_3_alg».proof.Proof.Gen.Kernel.Skeleton
import proofs.«417603_j79766132621353_3_alg».proof.Proof.Gen.Kernel.Points
import Idealize.ShloMosaic.Lib.Pipeline.FrameBody

set_option maxRecDepth 16384

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev scM1 : Memref sig .tc .vmem S256x4096 .f32 := Memref.whole cc1_scratch0

section
variable (a : (pcfg1 (F := F)).Adm)
  (V : (c : Dev nD) → (b : Ref sig .tc) → Buf (Elt F) ((c : Thread nD τ).loc b))

def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

def step1 (c : Dev nD) (n : ℕ) (acc : Vec F S256x4096 .f32) : Vec F S256x4096 .f32 :=
  if h : n < (cfg1 a).N then
    k1_pay1 (k1_pay3 (iblk1 a V c 0 ⟨n, h⟩) (iblk1 a V c 1 ⟨n, h⟩) (iblk1 a V c 3 ⟨n, h⟩) (iblk1 a V c 2 ⟨n, h⟩) acc)
  else acc

def acc1 (c : Dev nD) : ℕ → Vec F S256x4096 .f32
  | 0 => step1 a V c 0 k1_pay2
  | n + 1 => step1 a V c (n + 1) (if (n + 1) % 8 = 0 then k1_pay2 else acc1 c n)

theorem acc1_succ (c : Dev nD) (n : ℕ) :
    acc1 a V c (n + 1) = step1 a V c (n + 1) (if (n + 1) % 8 = 0 then k1_pay2 else acc1 a V c n) := rfl

abbrev tab1 (c : Dev nD) : sProp 𝕄 :=
  Pipeline.prefHeld (Ix := Unit) (Name := ℕ) (U := UR sig nD τ) (Lvl := ℕ) pre1 c (fun _ => fullShare) a.1

def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f))

def Phi1 (c : Dev nD) : ℕ → sProp 𝕄
  | 0 => iprop(tab1 a c ∗ Pipeline.ΦA spec1 c)
  | n + 1 => iprop(tab1 a c ∗ others1 c ∗ owns (c : Thread nD τ) scM1 fullShare (acc1 a V c n) ∗ ∃ r, prngReg c r)

theorem Phi1_zero (c : Dev nD) : Phi1 a V c 0 = iprop(tab1 a c ∗ Pipeline.ΦA spec1 c) := rfl
theorem Phi1_succ (c : Dev nD) (n : ℕ) :
    Phi1 a V c (n + 1) = iprop(tab1 a c ∗ others1 c ∗ owns (c : Thread nD τ) scM1 fullShare (acc1 a V c n) ∗ ∃ r, prngReg c r) := rfl
theorem Phi1_pos (c : Dev nD) (n : ℕ) (hn : n ≠ 0) :
    Phi1 a V c n = iprop(tab1 a c ∗ others1 c ∗ owns (c : Thread nD τ) scM1 fullShare (acc1 a V c (n - 1)) ∗ ∃ r, prngReg c r) := by
  cases n with
  | zero => exact absurd rfl hn
  | succ n => rfl

def dat1 (c : Dev nD) : Dat τ (Elt F) Unit ℕ (UR sig nD τ) ℕ (cfg1 a) c where
  A w := V c (Pipeline.arrRef spec1 w)
  after w t := match w with
    | ⟨0, _⟩ => iblk1 a V c 0 t
    | ⟨1, _⟩ => iblk1 a V c 1 t
    | ⟨2, _⟩ => iblk1 a V c 2 t
    | ⟨3, _⟩ => iblk1 a V c 3 t
    | ⟨4, _⟩ => acc1 a V c t.val
  Φ t := Phi1 a V c t.val
  q _ := fullShare
  owed _ := 0

theorem A_eq1 (c : Dev nD) (w : Fin (cfg1 a).W) : (dat1 a V c).A w = V c (Pipeline.arrRef spec1 w) := by
  dsimp only [dat1]
theorem after1_0 (c : Dev nD) (t : Fin (cfg1 a).N) : (dat1 a V c).after 0 t = iblk1 a V c 0 t := by dsimp only [dat1]; rfl
theorem after1_1 (c : Dev nD) (t : Fin (cfg1 a).N) : (dat1 a V c).after 1 t = iblk1 a V c 1 t := by dsimp only [dat1]; rfl
theorem after1_2 (c : Dev nD) (t : Fin (cfg1 a).N) : (dat1 a V c).after 2 t = iblk1 a V c 2 t := by dsimp only [dat1]; rfl
theorem after1_3 (c : Dev nD) (t : Fin (cfg1 a).N) : (dat1 a V c).after 3 t = iblk1 a V c 3 t := by dsimp only [dat1]; rfl
theorem after1_4 (c : Dev nD) (t : Fin (cfg1 a).N) : (dat1 a V c).after 4 t = acc1 a V c t.val := by dsimp only [dat1]; rfl
end

end Cert.Kernel.Hand
end
-- ==== Proof.Reg1BodyB.lean ====
import proofs.«417603_j79766132621353_3_alg».proof.Proof.Gen.Kernel.Launch
import proofs.«417603_j79766132621353_3_alg».proof.Proof.Gen.Kernel.Skeleton
import proofs.«417603_j79766132621353_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.WritesUnit

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

abbrev cond1_1 (i : grid1.Coords) : Prop := k1_cond2 i = 1#1

theorem hcond1_0 : ∀ t : Fin grid1.N, cond1_0 (grid1.coords t) ↔ t.val % 8 = 0 := by decide +kernel

theorem hcond1_1 : ∀ t : Fin grid1.N, cond1_1 (grid1.coords t) ↔ t.val % 8 = 7 := by decide +kernel

theorem idle1_4_of : ∀ t : Fin grid1.N, ¬cond1_1 (grid1.coords t) → idle1 4 (grid1.coords t) = true := by decide +kernel
theorem live1_4_of : ∀ t : Fin grid1.N, cond1_1 (grid1.coords t) → idle1 4 (grid1.coords t) = false := by decide +kernel

section
variable (a : (pcfg1 (F := F)).Adm)

theorem flush1_4 : ∀ t : Fin (cfg1 a).N, ((cfg1 a).win 4).flush t = true ↔ t.val % 8 = 7 :=
  (by decide +kernel : ∀ t : Fin grid1.N, Pipeline.Window.flushOf grid1 true cc1_transform_4 t = true ↔ t.val % 8 = 7)
end

theorem read_store_whole {sig' : RefSig} {κ : Kind} {sp : Space} (v : View sig' κ sp S256x4096 .f32) (f : v.ty.Contents (Elt F))
    (w : Vec F S256x4096 .f32) (L : List (View.Piece (Elt F) S256x4096 .f32)) :
    v.read (Elt F) (v.writes (Elt F) f (⟨Rect.unit (s := S256x4096) ![0, 0] S256x4096.size inb_S256x4096_S256x4096_0_0, w⟩ :: L)) = w :=
  funext fun y => View.read_writes_cons_unit_of_mem v f inb_S256x4096_S256x4096_0_0 w L y y rfl (fun a => by
    have h0 : (![0, 0] : Fin 2 → ℕ) a = 0 := by fin_cases a <;> rfl
    rw [h0, Nat.zero_add])

theorem readAt_unit_whole {sig' : RefSig} {κ : Kind} {sp : Space} {S : Shape} {e : EltTy} (v : View sig' κ sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

theorem zeros2 : (![0, 0] : Fin 2 → ℕ) = fun _ => 0 := by funext a; fin_cases a <;> rfl
theorem zeros3 : (![0, 0, 0] : Fin 3 → ℕ) = fun _ => 0 := by funext a; fin_cases a <;> rfl

set_option maxHeartbeats 2000000 in

theorem run1_B (c : Dev nD) (i : grid1.Coords) (arg2 : Memref sig .tc .smem S24 .i32) (harg2 : arg2.IsWhole)
    (arg3 : Memref sig .tc .vmem S256x512 .bf16) (harg3 : arg3.IsWhole) (arg4 : Memref sig .tc .vmem S1x64x4096 .i32) (harg4 : arg4.IsWhole)
    (arg5 : Memref sig .tc .vmem S1x1x4096 .f32) (harg5 : arg5.IsWhole) (arg6 : Memref sig .tc .vmem S1x1x4096 .f32) (harg6 : arg6.IsWhole)
    (arg7 : Memref sig .tc .vmem S256x4096 .f32) (harg7 : arg7.IsWhole) (arg8 : Memref sig .tc .vmem S256x4096 .f32) (harg8 : arg8.IsWhole)
    (hc0 : ¬cond1_0 i) (hc1 : ¬cond1_1 i)
    (x0 : Vec F S256x512 .bf16) (x1 : Vec F S1x64x4096 .i32) (xz : Vec F S1x1x4096 .f32) (xs : Vec F S1x1x4096 .f32) (acc : Vec F S256x4096 .f32)
    (E : Set ℕ) (K : PUnit → sProp 𝕄) :
    iprop(owns (c : Thread nD τ) arg3 fullShare x0 ∗ owns (c : Thread nD τ) arg4 fullShare x1 ∗ owns (c : Thread nD τ) arg5 fullShare xz
        ∗ owns (c : Thread nD τ) arg6 fullShare xs ∗ owns (c : Thread nD τ) arg8 fullShare acc
        ∗ (iprop(owns (c : Thread nD τ) arg3 fullShare x0 ∗ owns (c : Thread nD τ) arg4 fullShare x1 ∗ owns (c : Thread nD τ) arg5 fullShare xz
        ∗ owns (c : Thread nD τ) arg6 fullShare xs ∗ owns (c : Thread nD τ) arg8 fullShare (k1_pay1 (k1_pay3 x0 x1 xs xz acc))) -∗ K ⟨⟩))
      ⊢ wp frame (wpE (defs₀ (F := F)) Variants.none c none) E (cc1__delta_kernel i arg2 harg2 arg3 harg3 arg4 harg4 arg5 harg5 arg6 harg6 arg7 harg7 arg8 harg8) K := by
  simp only [cc1__delta_kernel_eq_skeleton]; unfold cc1__delta_kernel_skel
  unfold owns
  iintro ⟨⟨%f0, %hf0, H0⟩, ⟨%f1, %hf1, H1⟩, ⟨%f2, %hf2, H2⟩, ⟨%f3, %hf3, H3⟩, ⟨%f8, %hf8, H8⟩, Hk⟩
  subst hf0 hf1 hf2 hf3 hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H8
  ipureintro
  rw [read_store_whole]
  delta run1_B.sl.r; beta_reduce
  rw [readAt_unit_whole (S := S256x512) _ _ zeros2, readAt_unit_whole (S := S1x64x4096) _ _ zeros3, readAt_unit_whole (S := S1x1x4096) arg6.view _ zeros3, readAt_unit_whole (S := S1x1x4096) arg5.view _ zeros3]
  rw [readAt_unit_whole (S := S256x4096) _ _ zeros2]

set_option maxHeartbeats 2000000 in

theorem run1_A (c : Dev nD) (i : grid1.Coords) (arg2 : Memref sig .tc .smem S24 .i32) (harg2 : arg2.IsWhole)
    (arg3 : Memref sig .tc .vmem S256x512 .bf16) (harg3 : arg3.IsWhole) (arg4 : Memref sig .tc .vmem S1x64x4096 .i32) (harg4 : arg4.IsWhole)
    (arg5 : Memref sig .tc .vmem S1x1x4096 .f32) (harg5 : arg5.IsWhole) (arg6 : Memref sig .tc .vmem S1x1x4096 .f32) (harg6 : arg6.IsWhole)
    (arg7 : Memref sig .tc .vmem S256x4096 .f32) (harg7 : arg7.IsWhole) (arg8 : Memref sig .tc .vmem S256x4096 .f32) (harg8 : arg8.IsWhole)
    (hc0 : cond1_0 i) (hc1 : ¬cond1_1 i)
    (x0 : Vec F S256x512 .bf16) (x1 : Vec F S1x64x4096 .i32) (xz : Vec F S1x1x4096 .f32) (xs : Vec F S1x1x4096 .f32)
    (E : Set ℕ) (K : PUnit → sProp 𝕄) :
    iprop(owns (c : Thread nD τ) arg3 fullShare x0 ∗ owns (c : Thread nD τ) arg4 fullShare x1 ∗ owns (c : Thread nD τ) arg5 fullShare xz
        ∗ owns (c : Thread nD τ) arg6 fullShare xs ∗ (∃ d, owns (c : Thread nD τ) arg8 fullShare d)
        ∗ (iprop(owns (c : Thread nD τ) arg3 fullShare x0 ∗ owns (c : Thread nD τ) arg4 fullShare x1 ∗ owns (c : Thread nD τ) arg5 fullShare xz
        ∗ owns (c : Thread nD τ) arg6 fullShare xs ∗ owns (c : Thread nD τ) arg8 fullShare (k1_pay1 (k1_pay3 x0 x1 xs xz k1_pay2))) -∗ K ⟨⟩))
      ⊢ wp frame (wpE (defs₀ (F := F)) Variants.none c none) E (cc1__delta_kernel i arg2 harg2 arg3 harg3 arg4 harg4 arg5 harg5 arg6 harg6 arg7 harg7 arg8 harg8) K := by
  simp only [cc1__delta_kernel_eq_skeleton]; unfold cc1__delta_kernel_skel
  unfold owns
  iintro ⟨⟨%f0, %hf0, H0⟩, ⟨%f1, %hf1, H1⟩, ⟨%f2, %hf2, H2⟩, ⟨%f3, %hf3, H3⟩, ⟨%d8, %f8, -, H8⟩, Hk⟩
  subst hf0 hf1 hf2 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H8
  ipureintro
  rw [read_store_whole]
  delta run1_A.sl.r; beta_reduce
  delta run1_A.sl.v26; beta_reduce
  delta run1_A.sl.H8_1
  rw [View.readCov_cons_toLoadRect]
  rw [readAt_unit_whole (S := S256x512) _ _ zeros2, readAt_unit_whole (S := S1x64x4096) _ _ zeros3, readAt_unit_whole (S := S1x1x4096) arg6.view _ zeros3, readAt_unit_whole (S := S1x1x4096) arg5.view _ zeros3]

set_option maxHeartbeats 2000000 in

theorem run1_C (c : Dev nD) (i : grid1.Coords) (arg2 : Memref sig .tc .smem S24 .i32) (harg2 : arg2.IsWhole)
    (arg3 : Memref sig .tc .vmem S256x512 .bf16) (harg3 : arg3.IsWhole) (arg4 : Memref sig .tc .vmem S1x64x4096 .i32) (harg4 : arg4.IsWhole)
    (arg5 : Memref sig .tc .vmem S1x1x4096 .f32) (harg5 : arg5.IsWhole) (arg6 : Memref sig .tc .vmem S1x1x4096 .f32) (harg6 : arg6.IsWhole)
    (arg7 : Memref sig .tc .vmem S256x4096 .f32) (harg7 : arg7.IsWhole) (arg8 : Memref sig .tc .vmem S256x4096 .f32) (harg8 : arg8.IsWhole)
    (hc0 : ¬cond1_0 i) (hc1 : cond1_1 i)
    (x0 : Vec F S256x512 .bf16) (x1 : Vec F S1x64x4096 .i32) (xz : Vec F S1x1x4096 .f32) (xs : Vec F S1x1x4096 .f32) (acc : Vec F S256x4096 .f32)
    (E : Set ℕ) (K : PUnit → sProp 𝕄) :
    iprop(owns (c : Thread nD τ) arg3 fullShare x0 ∗ owns (c : Thread nD τ) arg4 fullShare x1 ∗ owns (c : Thread nD τ) arg5 fullShare xz
        ∗ owns (c : Thread nD τ) arg6 fullShare xs ∗ (∃ d, owns (c : Thread nD τ) arg7 fullShare d) ∗ owns (c : Thread nD τ) arg8 fullShare acc
        ∗ (iprop(owns (c : Thread nD τ) arg3 fullShare x0 ∗ owns (c : Thread nD τ) arg4 fullShare x1 ∗ owns (c : Thread nD τ) arg5 fullShare xz
        ∗ owns (c : Thread nD τ) arg6 fullShare xs ∗ owns (c : Thread nD τ) arg7 fullShare (k1_pay1 (k1_pay3 x0 x1 xs xz acc))
            ∗ owns (c : Thread nD τ) arg8 fullShare (k1_pay1 (k1_pay3 x0 x1 xs xz acc))) -∗ K ⟨⟩))
      ⊢ wp frame (wpE (defs₀ (F := F)) Variants.none c none) E (cc1__delta_kernel i arg2 harg2 arg3 harg3 arg4 harg4 arg5 harg5 arg6 harg6 arg7 harg7 arg8 harg8) K := by
  simp only [cc1__delta_kernel_eq_skeleton]; unfold cc1__delta_kernel_skel
  unfold owns
  iintro ⟨⟨%f0, %hf0, H0⟩, ⟨%f1, %hf1, H1⟩, ⟨%f2, %hf2, H2⟩, ⟨%f3, %hf3, H3⟩, ⟨%d7, %f7, -, H7⟩, ⟨%f8, %hf8, H8⟩, Hk⟩
  subst hf0 hf1 hf2 hf3 hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H7]
  · iexists _; isplitr
    swap; · iexact H7
    ipureintro
    rw [read_store_whole]
    delta run1_C.sl.v41; beta_reduce
    delta run1_C.sl.H8_1; beta_reduce
    rw [View.readCov_cons_toLoadRect]
    delta run1_C.sl.r; beta_reduce
    rw [readAt_unit_whole (S := S256x512) _ _ zeros2, readAt_unit_whole (S := S1x64x4096) _ _ zeros3, readAt_unit_whole (S := S1x1x4096) arg6.view _ zeros3, readAt_unit_whole (S := S1x1x4096) arg5.view _ zeros3]
    rw [readAt_unit_whole (S := S256x4096) _ _ zeros2]
  · iexists _; isplitr
    swap; · iexact H8
    ipureintro
    delta run1_C.sl.H8_1; beta_reduce
    rw [read_store_whole]
    delta run1_C.sl.r; beta_reduce
    rw [readAt_unit_whole (S := S256x512) _ _ zeros2, readAt_unit_whole (S := S1x64x4096) _ _ zeros3, readAt_unit_whole (S := S1x1x4096) arg6.view _ zeros3, readAt_unit_whole (S := S1x1x4096) arg5.view _ zeros3]
    rw [readAt_unit_whole (S := S256x4096) _ _ zeros2]

end Cert.Kernel.Hand
end
-- ==== Proof.Reg1B.lean ====
import proofs.«417603_j79766132621353_3_alg».proof.Proof.Reg1DefsB
import proofs.«417603_j79766132621353_3_alg».proof.Proof.Reg1BodyB

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (a : (pcfg1 (F := F)).Adm)
  (V : (c : Dev nD) → (b : Ref sig .tc) → Buf (Elt F) ((c : Thread nD τ).loc b))

theorem before1_0 (c : Dev nD) (t : Fin (cfg1 a).N) (d) : (dat1 a V c).before 0 t d = iblk1 a V c 0 t :=
  ((dat1 a V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin (cfg1 a).N) (d) : (dat1 a V c).before 1 t d = iblk1 a V c 1 t :=
  ((dat1 a V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin (cfg1 a).N) (d) : (dat1 a V c).before 2 t d = iblk1 a V c 2 t :=
  ((dat1 a V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem before1_3 (c : Dev nD) (t : Fin (cfg1 a).N) (d) : (dat1 a V c).before 3 t d = iblk1 a V c 3 t :=
  ((dat1 a V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

theorem step1_at (c : Dev nD) (t : Fin (cfg1 a).N) (acc : Vec F S256x4096 .f32) :
    step1 a V c t.val acc = k1_pay1 (k1_pay3 (iblk1 a V c 0 t) (iblk1 a V c 1 t) (iblk1 a V c 3 t) (iblk1 a V c 2 t) acc) := by
  unfold step1; rw [dif_pos t.isLt]

theorem acc1_reset (c : Dev nD) (t : Fin (cfg1 a).N) (h : t.val % 8 = 0) :
    acc1 a V c t.val = k1_pay1 (k1_pay3 (iblk1 a V c 0 t) (iblk1 a V c 1 t) (iblk1 a V c 3 t) (iblk1 a V c 2 t) k1_pay2) := by
  rcases t with ⟨n, hn⟩
  cases n with
  | zero => exact step1_at a V c ⟨0, hn⟩ _
  | succ n =>
    have h' : (n + 1) % 8 = 0 := h
    rw [show acc1 a V c (⟨n + 1, hn⟩ : Fin (cfg1 a).N).val = acc1 a V c (n + 1) from rfl, acc1_succ, if_pos h']
    exact step1_at a V c ⟨n + 1, hn⟩ _

theorem acc1_step (c : Dev nD) (t : Fin (cfg1 a).N) (h : t.val % 8 ≠ 0) :
    acc1 a V c t.val = k1_pay1 (k1_pay3 (iblk1 a V c 0 t) (iblk1 a V c 1 t) (iblk1 a V c 3 t) (iblk1 a V c 2 t) (acc1 a V c (t.val - 1))) := by
  rcases t with ⟨n, hn⟩
  cases n with
  | zero => exact absurd rfl h
  | succ n =>
    have h' : ¬ (n + 1) % 8 = 0 := h
    rw [show acc1 a V c (⟨n + 1, hn⟩ : Fin (cfg1 a).N).val = acc1 a V c (n + 1) from rfl, acc1_succ, if_neg h']
    exact step1_at a V c ⟨n + 1, hn⟩ _

theorem PhiA1_open (c : Dev nD) :
    (Pipeline.ΦA spec1 c : sProp 𝕄) ⊢ iprop(others1 c ∗ (∃ d, owns (c : Thread nD τ) scM1 fullShare d) ∗ ∃ r, prngReg c r) := by
  unfold Pipeline.ΦA others1; rw [scopedRest1_eq]
  iintro ⟨⟨H1, H2, H3, H4, H5, H6, H7, ⟨%f, H8⟩⟩, Hg⟩
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  isplitl [H8]
  · iexists f; rw [owns_whole]; iexact H8
  iexact Hg

abbrev st1_0 (t : Fin (cfg1 a).N) := ((cfg1 a).win 0).stage ((cfg1 a).slots t 0)
abbrev st1_1 (t : Fin (cfg1 a).N) := ((cfg1 a).win 1).stage ((cfg1 a).slots t 1)
abbrev st1_2 (t : Fin (cfg1 a).N) := ((cfg1 a).win 2).stage ((cfg1 a).slots t 2)
abbrev st1_3 (t : Fin (cfg1 a).N) := ((cfg1 a).win 3).stage ((cfg1 a).slots t 3)
abbrev st1_4 (t : Fin (cfg1 a).N) := ((cfg1 a).win 4).stage ((cfg1 a).slots t 4)

abbrev bodyAt1 (t : Fin (cfg1 a).N) : Prog (TpuEff nD τ sig (Elt F) Λ₀ .tc) PUnit :=
  cc1__delta_kernel (grid1.coords t) (Memref.whole main_v57) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))
    (spec1_4.stage ((cfg1 a).slots t 4)) (hstage1_4 (((cfg1 a).slots t 4).cast nbuf1_4))
    (Memref.whole cc1_scratch0) (Memref.isWhole_whole _)

def bodyPre1 (c : Dev nD) (t : Fin (cfg1 a).N) : sProp 𝕄 :=
  iprop((dat1 a V c).Φ t.castSucc ∗ (dat1 a V c).owesAt () t.castSucc
    ∗ (∃ d, owns (c : Thread nD τ) (st1_0 a t) fullShare ((dat1 a V c).before 0 t d))
    ∗ (∃ d, owns (c : Thread nD τ) (st1_1 a t) fullShare ((dat1 a V c).before 1 t d))
    ∗ (∃ d, owns (c : Thread nD τ) (st1_2 a t) fullShare ((dat1 a V c).before 2 t d))
    ∗ (∃ d, owns (c : Thread nD τ) (st1_3 a t) fullShare ((dat1 a V c).before 3 t d))
    ∗ (∃ d, owns (c : Thread nD τ) (st1_4 a t) fullShare ((dat1 a V c).before 4 t d)))

def bodyPost1 (c : Dev nD) (t : Fin (cfg1 a).N) : sProp 𝕄 :=
  iprop((dat1 a V c).Φ t.succ ∗ (dat1 a V c).owesAt () t.succ
    ∗ (dat1 a V c).leavesExact 0 t
    ∗ (dat1 a V c).leavesExact 1 t
    ∗ (dat1 a V c).leavesExact 2 t
    ∗ (dat1 a V c).leavesExact 3 t
    ∗ (dat1 a V c).leavesExact 4 t)

set_option maxHeartbeats 4000000 in
theorem sound_body1 (c : Dev nD) (t : Fin (cfg1 a).N) :
    bodyPre1 a V c t ⊢ wp frame (wpE (defs₀ (F := F)) Variants.none c none) Set.univ (bodyAt1 a t) (fun _ => bodyPost1 a V c t) := by
  unfold bodyPre1 bodyPost1 bodyAt1
  simp only [before1_0, before1_1, before1_2, before1_3]
  rw [show (dat1 a V c).owesAt () t.succ = (dat1 a V c).owesAt () t.castSucc from rfl]
  rw [show (dat1 a V c).Φ t.succ = Phi1 a V c (t.val + 1) from rfl, Phi1_succ,
    show (dat1 a V c).Φ t.castSucc = Phi1 a V c t.val from rfl]
  rw [show (dat1 a V c).leavesExact 0 t = owns (c : Thread nD τ) (st1_0 a t) fullShare ((dat1 a V c).after 0 t) from rfl, after1_0,
    show (dat1 a V c).leavesExact 1 t = owns (c : Thread nD τ) (st1_1 a t) fullShare ((dat1 a V c).after 1 t) from rfl, after1_1,
    show (dat1 a V c).leavesExact 2 t = owns (c : Thread nD τ) (st1_2 a t) fullShare ((dat1 a V c).after 2 t) from rfl, after1_2,
    show (dat1 a V c).leavesExact 3 t = owns (c : Thread nD τ) (st1_3 a t) fullShare ((dat1 a V c).after 3 t) from rfl, after1_3]
  have hN : t.val < 192 := lt_of_lt_of_eq t.isLt (show (cfg1 a).N = 192 from N_1)
  by_cases h0 : t.val % 8 = 0
  ·
    have hc0 : cond1_0 (grid1.coords t) := (hcond1_0 t).mpr h0
    have hc1 : ¬cond1_1 (grid1.coords t) := fun h => by have := (hcond1_1 t).mp h; omega
    have hfl : ((cfg1 a).win 4).flush t = false := Bool.eq_false_iff.mpr fun h => by have := (flush1_4 a t).mp h; omega
    rw [Dat.leavesExact_idle (dat1 a V c) 4 t (idle1_4_of t hc1) hfl, acc1_reset a V c t h0]
    have hpre : Phi1 a V c t.val ⊢ iprop(tab1 a c ∗ others1 c ∗ (∃ d, owns (c : Thread nD τ) scM1 fullShare d) ∗ ∃ r, prngReg c r) := by
      by_cases hz : t.val = 0
      · rw [hz, Phi1_zero]
        iintro ⟨Ht, HA⟩
        isplitl [Ht]; · iexact Ht
        iapply PhiA1_open c; iexact HA
      · rw [Phi1_pos a V c _ hz]
        iintro ⟨Ht, Hoth, HS, Hg⟩
        isplitl [Ht]; · iexact Ht
        isplitl [Hoth]; · iexact Hoth
        isplitl [HS]; · iexists _; iexact HS
        iexact Hg
    iintro ⟨HΦ, Ho, ⟨%d0, H0⟩, ⟨%d1, H1⟩, ⟨%d2, H2⟩, ⟨%d3, H3⟩, H4⟩
    ihave HΦ' := hpre $$ HΦ
    icases HΦ' with ⟨Ht, Hoth, HS, Hg⟩
    iapply (run1_A c (grid1.coords t) _ _ _ _ _ _ _ _ _ _ _ _ _ _ hc0 hc1 (iblk1 a V c 0 t) (iblk1 a V c 1 t) (iblk1 a V c 2 t) (iblk1 a V c 3 t) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [Ht Hoth HS Hg]
    · isplitl [Ht]; · iexact Ht
      isplitl [Hoth]; · iexact Hoth
      isplitl [HS]; · iexact HS
      iexact Hg
    isplitl [Ho]; · iexact Ho
    isplitl [H0]; · iexact H0
    isplitl [H1]; · iexact H1
    isplitl [H2]; · iexact H2
    isplitl [H3]; · iexact H3
    iexact H4
  · have hz : t.val ≠ 0 := fun h => h0 (by rw [h])
    have hc0 : ¬cond1_0 (grid1.coords t) := fun h => h0 ((hcond1_0 t).mp h)
    rw [Phi1_pos a V c _ hz, acc1_step a V c t h0]
    by_cases h1 : t.val % 8 = 7
    ·
      have hc1 : cond1_1 (grid1.coords t) := (hcond1_1 t).mpr h1
      rw [show (dat1 a V c).leavesExact 4 t = owns (c : Thread nD τ) (st1_4 a t) fullShare ((dat1 a V c).after 4 t) from by
        unfold Dat.leavesExact; rw [show (cfg1 a).idle 4 ((cfg1 a).grid.coords t) = false from live1_4_of t hc1], after1_4,
        acc1_step a V c t h0]
      iintro ⟨⟨Ht, Hoth, HS, Hg⟩, Ho, ⟨%d0, H0⟩, ⟨%d1, H1⟩, ⟨%d2, H2⟩, ⟨%d3, H3⟩, ⟨%d4, H4⟩⟩
      iapply (run1_C c (grid1.coords t) _ _ _ _ _ _ _ _ _ _ _ _ _ _ hc0 hc1 (iblk1 a V c 0 t) (iblk1 a V c 1 t) (iblk1 a V c 2 t) (iblk1 a V c 3 t) (acc1 a V c (t.val - 1)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [Ht Hoth HS Hg]
      · isplitl [Ht]; · iexact Ht
        isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      iexact H4
    ·
      have hc1 : ¬cond1_1 (grid1.coords t) := fun h => h1 ((hcond1_1 t).mp h)
      have hfl : ((cfg1 a).win 4).flush t = false := Bool.eq_false_iff.mpr fun h => h1 ((flush1_4 a t).mp h)
      rw [Dat.leavesExact_idle (dat1 a V c) 4 t (idle1_4_of t hc1) hfl]
      iintro ⟨⟨Ht, Hoth, HS, Hg⟩, Ho, ⟨%d0, H0⟩, ⟨%d1, H1⟩, ⟨%d2, H2⟩, ⟨%d3, H3⟩, H4⟩
      iapply (run1_B c (grid1.coords t) _ _ _ _ _ _ _ _ _ _ _ _ _ _ hc0 hc1 (iblk1 a V c 0 t) (iblk1 a V c 1 t) (iblk1 a V c 2 t) (iblk1 a V c 3 t) (acc1 a V c (t.val - 1)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Ht Hoth HS Hg]
      · isplitl [Ht]; · iexact Ht
        isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      iexact H4

theorem body_obligation1 (c : Dev nD) : BodyObligation (dat1 a V c) (defs₀ (F := F)) Variants.none () Set.univ := fun t => by
  rw [bigSep_W1, bigSep_W1]
  exact sound_body1 a V c t

theorem hin1 (c : Dev nD) :
    iprop((∃ r, prngReg c r) ∗ Pipeline.prefHeld pre1 c (fun _ => fullShare) a.1 ∗ Pipeline.scopedRest spec1 c) ⊢ (dat1 a V c).Φ 0 := by
  rw [show (dat1 a V c).Φ 0 = Phi1 a V c 0 from rfl, Phi1_zero]; unfold Pipeline.ΦA
  iintro ⟨Hg, Ht, Hr⟩
  isplitl [Ht]; · iexact Ht
  isplitl [Hr]; · iexact Hr
  iexact Hg

theorem hout1 (c : Dev nD) :
    (dat1 a V c).Φ (Fin.last (cfg1 a).N)
      ⊢ iprop(iprop((∃ r, prngReg c r) ∗ Pipeline.prefHeld pre1 c (fun _ => fullShare) a.1) ∗ Pipeline.scopedRest spec1 c) := by
  rw [show (dat1 a V c).Φ (Fin.last (cfg1 a).N) = Phi1 a V c (cfg1 a).N from rfl,
    Phi1_pos a V c _ (by rw [show (cfg1 a).N = 192 from N_1]; decide), scopedRest1_eq]
  unfold others1
  rw [owns_whole]
  iintro ⟨Ht, ⟨H1, H2, H3, H4, H5, H6, H7⟩, HS, Hg⟩
  isplitl [Hg Ht]
  · isplitl [Hg]; · iexact Hg
    iexact Ht
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact HS

end

end Cert.Kernel.Hand
end
-- ==== Proof.KRunB.lean ====
import proofs.«417603_j79766132621353_3_alg».proof.Proof.Gen.Kernel.Regions
import proofs.«417603_j79766132621353_3_alg».proof.Proof.TblB
import proofs.«417603_j79766132621353_3_alg».proof.Proof.Reg0B
import proofs.«417603_j79766132621353_3_alg».proof.Proof.Reg1B
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

abbrev BufsAt (F : FTy → Type) : Type := (c : Dev nD) → (b : Ref sig .tc) → Buf (Elt F) ((c : Thread nD τ).loc b)

variable (m : (ℓ : Loc nD τ sig) → Buf (Elt F) ℓ) (ρ : Dev nD → PrngReg)

abbrev VR1 : BufsAt F := fun c b => Gen.V1 m c b

def W2 (c : Dev nD) : Valuation τ sig (Elt F) :=
  Pipeline.withArrays spec0 c (Gen.V1 m c) fun w => (dat0 (VR1 m) c).arrAt w cfg0.N

def outsA : Gen.Outs (F := F) := fun _ r c => W2 m c r

abbrev VR16 : BufsAt F := fun c b => Gen.V16 m (outsA m) c b

variable (hok : ok1 (tbl m))

def adm : (p : Fin 2) → (pcfgs (F := F) p).Adm
  | ⟨0, _⟩ => cfg0.toPCfg_adm
  | ⟨1, _⟩ => ⟨tbl m, hok⟩

def pdats : (p : Fin 2) → (c : Dev nD) → Dat τ (Elt F) Unit ℕ (UR sig nD τ) ℕ (Pipeline.pin (pcfgs (F := F)) (adm m hok) p) c
  | ⟨0, _⟩ => fun c => dat0 (VR1 m) c
  | ⟨1, _⟩ => fun c => dat1 (adm m hok 1) (VR16 m) c

def W17 (c : Dev nD) : Valuation τ sig (Elt F) :=
  Pipeline.withArrays spec1 c (Gen.V16 m (outsA m) c) fun w => (dat1 (adm m hok 1) (VR16 m) c).arrAt w (cfg1 (adm m hok 1)).N

def outs : Gen.Outs (F := F) := fun J r c => if J = 17 then W17 m hok c r else W2 m c r

theorem W2_arr (c : Dev nD) (w : Fin cfg0.W) :
    W2 m c (Proc.devRef .tc (Pipeline.arrRef spec0 w)) = (dat0 (VR1 m) c).arrAt w cfg0.N := by
  unfold W2; exact Pipeline.withArrays_arr spec0 (launch0 (F := F)).win.arr_inj c _ _ w
theorem W17_arr (c : Dev nD) (w : Fin (cfg1 (adm m hok 1)).W) :
    W17 m hok c (Proc.devRef .tc (Pipeline.arrRef spec1 w)) = (dat1 (adm m hok 1) (VR16 m) c).arrAt w (cfg1 (adm m hok 1)).N := by
  unfold W17; exact Pipeline.withArrays_arr spec1 (launch1 (F := F)).win.arr_inj c _ _ w

theorem outs_v2 (c : Dev nD) : outs m hok 2 main_v2 c = (dat0 (VR1 m) c).arrAt 2 cfg0.N := by
  unfold outs; rw [if_neg (by decide)]; exact W2_arr m c 2

theorem outs_v83 (c : Dev nD) : outs m hok 17 main_v83 c = (dat1 (adm m hok 1) (VR16 m) c).arrAt 4 (cfg1 (adm m hok 1)).N := by
  unfold outs; rw [if_pos rfl]; exact W17_arr m hok c 4

theorem V16_outs (c : Dev nD) : Gen.V16 m (outs m hok) c = Gen.V16 m (outsA m) c := rfl

abbrev VR2 : BufsAt F := fun c b => Gen.V2 m (outs m hok) c b
abbrev VR17 : BufsAt F := fun c b => Gen.V17 m (outs m hok) c b

theorem hF0 (c : Dev nD) : ∀ w : Fin cfg0.W, (dat0 (VR1 m) c).arrAt w cfg0.N = VR2 m hok c (Pipeline.arrRef spec0 w)
  | ⟨0, _⟩ => ((dat0 (VR1 m) c).arrAt_in 0 rfl _).trans ((A_eq0 (VR1 m) c 0).trans (V2_of m (outs m hok) c _ (by decide)).symm)
  | ⟨1, _⟩ => ((dat0 (VR1 m) c).arrAt_in 1 rfl _).trans ((A_eq0 (VR1 m) c 1).trans (V2_of m (outs m hok) c _ (by decide)).symm)
  | ⟨2, _⟩ => (outs_v2 m hok c).symm.trans (Function.update_self (Proc.devRef (τ := τ) .tc main_v2) (outs m hok 2 main_v2 c) (Gen.V1 m c)).symm
theorem hrest0 (c : Dev nD) : ∀ b, b ∉ Finset.univ.image (Pipeline.arrRef spec0) → VR2 m hok c b = VR1 m c b :=
  fun b hb => V2_of m (outs m hok) c b fun h => hb (by
    rw [List.mem_singleton] at h; subst h; exact Finset.mem_image.mpr ⟨2, Finset.mem_univ _, rfl⟩)

theorem hF1 (c : Dev nD) : ∀ w : Fin 5,
    (dat1 (adm m hok 1) (VR16 m) c).arrAt w (cfg1 (adm m hok 1)).N = VR17 m hok c (Pipeline.arrRef spec1 w)
  | ⟨0, _⟩ => ((dat1 (adm m hok 1) (VR16 m) c).arrAt_in (0 : Fin 5) rfl _).trans ((A_eq1 (adm m hok 1) (VR16 m) c (0 : Fin 5)).trans (V17_of m (outs m hok) c (Pipeline.arrRef spec1 (0 : Fin 5)) (by decide)).symm)
  | ⟨1, _⟩ => ((dat1 (adm m hok 1) (VR16 m) c).arrAt_in (1 : Fin 5) rfl _).trans ((A_eq1 (adm m hok 1) (VR16 m) c (1 : Fin 5)).trans (V17_of m (outs m hok) c (Pipeline.arrRef spec1 (1 : Fin 5)) (by decide)).symm)
  | ⟨2, _⟩ => ((dat1 (adm m hok 1) (VR16 m) c).arrAt_in (2 : Fin 5) rfl _).trans ((A_eq1 (adm m hok 1) (VR16 m) c (2 : Fin 5)).trans (V17_of m (outs m hok) c (Pipeline.arrRef spec1 (2 : Fin 5)) (by decide)).symm)
  | ⟨3, _⟩ => ((dat1 (adm m hok 1) (VR16 m) c).arrAt_in (3 : Fin 5) rfl _).trans ((A_eq1 (adm m hok 1) (VR16 m) c (3 : Fin 5)).trans (V17_of m (outs m hok) c (Pipeline.arrRef spec1 (3 : Fin 5)) (by decide)).symm)
  | ⟨4, _⟩ => (outs_v83 m hok c).symm.trans (Function.update_self (Proc.devRef (τ := τ) .tc main_v83) (outs m hok 17 main_v83 c) (Gen.V16 m (outs m hok) c)).symm
theorem hrest1 (c : Dev nD) : ∀ b, b ∉ Finset.univ.image (Pipeline.arrRef spec1) → VR17 m hok c b = VR16 m c b :=
  fun b hb => V17_of m (outs m hok) c b fun h => hb (by
    rw [List.mem_singleton] at h; subst h; exact Finset.mem_image.mpr ⟨4, Finset.mem_univ _, rfl⟩)

abbrev krL : GSem nD τ sig → Finset Unit := fun _ => ∅
abbrev krLv : GSem nD τ sig → Unit → ℕ := fun _ _ => 0

abbrev krR (c : Dev nD) : sProp 𝕄 := iprop((∃ r, prngReg c r) ∗ ∃ W, owes (c : Thread nD τ) (0 : CellTallies nD τ sig Unit) W)

set_option backward.isDefEq.respectTransparency.types false in

def reg0 : Pipeline.RegionSeg (pcfgs (F := F)) (adm m hok) (pdats m hok) () defs₀ Variants.none krL krLv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (VR1 m) c).loose
  hwaits := Pipeline.hwaits_of_owed_zero _ _ _ _ krL krLv 0 fun _ _ => rfl
  pre c := iprop(StableHlo.held (c : Thread nD τ) (Pipeline.ucRefs τ sig) (Gen.V1 m c) ∗ krR c)
  post c := iprop(StableHlo.held (c : Thread nD τ) (Pipeline.ucRefs τ sig) (Gen.V2 m (outs m hok) c) ∗ krR c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) (adm m hok) (pdats m hok) (launch0 (F := F)).win (launch0 (F := F)).arr_whole c
      ((pdats m hok 0 c).share_full fun _ => rfl) (VR1 m c) fun w => A_eq0 (VR1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (VR1 m) c)
    unfold Pipeline.ΦA
    iintro ⟨Hp, -, Hr⟩
    isplitl [Hr]; · iexact Hr
    iexact Hp
  hout c := by
    rw [Pipeline.ownSems0_none]
    refine (hout0 (VR1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m hok) (Ix := Unit) (Name := ℕ) (U := UR sig nD τ) (Lvl := ℕ)
      (launch0 (F := F)).win (launch0 (F := F)).arr_whole c (pdats m hok) ((pdats m hok 0 c).share_full fun _ => rfl)
      (VR1 m c) (VR2 m hok c) ((pdats m hok 0 c).arrAt · cfg0.N) (hF0 m hok c) (hrest0 m hok c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

variable (hindep : ∀ (o : Gen.Outs (F := F)) (c : Dev nD), Gen.V16 m o c main_v57 = Gen.V16 m (outsM m) c main_v57)

include hindep in

theorem tbl_at (c : Dev nD) : (fun k => VR16 m c (pre1.ref k)) = tbl m := by
  funext k
  match k with
  | ⟨0, _⟩ =>
    obtain rfl : c = 0 := Subsingleton.elim _ _
    exact hindep (outsA m) 0

include hindep in

theorem rest1_split (c : Dev nD) :
    (Pipeline.unscopedRest spec1 c (VR16 m c) : sProp 𝕄)
      = iprop(Pipeline.prefHeld pre1 c (fun _ => fullShare) (tbl m) ∗ Pipeline.unscopedRestP pre1 spec1 c (VR16 m c)) := by
  rw [Pipeline.unscopedRest_split preFacts1 c (VR16 m c), tbl_at m hindep c]

set_option backward.isDefEq.respectTransparency.types false in

def reg1 : Pipeline.RegionSeg (pcfgs (F := F)) (adm m hok) (pdats m hok) () defs₀ Variants.none krL krLv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (adm m hok 1) (VR16 m) c).loose
  hwaits := Pipeline.hwaits_of_owed_zero _ _ _ _ krL krLv 1 fun _ _ => rfl
  pre c := iprop(StableHlo.held (c : Thread nD τ) (Pipeline.ucRefs τ sig) (Gen.V16 m (outs m hok) c) ∗ krR c)
  post c := iprop(StableHlo.held (c : Thread nD τ) (Pipeline.ucRefs τ sig) (Gen.V17 m (outs m hok) c) ∗ krR c)
  X c := iprop(∃ r, prngReg c r)
  Y c := iprop((∃ r, prngReg c r) ∗ Pipeline.prefHeld pre1 c (fun _ => fullShare) (tbl m))
  Z c := Pipeline.unscopedRestP (Ix := Unit) (Name := ℕ) (U := UR sig nD τ) (Lvl := ℕ) pre1 spec1 c (VR16 m c)
  hentry c := by
    rw [Pipeline.ownSems0_none]
    have hsplit : (StableHlo.held (c : Thread nD τ) (Pipeline.ucRefs τ sig) (Gen.V16 m (outsA m) c) : sProp 𝕄)
        ⊢ iprop((pdats m hok 1 c).arrays ((pdats m hok 1 c).arrAt · 0) ∗ Pipeline.unscopedRest spec1 c (VR16 m c)) := by
      have h := Pipeline.arrays_of_unscopedBufs (p := 1) (pcfgs (F := F)) (adm m hok) (pdats m hok) (launch1 (F := F)).win (launch1 (F := F)).arr_whole c
        ((pdats m hok 1 c).share_full fun _ => rfl) (VR16 m c) fun w => A_eq1 (adm m hok 1) (VR16 m) c w
      rw [Pipeline.unscopedBufs_held] at h
      exact h
    rw [rest1_split m hindep c] at hsplit
    rw [V16_outs]
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (adm m hok 1) (VR16 m) c
  hout c := by
    rw [Pipeline.ownSems0_none]
    refine (hout1 (adm m hok 1) (VR16 m) c).trans ?_
    iintro ⟨HY, Hr⟩
    isplitl [HY]; · iexact HY
    isplitr; · iempintro
    iexact Hr
  hexit c := by
    have hjoin : iprop((pdats m hok 1 c).arrays ((pdats m hok 1 c).arrAt · (cfg1 (adm m hok 1)).N) ∗ Pipeline.unscopedRest spec1 c (VR16 m c))
        ⊢ (StableHlo.held (c : Thread nD τ) (Pipeline.ucRefs τ sig) (Gen.V17 m (outs m hok) c) : sProp 𝕄) := by
      have h := Pipeline.unscopedBufs_of_arrays (p := 1) (pcfgs (F := F)) (adm m hok) (Ix := Unit) (Name := ℕ) (U := UR sig nD τ) (Lvl := ℕ)
        (launch1 (F := F)).win (launch1 (F := F)).arr_whole c (pdats m hok) ((pdats m hok 1 c).share_full fun _ => rfl)
        (VR16 m c) (VR17 m hok c) ((pdats m hok 1 c).arrAt · (cfg1 (adm m hok 1)).N) (hF1 m hok c) (hrest1 m hok c)
      rw [Pipeline.unscopedBufs_held] at h
      exact h
    rw [rest1_split m hindep c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

abbrev krE : Fin 3 → Dev nD → sProp 𝕄 := fun _ c => krR c

include hindep in
set_option backward.isDefEq.respectTransparency.types false in

theorem run_main : θ_run defs (onTc (τ := τ) (main (F := F))) ⟨m, fun _ => 0, ρ⟩ (fun r => ∀ c : Dev nD,
      r.2.mem ((c.tc : Thread nD τ).loc main_v94) = Gen.V18 m (outs m hok) c main_v94
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) (adm m hok) (pdats m hok) () (cellOf_inj (adm m hok)) emb₁ defs₀ Variants.none krL krLv m ρ main
    (Gen.segs m (outs m hok) Variants.none krL krLv krE () (adm m hok) (pdats m hok) (reg0 m hok) (reg1 m hok hindep))
    (fun c Q => by
      rewrite [main_chain c, Seg.run_eq_chain,
        show (Gen.segs m (outs m hok) Variants.none krL krLv krE () (adm m hok) (pdats m hok) (reg0 m hok) (reg1 m hok hindep) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          StableHlo.seq hostOps1_13,
          Prog.lift (.customCall (Pipeline.entry 1) ()),
          StableHlo.seq hostOps2 ] from rfl]
      exact .rfl)
    (fun c => by simp only [Gen.segs, Seg.pipes_host, Seg.pipes_region, Seg.pipes_nil]; decide) (O₀ := 0) (hL := fun _ _ => rfl)
    (G := fun _ => iprop(emp))
    (u₀ := initOf (Pipeline.cells (Pipeline.pin (pcfgs (F := F)) (adm m hok)) (cellOf_inj (adm m hok))) (Pipeline.launchToks (Pipeline.pin (pcfgs (F := F)) (adm m hok)) (cellOf_inj (adm m hok))))
    (hu₀ := by
      iintro Hu; imodintro
      isplitl [Hu]
      · iapply (show (ownU (initOf (Pipeline.cells (Pipeline.pin (pcfgs (F := F)) (adm m hok)) (cellOf_inj (adm m hok))) (Pipeline.launchToks (Pipeline.pin (pcfgs (F := F)) (adm m hok)) (cellOf_inj (adm m hok)))) : sProp 𝕄)
            ⊢ BI.own (emb₁ (initOf (Pipeline.cells (Pipeline.pin (pcfgs (F := F)) (adm m hok)) (cellOf_inj (adm m hok))) (Pipeline.launchToks (Pipeline.pin (pcfgs (F := F)) (adm m hok)) (cellOf_inj (adm m hok))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ krE 0 c))
    (Tₙ := fun c => StableHlo.held (c : Thread nD τ) (Pipeline.ucRefs τ sig) (Gen.V18 m (outs m hok) c))
    (hch := fun c => ⟨.rfl, .rfl, .rfl, .rfl, .rfl, .rfl, .rfl, .rfl, .rfl, .rfl, .rfl, .rfl, .rfl, .rfl, .rfl, .rfl, .rfl, .rfl, sep_mono .rfl (by iintro ⟨-, H⟩; iexact H)⟩)
    (hinit := ?_) (QY := fun c s => s.mem ((c.tc : Thread nD τ).loc main_v94) = Gen.V18 m (outs m hok) c main_v94 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  ·
    refine Pipeline.initEach krL krLv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    ihave Hr := (pointsTo_read_all (Pipeline.ucRefs τ sig) (fun b => ((c : Thread nD τ).1, b)) (Gen.V18 m (outs m hok) c) s') $$ [Hh HSI]
    · isplitl [Hh] <;> iassumption
    icases Hr with ⟨%h, HSI⟩
    imodintro
    isplitr
    · ipureintro
      exact ⟨h (Proc.devRef .tc main_v94) (Finset.mem_filter.mpr ⟨StableHlo.devRef_mem_tcRefs main_v94, by decide⟩),
        (h (Proc.devRef .tc main_arg0) (Finset.mem_filter.mpr ⟨StableHlo.devRef_mem_tcRefs main_arg0, by decide⟩)).trans (V18_main_arg0 m (outs m hok) c),
        (h (Proc.devRef .tc main_arg1) (Finset.mem_filter.mpr ⟨StableHlo.devRef_mem_tcRefs main_arg1, by decide⟩)).trans (V18_main_arg1 m (outs m hok) c),
        (h (Proc.devRef .tc main_arg2) (Finset.mem_filter.mpr ⟨StableHlo.devRef_mem_tcRefs main_arg2, by decide⟩)).trans (V18_main_arg2 m (outs m hok) c),
        (h (Proc.devRef .tc main_arg3) (Finset.mem_filter.mpr ⟨StableHlo.devRef_mem_tcRefs main_arg3, by decide⟩)).trans (V18_main_arg3 m (outs m hok) c),
        (h (Proc.devRef .tc main_arg4) (Finset.mem_filter.mpr ⟨StableHlo.devRef_mem_tcRefs main_arg4, by decide⟩)).trans (V18_main_arg4 m (outs m hok) c),
        (h (Proc.devRef .tc main_arg5) (Finset.mem_filter.mpr ⟨StableHlo.devRef_mem_tcRefs main_arg5, by decide⟩)).trans (V18_main_arg5 m (outs m hok) c),
        (h (Proc.devRef .tc main_arg6) (Finset.mem_filter.mpr ⟨StableHlo.devRef_mem_tcRefs main_arg6, by decide⟩)).trans (V18_main_arg6 m (outs m hok) c)⟩
    · iexact HSI

include hok hindep in

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (run_main m ρ hok hindep).mono fun r h c => (h c).2

end Cert.Kernel.Hand

end
-- ==== Proof.HostRead.lean ====
import proofs.«417603_j79766132621353_3_alg».proof.Proof.Gen.KernelIdeal.Regions
import Idealize.ShloMosaic.Lib.StableHlo.Run

set_option maxRecDepth 4096

noncomputable section

namespace Cert.KernelIdeal.Hand

open Cert.KernelIdeal Cert.KernelIdeal.Gen
open Idealize.ShloMosaic Idealize.ShloMosaic.TcCoe Idealize.SL.Sem

variable {F : FTy → Type} [FloatOps F]
variable (V : Valuation τ sig (Elt F))

abbrev cumsum8 (x : S8.Idx → BitVec 32) (v : S_.Idx → BitVec 32) : S8.Idx → BitVec 32 :=
  Host.reduceWindow IntOp.addi ![8] ![1] ![7] ![0] x v reduceWindows_S8_S8_w8s1p7_0 h_S_

abbrev zero0 : S_.Idx → BitVec 32 := broadcastInDim S_ ![] bcast_S_S_ (constantI S_ 32 0#32)

abbrev shift8 (a : S1.Idx → BitVec 32) (b : S8.Idx → BitVec 32) : S8.Idx → BitVec 32 :=
  concatenate S8 0 [⟨S1, a⟩, ⟨S7, extractStridedSlice S7 ![0] b slices_S8_S7_0⟩] concatenates_S1_S7_S8_d0

theorem rd_v10 : StableHlo.after hostOps1 V (Proc.devRef .tc main_v10) =
    Host.reduce IntOp.addi (extui 32 (cmpi CmpIPredicate.eq
        (broadcastInDim S8x4096 ![0, 1] bcast_S1x4096_S8x4096_0_1 (broadcastInDim S1x4096 ![1] bcast_S4096_S1x4096_1 (V (Proc.devRef .tc main_arg6))))
        (broadcastInDim S8x4096 ![0, 1] bcast_S8x1_S8x4096_0_1 (broadcastInDim S8x1 ![0] bcast_S8_S8x1_0 (iotaInDim S8 32 0))))
      natLt_1_32) (constantI S_ 32 0#32) reducesTo_S8x4096_S8_d1 h_S_ := by
  after_results

theorem rd_v11 : StableHlo.after hostOps1 V (Proc.devRef .tc main_v11) = broadcastInDim S1 ![] bcast_S_S1 (constantI S_ 32 0#32) := by
  after_results

theorem rd_v12 : StableHlo.after hostOps1_1 V (Proc.devRef .tc main_v12) = cumsum8 (V (Proc.devRef .tc main_v10)) zero0 := by
  after_results
  simp only [StableHlo.TRef.toBuf, StableHlo.TRef.ofBuf, cast_eq]

theorem rd_v14 : StableHlo.after hostOps1_2 V (Proc.devRef .tc main_v14) = shift8 (V (Proc.devRef .tc main_v11)) (V (Proc.devRef .tc main_v12)) := by
  after_results

theorem rd_v18 : StableHlo.after hostOps1_2 V (Proc.devRef .tc main_v18) =
    subi (addi (V (Proc.devRef .tc main_v10)) (broadcastInDim S8 ![] bcast_S_S8 (constantI S_ 32 256#32))) (broadcastInDim S8 ![] bcast_S_S8 (constantI S_ 32 1#32)) := by
  after_results

theorem rd_c3 : StableHlo.after hostOps1_2 V (Proc.devRef .tc main_c_3) = constantI S_ 32 256#32 := by
  after_results

abbrev floorDiv8 (x : S8.Idx → BitVec 32) (y : S_.Idx → BitVec 32) : S8.Idx → BitVec 32 :=
  select (andi (cmpi CmpIPredicate.ne (signi x) (broadcastInDim S8 ![] bcast_S_S8 (signi y)))
      (cmpi CmpIPredicate.ne (Host.remsi x (broadcastInDim S8 ![] bcast_S_S8 y)) (broadcastInDim S8 ![] bcast_S_S8 (constantI S_ 32 0#32))))
    (subi (Host.divsi x (broadcastInDim S8 ![] bcast_S_S8 y)) (broadcastInDim S8 ![] bcast_S_S8 (constantI S_ 32 1#32)))
    (Host.divsi x (broadcastInDim S8 ![] bcast_S_S8 y))

theorem rd_v19 : StableHlo.after hostOps1_3 V (Proc.devRef .tc main_v19) = floorDiv8 (V (Proc.devRef .tc main_v18)) (V (Proc.devRef .tc main_c_3)) := by
  after_results
  simp only [StableHlo.TRef.toBuf, StableHlo.TRef.ofBuf, cast_eq, id_eq]

theorem rd_v21 : StableHlo.after hostOps1_4 V (Proc.devRef .tc main_v21) =
    muli (V (Proc.devRef .tc main_v19)) (broadcastInDim S8 ![] bcast_S_S8 (constantI S_ 32 256#32)) := by
  after_results

theorem rd_v22 : StableHlo.after hostOps1_4 V (Proc.devRef .tc main_v22) = broadcastInDim S1 ![] bcast_S_S1 (constantI S_ 32 0#32) := by
  after_results

theorem rd_v23 : StableHlo.after hostOps1_5 V (Proc.devRef .tc main_v23) = cumsum8 (V (Proc.devRef .tc main_v21)) zero0 := by
  after_results
  simp only [StableHlo.TRef.toBuf, StableHlo.TRef.ofBuf, cast_eq]

theorem rd_v26 : StableHlo.after hostOps1_6 V (Proc.devRef .tc main_v26) = subi (shift8 (V (Proc.devRef .tc main_v22)) (V (Proc.devRef .tc main_v23))) (V (Proc.devRef .tc main_v14)) := by
  after_results

theorem rd_v46 : StableHlo.after hostOps1_10 V (Proc.devRef .tc main_v46) = cumsum8 (V (Proc.devRef .tc main_v21)) zero0 := by
  after_results
  simp only [StableHlo.TRef.toBuf, StableHlo.TRef.ofBuf, cast_eq]

theorem rd_v56 : StableHlo.after hostOps1_11 V (Proc.devRef .tc main_v56) =
    Host.reduce IntOp.addi (extui 32 (cmpi CmpIPredicate.sle
        (broadcastInDim S24x8 ![0, 1] bcast_S1x8_S24x8_0_1 (broadcastInDim S1x8 ![1] bcast_S8_S1x8_1 (V (Proc.devRef .tc main_v46))))
        (broadcastInDim S24x8 ![0, 1] bcast_S24x1_S24x8_0_1 (broadcastInDim S24x1 ![0] bcast_S24_S24x1_0
          (muli (iotaInDim S24 32 0) (broadcastInDim S24 ![] bcast_S_S24 (constantI S_ 32 256#32))))))
      natLt_1_32) (constantI S_ 32 0#32) reducesTo_S24x8_S24_d1 h_S_ := by
  after_results

theorem rd_c13 : StableHlo.after hostOps1_11 V (Proc.devRef .tc main_c_13) = constantI S_ 32 0#32 := by
  after_results

theorem rd_c14 : StableHlo.after hostOps1_11 V (Proc.devRef .tc main_c_14) = constantI S_ 32 7#32 := by
  after_results

theorem rd_v57 : StableHlo.after hostOps1_12 V (Proc.devRef .tc main_v57) =
    minsi (broadcastInDim S24 ![] bcast_S_S24 (V (Proc.devRef .tc main_c_14))) (maxsi (broadcastInDim S24 ![] bcast_S_S24 (V (Proc.devRef .tc main_c_13))) (V (Proc.devRef .tc main_v56))) := by
  after_results
  simp only [StableHlo.TRef.toBuf, StableHlo.TRef.ofBuf, cast_eq, id_eq]

end Cert.KernelIdeal.Hand

end
-- ==== Proof.Comb.lean ====
import Mathlib.Data.Finset.Card
import Mathlib.Algebra.BigOperators.Group.Finset.Basic
import Mathlib.Algebra.BigOperators.Fin
import Mathlib.Algebra.Order.BigOperators.Group.Finset
import Mathlib.Data.Fintype.Card
import Mathlib.Data.Fintype.Fin
import Mathlib.Data.Fintype.BigOperators
import Mathlib.Order.Monotone.Basic
import Mathlib.Order.Interval.Finset.Fin

namespace Cert.Comb

variable (idx : Fin 4096 → ℕ)

def cnt (d : ℕ) : ℕ := (Finset.univ.filter fun t : Fin 4096 => idx t = d).card

def gsu (d : ℕ) : ℕ := ∑ e ∈ Finset.range d, cnt idx e

def pc (d : ℕ) : ℕ := ((cnt idx d + 255) / 256) * 256

def gsp (d : ℕ) : ℕ := ∑ e ∈ Finset.range d, pc idx e

def bound (d : ℕ) : ℕ := gsp idx (d + 1)

def tile (i : ℕ) : ℕ := min 7 ((Finset.range 8).filter fun d => bound idx d ≤ i * 256).card

def pos (σ : Fin 4096 → Fin 4096) (s : Fin 4096) : ℕ :=
  s.val + gsp idx (idx (σ s)) - gsu idx (idx (σ s))

theorem gsu_succ (d : ℕ) : gsu idx (d + 1) = gsu idx d + cnt idx d := by
  unfold gsu
  rw [Finset.sum_range_succ]

theorem gsp_succ (d : ℕ) : gsp idx (d + 1) = gsp idx d + pc idx d := by
  unfold gsp
  rw [Finset.sum_range_succ]

theorem gsu_mono {d d' : ℕ} (h : d ≤ d') : gsu idx d ≤ gsu idx d' := by
  unfold gsu
  exact Finset.sum_le_sum_of_subset (Finset.range_mono h)

theorem gsp_mono {d d' : ℕ} (h : d ≤ d') : gsp idx d ≤ gsp idx d' := by
  unfold gsp
  exact Finset.sum_le_sum_of_subset (Finset.range_mono h)

theorem cnt_le_pc (d : ℕ) : cnt idx d ≤ pc idx d := by
  unfold pc
  omega

theorem pc_le (d : ℕ) : pc idx d ≤ cnt idx d + 255 := by
  unfold pc
  omega

theorem dvd_pc (d : ℕ) : 256 ∣ pc idx d := by
  unfold pc
  exact Dvd.intro_left _ rfl

theorem dvd_gsp (d : ℕ) : 256 ∣ gsp idx d := by
  unfold gsp
  exact Finset.dvd_sum fun e _ => dvd_pc idx e

theorem card_idx_lt (d : ℕ) :
    (Finset.univ.filter fun t : Fin 4096 => idx t < d).card = gsu idx d := by
  induction d with
  | zero => simp [gsu]
  | succ d ih =>
    rw [gsu_succ, ← ih, cnt, ← Finset.card_union_of_disjoint]
    · congr 1
      ext t
      simp only [Finset.mem_filter, Finset.mem_univ, true_and, Finset.mem_union]
      omega
    · rw [Finset.disjoint_filter]
      intro t _ h1 h2
      omega

theorem cnt_sum (hidx : ∀ t, idx t < 8) : gsu idx 8 = 4096 := by
  rw [← card_idx_lt, Finset.filter_true_of_mem (fun t _ => hidx t)]
  simp

theorem gsu_le_gsp (d : ℕ) : gsu idx d ≤ gsp idx d := by
  unfold gsu gsp
  exact Finset.sum_le_sum fun e _ => cnt_le_pc idx e

theorem gsp_le_gsu_add (d : ℕ) : gsp idx d ≤ gsu idx d + 255 * d := by
  induction d with
  | zero => simp [gsp, gsu]
  | succ d ih =>
    rw [gsp_succ, gsu_succ]
    have := pc_le idx d
    omega

theorem gsp_le (hidx : ∀ t, idx t < 8) (d : ℕ) (hd : d ≤ 8) : gsp idx d ≤ 4096 + 255 * d := by
  have h1 := gsp_le_gsu_add idx d
  have h2 := gsu_mono idx hd
  rw [cnt_sum idx hidx] at h2
  omega

theorem card_sorted_lt (σ : Fin 4096 → Fin 4096) (hσ : Function.Bijective σ) (d : ℕ) :
    (Finset.univ.filter fun s : Fin 4096 => idx (σ s) < d).card = gsu idx d := by
  rw [← card_idx_lt, Finset.card_filter, Finset.card_filter]
  exact Fintype.sum_bijective σ hσ _ _ (fun _ => rfl)

theorem gsu_le (hidx : ∀ t, idx t < 8) (σ : Fin 4096 → Fin 4096) (hσ : Function.Bijective σ)
    (hmono : ∀ s s' : Fin 4096, s ≤ s' → idx (σ s) ≤ idx (σ s')) (s : Fin 4096) :
    gsu idx (idx (σ s)) ≤ s.val := by
  have h : (Finset.univ.filter fun s' : Fin 4096 => idx (σ s') < idx (σ s)).card
      ≤ (Finset.univ.filter fun s' : Fin 4096 => s'.val < s.val).card := by
    apply Finset.card_le_card
    intro s' hs'
    simp only [Finset.mem_filter, Finset.mem_univ, true_and] at hs' ⊢
    by_contra hcon
    have := hmono s s' (by rw [Fin.le_def]; omega)
    omega
  rw [card_sorted_lt idx σ hσ, Fin.card_filter_val_lt] at h
  have := s.isLt
  omega

theorem lt_gsu_succ (hidx : ∀ t, idx t < 8) (σ : Fin 4096 → Fin 4096) (hσ : Function.Bijective σ)
    (hmono : ∀ s s' : Fin 4096, s ≤ s' → idx (σ s) ≤ idx (σ s')) (s : Fin 4096) :
    s.val < gsu idx (idx (σ s) + 1) := by
  have h : (Finset.univ.filter fun s' : Fin 4096 => s'.val < s.val + 1).card
      ≤ (Finset.univ.filter fun s' : Fin 4096 => idx (σ s') < idx (σ s) + 1).card := by
    apply Finset.card_le_card
    intro s' hs'
    simp only [Finset.mem_filter, Finset.mem_univ, true_and] at hs' ⊢
    have := hmono s' s (by rw [Fin.le_def]; omega)
    omega
  rw [card_sorted_lt idx σ hσ, Fin.card_filter_val_lt] at h
  have := s.isLt
  omega

theorem pos_mem (hidx : ∀ t, idx t < 8) (σ : Fin 4096 → Fin 4096) (hσ : Function.Bijective σ)
    (hmono : ∀ s s' : Fin 4096, s ≤ s' → idx (σ s) ≤ idx (σ s')) (s : Fin 4096) :
    gsp idx (idx (σ s)) ≤ pos idx σ s ∧ pos idx σ s < gsp idx (idx (σ s)) + pc idx (idx (σ s)) := by
  have h1 := gsu_le idx hidx σ hσ hmono s
  have h2 := lt_gsu_succ idx hidx σ hσ hmono s
  rw [gsu_succ] at h2
  have h3 := cnt_le_pc idx (idx (σ s))
  unfold pos
  omega

theorem pos_lt (hidx : ∀ t, idx t < 8) (σ : Fin 4096 → Fin 4096) (hσ : Function.Bijective σ)
    (hmono : ∀ s s' : Fin 4096, s ≤ s' → idx (σ s) ≤ idx (σ s')) (s : Fin 4096) :
    pos idx σ s < 6144 := by
  have h := (pos_mem idx hidx σ hσ hmono s).2
  rw [← gsp_succ] at h
  have := gsp_le idx hidx (idx (σ s) + 1) (Nat.succ_le_of_lt (hidx (σ s)))
  have := hidx (σ s)
  omega

theorem pos_inj (hidx : ∀ t, idx t < 8) (σ : Fin 4096 → Fin 4096) (hσ : Function.Bijective σ)
    (hmono : ∀ s s' : Fin 4096, s ≤ s' → idx (σ s) ≤ idx (σ s')) :
    Function.Injective (pos idx σ) := by
  intro s s' h
  have key : ∀ a b : Fin 4096, pos idx σ a = pos idx σ b → ¬ idx (σ a) < idx (σ b) := by
    intro a b hab hlt
    have ha := (pos_mem idx hidx σ hσ hmono a).2
    have hb := (pos_mem idx hidx σ hσ hmono b).1
    rw [← gsp_succ] at ha
    have h2 : gsp idx (idx (σ a) + 1) ≤ gsp idx (idx (σ b)) := gsp_mono idx hlt
    omega
  have hd : idx (σ s) = idx (σ s') := by
    have := key s s' h
    have := key s' s h.symm
    omega
  have h1 := gsu_le idx hidx σ hσ hmono s
  have h1' := gsu_le idx hidx σ hσ hmono s'
  unfold pos at h
  rw [hd] at h h1
  apply Fin.ext
  omega

theorem tile_pos (hidx : ∀ t, idx t < 8) (σ : Fin 4096 → Fin 4096) (hσ : Function.Bijective σ)
    (hmono : ∀ s s' : Fin 4096, s ≤ s' → idx (σ s) ≤ idx (σ s')) (s : Fin 4096) :
    tile idx (pos idx σ s / 256) = idx (σ s) := by
  have hm := pos_mem idx hidx σ hσ hmono s
  obtain ⟨m, hm'⟩ := dvd_gsp idx (idx (σ s))
  have hlt := hidx (σ s)
  have hfilter : ((Finset.range 8).filter fun e => bound idx e ≤ pos idx σ s / 256 * 256)
      = Finset.range (idx (σ s)) := by
    ext e
    simp only [Finset.mem_filter, Finset.mem_range]
    constructor
    · rintro ⟨_, hb⟩
      by_contra hcon
      have h2 : gsp idx (idx (σ s) + 1) ≤ gsp idx (e + 1) :=
        gsp_mono idx (Nat.succ_le_succ (not_lt.mp hcon))
      rw [gsp_succ] at h2
      unfold bound at hb
      omega
    · intro he
      refine ⟨by omega, ?_⟩
      unfold bound
      have h2 : gsp idx (e + 1) ≤ gsp idx (idx (σ s)) := gsp_mono idx he
      omega
  unfold tile
  rw [hfilter, Finset.card_range]
  omega

end Cert.Comb
-- ==== Proof.CombMore.lean ====
import proofs.«417603_j79766132621353_3_alg».proof.Proof.Comb

namespace Cert.Comb

variable (idx : Fin 4096 → ℕ)

theorem cnt_le (d : ℕ) : cnt idx d ≤ 4096 := by
  unfold cnt
  have h := Finset.card_le_univ (Finset.univ.filter fun t : Fin 4096 => idx t = d)
  simpa using h

theorem gsu_le_card (d : ℕ) : gsu idx d ≤ 4096 := by
  rw [← card_idx_lt]
  have h := Finset.card_le_univ (Finset.univ.filter fun t : Fin 4096 => idx t < d)
  simpa using h

theorem tile_eq_sum (i : ℕ) :
    tile idx i = min 7 (∑ d ∈ Finset.range 8, if bound idx d ≤ i * 256 then 1 else 0) := by
  unfold tile
  rw [Finset.card_filter]

theorem tile_eq_sum_fin (i : ℕ) :
    tile idx i = min 7 (∑ d : Fin 8, if bound idx d.val ≤ i * 256 then 1 else 0) := by
  rw [tile_eq_sum, Fin.sum_univ_eq_sum_range (fun d => if bound idx d ≤ i * 256 then 1 else 0) 8]

section Dest

variable (hidx : ∀ t, idx t < 8) (σ : Fin 4096 → Fin 4096) (hσ : Function.Bijective σ)
  (hmono : ∀ s s' : Fin 4096, s ≤ s' → idx (σ s) ≤ idx (σ s'))
  (dest : Fin 4096 → ℕ) (hdest : ∀ s, dest (σ s) = pos idx σ s)

include hidx hσ hmono hdest

theorem dest_lt (t : Fin 4096) : dest t < 6144 := by
  obtain ⟨s, rfl⟩ := hσ.2 t
  rw [hdest]
  exact pos_lt idx hidx σ hσ hmono s

theorem dest_inj : Function.Injective dest := by
  intro t t' h
  obtain ⟨s, rfl⟩ := hσ.2 t
  obtain ⟨s', rfl⟩ := hσ.2 t'
  rw [hdest, hdest] at h
  rw [pos_inj idx hidx σ hσ hmono h]

theorem tile_dest (t : Fin 4096) : tile idx (dest t / 256) = idx t := by
  obtain ⟨s, rfl⟩ := hσ.2 t
  rw [hdest]
  exact tile_pos idx hidx σ hσ hmono s

end Dest

end Cert.Comb
-- ==== Proof.HostTileArith.lean ====
import proofs.«417603_j79766132621353_3_alg».proof.Proof.Gen.KernelIdeal
import proofs.«417603_j79766132621353_3_alg».proof.Proof.CombMore
import Idealize.ShloMosaic.Lib.StableHlo.Predicate
import Idealize.ShloMosaic.Lib.ValueIdx

noncomputable section

namespace Cert.KernelIdeal.Hand

open Cert.KernelIdeal
open Idealize.ShloMosaic Idealize.ShloMosaic.StableHlo.Predicate
open Cert.KernelIdeal.Facts₀

theorem clipw_lt (w : BitVec 32) : (IntOp.minsi 7#32 (IntOp.maxsi 0#32 w)).toNat < 8 := by
  have h7 : (7#32 : BitVec 32).toInt = 7 := by decide
  have h0 : (0#32 : BitVec 32).toInt = 0 := by decide
  unfold IntOp.minsi IntOp.maxsi
  by_cases hw : w.slt 0#32 = true
  · rw [if_pos hw]
    have : ¬ ((7#32 : BitVec 32).slt 0#32 = true) := by decide
    rw [if_neg this]; decide
  · rw [if_neg hw]
    simp only [BitVec.slt, h0, decide_eq_true_eq, not_lt] at hw
    by_cases h2 : (7#32 : BitVec 32).slt w = true
    · rw [if_pos h2]; decide
    · rw [if_neg h2]
      simp only [BitVec.slt, h7, decide_eq_true_eq, not_lt] at h2
      rw [BitVec.toInt_eq_toNat_cond] at hw h2
      have := w.isLt
      split at hw <;> omega

theorem clipw_small (w : BitVec 32) (h : w.toNat < 2 ^ 31) :
    IntOp.minsi 7#32 (IntOp.maxsi 0#32 w) = BitVec.ofNat 32 (min 7 w.toNat) := by
  have h7 : (7#32 : BitVec 32).toInt = 7 := by decide
  have h0 : (0#32 : BitVec 32).toInt = 0 := by decide
  have hwi : w.toInt = w.toNat := toInt_eq_toNat_of_lt h
  unfold IntOp.minsi IntOp.maxsi
  have hw : ¬ (w.slt 0#32 = true) := by
    simp only [BitVec.slt, h0, hwi, decide_eq_true_eq, not_lt]; omega
  rw [if_neg hw]
  by_cases h2 : (7#32 : BitVec 32).slt w = true
  · rw [if_pos h2]
    simp only [BitVec.slt, h7, hwi, decide_eq_true_eq] at h2
    rw [show min 7 w.toNat = 7 by omega]
  · rw [if_neg h2]
    simp only [BitVec.slt, h7, hwi, decide_eq_true_eq, not_lt] at h2
    rw [show min 7 w.toNat = w.toNat by omega, BitVec.ofNat_toNat, BitVec.setWidth_eq]

theorem ofFin_eq_ix1 {n : Nat} (k : Fin n) : Shape.Idx.ofFin k = ValueIdx.ix1 k := by
  funext a
  match a with
  | ⟨0, _⟩ => exact Fin.ext rfl

def tileStarts : S24.Idx → BitVec 32 :=
  muli (iotaInDim S24 32 0) (broadcastInDim S24 ![] bcast_S_S24 (constantI S_ 32 256#32))

def endsBelow (e : S8.Idx → BitVec 32) : S24.Idx → BitVec 32 :=
  Host.reduce IntOp.addi (extui 32 (cmpi CmpIPredicate.sle
      (broadcastInDim S24x8 ![0, 1] bcast_S1x8_S24x8_0_1 (broadcastInDim S1x8 ![1] bcast_S8_S1x8_1 e))
      (broadcastInDim S24x8 ![0, 1] bcast_S24x1_S24x8_0_1 (broadcastInDim S24x1 ![0] bcast_S24_S24x1_0 tileStarts)))
    natLt_1_32) (constantI S_ 32 0#32) reducesTo_S24x8_S24_d1 h_S_

def clip07 (w : S24.Idx → BitVec 32) : S24.Idx → BitVec 32 :=
  minsi (broadcastInDim S24 ![] bcast_S_S24 (constantI S_ 32 7#32)) (maxsi (broadcastInDim S24 ![] bcast_S_S24 (constantI S_ 32 0#32)) w)

theorem tileStarts_apply (i : Fin 24) : tileStarts (ValueIdx.ix1 i) = BitVec.ofNat 32 (i.val * 256) := by
  show (BitVec.ofNat 32 i.val) * (256#32) = _
  rw [BitVec.ofNat_mul]

theorem clip07_apply (w : S24.Idx → BitVec 32) (j : S24.Idx) : clip07 w j = IntOp.minsi 7#32 (IntOp.maxsi 0#32 (w j)) := rfl

theorem clip07_lt (w : S24.Idx → BitVec 32) (j : S24.Idx) : (clip07 w j).toNat < 8 := by
  rw [clip07_apply]; exact clipw_lt _

theorem endsBelow_toNat (e : S8.Idx → BitVec 32) (f : ℕ → ℕ) (he : ∀ d : Fin 8, e (ValueIdx.ix1 d) = BitVec.ofNat 32 (f d.val))
    (hf : ∀ d : Fin 8, f d.val < 2 ^ 31) (i : Fin 24) :
    (endsBelow e (ValueIdx.ix1 i)).toNat = ∑ d : Fin 8, if f d.val ≤ i.val * 256 then 1 else 0 := by
  unfold endsBelow
  rw [toNat_reduce_count_cols (by decide) _ natLt_1_32 reducesTo_S24x8_S24_d1 h_S_ (ValueIdx.ix1 i), Finset.card_filter]
  refine Finset.sum_congr rfl fun d _ => ?_
  have hm : cmpi CmpIPredicate.sle
      (broadcastInDim S24x8 ![0, 1] bcast_S1x8_S24x8_0_1 (broadcastInDim S1x8 ![1] bcast_S8_S1x8_1 e))
      (broadcastInDim S24x8 ![0, 1] bcast_S24x1_S24x8_0_1 (broadcastInDim S24x1 ![0] bcast_S24_S24x1_0 tileStarts)) (ij i d)
      = BitVec.ofBool ((BitVec.ofNat 32 (f d.val)).sle (BitVec.ofNat 32 (i.val * 256))) := by
    show IntOp.cmpi CmpIPredicate.sle _ _ = _
    rw [bcast_cols, bcast_rows, ofFin_eq_ix1, ofFin_eq_ix1, he, tileStarts_apply]
    rfl
  show (if cmpi CmpIPredicate.sle _ _ (ij i d) = 1#1 then 1 else 0) = _
  rw [hm]
  have hi := i.isLt
  have := sle_ofNat_iff (f d.val) (i.val * 256) (hf d) (by omega)
  by_cases hle : f d.val ≤ i.val * 256
  · rw [if_pos hle, if_pos (this.mpr hle)]
  · rw [if_neg hle, if_neg (fun h => hle (this.mp h))]

def runSum8 (p : S8.Idx → BitVec 32) : S8.Idx → BitVec 32 :=
  Host.reduceWindow IntOp.addi ![8] ![1] ![7] ![0] p (broadcastInDim S_ ![] bcast_S_S_ (constantI S_ 32 0#32))
    reduceWindows_S8_S8_w8s1p7_0 h_S_

def tileOf (p : S8.Idx → BitVec 32) : S24.Idx → BitVec 32 := clip07 (endsBelow (runSum8 p))

theorem tileOf_lt (p : S8.Idx → BitVec 32) (j : S24.Idx) : (tileOf p j).toNat < 8 := clip07_lt _ j

theorem bound_lt (idx : Fin 4096 → ℕ) (d : ℕ) (hd : d < 8) : Cert.Comb.bound idx d < 2 ^ 31 := by
  unfold Cert.Comb.bound
  have h1 := Cert.Comb.gsp_le_gsu_add idx (d + 1)
  have h2 := Cert.Comb.gsu_le_card idx (d + 1)
  omega

theorem tileOf_eq (p : S8.Idx → BitVec 32) (idx : Fin 4096 → ℕ)
    (he : ∀ d : Fin 8, runSum8 p (ValueIdx.ix1 d) = BitVec.ofNat 32 (Cert.Comb.bound idx d.val)) (i : Fin 24) :
    tileOf p (ValueIdx.ix1 i) = BitVec.ofNat 32 (Cert.Comb.tile idx i.val) := by
  unfold tileOf
  rw [clip07_apply]
  have hn := endsBelow_toNat (runSum8 p) (Cert.Comb.bound idx) he (fun d => bound_lt idx d.val d.isLt) i
  have hle : (endsBelow (runSum8 p) (ValueIdx.ix1 i)).toNat ≤ 8 := by
    rw [hn]
    calc (∑ d : Fin 8, if Cert.Comb.bound idx d.val ≤ i.val * 256 then 1 else 0)
        ≤ ∑ _d : Fin 8, 1 := Finset.sum_le_sum (fun d _ => by split <;> omega)
      _ = 8 := by simp
  rw [clipw_small _ (by omega), hn, Cert.Comb.tile_eq_sum_fin]

end Cert.KernelIdeal.Hand

end
-- ==== Proof.HostArith.lean ====
import Idealize.ShloMosaic.Lib.StableHlo.Predicate
import Idealize.ShloMosaic.Lib.ValueIdx
import Idealize.ShloMosaic.Lib.Pipeline.Value
import Mathlib.Algebra.BigOperators.Fin
import Mathlib.Data.BitVec
import Mathlib.Algebra.BigOperators.Group.Finset.Basic

namespace Cert.HostArith

open Idealize.ShloMosaic Idealize.ShloMosaic.ValueIdx
open Idealize.ShloMosaic.StableHlo.Predicate

theorem ofFin_eq_ix1 {n : Nat} (p : Fin n) : (Shape.Idx.ofFin p : (⟨1, ![n]⟩ : Shape).Idx) = ValueIdx.ix1 p := by
  funext d; match d with | ⟨0, _⟩ => rfl

def idxEquiv1 (n : Nat) : (⟨1, ![n]⟩ : Shape).Idx ≃ Fin n where
  toFun i := i 0
  invFun p := ValueIdx.ix1 p
  left_inv i := (ValueIdx.eq_ix1 i).symm
  right_inv p := rfl

theorem foldl_addi_finRange (N : Nat) (g : Fin N → BitVec 32) :
    (List.finRange N).foldl (fun r n => IntOp.addi r (g n)) 0#32 = ∑ n : Fin N, g n := by
  rw [Fin.sum_univ_def, List.sum_eq_foldl, List.foldl_map]
  rfl

theorem cumsum8_ofNat (x : (⟨1, ![8]⟩ : Shape).Idx → BitVec 32) (v : (⟨0, ![]⟩ : Shape).Idx → BitVec 32)
    (h : (⟨1, ![8]⟩ : Shape).ReduceWindows (![8] : Fin 1 → Nat) ![1] ![7] ![0] ⟨1, ![8]⟩) (hu : 0 < (⟨0, ![]⟩ : Shape).numel)
    (hv : ∀ i, v i = 0#32) (f : ℕ → ℕ) (hx : ∀ i, x i = BitVec.ofNat 32 (f (i 0).val)) (j : (⟨1, ![8]⟩ : Shape).Idx) :
    Host.reduceWindow IntOp.addi ![8] ![1] ![7] ![0] x v h hu j = BitVec.ofNat 32 (∑ e ∈ Finset.range ((j 0).val + 1), f e) := by
  unfold Host.reduceWindow
  simp only [hv, hx]
  rw [foldl_addi_finRange]
  let G : (⟨1, ![8]⟩ : Shape).Idx → BitVec 32 := fun i =>
    if 7 ≤ (j 0).val + (i 0).val ∧ (j 0).val + (i 0).val - 7 < 8 then BitVec.ofNat 32 (f ((j 0).val + (i 0).val - 7)) else 0#32
  trans ∑ n : Fin (⟨1, ![8]⟩ : Shape).numel, G ((⟨1, ![8]⟩ : Shape).rowMajor.symm n)
  · refine Finset.sum_congr rfl fun n _ => ?_
    simp only [G, Fin.forall_fin_one, Matrix.cons_val_zero, Nat.mul_one, Fin.cast_eq_self, dite_eq_ite]
  rw [Fintype.sum_equiv (⟨1, ![8]⟩ : Shape).rowMajor.symm _ G (fun n => rfl), ← Fintype.sum_equiv (idxEquiv1 8).symm (fun k => G (ValueIdx.ix1 k)) G (fun k => rfl)]
  simp only [G, Fin.sum_univ_eight]
  have hj : (j 0).val < 8 := (j 0).isLt
  generalize (j 0).val = j0 at hj ⊢
  interval_cases j0 <;> simp [Finset.sum_range_succ, BitVec.ofNat_add]

theorem shift8_apply {α : Type} (a : (⟨1, ![1]⟩ : Shape).Idx → α) (b : (⟨1, ![8]⟩ : Shape).Idx → α)
    (hs : (⟨1, ![8]⟩ : Shape).Slices ![0] ⟨1, ![7]⟩) (hc : Shape.Concatenates [(⟨1, ![1]⟩ : Shape), ⟨1, ![7]⟩] ⟨1, ![8]⟩ 0) (d : Fin 8) :
    concatenate (⟨1, ![8]⟩ : Shape) 0 [⟨⟨1, ![1]⟩, a⟩, ⟨⟨1, ![7]⟩, extractStridedSlice ⟨1, ![7]⟩ ![0] b hs⟩] hc (ValueIdx.ix1 d)
      = if h : d.val = 0 then a (ValueIdx.ix1 0) else b (ValueIdx.ix1 ⟨d.val - 1, by omega⟩) := by
  by_cases h : d.val = 0
  · rw [dif_pos h]
    exact concatenate_pair_apply_left (0 : Fin 1) a _ hc (ValueIdx.ix1 d) rfl (ValueIdx.ix1 0)
      (fun b => by match b with | ⟨0, _⟩ => exact h.symm)
  · rw [dif_neg h]
    have hd : d.val - 1 < 7 := by omega
    rw [concatenate_pair_apply_right (0 : Fin 1) a (extractStridedSlice ⟨1, ![7]⟩ ![0] b hs) hc (ValueIdx.ix1 d) rfl rfl (ValueIdx.ix1 (n := 7) ⟨d.val - 1, hd⟩)
      (fun b hb => absurd (Subsingleton.elim _ _) hb) (by show d.val - 1 + 1 = d.val; omega)]
    exact extractStridedSlice_apply ![0] b hs (ValueIdx.ix1 (n := 7) ⟨d.val - 1, hd⟩) (ValueIdx.ix1 (n := 8) ⟨d.val - 1, by omega⟩) (fun a => by match a with | ⟨0, _⟩ => show d.val - 1 = 0 + (d.val - 1); omega)

theorem divsi256 (w : BitVec 32) (hw : w.toNat < 2 ^ 31) : IntOp.divsi .host w 256#32 = BitVec.ofNat 32 (w.toNat / 256) := by
  have hcorner : ¬ IntOp.SDivCorner w 256#32 := by
    intro hc; rcases hc with hc | ⟨_, hc⟩ <;> exact absurd hc (by decide)
  have hm : w.msb = false := BitVec.msb_eq_false_iff_two_mul_lt.mpr (by omega)
  apply BitVec.eq_of_toNat_eq
  simp only [IntOp.divsi, if_neg hcorner, BitVec.sdiv_eq, hm, show (256#32 : BitVec 32).msb = false from by decide, BitVec.udiv_eq,
    BitVec.toNat_udiv, BitVec.toNat_ofNat]
  have e : (256 : ℕ) % 2 ^ 32 = 256 := by norm_num
  rw [e]; omega

theorem sign_pos (w : BitVec 32) (h0 : 0 < w.toNat) (hw : w.toNat < 2 ^ 31) :
    (if w = 0 then (0 : BitVec 32) else if w.msb then -1 else 1) = 1#32 := by
  have hm : w.msb = false := BitVec.msb_eq_false_iff_two_mul_lt.mpr (by omega)
  have hne : w ≠ 0 := by intro e; rw [e] at h0; exact absurd h0 (by decide)
  rw [if_neg hne, hm]; rfl

theorem floorDiv256 (w : BitVec 32) (r : BitVec 1) (h0 : 0 < w.toNat) (hw : w.toNat < 2 ^ 31) :
    Scalar.select (IntOp.andi (IntOp.cmpi .ne (if w = 0 then (0 : BitVec 32) else if w.msb then -1 else 1)
          (if (256#32 : BitVec 32) = 0 then (0 : BitVec 32) else if (256#32 : BitVec 32).msb then -1 else 1)) r)
        (IntOp.subi (IntOp.divsi .host w 256#32) 1#32) (IntOp.divsi .host w 256#32)
      = BitVec.ofNat 32 (w.toNat / 256) := by
  rw [sign_pos w h0 hw, divsi256 w hw]
  have e : IntOp.andi (IntOp.cmpi .ne (1#32 : BitVec 32)
      (if (256#32 : BitVec 32) = 0 then (0 : BitVec 32) else if (256#32 : BitVec 32).msb then -1 else 1)) r = 0#1 := by
    have : IntOp.cmpi .ne (1#32 : BitVec 32)
      (if (256#32 : BitVec 32) = 0 then (0 : BitVec 32) else if (256#32 : BitVec 32).msb then -1 else 1) = 0#1 := by decide
    rw [this]; exact BitVec.zero_and
  rw [e]; exact ValueIdx.select_zero _ _

theorem ofNat_add256_sub1 (n : ℕ) : IntOp.subi (IntOp.addi (BitVec.ofNat 32 n) 256#32) 1#32 = BitVec.ofNat 32 (n + 255) := by
  apply BitVec.eq_of_toNat_eq
  simp only [IntOp.subi, IntOp.addi, BitVec.toNat_sub, BitVec.toNat_add, BitVec.toNat_ofNat]
  have e1 : (256 : ℕ) % 2 ^ 32 = 256 := by norm_num
  have e2 : (1 : ℕ) % 2 ^ 32 = 1 := by norm_num
  rw [e1, e2]; omega

theorem ofNat_sub_of_le (a b : ℕ) (hab : b ≤ a) : IntOp.subi (BitVec.ofNat 32 a) (BitVec.ofNat 32 b) = BitVec.ofNat 32 (a - b) := by
  apply BitVec.eq_of_toNat_eq
  simp only [IntOp.subi, BitVec.toNat_sub, BitVec.toNat_ofNat]
  omega

theorem ofNat_mul256 (n : ℕ) : IntOp.muli (BitVec.ofNat 32 n) 256#32 = BitVec.ofNat 32 (n * 256) := by
  apply BitVec.eq_of_toNat_eq
  simp only [IntOp.muli, BitVec.toNat_mul, BitVec.toNat_ofNat]
  have e1 : (256 : ℕ) % 2 ^ 32 = 256 := by norm_num
  rw [e1]; omega

end Cert.HostArith
-- ==== Proof.HostTile2.lean ====
import proofs.«417603_j79766132621353_3_alg».proof.Proof.Gen.KernelIdeal.Regions
import proofs.«417603_j79766132621353_3_alg».proof.Proof.HostIdx
import proofs.«417603_j79766132621353_3_alg».proof.Proof.Tbl

set_option maxRecDepth 16384

noncomputable section

namespace Cert.KernelIdeal.Hand

open Cert.KernelIdeal Cert.KernelIdeal.Gen Idealize.ShloMosaic Idealize.ShloMosaic.TcCoe

variable {F : FTy → Type} [FloatOps F]

theorem ok1_of_range (pf : pre1.Contents (Elt F)) (hl : ∀ x : S24.Idx, ((pf 0 : S24.Idx → BitVec 32) x).toNat < 8) : ok1 pf := by
  refine ⟨fun i => ?_, fun i => ?_, fun i => ?_⟩
  · obtain ⟨w, hw, e⟩ : ∃ w : BitVec 32, w.toNat < 8 ∧
        cc1_transform_1 k1_off1_inb numel1_S1 pf i = ![w.toNat, (BitVec.ofNat 32 (i 1).val).toNat, (0#32).toNat] := ⟨_, hl _, rfl⟩
    refine ⟨fun a => ?_, Or.inl rfl⟩
    rw [e]
    have hi : (i 1).val < 8 := (i 1).isLt
    fin_cases a <;> simp [S1x64x4096, S8x512x4096] <;> omega
  · obtain ⟨w, hw, e⟩ : ∃ w : BitVec 32, w.toNat < 8 ∧
        cc1_transform_2 k1_off1_inb numel1_S1 pf i = ![w.toNat, (0#32).toNat, (0#32).toNat] := ⟨_, hl _, rfl⟩
    refine ⟨fun a => ?_, Or.inl rfl⟩
    rw [e]
    fin_cases a <;> simp [S1x1x4096, S8x1x4096] <;> omega
  · obtain ⟨w, hw, e⟩ : ∃ w : BitVec 32, w.toNat < 8 ∧
        cc1_transform_3 k1_off1_inb numel1_S1 pf i = ![w.toNat, (0#32).toNat, (0#32).toNat] := ⟨_, hl _, rfl⟩
    refine ⟨fun a => ?_, Or.inl rfl⟩
    rw [e]
    fin_cases a <;> simp [S1x1x4096, S8x1x4096] <;> omega

theorem tbl_ok_of_range (m : (ℓ : Loc nD τ sig) → Buf (Elt F) ℓ)
    (hr : ∀ j : S24.Idx, ((Gen.V16 m (outsM m) (0 : Dev nD) main_v57 : S24.Idx → BitVec 32) j).toNat < 8) : ok1 (tbl m) :=
  ok1_of_range (tbl m) (fun x => hr x)

end Cert.KernelIdeal.Hand
-- ==== Proof.HostTile.lean ====
import proofs.«417603_j79766132621353_3_alg».proof.Proof.Gen.KernelIdeal.Regions
import proofs.«417603_j79766132621353_3_alg».proof.Proof.HostIdx
import proofs.«417603_j79766132621353_3_alg».proof.Proof.Tbl
import proofs.«417603_j79766132621353_3_alg».proof.Proof.HostRead
import proofs.«417603_j79766132621353_3_alg».proof.Proof.HostTileArith
import proofs.«417603_j79766132621353_3_alg».proof.Proof.HostArith
import proofs.«417603_j79766132621353_3_alg».proof.Proof.HostTile2

set_option maxRecDepth 4096

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (outs : Outs (F := F))

theorem v21_carry (c : Dev nD) : Gen.V12 m outs c main_v21 = Gen.V7 m outs c main_v21 :=
  (Gen.V12_of m outs c main_v21 (by decide)).trans <| (Gen.V11_of m outs c main_v21 (by decide)).trans <|
    (Gen.V10_of m outs c main_v21 (by decide)).trans <| (Gen.V9_of m outs c main_v21 (by decide)).trans <|
    (Gen.V8_of m outs c main_v21 (by decide))

theorem v46_of_v21 (c : Dev nD) : (Gen.V13 m outs c main_v46 : S8.Idx → BitVec 32) = runSum8 (Gen.V7 m outs c main_v21) := by
  have h : Gen.V13 m outs c main_v46 = cumsum8 (Gen.V12 m outs c main_v21) zero0 := rd_v46 (Gen.V12 m outs c)
  rw [h, v21_carry]
  rfl

theorem v57_of_v21 (c : Dev nD) : (Gen.V16 m outs c main_v57 : S24.Idx → BitVec 32) = tileOf (Gen.V7 m outs c main_v21) := by
  have h16 : Gen.V16 m outs c main_v57 = Gen.V15 m outs c main_v57 := Gen.V16_of m outs c main_v57 (by decide)
  have h15 : Gen.V15 m outs c main_v57 = _ := rd_v57 (Gen.V14 m outs c)
  have hc14 : Gen.V14 m outs c main_c_14 = _ := rd_c14 (Gen.V13 m outs c)
  have hc13 : Gen.V14 m outs c main_c_13 = _ := rd_c13 (Gen.V13 m outs c)
  have h56 : Gen.V14 m outs c main_v56 = _ := rd_v56 (Gen.V13 m outs c)
  have h46 := v46_of_v21 m outs c
  rw [h16, h15, hc14, hc13, h56, h46]
  rfl

theorem tbl_range (c : Dev nD) (j : S24.Idx) : ((Gen.V16 m outs c main_v57 : S24.Idx → BitVec 32) j).toNat < 8 := by
  rw [v57_of_v21]
  exact tileOf_lt _ j

theorem runSum8_pc (p : S8.Idx → BitVec 32) (idx : Fin 4096 → ℕ)
    (hp : ∀ d : Fin 8, p (ValueIdx.ix1 d) = BitVec.ofNat 32 (Cert.Comb.pc idx d.val)) (d : Fin 8) :
    runSum8 p (ValueIdx.ix1 d) = BitVec.ofNat 32 (Cert.Comb.bound idx d.val) := by
  unfold runSum8
  refine (Cert.HostArith.cumsum8_ofNat p (broadcastInDim S_ ![] Facts₀.bcast_S_S_ (constantI S_ 32 0#32))
    Facts₀.reduceWindows_S8_S8_w8s1p7_0 Facts₀.h_S_ (fun _ => rfl) (Cert.Comb.pc idx)
    (fun j => (congrArg p (ValueIdx.eq_ix1 j)).trans (hp (j 0))) (ValueIdx.ix1 d)).trans ?_
  rfl

section Counts
variable (c : Dev nD)
  (h21 : ∀ d : Fin 8, (Gen.V7 m outs c main_v21 : S8.Idx → BitVec 32) (ValueIdx.ix1 d) = BitVec.ofNat 32 (Cert.Comb.pc (idxN m c) d.val))
include h21

theorem v57_eq (i : Fin 24) :
    (Gen.V16 m outs c main_v57 : S24.Idx → BitVec 32) (ValueIdx.ix1 i) = BitVec.ofNat 32 (Cert.Comb.tile (idxN m c) i.val) := by
  rw [v57_of_v21]
  exact tileOf_eq _ _ (runSum8_pc _ _ h21) i

end Counts

theorem v21_free (o o' : Outs (F := F)) (c : Dev nD) : Gen.V7 m o c main_v21 = Gen.V7 m o' c main_v21 := by
  have e6 : ∀ o : Outs (F := F), Gen.V2 m o c main_arg6 = Gen.V0 m c main_arg6 := fun o =>
    (Gen.V2_of m o c main_arg6 (by decide)).trans (Gen.V1_of m c main_arg6 (by decide))
  have e10 : Gen.V4 m o c main_v10 = Gen.V4 m o' c main_v10 := by
    rw [Gen.V4_of m o c main_v10 (by decide), Gen.V4_of m o' c main_v10 (by decide)]
    have a : Gen.V3 m o c main_v10 = _ := rd_v10 (Gen.V2 m o c)
    have b : Gen.V3 m o' c main_v10 = _ := rd_v10 (Gen.V2 m o' c)
    rw [a, b, e6 o, e6 o']
  have e18 : Gen.V5 m o c main_v18 = Gen.V5 m o' c main_v18 := by
    have a : Gen.V5 m o c main_v18 = _ := rd_v18 (Gen.V4 m o c)
    have b : Gen.V5 m o' c main_v18 = _ := rd_v18 (Gen.V4 m o' c)
    rw [a, b, e10]
  have ec3 : Gen.V5 m o c main_c_3 = Gen.V5 m o' c main_c_3 :=
    (rd_c3 (Gen.V4 m o c)).trans (rd_c3 (Gen.V4 m o' c)).symm
  have e19 : Gen.V6 m o c main_v19 = Gen.V6 m o' c main_v19 := by
    have a : Gen.V6 m o c main_v19 = _ := rd_v19 (Gen.V5 m o c)
    have b : Gen.V6 m o' c main_v19 = _ := rd_v19 (Gen.V5 m o' c)
    rw [a, b, e18, ec3]
  have a : Gen.V7 m o c main_v21 = _ := rd_v21 (Gen.V6 m o c)
  have b : Gen.V7 m o' c main_v21 = _ := rd_v21 (Gen.V6 m o' c)
  rw [a, b, e19]

theorem v57_indep (o : Outs (F := F)) (c : Dev nD) : Gen.V16 m o c main_v57 = Gen.V16 m (outsM m) c main_v57 := by
  have h := v57_of_v21 m o c
  have h' := v57_of_v21 m (outsM m) c
  rw [v21_free m o (outsM m) c] at h
  exact h.trans h'.symm

theorem tbl_ok : ok1 (tbl m) := tbl_ok_of_range m (fun j => tbl_range m (outsM m) (0 : Dev nD) j)

end Cert.KernelIdeal.Hand

end
-- ==== Proof.HostReadB.lean ====
import proofs.«417603_j79766132621353_3_alg».proof.Proof.Gen.Kernel.Regions
import Idealize.ShloMosaic.Lib.StableHlo.Run

set_option maxRecDepth 4096

noncomputable section

namespace Cert.Kernel.Hand

open Cert.Kernel Cert.Kernel.Gen
open Idealize.ShloMosaic Idealize.ShloMosaic.TcCoe Idealize.SL.Sem

variable {F : FTy → Type} [FloatOps F]
variable (V : Valuation τ sig (Elt F))

abbrev cumsum8 (x : S8.Idx → BitVec 32) (v : S_.Idx → BitVec 32) : S8.Idx → BitVec 32 :=
  Host.reduceWindow IntOp.addi ![8] ![1] ![7] ![0] x v reduceWindows_S8_S8_w8s1p7_0 h_S_

abbrev zero0 : S_.Idx → BitVec 32 := broadcastInDim S_ ![] bcast_S_S_ (constantI S_ 32 0#32)

abbrev shift8 (a : S1.Idx → BitVec 32) (b : S8.Idx → BitVec 32) : S8.Idx → BitVec 32 :=
  concatenate S8 0 [⟨S1, a⟩, ⟨S7, extractStridedSlice S7 ![0] b slices_S8_S7_0⟩] concatenates_S1_S7_S8_d0

theorem rd_v10 : StableHlo.after hostOps1 V (Proc.devRef .tc main_v10) =
    Host.reduce IntOp.addi (extui 32 (cmpi CmpIPredicate.eq
        (broadcastInDim S8x4096 ![0, 1] bcast_S1x4096_S8x4096_0_1 (broadcastInDim S1x4096 ![1] bcast_S4096_S1x4096_1 (V (Proc.devRef .tc main_arg6))))
        (broadcastInDim S8x4096 ![0, 1] bcast_S8x1_S8x4096_0_1 (broadcastInDim S8x1 ![0] bcast_S8_S8x1_0 (iotaInDim S8 32 0))))
      natLt_1_32) (constantI S_ 32 0#32) reducesTo_S8x4096_S8_d1 h_S_ := by
  after_results

theorem rd_v11 : StableHlo.after hostOps1 V (Proc.devRef .tc main_v11) = broadcastInDim S1 ![] bcast_S_S1 (constantI S_ 32 0#32) := by
  after_results

theorem rd_v12 : StableHlo.after hostOps1_1 V (Proc.devRef .tc main_v12) = cumsum8 (V (Proc.devRef .tc main_v10)) zero0 := by
  after_results
  simp only [StableHlo.TRef.toBuf, StableHlo.TRef.ofBuf, cast_eq]

theorem rd_v14 : StableHlo.after hostOps1_2 V (Proc.devRef .tc main_v14) = shift8 (V (Proc.devRef .tc main_v11)) (V (Proc.devRef .tc main_v12)) := by
  after_results

theorem rd_v18 : StableHlo.after hostOps1_2 V (Proc.devRef .tc main_v18) =
    subi (addi (V (Proc.devRef .tc main_v10)) (broadcastInDim S8 ![] bcast_S_S8 (constantI S_ 32 256#32))) (broadcastInDim S8 ![] bcast_S_S8 (constantI S_ 32 1#32)) := by
  after_results

theorem rd_c3 : StableHlo.after hostOps1_2 V (Proc.devRef .tc main_c_3) = constantI S_ 32 256#32 := by
  after_results

abbrev floorDiv8 (x : S8.Idx → BitVec 32) (y : S_.Idx → BitVec 32) : S8.Idx → BitVec 32 :=
  select (andi (cmpi CmpIPredicate.ne (signi x) (broadcastInDim S8 ![] bcast_S_S8 (signi y)))
      (cmpi CmpIPredicate.ne (Host.remsi x (broadcastInDim S8 ![] bcast_S_S8 y)) (broadcastInDim S8 ![] bcast_S_S8 (constantI S_ 32 0#32))))
    (subi (Host.divsi x (broadcastInDim S8 ![] bcast_S_S8 y)) (broadcastInDim S8 ![] bcast_S_S8 (constantI S_ 32 1#32)))
    (Host.divsi x (broadcastInDim S8 ![] bcast_S_S8 y))

theorem rd_v19 : StableHlo.after hostOps1_3 V (Proc.devRef .tc main_v19) = floorDiv8 (V (Proc.devRef .tc main_v18)) (V (Proc.devRef .tc main_c_3)) := by
  after_results
  simp only [StableHlo.TRef.toBuf, StableHlo.TRef.ofBuf, cast_eq, id_eq]

theorem rd_v21 : StableHlo.after hostOps1_4 V (Proc.devRef .tc main_v21) =
    muli (V (Proc.devRef .tc main_v19)) (broadcastInDim S8 ![] bcast_S_S8 (constantI S_ 32 256#32)) := by
  after_results

theorem rd_v22 : StableHlo.after hostOps1_4 V (Proc.devRef .tc main_v22) = broadcastInDim S1 ![] bcast_S_S1 (constantI S_ 32 0#32) := by
  after_results

theorem rd_v23 : StableHlo.after hostOps1_5 V (Proc.devRef .tc main_v23) = cumsum8 (V (Proc.devRef .tc main_v21)) zero0 := by
  after_results
  simp only [StableHlo.TRef.toBuf, StableHlo.TRef.ofBuf, cast_eq]

theorem rd_v26 : StableHlo.after hostOps1_6 V (Proc.devRef .tc main_v26) = subi (shift8 (V (Proc.devRef .tc main_v22)) (V (Proc.devRef .tc main_v23))) (V (Proc.devRef .tc main_v14)) := by
  after_results

theorem rd_v46 : StableHlo.after hostOps1_10 V (Proc.devRef .tc main_v46) = cumsum8 (V (Proc.devRef .tc main_v21)) zero0 := by
  after_results
  simp only [StableHlo.TRef.toBuf, StableHlo.TRef.ofBuf, cast_eq]

theorem rd_v56 : StableHlo.after hostOps1_11 V (Proc.devRef .tc main_v56) =
    Host.reduce IntOp.addi (extui 32 (cmpi CmpIPredicate.sle
        (broadcastInDim S24x8 ![0, 1] bcast_S1x8_S24x8_0_1 (broadcastInDim S1x8 ![1] bcast_S8_S1x8_1 (V (Proc.devRef .tc main_v46))))
        (broadcastInDim S24x8 ![0, 1] bcast_S24x1_S24x8_0_1 (broadcastInDim S24x1 ![0] bcast_S24_S24x1_0
          (muli (iotaInDim S24 32 0) (broadcastInDim S24 ![] bcast_S_S24 (constantI S_ 32 256#32))))))
      natLt_1_32) (constantI S_ 32 0#32) reducesTo_S24x8_S24_d1 h_S_ := by
  after_results

theorem rd_c13 : StableHlo.after hostOps1_11 V (Proc.devRef .tc main_c_13) = constantI S_ 32 0#32 := by
  after_results

theorem rd_c14 : StableHlo.after hostOps1_11 V (Proc.devRef .tc main_c_14) = constantI S_ 32 7#32 := by
  after_results

theorem rd_v57 : StableHlo.after hostOps1_12 V (Proc.devRef .tc main_v57) =
    minsi (broadcastInDim S24 ![] bcast_S_S24 (V (Proc.devRef .tc main_c_14))) (maxsi (broadcastInDim S24 ![] bcast_S_S24 (V (Proc.devRef .tc main_c_13))) (V (Proc.devRef .tc main_v56))) := by
  after_results
  simp only [StableHlo.TRef.toBuf, StableHlo.TRef.ofBuf, cast_eq, id_eq]

end Cert.Kernel.Hand

end
-- ==== Proof.HostTileArithB.lean ====
import proofs.«417603_j79766132621353_3_alg».proof.Proof.Gen.Kernel
import proofs.«417603_j79766132621353_3_alg».proof.Proof.CombMore
import Idealize.ShloMosaic.Lib.StableHlo.Predicate
import Idealize.ShloMosaic.Lib.ValueIdx

noncomputable section

namespace Cert.Kernel.Hand

open Cert.Kernel
open Idealize.ShloMosaic Idealize.ShloMosaic.StableHlo.Predicate
open Cert.Kernel.Facts₀

theorem clipw_lt (w : BitVec 32) : (IntOp.minsi 7#32 (IntOp.maxsi 0#32 w)).toNat < 8 := by
  have h7 : (7#32 : BitVec 32).toInt = 7 := by decide
  have h0 : (0#32 : BitVec 32).toInt = 0 := by decide
  unfold IntOp.minsi IntOp.maxsi
  by_cases hw : w.slt 0#32 = true
  · rw [if_pos hw]
    have : ¬ ((7#32 : BitVec 32).slt 0#32 = true) := by decide
    rw [if_neg this]; decide
  · rw [if_neg hw]
    simp only [BitVec.slt, h0, decide_eq_true_eq, not_lt] at hw
    by_cases h2 : (7#32 : BitVec 32).slt w = true
    · rw [if_pos h2]; decide
    · rw [if_neg h2]
      simp only [BitVec.slt, h7, decide_eq_true_eq, not_lt] at h2
      rw [BitVec.toInt_eq_toNat_cond] at hw h2
      have := w.isLt
      split at hw <;> omega

theorem clipw_small (w : BitVec 32) (h : w.toNat < 2 ^ 31) :
    IntOp.minsi 7#32 (IntOp.maxsi 0#32 w) = BitVec.ofNat 32 (min 7 w.toNat) := by
  have h7 : (7#32 : BitVec 32).toInt = 7 := by decide
  have h0 : (0#32 : BitVec 32).toInt = 0 := by decide
  have hwi : w.toInt = w.toNat := toInt_eq_toNat_of_lt h
  unfold IntOp.minsi IntOp.maxsi
  have hw : ¬ (w.slt 0#32 = true) := by
    simp only [BitVec.slt, h0, hwi, decide_eq_true_eq, not_lt]; omega
  rw [if_neg hw]
  by_cases h2 : (7#32 : BitVec 32).slt w = true
  · rw [if_pos h2]
    simp only [BitVec.slt, h7, hwi, decide_eq_true_eq] at h2
    rw [show min 7 w.toNat = 7 by omega]
  · rw [if_neg h2]
    simp only [BitVec.slt, h7, hwi, decide_eq_true_eq, not_lt] at h2
    rw [show min 7 w.toNat = w.toNat by omega, BitVec.ofNat_toNat, BitVec.setWidth_eq]

theorem ofFin_eq_ix1 {n : Nat} (k : Fin n) : Shape.Idx.ofFin k = ValueIdx.ix1 k := by
  funext a
  match a with
  | ⟨0, _⟩ => exact Fin.ext rfl

def tileStarts : S24.Idx → BitVec 32 :=
  muli (iotaInDim S24 32 0) (broadcastInDim S24 ![] bcast_S_S24 (constantI S_ 32 256#32))

def endsBelow (e : S8.Idx → BitVec 32) : S24.Idx → BitVec 32 :=
  Host.reduce IntOp.addi (extui 32 (cmpi CmpIPredicate.sle
      (broadcastInDim S24x8 ![0, 1] bcast_S1x8_S24x8_0_1 (broadcastInDim S1x8 ![1] bcast_S8_S1x8_1 e))
      (broadcastInDim S24x8 ![0, 1] bcast_S24x1_S24x8_0_1 (broadcastInDim S24x1 ![0] bcast_S24_S24x1_0 tileStarts)))
    natLt_1_32) (constantI S_ 32 0#32) reducesTo_S24x8_S24_d1 h_S_

def clip07 (w : S24.Idx → BitVec 32) : S24.Idx → BitVec 32 :=
  minsi (broadcastInDim S24 ![] bcast_S_S24 (constantI S_ 32 7#32)) (maxsi (broadcastInDim S24 ![] bcast_S_S24 (constantI S_ 32 0#32)) w)

theorem tileStarts_apply (i : Fin 24) : tileStarts (ValueIdx.ix1 i) = BitVec.ofNat 32 (i.val * 256) := by
  show (BitVec.ofNat 32 i.val) * (256#32) = _
  rw [BitVec.ofNat_mul]

theorem clip07_apply (w : S24.Idx → BitVec 32) (j : S24.Idx) : clip07 w j = IntOp.minsi 7#32 (IntOp.maxsi 0#32 (w j)) := rfl

theorem clip07_lt (w : S24.Idx → BitVec 32) (j : S24.Idx) : (clip07 w j).toNat < 8 := by
  rw [clip07_apply]; exact clipw_lt _

theorem endsBelow_toNat (e : S8.Idx → BitVec 32) (f : ℕ → ℕ) (he : ∀ d : Fin 8, e (ValueIdx.ix1 d) = BitVec.ofNat 32 (f d.val))
    (hf : ∀ d : Fin 8, f d.val < 2 ^ 31) (i : Fin 24) :
    (endsBelow e (ValueIdx.ix1 i)).toNat = ∑ d : Fin 8, if f d.val ≤ i.val * 256 then 1 else 0 := by
  unfold endsBelow
  rw [toNat_reduce_count_cols (by decide) _ natLt_1_32 reducesTo_S24x8_S24_d1 h_S_ (ValueIdx.ix1 i), Finset.card_filter]
  refine Finset.sum_congr rfl fun d _ => ?_
  have hm : cmpi CmpIPredicate.sle
      (broadcastInDim S24x8 ![0, 1] bcast_S1x8_S24x8_0_1 (broadcastInDim S1x8 ![1] bcast_S8_S1x8_1 e))
      (broadcastInDim S24x8 ![0, 1] bcast_S24x1_S24x8_0_1 (broadcastInDim S24x1 ![0] bcast_S24_S24x1_0 tileStarts)) (ij i d)
      = BitVec.ofBool ((BitVec.ofNat 32 (f d.val)).sle (BitVec.ofNat 32 (i.val * 256))) := by
    show IntOp.cmpi CmpIPredicate.sle _ _ = _
    rw [bcast_cols, bcast_rows, ofFin_eq_ix1, ofFin_eq_ix1, he, tileStarts_apply]
    rfl
  show (if cmpi CmpIPredicate.sle _ _ (ij i d) = 1#1 then 1 else 0) = _
  rw [hm]
  have hi := i.isLt
  have := sle_ofNat_iff (f d.val) (i.val * 256) (hf d) (by omega)
  by_cases hle : f d.val ≤ i.val * 256
  · rw [if_pos hle, if_pos (this.mpr hle)]
  · rw [if_neg hle, if_neg (fun h => hle (this.mp h))]

def runSum8 (p : S8.Idx → BitVec 32) : S8.Idx → BitVec 32 :=
  Host.reduceWindow IntOp.addi ![8] ![1] ![7] ![0] p (broadcastInDim S_ ![] bcast_S_S_ (constantI S_ 32 0#32))
    reduceWindows_S8_S8_w8s1p7_0 h_S_

def tileOf (p : S8.Idx → BitVec 32) : S24.Idx → BitVec 32 := clip07 (endsBelow (runSum8 p))

theorem tileOf_lt (p : S8.Idx → BitVec 32) (j : S24.Idx) : (tileOf p j).toNat < 8 := clip07_lt _ j

theorem bound_lt (idx : Fin 4096 → ℕ) (d : ℕ) (hd : d < 8) : Cert.Comb.bound idx d < 2 ^ 31 := by
  unfold Cert.Comb.bound
  have h1 := Cert.Comb.gsp_le_gsu_add idx (d + 1)
  have h2 := Cert.Comb.gsu_le_card idx (d + 1)
  omega

theorem tileOf_eq (p : S8.Idx → BitVec 32) (idx : Fin 4096 → ℕ)
    (he : ∀ d : Fin 8, runSum8 p (ValueIdx.ix1 d) = BitVec.ofNat 32 (Cert.Comb.bound idx d.val)) (i : Fin 24) :
    tileOf p (ValueIdx.ix1 i) = BitVec.ofNat 32 (Cert.Comb.tile idx i.val) := by
  unfold tileOf
  rw [clip07_apply]
  have hn := endsBelow_toNat (runSum8 p) (Cert.Comb.bound idx) he (fun d => bound_lt idx d.val d.isLt) i
  have hle : (endsBelow (runSum8 p) (ValueIdx.ix1 i)).toNat ≤ 8 := by
    rw [hn]
    calc (∑ d : Fin 8, if Cert.Comb.bound idx d.val ≤ i.val * 256 then 1 else 0)
        ≤ ∑ _d : Fin 8, 1 := Finset.sum_le_sum (fun d _ => by split <;> omega)
      _ = 8 := by simp
  rw [clipw_small _ (by omega), hn, Cert.Comb.tile_eq_sum_fin]

end Cert.Kernel.Hand

end
-- ==== Proof.HostTile2B.lean ====
import proofs.«417603_j79766132621353_3_alg».proof.Proof.Gen.Kernel.Regions
import proofs.«417603_j79766132621353_3_alg».proof.Proof.HostIdxB
import proofs.«417603_j79766132621353_3_alg».proof.Proof.TblB

set_option maxRecDepth 16384

noncomputable section

namespace Cert.Kernel.Hand

open Cert.Kernel Cert.Kernel.Gen Idealize.ShloMosaic Idealize.ShloMosaic.TcCoe

variable {F : FTy → Type} [FloatOps F]

theorem ok1_of_range (pf : pre1.Contents (Elt F)) (hl : ∀ x : S24.Idx, ((pf 0 : S24.Idx → BitVec 32) x).toNat < 8) : ok1 pf := by
  refine ⟨fun i => ?_, fun i => ?_, fun i => ?_⟩
  · obtain ⟨w, hw, e⟩ : ∃ w : BitVec 32, w.toNat < 8 ∧
        cc1_transform_1 k1_off1_inb numel1_S1 pf i = ![w.toNat, (BitVec.ofNat 32 (i 1).val).toNat, (0#32).toNat] := ⟨_, hl _, rfl⟩
    refine ⟨fun a => ?_, Or.inl rfl⟩
    rw [e]
    have hi : (i 1).val < 8 := (i 1).isLt
    fin_cases a <;> simp [S1x64x4096, S8x512x4096] <;> omega
  · obtain ⟨w, hw, e⟩ : ∃ w : BitVec 32, w.toNat < 8 ∧
        cc1_transform_2 k1_off1_inb numel1_S1 pf i = ![w.toNat, (0#32).toNat, (0#32).toNat] := ⟨_, hl _, rfl⟩
    refine ⟨fun a => ?_, Or.inl rfl⟩
    rw [e]
    fin_cases a <;> simp [S1x1x4096, S8x1x4096] <;> omega
  · obtain ⟨w, hw, e⟩ : ∃ w : BitVec 32, w.toNat < 8 ∧
        cc1_transform_3 k1_off1_inb numel1_S1 pf i = ![w.toNat, (0#32).toNat, (0#32).toNat] := ⟨_, hl _, rfl⟩
    refine ⟨fun a => ?_, Or.inl rfl⟩
    rw [e]
    fin_cases a <;> simp [S1x1x4096, S8x1x4096] <;> omega

theorem tbl_ok_of_range (m : (ℓ : Loc nD τ sig) → Buf (Elt F) ℓ)
    (hr : ∀ j : S24.Idx, ((Gen.V16 m (outsM m) (0 : Dev nD) main_v57 : S24.Idx → BitVec 32) j).toNat < 8) : ok1 (tbl m) :=
  ok1_of_range (tbl m) (fun x => hr x)

end Cert.Kernel.Hand
-- ==== Proof.HostTileB.lean ====
import proofs.«417603_j79766132621353_3_alg».proof.Proof.Gen.Kernel.Regions
import proofs.«417603_j79766132621353_3_alg».proof.Proof.HostIdxB
import proofs.«417603_j79766132621353_3_alg».proof.Proof.TblB
import proofs.«417603_j79766132621353_3_alg».proof.Proof.HostReadB
import proofs.«417603_j79766132621353_3_alg».proof.Proof.HostTileArithB
import proofs.«417603_j79766132621353_3_alg».proof.Proof.HostArith
import proofs.«417603_j79766132621353_3_alg».proof.Proof.HostTile2B

set_option maxRecDepth 4096

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ) (outs : Outs (F := F))

theorem v21_carry (c : Dev nD) : Gen.V12 m outs c main_v21 = Gen.V7 m outs c main_v21 :=
  (Gen.V12_of m outs c main_v21 (by decide)).trans <| (Gen.V11_of m outs c main_v21 (by decide)).trans <|
    (Gen.V10_of m outs c main_v21 (by decide)).trans <| (Gen.V9_of m outs c main_v21 (by decide)).trans <|
    (Gen.V8_of m outs c main_v21 (by decide))

theorem v46_of_v21 (c : Dev nD) : (Gen.V13 m outs c main_v46 : S8.Idx → BitVec 32) = runSum8 (Gen.V7 m outs c main_v21) := by
  have h : Gen.V13 m outs c main_v46 = cumsum8 (Gen.V12 m outs c main_v21) zero0 := rd_v46 (Gen.V12 m outs c)
  rw [h, v21_carry]
  rfl

theorem v57_of_v21 (c : Dev nD) : (Gen.V16 m outs c main_v57 : S24.Idx → BitVec 32) = tileOf (Gen.V7 m outs c main_v21) := by
  have h16 : Gen.V16 m outs c main_v57 = Gen.V15 m outs c main_v57 := Gen.V16_of m outs c main_v57 (by decide)
  have h15 : Gen.V15 m outs c main_v57 = _ := rd_v57 (Gen.V14 m outs c)
  have hc14 : Gen.V14 m outs c main_c_14 = _ := rd_c14 (Gen.V13 m outs c)
  have hc13 : Gen.V14 m outs c main_c_13 = _ := rd_c13 (Gen.V13 m outs c)
  have h56 : Gen.V14 m outs c main_v56 = _ := rd_v56 (Gen.V13 m outs c)
  have h46 := v46_of_v21 m outs c
  rw [h16, h15, hc14, hc13, h56, h46]
  rfl

theorem tbl_range (c : Dev nD) (j : S24.Idx) : ((Gen.V16 m outs c main_v57 : S24.Idx → BitVec 32) j).toNat < 8 := by
  rw [v57_of_v21]
  exact tileOf_lt _ j

theorem runSum8_pc (p : S8.Idx → BitVec 32) (idx : Fin 4096 → ℕ)
    (hp : ∀ d : Fin 8, p (ValueIdx.ix1 d) = BitVec.ofNat 32 (Cert.Comb.pc idx d.val)) (d : Fin 8) :
    runSum8 p (ValueIdx.ix1 d) = BitVec.ofNat 32 (Cert.Comb.bound idx d.val) := by
  unfold runSum8
  refine (Cert.HostArith.cumsum8_ofNat p (broadcastInDim S_ ![] Facts₀.bcast_S_S_ (constantI S_ 32 0#32))
    Facts₀.reduceWindows_S8_S8_w8s1p7_0 Facts₀.h_S_ (fun _ => rfl) (Cert.Comb.pc idx)
    (fun j => (congrArg p (ValueIdx.eq_ix1 j)).trans (hp (j 0))) (ValueIdx.ix1 d)).trans ?_
  rfl

section Counts
variable (c : Dev nD)
  (h21 : ∀ d : Fin 8, (Gen.V7 m outs c main_v21 : S8.Idx → BitVec 32) (ValueIdx.ix1 d) = BitVec.ofNat 32 (Cert.Comb.pc (idxN m c) d.val))
include h21

theorem v57_eq (i : Fin 24) :
    (Gen.V16 m outs c main_v57 : S24.Idx → BitVec 32) (ValueIdx.ix1 i) = BitVec.ofNat 32 (Cert.Comb.tile (idxN m c) i.val) := by
  rw [v57_of_v21]
  exact tileOf_eq _ _ (runSum8_pc _ _ h21) i

end Counts

theorem v21_free (o o' : Outs (F := F)) (c : Dev nD) : Gen.V7 m o c main_v21 = Gen.V7 m o' c main_v21 := by
  have e6 : ∀ o : Outs (F := F), Gen.V2 m o c main_arg6 = Gen.V0 m c main_arg6 := fun o =>
    (Gen.V2_of m o c main_arg6 (by decide)).trans (Gen.V1_of m c main_arg6 (by decide))
  have e10 : Gen.V4 m o c main_v10 = Gen.V4 m o' c main_v10 := by
    rw [Gen.V4_of m o c main_v10 (by decide), Gen.V4_of m o' c main_v10 (by decide)]
    have a : Gen.V3 m o c main_v10 = _ := rd_v10 (Gen.V2 m o c)
    have b : Gen.V3 m o' c main_v10 = _ := rd_v10 (Gen.V2 m o' c)
    rw [a, b, e6 o, e6 o']
  have e18 : Gen.V5 m o c main_v18 = Gen.V5 m o' c main_v18 := by
    have a : Gen.V5 m o c main_v18 = _ := rd_v18 (Gen.V4 m o c)
    have b : Gen.V5 m o' c main_v18 = _ := rd_v18 (Gen.V4 m o' c)
    rw [a, b, e10]
  have ec3 : Gen.V5 m o c main_c_3 = Gen.V5 m o' c main_c_3 :=
    (rd_c3 (Gen.V4 m o c)).trans (rd_c3 (Gen.V4 m o' c)).symm
  have e19 : Gen.V6 m o c main_v19 = Gen.V6 m o' c main_v19 := by
    have a : Gen.V6 m o c main_v19 = _ := rd_v19 (Gen.V5 m o c)
    have b : Gen.V6 m o' c main_v19 = _ := rd_v19 (Gen.V5 m o' c)
    rw [a, b, e18, ec3]
  have a : Gen.V7 m o c main_v21 = _ := rd_v21 (Gen.V6 m o c)
  have b : Gen.V7 m o' c main_v21 = _ := rd_v21 (Gen.V6 m o' c)
  rw [a, b, e19]

theorem v57_indep (o : Outs (F := F)) (c : Dev nD) : Gen.V16 m o c main_v57 = Gen.V16 m (outsM m) c main_v57 := by
  have h := v57_of_v21 m o c
  have h' := v57_of_v21 m (outsM m) c
  rw [v21_free m o (outsM m) c] at h
  exact h.trans h'.symm

theorem tbl_ok : ok1 (tbl m) := tbl_ok_of_range m (fun j => tbl_range m (outsM m) (0 : Dev nD) j)

end Cert.Kernel.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

def nibw (w : BitVec 32) (n : Fin 8) : BitVec 32 := (w.sshiftRight' (BitVec.ofNat 32 (4 * n.val))) &&& 15#32

def nib (w : BitVec 32) (n : Fin 8) : EReal := (((nibw w n).toInt : ℝ) : EReal)

def q (qw : IVec ⟨4, ![8, 1, 512, 4096]⟩ 32) (d : Fin 8) (i o : Fin 4096) : EReal :=
  nib (qw (ix4 d (0 : Fin 1) (⟨i.val / 8, by omega⟩ : Fin 512) o)) ⟨i.val % 8, by omega⟩

def z (qz : IVec ⟨4, ![8, 1, 1, 512]⟩ 32) (d : Fin 8) (o : Fin 4096) : EReal :=
  nib (qz (ix4 d (0 : Fin 1) (0 : Fin 1) (⟨o.val / 8, by omega⟩ : Fin 512))) ⟨o.val % 8, by omega⟩

def delta (x : FVec Ideal ⟨2, ![4096, 4096]⟩ .f32) (qw : IVec ⟨4, ![8, 1, 512, 4096]⟩ 32)
    (qz : IVec ⟨4, ![8, 1, 1, 512]⟩ 32) (sc : FVec Ideal ⟨4, ![8, 1, 1, 4096]⟩ .f32) (d : Fin 8) (t o : Fin 4096) : EReal :=
  ∑ i : Fin 4096, x (ix2 t i) * (sc (ix4 d (0 : Fin 1) (0 : Fin 1) o) * (q qw d i o - z qz d o))

def adapter (idx : IVec ⟨1, ![4096]⟩ 32) (t : Fin 4096) : Fin 8 := ⟨(idx (ix1 t)).toNat % 8, Nat.mod_lt _ (by decide)⟩

/-- Entry (t, o) of the result: x · Wᵀ, plus x against the dequantised weights of the adapter token t is routed to, plus the bias. -/
def G (x w : FVec Ideal ⟨2, ![4096, 4096]⟩ .f32) (b : FVec Ideal ⟨1, ![4096]⟩ .f32) (qw : IVec ⟨4, ![8, 1, 512, 4096]⟩ 32)
    (qz : IVec ⟨4, ![8, 1, 1, 512]⟩ 32) (sc : FVec Ideal ⟨4, ![8, 1, 1, 4096]⟩ .f32) (idx : IVec ⟨1, ![4096]⟩ 32) :
    FVec Ideal ⟨2, ![4096, 4096]⟩ .f32 :=
  fun j => (∑ i : Fin 4096, x (ix2 (j 0) i) * w (ix2 (j 1) i)) + delta x qw qz sc (adapter idx (j 0)) (j 0) (j 1) + b (ix1 (j 1))

theorem G_apply (x w : FVec Ideal ⟨2, ![4096, 4096]⟩ .f32) (b : FVec Ideal ⟨1, ![4096]⟩ .f32) (qw : IVec ⟨4, ![8, 1, 512, 4096]⟩ 32)
    (qz : IVec ⟨4, ![8, 1, 1, 512]⟩ 32) (sc : FVec Ideal ⟨4, ![8, 1, 1, 4096]⟩ .f32) (idx : IVec ⟨1, ![4096]⟩ 32) (t o : Fin 4096) :
    G x w b qw qz sc idx (ix2 t o)
      = (∑ i : Fin 4096, x (ix2 t i) * w (ix2 o i)) + delta x qw qz sc (adapter idx t) t o + b (ix1 o) := rfl

end Cert.Spec

end
-- ==== Proof.Alg.lean ====
import Idealize.ShloMosaic.PureOps.Ideal
import Mathlib.Data.EReal.Basic
import Mathlib.Data.EReal.Operations
import Mathlib.Algebra.BigOperators.Fin
import Mathlib.Algebra.BigOperators.Ring.Finset
import Mathlib.Algebra.BigOperators.Group.Finset.Basic
import Mathlib.Logic.Equiv.Fin.Basic
import Mathlib.Tactic.Ring

namespace Cert.Alg

open scoped BigOperators

universe u v w

theorem coe_sum {ι : Type u} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem coe_sum_univ {ι : Type u} [Fintype ι] (f : ι → ℝ) :
    ((∑ i, f i : ℝ) : EReal) = ∑ i, (f i : EReal) := coe_sum Finset.univ f

theorem delta_block {ι : Type v} [Fintype ι] (X Q : ι → ℝ) (s z : ℝ) :
    (∑ j, (X j : EReal) * (Q j : EReal)) * (s : EReal) - (∑ j, (X j : EReal)) * ((z : EReal) * (s : EReal))
      = ∑ j, (X j : EReal) * ((s : EReal) * ((Q j : EReal) - (z : EReal))) := by
  have hr : (∑ j, X j * Q j) * s - (∑ j, X j) * (z * s) = ∑ j, X j * (s * (Q j - z)) := by
    rw [Finset.sum_mul, Finset.sum_mul, ← Finset.sum_sub_distrib]
    exact Finset.sum_congr rfl fun j _ => by ring
  have h := congrArg (fun r : ℝ => (r : EReal)) hr
  simp only [EReal.coe_sub, EReal.coe_mul, coe_sum_univ] at h
  exact h

theorem delta_blocks {κ : Type u} {ι : Type v} [Fintype κ] [Fintype ι] (X Q : κ → ι → ℝ) (s z : ℝ) :
    ∑ k, ((∑ j, (X k j : EReal) * (Q k j : EReal)) * (s : EReal)
            - (∑ j, (X k j : EReal)) * ((z : EReal) * (s : EReal)))
      = ∑ k, ∑ j, (X k j : EReal) * ((s : EReal) * ((Q k j : EReal) - (z : EReal))) :=
  Finset.sum_congr rfl fun k _ => delta_block (X k) (Q k) s z

theorem sum_blocks_equiv {M : Type w} [AddCommMonoid M] {κ : Type u} {ι : Type v} {α : Type*}
    [Fintype κ] [Fintype ι] [Fintype α] (e : κ × ι ≃ α) (f : α → M) :
    ∑ k, ∑ j, f (e (k, j)) = ∑ a, f a := by
  rw [← Fintype.sum_prod_type' (fun k j => f (e (k, j)))]
  exact Equiv.sum_comp e f

theorem blk_lt {m n : ℕ} (k : Fin m) (j : Fin n) : n * k.val + j.val < m * n := by
  have hk := k.isLt
  have hj := j.isLt
  calc n * k.val + j.val < n * k.val + n := by omega
    _ = n * (k.val + 1) := by ring
    _ ≤ n * m := Nat.mul_le_mul_left n hk
    _ = m * n := Nat.mul_comm n m

theorem sum_blocks_mul {M : Type w} [AddCommMonoid M] (m n : ℕ) (f : Fin (m * n) → M) :
    ∑ k : Fin m, ∑ j : Fin n, f ⟨n * k.val + j.val, blk_lt k j⟩ = ∑ i, f i := by
  rw [← sum_blocks_equiv (finProdFinEquiv (m := m) (n := n)) f]
  refine Finset.sum_congr rfl fun k _ => Finset.sum_congr rfl fun j _ => ?_
  congr 1
  apply Fin.ext
  show n * k.val + j.val = j.val + n * k.val
  exact Nat.add_comm _ _

theorem sum_blocks {M : Type w} [AddCommMonoid M] (f : Fin 4096 → M) :
    ∑ k : Fin 8, ∑ j : Fin 512, f ⟨512 * k.val + j.val, blk_lt (m := 8) (n := 512) k j⟩ = ∑ i : Fin 4096, f i :=
  sum_blocks_mul 8 512 f

theorem acc_fold_le {M : Type w} [AddCommMonoid M] {n : ℕ} (b : Fin n → M) (acc : ℕ → M) (h0 : acc 0 = 0)
    (hs : ∀ k (hk : k < n), acc (k + 1) = acc k + b ⟨k, hk⟩) (m : ℕ) (hm : m ≤ n) :
    acc m = ∑ k : Fin m, b ⟨k.val, lt_of_lt_of_le k.isLt hm⟩ := by
  induction m with
  | zero => simp [h0]
  | succ m ih =>
    have hm' : m < n := hm
    rw [hs m hm', ih (Nat.le_of_lt hm'), Fin.sum_univ_castSucc]
    rfl

theorem acc_fold {M : Type w} [AddCommMonoid M] {n : ℕ} (b : Fin n → M) (acc : ℕ → M) (h0 : acc 0 = 0)
    (hs : ∀ k (hk : k < n), acc (k + 1) = acc k + b ⟨k, hk⟩) : acc n = ∑ k, b k :=
  acc_fold_le b acc h0 hs n le_rfl

theorem acc8 {M : Type w} [AddCommMonoid M] (b : Fin 8 → M) (a : M) :
    a + b 0 + b 1 + b 2 + b 3 + b 4 + b 5 + b 6 + b 7 = a + ∑ k, b k := by
  rw [Fin.sum_univ_eight]
  simp only [add_assoc]

theorem delta_blocks_fin {κ : Type u} {ι : Type v} [Fintype κ] [Fintype ι] (X Q : κ → ι → EReal) (s z : EReal)
    (hX : ∀ k j, ∃ r : ℝ, X k j = (r : EReal)) (hQ : ∀ k j, ∃ r : ℝ, Q k j = (r : EReal))
    (hs : ∃ r : ℝ, s = (r : EReal)) (hz : ∃ r : ℝ, z = (r : EReal)) :
    ∑ k, ((∑ j, X k j * Q k j) * s - (∑ j, X k j) * (z * s)) = ∑ k, ∑ j, X k j * (s * (Q k j - z)) := by
  choose Xr hXr using hX
  choose Qr hQr using hQ
  obtain ⟨sr, rfl⟩ := hs
  obtain ⟨zr, rfl⟩ := hz
  have hX' : X = fun k j => (Xr k j : EReal) := funext fun k => funext fun j => hXr k j
  have hQ' : Q = fun k j => (Qr k j : EReal) := funext fun k => funext fun j => hQr k j
  subst hX' hQ'
  exact delta_blocks Xr Qr sr zr

theorem blocked_eq_plain (x q : Fin 4096 → EReal) (s z : EReal)
    (hx : ∀ i, ∃ r : ℝ, x i = (r : EReal)) (hq : ∀ i, ∃ r : ℝ, q i = (r : EReal))
    (hs : ∃ r : ℝ, s = (r : EReal)) (hz : ∃ r : ℝ, z = (r : EReal)) :
    ∑ k : Fin 8,
        ((∑ j : Fin 512, x ⟨512 * k.val + j.val, blk_lt (m := 8) (n := 512) k j⟩
                          * q ⟨512 * k.val + j.val, blk_lt (m := 8) (n := 512) k j⟩) * s
          - (∑ j : Fin 512, x ⟨512 * k.val + j.val, blk_lt (m := 8) (n := 512) k j⟩) * (z * s))
      = ∑ i : Fin 4096, x i * (s * (q i - z)) :=
  (delta_blocks_fin
      (fun (k : Fin 8) (j : Fin 512) => x ⟨512 * k.val + j.val, blk_lt (m := 8) (n := 512) k j⟩)
      (fun (k : Fin 8) (j : Fin 512) => q ⟨512 * k.val + j.val, blk_lt (m := 8) (n := 512) k j⟩) s z
      (fun k j => hx _) (fun k j => hq _) hs hz).trans
    (sum_blocks (fun i : Fin 4096 => x i * (s * (q i - z))))

end Cert.Alg
-- ==== Proof.AlgSpec.lean ====
import proofs.«417603_j79766132621353_3_alg».proof.Proof.Spec
import proofs.«417603_j79766132621353_3_alg».proof.Proof.Alg

noncomputable section

namespace Cert.Alg

open scoped BigOperators
open Idealize.ShloMosaic Idealize.ShloMosaic.ValueIdx

theorem blk_div_lt (k : Fin 8) (j : Fin 512) : (512 * k.val + j.val) / 8 < 512 := by
  have := k.isLt
  have := j.isLt
  omega

theorem blk_mod_lt (k : Fin 8) (j : Fin 512) : (512 * k.val + j.val) % 8 < 8 := by
  omega

theorem q_fin (qw : IVec ⟨4, ![8, 1, 512, 4096]⟩ 32) (d : Fin 8) (i o : Fin 4096) :
    ∃ r : ℝ, Cert.Spec.q qw d i o = (r : EReal) := ⟨_, rfl⟩

theorem z_fin (qz : IVec ⟨4, ![8, 1, 1, 512]⟩ 32) (d : Fin 8) (o : Fin 4096) :
    ∃ r : ℝ, Cert.Spec.z qz d o = (r : EReal) := ⟨_, rfl⟩

theorem kernel_delta_eq (x : FVec Ideal ⟨2, ![4096, 4096]⟩ .f32) (qw : IVec ⟨4, ![8, 1, 512, 4096]⟩ 32)
    (qz : IVec ⟨4, ![8, 1, 1, 512]⟩ 32) (sc : FVec Ideal ⟨4, ![8, 1, 1, 4096]⟩ .f32) (d : Fin 8) (t o : Fin 4096)
    (hx : ∀ j, ∃ r : ℝ, x j = (r : EReal)) (hs : ∀ j, ∃ r : ℝ, sc j = (r : EReal)) :
    ∑ k : Fin 8,
        ((∑ j : Fin 512,
              x (ix2 t ⟨512 * k.val + j.val, blk_lt (m := 8) (n := 512) k j⟩)
                * Cert.Spec.nib (qw (ix4 d (0 : Fin 1) (⟨(512 * k.val + j.val) / 8, blk_div_lt k j⟩ : Fin 512) o))
                    ⟨(512 * k.val + j.val) % 8, blk_mod_lt k j⟩)
            * sc (ix4 d (0 : Fin 1) (0 : Fin 1) o)
          - (∑ j : Fin 512, x (ix2 t ⟨512 * k.val + j.val, blk_lt (m := 8) (n := 512) k j⟩))
              * (Cert.Spec.z qz d o * sc (ix4 d (0 : Fin 1) (0 : Fin 1) o)))
      = Cert.Spec.delta x qw qz sc d t o :=
  blocked_eq_plain (fun i => x (ix2 t i)) (fun i => Cert.Spec.q qw d i o) (sc (ix4 d (0 : Fin 1) (0 : Fin 1) o))
    (Cert.Spec.z qz d o) (fun i => hx _) (fun i => q_fin qw d i o) (hs _) (z_fin qz d o)

end Cert.Alg

end
-- ==== Proof.PreFacts.lean ====
import proofs.«417603_j79766132621353_3_alg».proof.Pre_finite_inputs
import proofs.«417603_j79766132621353_3_alg».proof.Proof.Gen.Pre_finite_inputs
import Idealize.ShloMosaic.Lib.ReduceAll
import Idealize.ShloMosaic.Lib.StableHlo.Predicate
import Idealize.ShloMosaic.PureOps.Ideal

namespace Cert.PreFacts

open Idealize.ShloMosaic Cert.Pre_finite_inputs

instance : Subsingleton S_.Idx := ⟨fun a b => funext fun d => d.elim0⟩

theorem real_of_abs_lt (x : EReal)
    (hx : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at hx
  induction x using EReal.rec with
  | bot => simp [Ideal.cmp] at hx
  | coe r => exact ⟨r, rfl⟩
  | top => simp [Ideal.cmp] at hx

theorem toNat_lt_eight (w : BitVec 32) (h1 : IntOp.cmpi .sge w 0#32 = 1#1) (h2 : IntOp.cmpi .slt w 8#32 = 1#1) :
    w.toNat < 8 := by
  simp only [IntOp.cmpi, StableHlo.Predicate.ofBool_eq_one_iff] at h1 h2
  rw [BitVec.sle_iff_toInt_le] at h1
  rw [BitVec.slt_iff_toInt_lt] at h2
  have e0 : (0#32 : BitVec 32).toInt = 0 := by decide
  have e8 : (8#32 : BitVec 32).toInt = 8 := by decide
  rw [e0] at h1
  rw [e8] at h2
  rw [BitVec.toInt_eq_toNat_cond] at h1 h2
  have := w.isLt
  split at h1 <;> omega

theorem of_pre (a0 a1 : FVec Ideal S4096x4096 .f32) (a2 : FVec Ideal S4096 .f32)
    (a3 : IVec S8x1x512x4096 32) (a4 : IVec S8x1x1x512 32) (a5 : FVec Ideal S8x1x1x4096 .f32)
    (a6 : IVec S4096 32)
    (h : Cert.Pre_finite_inputs.fn (F := Ideal) a0 a1 a2 a3 a4 a5 a6 = fun _ => 1#1) :
    (∀ j, ∃ r : ℝ, a0 j = (r : EReal)) ∧ (∀ j, ∃ r : ℝ, a1 j = (r : EReal)) ∧
    (∀ j, ∃ r : ℝ, a2 j = (r : EReal)) ∧ (∀ j, ∃ r : ℝ, a5 j = (r : EReal)) ∧
    (∀ j, (a6 j).toNat < 8) := by
  have h0 := congrFun h (fun d => d.elim0)
  dsimp only [fn, fn_part1] at h0

  obtain ⟨h0, h6⟩ := IntOp.andi_eq_one.1 h0
  obtain ⟨h0, h5⟩ := IntOp.andi_eq_one.1 h0
  obtain ⟨h0, h2⟩ := IntOp.andi_eq_one.1 h0
  obtain ⟨h0, h1⟩ := IntOp.andi_eq_one.1 h0
  refine ⟨fun j => ?_, fun j => ?_, fun j => ?_, fun j => ?_, fun j => ?_⟩
  · exact real_of_abs_lt _ (Host.reduce_andi_all _ _ _ _ _ h0 j)
  · exact real_of_abs_lt _ (Host.reduce_andi_all _ _ _ _ _ h1 j)
  · exact real_of_abs_lt _ (Host.reduce_andi_all _ _ _ _ _ h2 j)
  · exact real_of_abs_lt _ (Host.reduce_andi_all _ _ _ _ _ h5 j)
  · obtain ⟨e1, e2⟩ := IntOp.andi_eq_one.1 (Host.reduce_andi_all _ _ _ _ _ h6 j)
    exact toNat_lt_eight _ e1 e2

end Cert.PreFacts
-- ==== Proof.KValCore.lean ====
import proofs.«417603_j79766132621353_3_alg».proof.Proof.Gen.KernelIdeal.Regions
import proofs.«417603_j79766132621353_3_alg».proof.Proof.Spec
import proofs.«417603_j79766132621353_3_alg».proof.Proof.HostIdx
import proofs.«417603_j79766132621353_3_alg».proof.Proof.Alg
import proofs.«417603_j79766132621353_3_alg».proof.Proof.AlgSpec
import proofs.«417603_j79766132621353_3_alg».proof.Proof.PreFacts
import proofs.«417603_j79766132621353_3_alg».proof.Defs
import Idealize.ShloMosaic.Lib.ValueIdx

set_option maxRecDepth 1200

noncomputable section

namespace Cert.KernelIdeal.Hand

open Cert.KernelIdeal Cert.KernelIdeal.Gen Idealize.ShloMosaic Idealize.ShloMosaic.TcCoe

def blk (k : Fin 8) (j : Fin 512) : Fin 4096 := ⟨512 * k.val + j.val, Cert.Alg.blk_lt (m := 8) (n := 512) k j⟩

def wrow (i : Fin 4096) : Fin 512 := ⟨i.val / 8, by omega⟩

def wfld (i : Fin 4096) : Fin 8 := ⟨i.val % 8, by omega⟩

def baseBlocked (X W : S4096x4096.Idx → EReal) (r o : Fin 4096) : EReal :=
  ∑ k : Fin 8, ∑ j : Fin 512, X (ValueIdx.ix2 r (blk k j)) * W (ValueIdx.ix2 o (blk k j))

def deltaBlocked (X : S6144x4096.Idx → EReal) (Q : S8x512x4096.Idx → BitVec 32) (Z S : S8x1x4096.Idx → EReal)
    (r : Fin 6144) (o : Fin 4096) (g : Fin 8) : EReal :=
  ∑ k : Fin 8,
    ((∑ j : Fin 512, X (ValueIdx.ix2 r (blk k j))
        * Cert.Spec.nib (Q (ValueIdx.ix3 g (wrow (blk k j)) o)) (wfld (blk k j)))
        * S (ValueIdx.ix3 g (0 : Fin 1) o)
      - (∑ j : Fin 512, X (ValueIdx.ix2 r (blk k j)))
        * (Z (ValueIdx.ix3 g (0 : Fin 1) o) * S (ValueIdx.ix3 g (0 : Fin 1) o)))

def deltaBlockedArgs (x : S4096x4096.Idx → EReal) (qw : S8x1x512x4096.Idx → BitVec 32)
    (qz : S8x1x1x512.Idx → BitVec 32) (sc : S8x1x1x4096.Idx → EReal) (d : Fin 8) (t o : Fin 4096) : EReal :=
  ∑ k : Fin 8,
    ((∑ j : Fin 512, x (ValueIdx.ix2 t (blk k j))
        * Cert.Spec.nib (qw (ValueIdx.ix4 d (0 : Fin 1) (wrow (blk k j)) o)) (wfld (blk k j)))
        * sc (ValueIdx.ix4 d (0 : Fin 1) (0 : Fin 1) o)
      - (∑ j : Fin 512, x (ValueIdx.ix2 t (blk k j)))
        * (Cert.Spec.z qz d o * sc (ValueIdx.ix4 d (0 : Fin 1) (0 : Fin 1) o)))

theorem baseBlocked_eq (X W : S4096x4096.Idx → EReal) (r o : Fin 4096) :
    baseBlocked X W r o = ∑ i : Fin 4096, X (ValueIdx.ix2 r i) * W (ValueIdx.ix2 o i) :=
  Cert.Alg.sum_blocks (fun i => X (ValueIdx.ix2 r i) * W (ValueIdx.ix2 o i))

variable (m : (ℓ : Loc nD τ sig) → Buf (Elt Ideal) ℓ) (outs : Gen.Outs (F := Ideal)) (c : Dev nD)

abbrev aX : S4096x4096.Idx → EReal := m ((c.tc : Thread nD τ).loc main_arg0)
abbrev aW : S4096x4096.Idx → EReal := m ((c.tc : Thread nD τ).loc main_arg1)
abbrev aB : S4096.Idx → EReal := m ((c.tc : Thread nD τ).loc main_arg2)
abbrev aQ : S8x1x512x4096.Idx → BitVec 32 := m ((c.tc : Thread nD τ).loc main_arg3)
abbrev aZ : S8x1x1x512.Idx → BitVec 32 := m ((c.tc : Thread nD τ).loc main_arg4)
abbrev aS : S8x1x1x4096.Idx → EReal := m ((c.tc : Thread nD τ).loc main_arg5)
abbrev aI : S4096.Idx → BitVec 32 := m ((c.tc : Thread nD τ).loc main_arg6)

abbrev v1X : S4096x4096.Idx → EReal := Gen.V1 m c main_v0
abbrev v1W : S4096x4096.Idx → EReal := Gen.V1 m c main_v1

abbrev v16Xp : S6144x4096.Idx → EReal := Gen.V16 m outs c main_v65
abbrev v16Q : S8x512x4096.Idx → BitVec 32 := Gen.V16 m outs c main_v66
abbrev v16Z : S8x1x4096.Idx → EReal := Gen.V16 m outs c main_v80
abbrev v16S : S8x1x4096.Idx → EReal := Gen.V16 m outs c main_v82

abbrev v17Base : S4096x4096.Idx → EReal := Gen.V17 m outs c main_v2
abbrev v18Delta : S4096x4096.Idx → EReal := Gen.V18 m outs c main_v90
abbrev v18Out : S4096x4096.Idx → EReal := Gen.V18 m outs c main_v94

abbrev o2 : S4096x4096.Idx → EReal := outs 2 main_v2 c
abbrev o17 : S6144x4096.Idx → EReal := outs 17 main_v83 c

theorem adapter_eq (t : Fin 4096) (h : idxN m c t < 8) :
    Cert.Spec.adapter (aI m c) t = ⟨idxN m c t, h⟩ := by
  apply Fin.ext
  show ((aI m c) (ValueIdx.ix1 t)).toNat % 8 = idxN m c t
  exact Nat.mod_eq_of_lt h

theorem kval_core
    (dest : Fin 4096 → ℕ) (hdest : ∀ t, dest t < 6144)
    (hidx : ∀ t, idxN m c t < 8)

    (hx1 : ∀ t i : Fin 4096, v1X m c (ValueIdx.ix2 t i) = aX m c (ValueIdx.ix2 t i))
    (hw1 : ∀ o i : Fin 4096, v1W m c (ValueIdx.ix2 o i) = aW m c (ValueIdx.ix2 o i))
    (hq : ∀ (d : Fin 8) (r : Fin 512) (o : Fin 4096),
      v16Q m outs c (ValueIdx.ix3 d r o) = aQ m c (ValueIdx.ix4 d (0 : Fin 1) r o))
    (hs : ∀ (d : Fin 8) (o : Fin 4096),
      v16S m outs c (ValueIdx.ix3 d (0 : Fin 1) o) = aS m c (ValueIdx.ix4 d (0 : Fin 1) (0 : Fin 1) o))
    (hz : ∀ (d : Fin 8) (o : Fin 4096),
      v16Z m outs c (ValueIdx.ix3 d (0 : Fin 1) o) = Cert.Spec.z (aZ m c) d o)
    (h2 : v17Base m outs c = o2 outs c)
    (htail : ∀ t o : Fin 4096, v18Out m outs c (ValueIdx.ix2 t o)
      = v17Base m outs c (ValueIdx.ix2 t o) + v18Delta m outs c (ValueIdx.ix2 t o) + aB m c (ValueIdx.ix1 o))

    (hxpad : ∀ t i : Fin 4096, v16Xp m outs c (ValueIdx.ix2 ⟨dest t, hdest t⟩ i) = v1X m c (ValueIdx.ix2 t i))
    (hrow : ∀ t o : Fin 4096, v18Delta m outs c (ValueIdx.ix2 t o) = o17 outs c (ValueIdx.ix2 ⟨dest t, hdest t⟩ o))

    (hout0 : ∀ r o : Fin 4096, o2 outs c (ValueIdx.ix2 r o) = baseBlocked (v1X m c) (v1W m c) r o)
    (hout1 : ∀ t o : Fin 4096, o17 outs c (ValueIdx.ix2 ⟨dest t, hdest t⟩ o)
      = deltaBlocked (v16Xp m outs c) (v16Q m outs c) (v16Z m outs c) (v16S m outs c)
          ⟨dest t, hdest t⟩ o ⟨idxN m c t, hidx t⟩)

    (hdelta : ∀ (d : Fin 8) (t o : Fin 4096),
      deltaBlockedArgs (aX m c) (aQ m c) (aZ m c) (aS m c) d t o
        = Cert.Spec.delta (aX m c) (aQ m c) (aZ m c) (aS m c) d t o) :
    v18Out m outs c = Cert.Spec.G (aX m c) (aW m c) (aB m c) (aQ m c) (aZ m c) (aS m c) (aI m c) := by
  funext j
  obtain ⟨t, o, rfl⟩ : ∃ (t o : Fin 4096), j = ValueIdx.ix2 t o := ⟨j 0, j 1, ValueIdx.eq_ix2 j⟩
  rw [htail t o, Cert.Spec.G_apply]
  have hb : v17Base m outs c (ValueIdx.ix2 t o)
      = ∑ i : Fin 4096, aX m c (ValueIdx.ix2 t i) * aW m c (ValueIdx.ix2 o i) := by
    rw [h2, hout0 t o, baseBlocked_eq]
    exact Finset.sum_congr rfl fun i _ => by rw [hx1 t i, hw1 o i]
  have hd : v18Delta m outs c (ValueIdx.ix2 t o)
      = Cert.Spec.delta (aX m c) (aQ m c) (aZ m c) (aS m c) (Cert.Spec.adapter (aI m c) t) t o := by
    rw [hrow t o, hout1 t o, adapter_eq m c t (hidx t), ← hdelta]
    unfold deltaBlocked deltaBlockedArgs
    refine Finset.sum_congr rfl fun k _ => ?_
    have hA : (∑ j : Fin 512, v16Xp m outs c (ValueIdx.ix2 ⟨dest t, hdest t⟩ (blk k j))
          * Cert.Spec.nib (v16Q m outs c (ValueIdx.ix3 ⟨idxN m c t, hidx t⟩ (wrow (blk k j)) o)) (wfld (blk k j)))
        = ∑ j : Fin 512, aX m c (ValueIdx.ix2 t (blk k j))
          * Cert.Spec.nib (aQ m c (ValueIdx.ix4 ⟨idxN m c t, hidx t⟩ (0 : Fin 1) (wrow (blk k j)) o)) (wfld (blk k j)) :=
      Finset.sum_congr rfl fun j _ => by rw [hxpad, hx1, hq]
    have hB : (∑ j : Fin 512, v16Xp m outs c (ValueIdx.ix2 ⟨dest t, hdest t⟩ (blk k j)))
        = ∑ j : Fin 512, aX m c (ValueIdx.ix2 t (blk k j)) :=
      Finset.sum_congr rfl fun j _ => by rw [hxpad, hx1]
    rw [hs, hz, hA, hB]
  rw [hb, hd]

theorem idxN_lt_of_pre (hpre : Cert.Pre_KernelIdeal m) (t : Fin 4096) : idxN m c t < 8 :=
  (Cert.PreFacts.of_pre _ _ _ _ _ _ _ (hpre c)).2.2.2.2 (ValueIdx.ix1 t)

theorem deltaBlockedArgs_eq_of_pre (hpre : Cert.Pre_KernelIdeal m) (d : Fin 8) (t o : Fin 4096) :
    deltaBlockedArgs (aX m c) (aQ m c) (aZ m c) (aS m c) d t o
      = Cert.Spec.delta (aX m c) (aQ m c) (aZ m c) (aS m c) d t o := by
  obtain ⟨hx, -, -, hs, -⟩ := Cert.PreFacts.of_pre _ _ _ _ _ _ _ (hpre c)
  exact Cert.Alg.kernel_delta_eq (aX m c) (aQ m c) (aZ m c) (aS m c) d t o hx hs

end Cert.KernelIdeal.Hand

end
-- ==== Proof.KValMid.lean ====
import proofs.«417603_j79766132621353_3_alg».proof.Proof.KValCore
import proofs.«417603_j79766132621353_3_alg».proof.Proof.Reg0
import proofs.«417603_j79766132621353_3_alg».proof.Proof.Reg1Defs

set_option maxRecDepth 16384

noncomputable section

namespace Cert.KernelIdeal.Hand

open Cert.KernelIdeal Cert.KernelIdeal.Gen Idealize.ShloMosaic Idealize.ShloMosaic.TcCoe
open Idealize.ShloMosaic.Pipeline (Dat)

variable (m : (ℓ : Loc nD τ sig) → Buf (Elt Ideal) ℓ) (outs : Gen.Outs (F := Ideal)) (c : Dev nD)

abbrev W1 : (c : Dev nD) → (b : Ref sig .tc) → Buf (Elt Ideal) ((c : Thread nD τ).loc b) := fun c b => Gen.V1 m c b

abbrev W16 : (c : Dev nD) → (b : Ref sig .tc) → Buf (Elt Ideal) ((c : Thread nD τ).loc b) := fun c b => Gen.V16 m outs c b

theorem kval_mid (hpre : Cert.Pre_KernelIdeal m) (a : (pcfg1 (F := Ideal)).Adm) (outsA : Gen.Outs (F := Ideal))
    (dest : Fin 4096 → ℕ) (hdest : ∀ t, dest t < 6144)
    (hx1 : ∀ t i : Fin 4096, v1X m c (ValueIdx.ix2 t i) = aX m c (ValueIdx.ix2 t i))
    (hw1 : ∀ o i : Fin 4096, v1W m c (ValueIdx.ix2 o i) = aW m c (ValueIdx.ix2 o i))
    (hq : ∀ (d : Fin 8) (r : Fin 512) (o : Fin 4096),
      v16Q m outs c (ValueIdx.ix3 d r o) = aQ m c (ValueIdx.ix4 d (0 : Fin 1) r o))
    (hs : ∀ (d : Fin 8) (o : Fin 4096),
      v16S m outs c (ValueIdx.ix3 d (0 : Fin 1) o) = aS m c (ValueIdx.ix4 d (0 : Fin 1) (0 : Fin 1) o))
    (hz : ∀ (d : Fin 8) (o : Fin 4096),
      v16Z m outs c (ValueIdx.ix3 d (0 : Fin 1) o) = Cert.Spec.z (aZ m c) d o)
    (h2 : v17Base m outs c = o2 outs c)
    (htail : ∀ t o : Fin 4096, v18Out m outs c (ValueIdx.ix2 t o)
      = v17Base m outs c (ValueIdx.ix2 t o) + v18Delta m outs c (ValueIdx.ix2 t o) + aB m c (ValueIdx.ix1 o))
    (hxpad : ∀ t i : Fin 4096, v16Xp m outs c (ValueIdx.ix2 ⟨dest t, hdest t⟩ i) = v1X m c (ValueIdx.ix2 t i))
    (hrow : ∀ t o : Fin 4096, v18Delta m outs c (ValueIdx.ix2 t o) = o17 outs c (ValueIdx.ix2 ⟨dest t, hdest t⟩ o))

    (ho2 : outs 2 main_v2 c = (dat0 (F := Ideal) (W1 m) c).arrAt 2 cfg0.N)
    (ho17 : outs 17 main_v83 c = (dat1 (F := Ideal) a (W16 m outsA) c).arrAt 4 (cfg1 a).N)
    (hV16 : Gen.V16 m outs c = Gen.V16 m outsA c)

    (hval0 : ∀ r o : Fin 4096, ((dat0 (F := Ideal) (W1 m) c).arrAt 2 cfg0.N : S4096x4096.Idx → EReal) (ValueIdx.ix2 r o)
      = baseBlocked (v1X m c) (v1W m c) r o)
    (hval1 : ∀ t o : Fin 4096,
      ((dat1 (F := Ideal) a (W16 m outsA) c).arrAt 4 (cfg1 a).N : S6144x4096.Idx → EReal) (ValueIdx.ix2 ⟨dest t, hdest t⟩ o)
        = deltaBlocked (v16Xp m outsA c) (v16Q m outsA c) (v16Z m outsA c) (v16S m outsA c)
            ⟨dest t, hdest t⟩ o ⟨idxN m c t, idxN_lt_of_pre m c hpre t⟩) :
    v18Out m outs c = Cert.Spec.G (aX m c) (aW m c) (aB m c) (aQ m c) (aZ m c) (aS m c) (aI m c) := by
  refine kval_core m outs c dest hdest (idxN_lt_of_pre m c hpre) hx1 hw1 hq hs hz h2 htail hxpad hrow ?_ ?_
    (deltaBlockedArgs_eq_of_pre m c hpre)
  · intro r o
    show (outs 2 main_v2 c : S4096x4096.Idx → EReal) (ValueIdx.ix2 r o) = _
    rw [ho2]
    exact hval0 r o
  · intro t o
    show (outs 17 main_v83 c : S6144x4096.Idx → EReal) (ValueIdx.ix2 ⟨dest t, hdest t⟩ o)
      = deltaBlocked (Gen.V16 m outs c main_v65) (Gen.V16 m outs c main_v66) (Gen.V16 m outs c main_v80)
          (Gen.V16 m outs c main_v82) ⟨dest t, hdest t⟩ o ⟨idxN m c t, idxN_lt_of_pre m c hpre t⟩
    rw [ho17, hV16]
    exact hval1 t o

end Cert.KernelIdeal.Hand

end
-- ==== Proof.Reg0Out.lean ====
import proofs.«417603_j79766132621353_3_alg».proof.Proof.Reg0
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0Out

variable (V : (c : Dev nD) → (b : Ref sig .tc) → Buf (Elt F) ((c : Thread nD τ).loc b))

theorem index0_2_rows : ∀ t : Fin cfg0.N, win0_2.index t 0 = t.val / 8 :=
  (by decide +kernel : ∀ t : Fin grid0.N, win0_2.index t 0 = t.val / 8)
theorem index0_2_cols : ∀ t : Fin cfg0.N, win0_2.index t 1 = 0 :=
  (by decide +kernel : ∀ t : Fin grid0.N, win0_2.index t 1 = 0)

theorem xsize0_2_rows : ∀ t : Fin cfg0.N, win0_2.xsize (grid0.coords t) 0 = 256 :=
  (by decide +kernel : ∀ t : Fin grid0.N, win0_2.xsize (grid0.coords t) 0 = 256)

theorem hdisj0_2 : ∀ t t' : Fin cfg0.N, (cfg0.win 2).flush t = true → (cfg0.win 2).flush t' = true → t ≠ t' →
    Disjoint ((cfg0.win 2).blk t).view.set ((cfg0.win 2).blk t').view.set := by
  intro t t' hf hf' hne
  have h7 := (flush0_2 t).mp hf
  have h7' := (flush0_2 t').mp hf'
  have hv : t.val ≠ t'.val := fun h => hne (Fin.ext h)
  show Disjoint ((View.whole main_v2).slice (win0_2.rect t)).set ((View.whole main_v2).slice (win0_2.rect t')).set
  rw [View.set_slice_whole, View.set_slice_whole]
  refine Rect.unit_disjoint (0 : Fin 2) ?_
  show win0_2.index t 0 * win0_2.size 0 + win0_2.xsize (grid0.coords t) 0 ≤ win0_2.index t' 0 * win0_2.size 0
    ∨ win0_2.index t' 0 * win0_2.size 0 + win0_2.xsize (grid0.coords t') 0 ≤ win0_2.index t 0 * win0_2.size 0
  rw [index0_2_rows t, index0_2_rows t', xsize0_2_rows t]
  try rw [xsize0_2_rows t']
  rw [show win0_2.size 0 = 256 from rfl]
  omega

theorem flushed0_2 (c : Dev nD) (t : Fin cfg0.N) : (dat0 V c).flushed 2 t = acc0 V c (t.val + 1) :=
  after0_2 V c t

theorem out0_blk (c : Dev nD) (t : Fin cfg0.N) (ht : t.val % 8 = 7) :
    ((cfg0.win 2).blk t).view.read (Elt F) ((dat0 V c).arrAt 2 cfg0.N) = acc0 V c (t.val + 1) :=
  ((dat0 V c).read_blk_arrAt_eq_flushed 2 hdisj0_2 cfg0.N t t.isLt ((flush0_2 t).mpr ht)).trans (flushed0_2 V c t)

theorem out0_apply (c : Dev nD) (i : S4096x4096.Idx) (t : Fin cfg0.N) (y : S256x4096.Idx)
    (ht : t.val = 8 * ((i 0).val / 256) + 7) (hy0 : (y 0).val = (i 0).val % 256) (hy1 : (y 1).val = (i 1).val) :
    (dat0 V c).arrAt 2 cfg0.N i = acc0 V c (t.val + 1) y := by
  have hemb : ((cfg0.win 2).blk t).view.emb y = i := by
    funext a; apply Fin.ext
    show ((win0_2.rect t).emb y a : ℕ) = i a
    rw [Window.rect_emb_val]
    match a with
    | ⟨0, _⟩ =>
      show win0_2.index t 0 * win0_2.size 0 + (y 0 : ℕ) = (i 0 : ℕ)
      rw [index0_2_rows t, show win0_2.size 0 = 256 from rfl, hy0, ht]; omega
    | ⟨1, _⟩ =>
      show win0_2.index t 1 * win0_2.size 1 + (y 1 : ℕ) = (i 1 : ℕ)
      rw [index0_2_cols t, hy1]; omega
  have h := congrFun (out0_blk V c t (by omega)) y
  rw [View.read_apply, hemb] at h
  exact h

end Region0Out

end Cert.KernelIdeal.Hand

end
-- ==== Proof.PayVal.lean ====
import proofs.«417603_j79766132621353_3_alg».proof.Proof.Gen.KernelIdeal.Skeleton
import proofs.«417603_j79766132621353_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.SL.Sem Idealize.ShloMosaic.ValueIdx
open Cert.KernelIdeal Cert.KernelIdeal.Gen

theorem k0_pay1_apply (p : Fin 256) (o : Fin 4096) : k0_pay1 (F := Ideal) (ix2 p o) = 0 := by
  unfold k0_pay1
  rw [shapeCast_self]
  exact Ideal.ofBits_zero_f32

theorem mm0_apply (A : FVec Ideal S256x512 .bf16) (B : FVec Ideal S4096x512 .bf16) (p : Fin 256) (o : Fin 4096) :
    matmul dot_S256x512_S4096x512_S256x4096_1_1_0_0_n_n none A B (constant (F := Ideal) S256x4096 .f32 0x00000000#32) (ix2 p o)
      = ∑ j : Fin 512, A (ix2 p j) * B (ix2 o j) := by
  show FloatOps.matmul _ none A B _ (ix2 p o) = _
  rw [Ideal.matmul_constant_zero_apply,
    ← Equiv.sum_comp (contrEquiv1 dot_S256x512_S4096x512_S256x4096_1_1_0_0_n_n 512 rfl rfl).symm]
  refine Finset.sum_congr rfl fun c _ => ?_
  have c2 := contrEquiv1_symm_val dot_S256x512_S4096x512_S256x4096_1_1_0_0_n_n 512 rfl rfl c
  have l2 : dot_S256x512_S4096x512_S256x4096_1_1_0_0_n_n.lhsIdx (ix2 p o) ((contrEquiv1 _ 512 rfl rfl).symm c) = ix2 p c := by
    funext ax; apply Fin.ext
    match ax with
    | ⟨0, _⟩ => simp [DotDims.lhsIdx, dot_S256x512_S4096x512_S256x4096_1_1_0_0_n_n]; rfl
    | ⟨1, _⟩ => simp [DotDims.lhsIdx, dot_S256x512_S4096x512_S256x4096_1_1_0_0_n_n]; exact c2
  have r2 : dot_S256x512_S4096x512_S256x4096_1_1_0_0_n_n.rhsIdx (ix2 p o) ((contrEquiv1 _ 512 rfl rfl).symm c) = ix2 o c := by
    funext ax; apply Fin.ext
    match ax with
    | ⟨0, _⟩ => simp [DotDims.rhsIdx, dot_S256x512_S4096x512_S256x4096_1_1_0_0_n_n]; rfl
    | ⟨1, _⟩ => simp [DotDims.rhsIdx, dot_S256x512_S4096x512_S256x4096_1_1_0_0_n_n]; exact c2
  rw [l2, r2]

theorem k0_pay2_apply (v3 : Vec Ideal S256x4096 .f32) (v4 : Vec Ideal S256x512 .bf16) (v6 : Vec Ideal S4096x512 .bf16)
    (p : Fin 256) (o : Fin 4096) :
    k0_pay2 (F := Ideal) v3 v4 v6 (ix2 p o) = v3 (ix2 p o) + ∑ j : Fin 512, v4 (ix2 p j) * v6 (ix2 o j) := by
  unfold k0_pay2
  simp only [shapeCast_self]
  rw [addf_apply, mm0_apply]

theorem k1_pay2_apply (p : Fin 256) (o : Fin 4096) : k1_pay2 (F := Ideal) (ix2 p o) = 0 := by
  unfold k1_pay2
  rw [shapeCast_self]
  exact Ideal.ofBits_zero_f32

theorem mm1_apply (A : FVec Ideal S256x512 .bf16) (B : FVec Ideal S512x4096 .bf16) (p : Fin 256) (o : Fin 4096) :
    matmul dot_S256x512_S512x4096_S256x4096_1_0_0_1_n_n none A B (constant (F := Ideal) S256x4096 .f32 0x00000000#32) (ix2 p o)
      = ∑ j : Fin 512, A (ix2 p j) * B (ix2 j o) := by
  show FloatOps.matmul _ none A B _ (ix2 p o) = _
  rw [Ideal.matmul_constant_zero_apply,
    ← Equiv.sum_comp (contrEquiv1 dot_S256x512_S512x4096_S256x4096_1_0_0_1_n_n 512 rfl rfl).symm]
  refine Finset.sum_congr rfl fun c _ => ?_
  have c2 := contrEquiv1_symm_val dot_S256x512_S512x4096_S256x4096_1_0_0_1_n_n 512 rfl rfl c
  have l2 : dot_S256x512_S512x4096_S256x4096_1_0_0_1_n_n.lhsIdx (ix2 p o) ((contrEquiv1 _ 512 rfl rfl).symm c) = ix2 p c := by
    funext ax; apply Fin.ext
    match ax with
    | ⟨0, _⟩ => simp [DotDims.lhsIdx, dot_S256x512_S512x4096_S256x4096_1_0_0_1_n_n]; rfl
    | ⟨1, _⟩ => simp [DotDims.lhsIdx, dot_S256x512_S512x4096_S256x4096_1_0_0_1_n_n]; exact c2
  have r2 : dot_S256x512_S512x4096_S256x4096_1_0_0_1_n_n.rhsIdx (ix2 p o) ((contrEquiv1 _ 512 rfl rfl).symm c) = ix2 c o := by
    funext ax; apply Fin.ext
    match ax with
    | ⟨0, _⟩ => simp [DotDims.rhsIdx, dot_S256x512_S512x4096_S256x4096_1_0_0_1_n_n]; exact c2
    | ⟨1, _⟩ => simp [DotDims.rhsIdx, dot_S256x512_S512x4096_S256x4096_1_0_0_1_n_n]; rfl
  rw [l2, r2]

theorem unpack_word (w : BitVec 32) (n : Fin 8) :
    IntOp.andi (IntOp.shrsi .vector w (IntOp.muli (BitVec.ofNat 32 n.val) 4#32)) 15#32 = Cert.Spec.nibw w n := by
  have hy : IntOp.muli (BitVec.ofNat 32 n.val) 4#32 = BitVec.ofNat 32 (4 * n.val) := by
    fin_cases n <;> rfl
  have hlt : (BitVec.ofNat 32 (4 * n.val)).toNat < 32 := by
    fin_cases n <;> decide
  rw [hy]
  unfold IntOp.shrsi IntOp.andi Cert.Spec.nibw
  rw [if_pos hlt]

theorem andi_at {s : Shape} {w : Nat} (x y : IVec s w) (i : s.Idx) : andi x y i = IntOp.andi (x i) (y i) := rfl
theorem shrsi_at {s : Shape} {w : Nat} (x y : IVec s w) (i : s.Idx) : shrsi x y i = IntOp.shrsi .vector (x i) (y i) := rfl
theorem muli_at {s : Shape} {w : Nat} (x y : IVec s w) (i : s.Idx) : muli x y i = IntOp.muli (x i) (y i) := rfl

theorem unpacked_apply (v5 : Vec Ideal S1x64x4096 .i32) (j : Fin 512) (o : Fin 4096) :
    (sitofp .bf16 (shapeCast S512x4096 (andi (shrsi
        (broadcastTo S64x8x4096 (shapeCast S64x1x4096 (shapeCast S64x4096 v5 shapeCasts_S1x64x4096_S64x4096)
          shapeCasts_S64x4096_S64x1x4096) broadcasts_S64x1x4096_S64x8x4096)
        (broadcastTo S64x8x4096 (muli (iota .tc S1x8x1 32 [1] iota_S1x8x1_d1_w32) (broadcast S1x8x1 4#32))
          broadcasts_S1x8x1_S64x8x4096))
        (broadcast S64x8x4096 15#32)) shapeCasts_S64x8x4096_S512x4096) : FVec Ideal S512x4096 .bf16) (ix2 j o)
      = Cert.Spec.nib (v5 (ix3 (0 : Fin 1) (⟨j.val / 8, by have := j.isLt; omega⟩ : Fin 64) o)) ⟨j.val % 8, Nat.mod_lt _ (by decide)⟩ := by
  have hj := j.isLt
  rw [sitofp_apply,
    shapeCast_apply _ shapeCasts_S64x8x4096_S512x4096 (ix2 j o)
      (ix3 (⟨j.val / 8, by omega⟩ : Fin 64) (⟨j.val % 8, Nat.mod_lt _ (by decide)⟩ : Fin 8) o) (by
        rw [Shape.rowMajor_val_three, Shape.rowMajor_val_two]
        show (j.val / 8 * 8 + j.val % 8) * 4096 + o.val = j.val * 4096 + o.val
        rw [Nat.div_add_mod' j.val 8]),
    andi_at, shrsi_at, broadcast_apply,
    broadcastTo_apply _ broadcasts_S64x1x4096_S64x8x4096 _ (ix3 (⟨j.val / 8, by omega⟩ : Fin 64) (0 : Fin 1) o)
      (fun a => match a with | ⟨0, _⟩ => rfl | ⟨1, _⟩ => rfl | ⟨2, _⟩ => rfl),
    broadcastTo_apply _ broadcasts_S1x8x1_S64x8x4096 _ (ix3 (0 : Fin 1) (⟨j.val % 8, Nat.mod_lt _ (by decide)⟩ : Fin 8) (0 : Fin 1))
      (fun a => match a with | ⟨0, _⟩ => rfl | ⟨1, _⟩ => rfl | ⟨2, _⟩ => rfl),
    muli_at, broadcast_apply, iota_single_apply,
    shapeCast_apply _ shapeCasts_S64x4096_S64x1x4096 (ix3 (⟨j.val / 8, by omega⟩ : Fin 64) (0 : Fin 1) o)
      (ix2 (⟨j.val / 8, by omega⟩ : Fin 64) o) (by
        rw [Shape.rowMajor_val_three, Shape.rowMajor_val_two]
        show j.val / 8 * 4096 + o.val = (j.val / 8 * 1 + 0) * 4096 + o.val
        rw [Nat.mul_one, Nat.add_zero]),
    shapeCast_1ab_ab_apply]
  show FloatOps.sitofp (F := Ideal) .bf16 (IntOp.andi (IntOp.shrsi .vector _ (IntOp.muli (BitVec.ofNat 32 (⟨j.val % 8, Nat.mod_lt _ (by decide)⟩ : Fin 8).val) 4#32)) 15#32) = _
  rw [unpack_word]
  rfl

theorem rowsum_apply (v4 : FVec Ideal S256x512 .bf16) (p : Fin 256) (o : Fin 4096) :
    broadcastTo S256x4096 (shapeCast S256x1
        (multiReduction (F := Ideal) .add [1] S256 (extf .f32 v4 bitsLt_bf16_f32) 0x00000000#32 reduces_S256x512_S256 (.inl rfl) rfl)
        shapeCasts_S256_S256x1) broadcasts_S256x1_S256x4096 (ix2 p o)
      = ∑ j : Fin 512, v4 (ix2 p j) := by
  rw [broadcastTo_apply _ broadcasts_S256x1_S256x4096 _ (ix2 p (0 : Fin 1))
      (fun a => match a with | ⟨0, _⟩ => rfl | ⟨1, _⟩ => rfl),
    shapeCast_apply _ shapeCasts_S256_S256x1 (ix2 p (0 : Fin 1)) (ValueIdx.ix1 p) (by
      rw [Shape.rowMajor_val_two, Shape.rowMajor_val_one]
      show p.val = p.val * 1 + 0
      rw [Nat.mul_one, Nat.add_zero])]
  refine (Ideal.multiReduction_add_single _ 0x00000000#32 reduces_S256x512_S256 _ _ (ValueIdx.ix1 p)).trans ?_
  refine Finset.sum_congr rfl fun k _ => ?_
  rw [extf_apply]
  refine congrArg v4 (funext fun a => Fin.ext ?_)
  match a with
  | ⟨0, _⟩ => rfl
  | ⟨1, _⟩ => rfl

theorem rowOf_apply (v : Vec Ideal S1x1x4096 .f32) (p : Fin 256) (o : Fin 4096) :
    broadcastTo S256x4096 (shapeCast S1x4096 v shapeCasts_S1x1x4096_S1x4096) broadcasts_S1x4096_S256x4096 (ix2 p o)
      = v (ix3 (0 : Fin 1) (0 : Fin 1) o) := by
  rw [broadcastTo_1b_ab_apply, shapeCast_1ab_ab_apply]

theorem k1_pay3_apply (v3 : Vec Ideal S256x512 .bf16) (v5 : Vec Ideal S1x64x4096 .i32) (v22 v24 : Vec Ideal S1x1x4096 .f32)
    (v26 : Vec Ideal S256x4096 .f32) (p : Fin 256) (o : Fin 4096) :
    k1_pay3 (F := Ideal) v3 v5 v22 v24 v26 (ix2 p o)
      = v26 (ix2 p o)
        + ((∑ j : Fin 512, v3 (ix2 p j)
              * Cert.Spec.nib (v5 (ix3 (0 : Fin 1) (⟨j.val / 8, by have := j.isLt; omega⟩ : Fin 64) o)) ⟨j.val % 8, Nat.mod_lt _ (by decide)⟩)
            * v22 (ix3 (0 : Fin 1) (0 : Fin 1) o)
          - (∑ j : Fin 512, v3 (ix2 p j)) * (v24 (ix3 (0 : Fin 1) (0 : Fin 1) o) * v22 (ix3 (0 : Fin 1) (0 : Fin 1) o))) := by
  unfold k1_pay3
  simp only [shapeCast_self]
  rw [addf_apply, subf_apply, mulf_apply, mulf_apply, mm1_apply, rowOf_apply, rowsum_apply,
    broadcastTo_1b_ab_apply, mulf_apply, shapeCast_1ab_ab_apply, shapeCast_1ab_ab_apply]
  refine congrArg (fun s : EReal => v26 (ix2 p o) + (s * v22 (ix3 (0 : Fin 1) (0 : Fin 1) o)
      - (∑ j : Fin 512, v3 (ix2 p j)) * (v24 (ix3 (0 : Fin 1) (0 : Fin 1) o) * v22 (ix3 (0 : Fin 1) (0 : Fin 1) o)))) ?_
  exact Finset.sum_congr rfl fun j _ => congrArg (v3 (ix2 p j) * ·) (unpacked_apply v5 j o)

end Cert.KernelIdeal.Hand

end
-- ==== Proof.RegVal0.lean ====
import proofs.«417603_j79766132621353_3_alg».proof.Proof.Reg0Out
import proofs.«417603_j79766132621353_3_alg».proof.Proof.PayVal
import proofs.«417603_j79766132621353_3_alg».proof.Proof.Alg
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

section RegVal0

variable (V : (c : Dev nD) → (b : Ref sig .tc) → Buf (Elt Ideal) ((c : Thread nD τ).loc b))

local notation:70 a:70 " *ₑ " b:71 => @HMul.hMul EReal EReal EReal instHMul a b

theorem index0_in : ∀ t : Fin cfg0.N,
    win0_0.index t 0 = t.val / 8 ∧ win0_0.index t 1 = t.val % 8
      ∧ win0_1.index t 0 = 0 ∧ win0_1.index t 1 = t.val % 8 :=
  (by decide +kernel : ∀ t : Fin grid0.N,
    win0_0.index t 0 = t.val / 8 ∧ win0_0.index t 1 = t.val % 8
      ∧ win0_1.index t 0 = 0 ∧ win0_1.index t 1 = t.val % 8)

theorem iblk0_0_apply (c : Dev nD) (t : Fin cfg0.N) (p : Fin 256) (j : Fin 512) (r i : Fin 4096)
    (hr : r.val = 256 * (t.val / 8) + p.val) (hi : i.val = 512 * (t.val % 8) + j.val) :
    (iblk0 V c 0 t : S256x512.Idx → EReal) (ix2 p j) = (V c main_v0 : S4096x4096.Idx → EReal) (ix2 r i) := by
  obtain ⟨e0, e1, -, -⟩ := index0_in t
  unfold iblk0
  rw [View.read_apply]
  show (V c main_v0 : S4096x4096.Idx → EReal) _ = _
  congr 1
  funext a
  apply Fin.ext
  match a with
  | ⟨0, _⟩ => show win0_0.index t 0 * 256 + 1 * p.val = r.val; rw [e0, hr]; omega
  | ⟨1, _⟩ => show win0_0.index t 1 * 512 + 1 * j.val = i.val; rw [e1, hi]; omega

theorem iblk0_1_apply (c : Dev nD) (t : Fin cfg0.N) (o : Fin 4096) (j : Fin 512) (i : Fin 4096)
    (hi : i.val = 512 * (t.val % 8) + j.val) :
    (iblk0 V c 1 t : S4096x512.Idx → EReal) (ix2 o j) = (V c main_v1 : S4096x4096.Idx → EReal) (ix2 o i) := by
  obtain ⟨-, -, e0, e1⟩ := index0_in t
  unfold iblk0
  rw [View.read_apply]
  show (V c main_v1 : S4096x4096.Idx → EReal) _ = _
  congr 1
  funext a
  apply Fin.ext
  match a with
  | ⟨0, _⟩ => show win0_1.index t 0 * 4096 + 1 * o.val = o.val; rw [e0]; omega
  | ⟨1, _⟩ => show win0_1.index t 1 * 512 + 1 * j.val = i.val; rw [e1, hi]; omega

theorem point_lt (mt : Fin 16) (k : Fin 8) : 8 * mt.val + k.val < cfg0.N := by
  rw [show cfg0.N = 128 from N_0]
  have := mt.isLt
  have := k.isLt
  omega

theorem acc0_tile (c : Dev nD) (mt : Fin 16) (p : Fin 256) (o : Fin 4096) :
    (acc0 V c (8 * mt.val + 8) : S256x4096.Idx → EReal) (ix2 p o)
      = ∑ k : Fin 8, ∑ j : Fin 512,
          (iblk0 V c 0 ⟨8 * mt.val + k.val, point_lt mt k⟩ : S256x512.Idx → EReal) (ix2 p j)
            *ₑ (iblk0 V c 1 ⟨8 * mt.val + k.val, point_lt mt k⟩ : S4096x512.Idx → EReal) (ix2 o j) := by
  let b : Fin 8 → EReal := fun k => ∑ j : Fin 512,
    (iblk0 V c 0 ⟨8 * mt.val + k.val, point_lt mt k⟩ : S256x512.Idx → EReal) (ix2 p j)
      *ₑ (iblk0 V c 1 ⟨8 * mt.val + k.val, point_lt mt k⟩ : S4096x512.Idx → EReal) (ix2 o j)
  let acc : ℕ → EReal := fun k =>
    if k = 0 then 0 else (acc0 V c (8 * mt.val + k) : S256x4096.Idx → EReal) (ix2 p o)
  have h8 : acc 8 = (acc0 V c (8 * mt.val + 8) : S256x4096.Idx → EReal) (ix2 p o) := if_neg (by decide)
  rw [← h8]
  refine Cert.Alg.acc_fold b acc (if_pos rfl) ?_
  intro k hk
  show (if k + 1 = 0 then (0 : EReal) else (acc0 V c (8 * mt.val + (k + 1)) : S256x4096.Idx → EReal) (ix2 p o))
    = (if k = 0 then (0 : EReal) else (acc0 V c (8 * mt.val + k) : S256x4096.Idx → EReal) (ix2 p o)) + b ⟨k, hk⟩
  rw [if_neg (Nat.succ_ne_zero k)]
  have hs := acc0_succ V c ⟨8 * mt.val + k, point_lt mt ⟨k, hk⟩⟩
  rw [show 8 * mt.val + (k + 1) = (⟨8 * mt.val + k, point_lt mt ⟨k, hk⟩⟩ : Fin cfg0.N).val + 1 from rfl, hs]
  refine (k0_pay2_apply _ _ _ p o).trans ?_
  by_cases hk0 : k = 0
  · subst hk0
    rw [if_pos rfl, if_pos (by show (8 * mt.val + 0) % 8 = 0; omega), k0_pay1_apply]
  · rw [if_neg hk0, if_neg (by show ¬(8 * mt.val + k) % 8 = 0; omega)]

theorem out0_val (c : Dev nD) (r o : Fin 4096) :
    ((dat0 (F := Ideal) V c).arrAt 2 cfg0.N : S4096x4096.Idx → EReal) (ix2 r o)
      = ∑ k : Fin 8, ∑ j : Fin 512,
          (V c main_v0 : S4096x4096.Idx → EReal) (ix2 r ⟨512 * k.val + j.val, Cert.Alg.blk_lt (m := 8) (n := 512) k j⟩)
            *ₑ (V c main_v1 : S4096x4096.Idx → EReal)
                (ix2 o ⟨512 * k.val + j.val, Cert.Alg.blk_lt (m := 8) (n := 512) k j⟩) := by
  have hr := r.isLt
  have hmt : r.val / 256 < 16 := by omega
  have htl : 8 * (r.val / 256) + 7 < cfg0.N := point_lt ⟨r.val / 256, hmt⟩ 7
  refine (out0_apply V c (ix2 r o) ⟨8 * (r.val / 256) + 7, htl⟩
    (ix2 (⟨r.val % 256, Nat.mod_lt _ (by decide)⟩ : Fin 256) o) rfl rfl rfl).trans ?_
  refine (acc0_tile V c ⟨r.val / 256, hmt⟩ ⟨r.val % 256, Nat.mod_lt _ (by decide)⟩ o).trans ?_
  refine Finset.sum_congr rfl fun k _ => Finset.sum_congr rfl fun j _ => ?_
  have hk := k.isLt
  have hj := j.isLt
  exact congrArg₂ (fun a b : EReal => a * b)
    (iblk0_0_apply V c _ _ j r ⟨512 * k.val + j.val, Cert.Alg.blk_lt (m := 8) (n := 512) k j⟩
      (by show r.val = 256 * ((8 * (r.val / 256) + k.val) / 8) + r.val % 256; omega)
      (by show 512 * k.val + j.val = 512 * ((8 * (r.val / 256) + k.val) % 8) + j.val; omega))
    (iblk0_1_apply V c _ o j ⟨512 * k.val + j.val, Cert.Alg.blk_lt (m := 8) (n := 512) k j⟩
      (by show 512 * k.val + j.val = 512 * ((8 * (r.val / 256) + k.val) % 8) + j.val; omega))

end RegVal0

end Cert.KernelIdeal.Hand

end
-- ==== Proof.Reg1Out.lean ====
import proofs.«417603_j79766132621353_3_alg».proof.Proof.Reg1Defs
import proofs.«417603_j79766132621353_3_alg».proof.Proof.Reg1Body
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1Out

variable (a : (pcfg1 (F := F)).Adm)
  (V : (c : Dev nD) → (b : Ref sig .tc) → Buf (Elt F) ((c : Thread nD τ).loc b))

theorem read_eq_apply {sig' : RefSig} {κ : Kind} {sp : Space} {s : Shape} {e : EltTy} {Val : EltTy → Type}
    (v : View sig' κ sp s e) (A : v.ty.Contents Val) (X : s.Idx → Val e) (h : v.read Val A = X) (y : s.Idx) :
    A (v.emb y) = _root_.cast (congrArg Val v.elt_eq.symm) (X y) := by
  rw [← h, View.read_apply, cast_cast, cast_eq]

theorem index1_4_rows : ∀ t : Fin grid1.N, cc1_transform_4 (grid1.coords t) 0 = t.val / 8 := by decide +kernel
theorem index1_4_cols : ∀ t : Fin grid1.N, cc1_transform_4 (grid1.coords t) 1 = 0 := by decide +kernel

theorem hdisj1_4 : ∀ t t' : Fin (cfg1 a).N, ((cfg1 a).win 4).flush t = true → ((cfg1 a).win 4).flush t' = true → t ≠ t' →
    Disjoint (((cfg1 a).win 4).blk t).view.set (((cfg1 a).win 4).blk t').view.set := by
  intro t t' hf hf' hne
  have h7 := (flush1_4 a t).mp hf
  have h7' := (flush1_4 a t').mp hf'
  have hv : t.val ≠ t'.val := fun h => hne (Fin.ext h)
  have e1 : (((cfg1 a).win 4).blk t).view.set = (((cfg1 a).win 4).rect t).set := View.set_slice_whole main_v83 _
  have e2 : (((cfg1 a).win 4).blk t').view.set = (((cfg1 a).win 4).rect t').set := View.set_slice_whole main_v83 _
  rw [e1, e2]
  refine Rect.unit_disjoint (0 : Fin 2) ?_
  show cc1_transform_4 (grid1.coords t) 0 * 256 + 256 ≤ cc1_transform_4 (grid1.coords t') 0 * 256
    ∨ cc1_transform_4 (grid1.coords t') 0 * 256 + 256 ≤ cc1_transform_4 (grid1.coords t) 0 * 256
  rw [index1_4_rows t, index1_4_rows t']
  omega

theorem flushed1_4 (c : Dev nD) (t : Fin (cfg1 a).N) : (dat1 a V c).flushed 4 t = acc1 a V c t.val :=
  after1_4 a V c t

theorem out1_blk (c : Dev nD) (t : Fin (cfg1 a).N) (ht : t.val % 8 = 7) :
    (((cfg1 a).win 4).blk t).view.read (Elt F) ((dat1 a V c).arrAt 4 (cfg1 a).N) = acc1 a V c t.val :=
  ((dat1 a V c).read_blk_arrAt_eq_flushed 4 (hdisj1_4 a) (cfg1 a).N t t.isLt ((flush1_4 a t).mpr ht)).trans (flushed1_4 a V c t)

theorem out1_apply (c : Dev nD) (i : S6144x4096.Idx) (t : Fin (cfg1 a).N) (y : S256x4096.Idx)
    (ht : t.val = 8 * ((i 0).val / 256) + 7) (hy0 : (y 0).val = (i 0).val % 256) (hy1 : (y 1).val = (i 1).val) :
    (dat1 a V c).arrAt 4 (cfg1 a).N i = acc1 a V c t.val y := by
  have hemb : (((cfg1 a).win 4).blk t).view.emb y = i := by
    funext b; apply Fin.ext
    refine Eq.trans (Window.rect_emb_val ((cfg1 a).win 4) t y b) ?_
    match b with
    | ⟨0, _⟩ =>
      show cc1_transform_4 (grid1.coords t) 0 * 256 + (y 0 : ℕ) = (i 0 : ℕ)
      rw [index1_4_rows t, hy0, ht]; omega
    | ⟨1, _⟩ =>
      show cc1_transform_4 (grid1.coords t) 1 * 4096 + (y 1 : ℕ) = (i 1 : ℕ)
      rw [index1_4_cols t, hy1]; omega
  have h := read_eq_apply _ _ _ (out1_blk a V c t (by omega)) y
  exact ((congrArg ((dat1 a V c).arrAt 4 (cfg1 a).N) hemb).symm.trans h).trans (cast_eq _ _)

end Region1Out

end Cert.KernelIdeal.Hand

end
-- ==== Proof.RegVal1.lean ====
import proofs.«417603_j79766132621353_3_alg».proof.Proof.Reg1Out
import proofs.«417603_j79766132621353_3_alg».proof.Proof.PayVal
import proofs.«417603_j79766132621353_3_alg».proof.Proof.Alg
import Idealize.ShloMosaic.Lib.Pipeline.Value

noncomputable section

open scoped BigOperators

namespace Cert.KernelIdeal.Hand

open Idealize.ShloMosaic Idealize.ShloMosaic.TcCoe Idealize.SL.Sem Idealize.ShloMosaic.ValueIdx
open Cert.KernelIdeal Cert.KernelIdeal.Gen

theorem coords1 : ∀ t : Fin grid1.N, (grid1.coords t 0).val = t.val / 8 ∧ (grid1.coords t 1).val = t.val % 8 := by
  decide +kernel

theorem off1 : ∀ t : Fin grid1.N, k1_off1 (grid1.coords t) 0 = t.val / 8 := by
  decide +kernel

section R1
variable (a : (pcfg1 (F := Ideal)).Adm)
variable (V : (c : Dev nD) → (b : Ref sig .tc) → Buf (Elt Ideal) ((c : Thread nD τ).loc b))

theorem tab_at (t : Fin (cfg1 a).N) (i : Fin 24) (hi : t.val / 8 = i.val) (g : Fin 8)
    (hg : (a.1 0 : S24.Idx → BitVec 32) (ValueIdx.ix1 i) = BitVec.ofNat 32 g.val) :
    (a.1.at 0 (Rect.unit (s := S24) (k1_off1 (grid1.coords t)) S1.size (Facts₀.k1_off1_inb (grid1.coords t))) Facts₀.numel1_S1 : BitVec 32).toNat
      = g.val := by
  have hx : (a.1.at 0 (Rect.unit (s := S24) (k1_off1 (grid1.coords t)) S1.size (Facts₀.k1_off1_inb (grid1.coords t))) Facts₀.numel1_S1 : BitVec 32)
      = (a.1 0 : S24.Idx → BitVec 32) (ValueIdx.ix1 i) := by
    refine congrArg (a.1 0 : S24.Idx → BitVec 32) (funext fun ax => Fin.ext ?_)
    match ax with
    | ⟨0, _⟩ =>
      show k1_off1 (grid1.coords t) 0 + 1 * 0 = i.val
      rw [off1 t, Nat.mul_zero, Nat.add_zero, hi]
  rw [hx, hg, BitVec.toNat_ofNat]
  exact Nat.mod_eq_of_lt (by have := g.isLt; omega)

theorem blk1_0_read (c : Dev nD) (t : Fin (cfg1 a).N) (i : Fin 24) (k : Fin 8) (ht : t.val = 8 * i.val + k.val)
    (p : Fin 256) (row : Fin 6144) (hrow : row.val = 256 * i.val + p.val) (j : Fin 512) :
    (iblk1 a V c 0 t : S256x512.Idx → EReal) (ix2 p j)
      = (V c main_v65 : S6144x4096.Idx → EReal)
          (ix2 row (⟨512 * k.val + j.val, by have := j.isLt; have := k.isLt; omega⟩ : Fin 4096)) := by
  have hc := coords1 t
  have hk := k.isLt
  have hi := i.isLt
  unfold iblk1
  refine (View.read_apply _ _).trans ?_
  show (V c main_v65 : S6144x4096.Idx → EReal) _ = _
  congr 1
  funext ax
  apply Fin.ext
  match ax with
  | ⟨0, _⟩ =>
    show (BitVec.ofNat 32 (grid1.coords t 0).val).toNat * 256 + 1 * p.val = row.val
    rw [hc.1, BitVec.toNat_ofNat, Nat.mod_eq_of_lt (by omega), hrow]
    omega
  | ⟨1, _⟩ =>
    show (BitVec.ofNat 32 (grid1.coords t 1).val).toNat * 512 + 1 * j.val = 512 * k.val + j.val
    rw [hc.2, BitVec.toNat_ofNat, Nat.mod_eq_of_lt (by omega)]
    omega

theorem blk1_1_read (c : Dev nD) (t : Fin (cfg1 a).N) (i : Fin 24) (k : Fin 8) (ht : t.val = 8 * i.val + k.val) (g : Fin 8)
    (hg : (a.1 0 : S24.Idx → BitVec 32) (ValueIdx.ix1 i) = BitVec.ofNat 32 g.val) (r : Fin 64) (o : Fin 4096) :
    (iblk1 a V c 1 t : S1x64x4096.Idx → BitVec 32) (ix3 (0 : Fin 1) r o)
      = (V c main_v66 : S8x512x4096.Idx → BitVec 32)
          (ix3 g (⟨64 * k.val + r.val, by have := r.isLt; have := k.isLt; omega⟩ : Fin 512) o) := by
  have hc := coords1 t
  have hk := k.isLt
  have hi := i.isLt
  have hti := tab_at a t i (by omega) g hg
  unfold iblk1
  refine (View.read_apply _ _).trans ?_
  show (V c main_v66 : S8x512x4096.Idx → BitVec 32) _ = _
  congr 1
  funext ax
  apply Fin.ext
  match ax with
  | ⟨0, _⟩ =>
    show (a.1.at 0 (Rect.unit (s := S24) (k1_off1 (grid1.coords t)) S1.size (Facts₀.k1_off1_inb (grid1.coords t))) Facts₀.numel1_S1 : BitVec 32).toNat * 1 + 1 * 0 = g.val
    rw [hti, Nat.mul_one, Nat.mul_zero, Nat.add_zero]
  | ⟨1, _⟩ =>
    show (BitVec.ofNat 32 (grid1.coords t 1).val).toNat * 64 + 1 * r.val = 64 * k.val + r.val
    rw [hc.2, BitVec.toNat_ofNat, Nat.mod_eq_of_lt (by omega)]
    omega
  | ⟨2, _⟩ =>
    show (0#32).toNat * 4096 + 1 * o.val = o.val
    simp

theorem blk1_2_read (c : Dev nD) (t : Fin (cfg1 a).N) (i : Fin 24) (hi : t.val / 8 = i.val) (g : Fin 8)
    (hg : (a.1 0 : S24.Idx → BitVec 32) (ValueIdx.ix1 i) = BitVec.ofNat 32 g.val) (o : Fin 4096) :
    (iblk1 a V c 2 t : S1x1x4096.Idx → EReal) (ix3 (0 : Fin 1) (0 : Fin 1) o)
      = (V c main_v80 : S8x1x4096.Idx → EReal) (ix3 g (0 : Fin 1) o) := by
  have hti := tab_at a t i hi g hg
  unfold iblk1
  refine (View.read_apply _ _).trans ?_
  show (V c main_v80 : S8x1x4096.Idx → EReal) _ = _
  congr 1
  funext ax
  apply Fin.ext
  match ax with
  | ⟨0, _⟩ =>
    show (a.1.at 0 (Rect.unit (s := S24) (k1_off1 (grid1.coords t)) S1.size (Facts₀.k1_off1_inb (grid1.coords t))) Facts₀.numel1_S1 : BitVec 32).toNat * 1 + 1 * 0 = g.val
    rw [hti, Nat.mul_one, Nat.mul_zero, Nat.add_zero]
  | ⟨1, _⟩ =>
    show (0#32).toNat * 1 + 1 * 0 = 0
    simp
  | ⟨2, _⟩ =>
    show (0#32).toNat * 4096 + 1 * o.val = o.val
    simp

theorem blk1_3_read (c : Dev nD) (t : Fin (cfg1 a).N) (i : Fin 24) (hi : t.val / 8 = i.val) (g : Fin 8)
    (hg : (a.1 0 : S24.Idx → BitVec 32) (ValueIdx.ix1 i) = BitVec.ofNat 32 g.val) (o : Fin 4096) :
    (iblk1 a V c 3 t : S1x1x4096.Idx → EReal) (ix3 (0 : Fin 1) (0 : Fin 1) o)
      = (V c main_v82 : S8x1x4096.Idx → EReal) (ix3 g (0 : Fin 1) o) := by
  have hti := tab_at a t i hi g hg
  unfold iblk1
  refine (View.read_apply _ _).trans ?_
  show (V c main_v82 : S8x1x4096.Idx → EReal) _ = _
  congr 1
  funext ax
  apply Fin.ext
  match ax with
  | ⟨0, _⟩ =>
    show (a.1.at 0 (Rect.unit (s := S24) (k1_off1 (grid1.coords t)) S1.size (Facts₀.k1_off1_inb (grid1.coords t))) Facts₀.numel1_S1 : BitVec 32).toNat * 1 + 1 * 0 = g.val
    rw [hti, Nat.mul_one, Nat.mul_zero, Nat.add_zero]
  | ⟨1, _⟩ =>
    show (0#32).toNat * 1 + 1 * 0 = 0
    simp
  | ⟨2, _⟩ =>
    show (0#32).toNat * 4096 + 1 * o.val = o.val
    simp

end R1

def term1 (X : S6144x4096.Idx → EReal) (Q : S8x512x4096.Idx → BitVec 32) (Z S : S8x1x4096.Idx → EReal)
    (g : Fin 8) (row : Fin 6144) (o : Fin 4096) (k : Fin 8) : EReal :=
  (∑ j : Fin 512,
      X (ix2 row (⟨512 * k.val + j.val, Cert.Alg.blk_lt (m := 8) (n := 512) k j⟩ : Fin 4096))
        * Cert.Spec.nib (Q (ix3 g (⟨(512 * k.val + j.val) / 8, by have := j.isLt; have := k.isLt; omega⟩ : Fin 512) o))
            ⟨(512 * k.val + j.val) % 8, Nat.mod_lt _ (by decide)⟩)
      * S (ix3 g (0 : Fin 1) o)
    - (∑ j : Fin 512, X (ix2 row (⟨512 * k.val + j.val, Cert.Alg.blk_lt (m := 8) (n := 512) k j⟩ : Fin 4096)))
      * (Z (ix3 g (0 : Fin 1) o) * S (ix3 g (0 : Fin 1) o))

section R1fold
variable (a : (pcfg1 (F := Ideal)).Adm)
variable (V : (c : Dev nD) → (b : Ref sig .tc) → Buf (Elt Ideal) ((c : Thread nD τ).loc b))

theorem step1_apply (c : Dev nD) (n : ℕ) (i : Fin 24) (k : Fin 8) (hn : n = 8 * i.val + k.val) (g : Fin 8)
    (hg : (a.1 0 : S24.Idx → BitVec 32) (ValueIdx.ix1 i) = BitVec.ofNat 32 g.val)
    (acc : Vec Ideal S256x4096 .f32) (p : Fin 256) (row : Fin 6144) (hrow : row.val = 256 * i.val + p.val) (o : Fin 4096) :
    step1 a V c n acc (ix2 p o)
      = acc (ix2 p o) + term1 (V c main_v65) (V c main_v66) (V c main_v80) (V c main_v82) g row o k := by
  have hi := i.isLt
  have hk := k.isLt
  have hN : n < (cfg1 a).N := by have : (cfg1 a).N = 192 := N_1; omega
  unfold step1
  rw [dif_pos hN]
  unfold k1_pay1
  rw [shapeCast_self]
  refine (k1_pay3_apply _ _ _ _ _ p o).trans ?_
  unfold term1
  have e0 : ∀ j : Fin 512, (iblk1 a V c 0 ⟨n, hN⟩ : S256x512.Idx → EReal) (ix2 p j)
      = (V c main_v65 : S6144x4096.Idx → EReal) (ix2 row (⟨512 * k.val + j.val, Cert.Alg.blk_lt (m := 8) (n := 512) k j⟩ : Fin 4096)) :=
    fun j => blk1_0_read a V c ⟨n, hN⟩ i k hn p row hrow j
  have e1 : ∀ j : Fin 512,
      Cert.Spec.nib ((iblk1 a V c 1 ⟨n, hN⟩ : S1x64x4096.Idx → BitVec 32) (ix3 (0 : Fin 1) (⟨j.val / 8, by have := j.isLt; omega⟩ : Fin 64) o))
          ⟨j.val % 8, Nat.mod_lt _ (by decide)⟩
        = Cert.Spec.nib ((V c main_v66 : S8x512x4096.Idx → BitVec 32)
            (ix3 g (⟨(512 * k.val + j.val) / 8, by have := j.isLt; omega⟩ : Fin 512) o))
            ⟨(512 * k.val + j.val) % 8, Nat.mod_lt _ (by decide)⟩ :=
    fun j => congrArg₂ Cert.Spec.nib
      ((blk1_1_read a V c ⟨n, hN⟩ i k hn g hg (⟨j.val / 8, by have := j.isLt; omega⟩ : Fin 64) o).trans
        (congrArg (fun x : Fin 512 => (V c main_v66 : S8x512x4096.Idx → BitVec 32) (ix3 g x o))
          (Fin.ext (by show 64 * k.val + j.val / 8 = (512 * k.val + j.val) / 8; omega))))
      (Fin.ext (by show j.val % 8 = (512 * k.val + j.val) % 8; omega))
  have e2 := blk1_2_read a V c ⟨n, hN⟩ i (by show n / 8 = i.val; omega) g hg o
  have e3 := blk1_3_read a V c ⟨n, hN⟩ i (by show n / 8 = i.val; omega) g hg o
  refine congrArg (fun s : EReal => acc (ix2 p o) + s) ?_
  exact congrArg₂ (fun x y : EReal => x - y)
    (congrArg₂ (fun x y : EReal => x * y)
      (Finset.sum_congr rfl fun j _ => congrArg₂ (fun x y : EReal => x * y) (e0 j) (e1 j)) e3)
    (congrArg₂ (fun x y : EReal => x * y) (Finset.sum_congr rfl fun j _ => e0 j)
      (congrArg₂ (fun x y : EReal => x * y) e2 e3))

theorem acc1_first (c : Dev nD) (n : ℕ) (h : n % 8 = 0) : acc1 a V c n = step1 a V c n (k1_pay2 (F := Ideal)) := by
  cases n with
  | zero => rfl
  | succ m => rw [acc1_succ, if_pos h]

theorem acc1_next (c : Dev nD) (n : ℕ) (h : ¬(n + 1) % 8 = 0) : acc1 a V c (n + 1) = step1 a V c (n + 1) (acc1 a V c n) := by
  rw [acc1_succ, if_neg h]

theorem acc1_tile (c : Dev nD) (i : Fin 24) (g : Fin 8)
    (hg : (a.1 0 : S24.Idx → BitVec 32) (ValueIdx.ix1 i) = BitVec.ofNat 32 g.val)
    (p : Fin 256) (row : Fin 6144) (hrow : row.val = 256 * i.val + p.val) (o : Fin 4096) :
    acc1 a V c (8 * i.val + 7) (ix2 p o)
      = ∑ k : Fin 8, term1 (V c main_v65) (V c main_v66) (V c main_v80) (V c main_v82) g row o k := by
  refine Cert.Alg.acc_fold (n := 8) (fun k => term1 (V c main_v65) (V c main_v66) (V c main_v80) (V c main_v82) g row o k)
    (fun m => match m with | 0 => (0 : EReal) | m + 1 => acc1 a V c (8 * i.val + m) (ix2 p o)) rfl ?_
  intro k hk
  cases k with
  | zero =>
    show acc1 a V c (8 * i.val + 0) (ix2 p o)
      = 0 + term1 (V c main_v65) (V c main_v66) (V c main_v80) (V c main_v82) g row o ⟨0, hk⟩
    rw [acc1_first a V c (8 * i.val + 0) (by omega),
      step1_apply a V c (8 * i.val + 0) i ⟨0, hk⟩ rfl g hg _ p row hrow o, k1_pay2_apply]
  | succ k' =>
    show acc1 a V c (8 * i.val + (k' + 1)) (ix2 p o)
      = acc1 a V c (8 * i.val + k') (ix2 p o)
        + term1 (V c main_v65) (V c main_v66) (V c main_v80) (V c main_v82) g row o ⟨k' + 1, hk⟩
    rw [show 8 * i.val + (k' + 1) = (8 * i.val + k') + 1 from by omega, acc1_next a V c _ (by omega),
      step1_apply a V c _ i ⟨k' + 1, hk⟩ (by show 8 * i.val + k' + 1 = 8 * i.val + (k' + 1); omega) g hg _ p row hrow o]

end R1fold

section R1val
variable (a : (pcfg1 (F := Ideal)).Adm)
variable (V : (c : Dev nD) → (b : Ref sig .tc) → Buf (Elt Ideal) ((c : Thread nD τ).loc b))

theorem out1_val (c : Dev nD) (r : Fin 6144) (o : Fin 4096) (g : Fin 8)
    (hg : (a.1 0 : S24.Idx → BitVec 32) (ValueIdx.ix1 (⟨r.val / 256, by have := r.isLt; omega⟩ : Fin 24)) = BitVec.ofNat 32 g.val) :
    ((dat1 a V c).arrAt 4 (cfg1 a).N : S6144x4096.Idx → EReal) (ix2 r o)
      = ∑ k : Fin 8, term1 (V c main_v65) (V c main_v66) (V c main_v80) (V c main_v82) g r o k := by
  have hr := r.isLt
  have hN : (cfg1 a).N = 192 := N_1
  refine (out1_apply a V c (ix2 r o) ⟨8 * (r.val / 256) + 7, by omega⟩
    (ix2 (⟨r.val % 256, Nat.mod_lt _ (by decide)⟩ : Fin 256) o) rfl rfl rfl).trans ?_
  exact acc1_tile a V c ⟨r.val / 256, by omega⟩ g hg ⟨r.val % 256, Nat.mod_lt _ (by decide)⟩ r
    (by show r.val = 256 * (r.val / 256) + r.val % 256; omega) o

end R1val

end Cert.KernelIdeal.Hand

end
-- ==== Proof.HostDestLib.lean ====
import Idealize.ShloMosaic.PureOps
import Idealize.ShloMosaic.Lib.SortFacts
import Idealize.ShloMosaic.Lib.ValueIdx
import Idealize.ShloMosaic.Lib.StableHlo.Predicate

namespace Cert.HostLib

open Idealize.ShloMosaic Idealize.ShloMosaic.ValueIdx

section Scatter
variable {s si u : Shape} {α : Type} {w : Nat}

def scatStep (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

theorem scatter_eq_foldl (d : ScatterDims s si u) (f : α → α → α) (x : s.Idx → α) (idx : IVec si w) (upd : u.Idx → α) :
    Host.scatter d f x idx upd = (List.finRange u.numel).foldl (scatStep d f idx upd) x := rfl

theorem scatStep_none (d : ScatterDims s si u) (f : α → α → α) (idx : IVec si w) (upd : u.Idx → α)
    (r : s.Idx → α) (n : Fin u.numel) (h : d.resultIdx? (u.rowMajor.symm n) idx = none) :
    scatStep d f idx upd r n = r := by
  simp only [scatStep, h]

theorem scatStep_some (d : ScatterDims s si u) (f : α → α → α) (idx : IVec si w) (upd : u.Idx → α)
    (r : s.Idx → α) (n : Fin u.numel) (k : s.Idx) (h : d.resultIdx? (u.rowMajor.symm n) idx = some k) (i' : s.Idx) :
    scatStep d f idx upd r n i' = if i' = k then f (r k) (upd (u.rowMajor.symm n)) else r i' := by
  simp only [scatStep, h]

theorem foldl_scatStep_miss (d : ScatterDims s si u) (f : α → α → α) (idx : IVec si w) (upd : u.Idx → α) (i : s.Idx) :
    ∀ (l : List (Fin u.numel)) (x : s.Idx → α), (∀ n ∈ l, d.resultIdx? (u.rowMajor.symm n) idx ≠ some i) →
      l.foldl (scatStep d f idx upd) x i = x i := by
  intro l
  induction l with
  | nil => intro x _; rfl
  | cons a l ih =>
    intro x h
    rw [List.foldl_cons, ih _ (fun n hn => h n (List.mem_cons_of_mem a hn))]
    have ha := h a List.mem_cons_self
    cases hr : d.resultIdx? (u.rowMajor.symm a) idx with
    | none => rw [scatStep_none d f idx upd x a hr]
    | some k =>
      rw [scatStep_some d f idx upd x a k hr, if_neg]
      intro e
      exact ha (e ▸ hr)

theorem scatter_set_hit (d : ScatterDims s si u) (x : s.Idx → α) (idx : IVec si w) (upd : u.Idx → α) (i : s.Idx) (j : u.Idx)
    (hj : d.resultIdx? j idx = some i) (huniq : ∀ j', d.resultIdx? j' idx = some i → j' = j) :
    Host.scatter d (fun _ b => b) x idx upd i = upd j := by
  rw [scatter_eq_foldl]
  have key : ∀ (l : List (Fin u.numel)) (x : s.Idx → α), u.rowMajor j ∈ l →
      l.foldl (scatStep d (fun _ b => b) idx upd) x i = upd j := by
    intro l
    induction l with
    | nil => intro x h; exact absurd h List.not_mem_nil
    | cons a l ih =>
      intro x h
      rw [List.foldl_cons]
      by_cases hl : u.rowMajor j ∈ l
      · exact ih _ hl
      · have ha : a = u.rowMajor j := by
          rcases List.mem_cons.mp h with h | h
          · exact h.symm
          · exact absurd h hl
        have hmiss : ∀ n ∈ l, d.resultIdx? (u.rowMajor.symm n) idx ≠ some i := by
          intro n hn e
          apply hl
          have := huniq _ e
          rw [← this, Equiv.apply_symm_apply]
          exact hn
        rw [foldl_scatStep_miss d _ idx upd i l _ hmiss]
        have hr : d.resultIdx? (u.rowMajor.symm a) idx = some i := by rw [ha, Equiv.symm_apply_apply]; exact hj
        rw [scatStep_some d _ idx upd x a i hr, if_pos rfl, ha, Equiv.symm_apply_apply]
  exact key _ x (List.mem_finRange _)

end Scatter

section SortSec
variable {n : Nat}

def sltB (x : Fin n → BitVec 32) (k k' : Fin n) : Bool := IntOp.cmpi .slt (x k) (x k') == 1#1

def sortPermOf (x : Fin n → BitVec 32) : Fin n → Fin n := sortedFrom (sltB x)

theorem sortPermOf_bijective (x : Fin n → BitVec 32) : Function.Bijective (sortPermOf x) :=
  ⟨sortedFrom_injective _, sortedFrom_surjective _⟩

theorem sltB_iff (x : Fin n → BitVec 32) (k k' : Fin n) : sltB x k k' = true ↔ (x k).toInt < (x k').toInt := by
  unfold sltB
  rw [beq_iff_eq]
  show BitVec.ofBool ((x k).slt (x k')) = 1#1 ↔ _
  rw [StableHlo.Predicate.ofBool_eq_one_iff]
  simp [BitVec.slt]

theorem sltB_false_iff (x : Fin n → BitVec 32) (k k' : Fin n) : sltB x k k' = false ↔ (x k').toInt ≤ (x k).toInt := by
  rw [← Bool.not_eq_true, sltB_iff]
  omega

theorem sortPermOf_sorted (x : Fin n → BitVec 32) (i j : Fin n) (hij : i ≤ j) :
    (x (sortPermOf x i)).toInt ≤ (x (sortPermOf x j)).toInt := by
  rcases eq_or_lt_of_le hij with rfl | hlt
  · exact le_refl _
  · have h := sortedFrom_noInversion (sltB x) (sltB x)
      (fun a b hab => by rw [sltB_iff] at hab; rw [sltB_false_iff]; omega)
      (fun _ _ hab => hab)
      (fun a b c hab hbc => by rw [sltB_false_iff] at hab hbc ⊢; omega) i j hlt
    exact (sltB_false_iff x _ _).mp h

theorem sortPermOf_mono (x : Fin n → BitVec 32) (hx : ∀ k, (x k).toNat < 2 ^ 31) (i j : Fin n) (hij : i ≤ j) :
    (x (sortPermOf x i)).toNat ≤ (x (sortPermOf x j)).toNat := by
  have h := sortPermOf_sorted x i j hij
  rw [StableHlo.Predicate.toInt_eq_toNat_of_lt (hx _), StableHlo.Predicate.toInt_eq_toNat_of_lt (hx _)] at h
  exact_mod_cast h

theorem along_ix1 (j : (⟨1, ![n]⟩ : Shape).Idx) (h0 : 0 < (⟨1, ![n]⟩ : Shape).rank) (p : Fin n) :
    j.along ⟨0, h0⟩ p = ix1 p := by
  funext d
  match d with
  | ⟨0, _⟩ => exact Function.update_self ..

theorem sort2_snd_apply {β : Type} (cmp : BitVec 32 × β → BitVec 32 × β → BitVec 1)
    (hcmp : ∀ l r, cmp l r = IntOp.cmpi .slt l.1 r.1)
    (x : (⟨1, ![n]⟩ : Shape).Idx → BitVec 32) (y : (⟨1, ![n]⟩ : Shape).Idx → β) (k : Fin n) :
    (Host.sort2 ⟨1, ![n]⟩ 0 cmp x y).2 (ix1 k) = y (ix1 (sortPermOf (fun p => x (ix1 p)) k)) := by
  have h0 : 0 < (⟨1, ![n]⟩ : Shape).rank := Nat.one_pos
  have hal : ∀ p : Fin n, (ix1 k : (⟨1, ![n]⟩ : Shape).Idx).along ⟨0, h0⟩ p = ix1 p := fun p => along_ix1 _ h0 p
  unfold Host.sort2
  rw [dif_pos h0]
  show y ((ix1 k).along ⟨0, h0⟩ (sortedFrom (n := n) (fun a b => cmp (x ((ix1 k).along ⟨0, h0⟩ a), y ((ix1 k).along ⟨0, h0⟩ a))
    (x ((ix1 k).along ⟨0, h0⟩ b), y ((ix1 k).along ⟨0, h0⟩ b)) == 1#1) k)) = _
  simp only [hal, hcmp]
  rfl

theorem sort_apply (cmp : BitVec 32 → BitVec 32 → BitVec 1) (hcmp : ∀ l r, cmp l r = IntOp.cmpi .slt l r)
    (x : (⟨1, ![n]⟩ : Shape).Idx → BitVec 32) (k : Fin n) :
    Host.sort ⟨1, ![n]⟩ 0 cmp x (ix1 k) = x (ix1 (sortPermOf (fun p => x (ix1 p)) k)) := by
  have h0 : 0 < (⟨1, ![n]⟩ : Shape).rank := Nat.one_pos
  have hal : ∀ p : Fin n, (ix1 k : (⟨1, ![n]⟩ : Shape).Idx).along ⟨0, h0⟩ p = ix1 p := fun p => along_ix1 _ h0 p
  unfold Host.sort
  rw [dif_pos h0]
  show x ((ix1 k).along ⟨0, h0⟩ (sortedFrom (n := n) (fun a b => cmp (x ((ix1 k).along ⟨0, h0⟩ a)) (x ((ix1 k).along ⟨0, h0⟩ b)) == 1#1) k)) = _
  simp only [hal, hcmp]
  rfl

end SortSec

end Cert.HostLib
-- ==== Proof.LibRowOps.lean ====
import Idealize.ShloMosaic.PureOps.Ideal
import Idealize.ShloMosaic.Lib.ValueIdx

noncomputable section

namespace Idealize.ShloMosaic.RowOps

open Idealize.ShloMosaic Idealize.ShloMosaic.ValueIdx

abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem rowScatter_land0 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 0 + ((rowScatter N E C wf).window (ix2 p q) 0 : ℤ)
      = (idx (ix2 p (0 : Fin 1))).toInt := by
  have hw : (rowScatter N E C wf).window (ix2 p q) 0 = 0 := by
    unfold ScatterDims.window
    rw [dif_neg (show (0 : Fin 2) ∉ Shape.kept (⟨2, ![N, C]⟩ : Shape) ([0] : List (Fin 2)) by simp [Shape.kept])]
  rw [hw]
  unfold ScatterDims.start
  rw [dif_pos (show (0 : Fin 2) ∈ ([0] : List (Fin 2)) from List.mem_singleton.mpr rfl)]
  have hsi : (rowScatter N E C wf).siIdx (ix2 p q) ⟨List.idxOf (0 : Fin 2) (rowScatter N E C wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

theorem rowScatter_land1 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 1 + ((rowScatter N E C wf).window (ix2 p q) 1 : ℤ) = (q.val : ℤ) := by
  have hs : (rowScatter N E C wf).start (ix2 p q) idx 1 = 0 := by
    unfold ScatterDims.start
    rw [dif_neg (show (1 : Fin 2) ∉ ([0] : List (Fin 2)) by decide)]
  have hw : (rowScatter N E C wf).window (ix2 p q) 1 = q.val := by
    unfold ScatterDims.window
    rw [dif_pos (show (1 : Fin 2) ∈ Shape.kept (⟨2, ![N, C]⟩ : Shape) ([0] : List (Fin 2)) by simp [Shape.kept, List.mem_finRange])]
    rfl
  rw [hs, hw, Int.zero_add]

theorem rowScatter_resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) (n : Fin N) (c : Fin C) :
    (rowScatter N E C wf).resultIdx? (ix2 p q) idx = some (ix2 n c)
      ↔ (q = c ∧ (idx (ix2 p (0 : Fin 1))).toInt = (n.val : ℤ)) := by
  have h0 := rowScatter_land0 wf idx p q
  have h1 := rowScatter_land1 wf idx p q
  unfold ScatterDims.resultIdx?
  split
  · rename_i h
    rw [Option.some.injEq]
    constructor
    · intro hf
      have e0 : ((rowScatter N E C wf).start (ix2 p q) idx 0 + ((rowScatter N E C wf).window (ix2 p q) 0 : ℤ)).toNat = n.val :=
        congrArg Fin.val (congrFun hf 0)
      have e1 : ((rowScatter N E C wf).start (ix2 p q) idx 1 + ((rowScatter N E C wf).window (ix2 p q) 1 : ℤ)).toNat = c.val :=
        congrArg Fin.val (congrFun hf 1)
      have p0 := (h 0).1
      rw [h0] at e0 p0
      rw [h1] at e1
      refine ⟨Fin.ext (by omega), by omega⟩
    · rintro ⟨hq, hn⟩
      funext a
      refine Fin.ext ?_
      match a with
      | ⟨0, _⟩ =>
        show ((rowScatter N E C wf).start (ix2 p q) idx 0 + ((rowScatter N E C wf).window (ix2 p q) 0 : ℤ)).toNat = n.val
        rw [h0, hn]; simp
      | ⟨1, _⟩ =>
        show ((rowScatter N E C wf).start (ix2 p q) idx 1 + ((rowScatter N E C wf).window (ix2 p q) 1 : ℤ)).toNat = c.val
        rw [h1, hq]; simp
  · rename_i h
    constructor
    · intro hf; exact absurd hf (by simp)
    · rintro ⟨hq, hn⟩
      exfalso
      apply h
      intro a
      match a with
      | ⟨0, _⟩ =>
        show 0 ≤ (rowScatter N E C wf).start (ix2 p q) idx 0 + ((rowScatter N E C wf).window (ix2 p q) 0 : ℤ)
          ∧ (rowScatter N E C wf).start (ix2 p q) idx 0 + ((rowScatter N E C wf).window (ix2 p q) 0 : ℤ) < (N : ℤ)
        rw [h0, hn]
        have := n.isLt
        omega
      | ⟨1, _⟩ =>
        show 0 ≤ (rowScatter N E C wf).start (ix2 p q) idx 1 + ((rowScatter N E C wf).window (ix2 p q) 1 : ℤ)
          ∧ (rowScatter N E C wf).start (ix2 p q) idx 1 + ((rowScatter N E C wf).window (ix2 p q) 1 : ℤ) < (C : ℤ)
        rw [h1]
        have := q.isLt
        omega

abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vecScatter_land {N E w : Nat}
    (wf : ScatterDims.WF ⟨1, ![N]⟩ ⟨2, ![E, 1]⟩ ⟨1, ![E]⟩ [] [0] [0] 1)
    (idx : IVec ⟨2, ![E, 1]⟩ w) (p : Fin E) :
    (vecScatter N E wf).start (ix1 p) idx 0 + ((vecScatter N E wf).window (ix1 p) 0 : ℤ)
      = (idx (ix2 p (0 : Fin 1))).toInt := by
  have hw : (vecScatter N E wf).window (ix1 p) 0 = 0 := by
    unfold ScatterDims.window
    rw [dif_neg (show (0 : Fin 1) ∉ Shape.kept (⟨1, ![N]⟩ : Shape) ([0] : List (Fin 1)) by simp [Shape.kept])]
  rw [hw]
  unfold ScatterDims.start
  rw [dif_pos (show (0 : Fin 1) ∈ ([0] : List (Fin 1)) from List.mem_singleton.mpr rfl)]
  have hsi : (vecScatter N E wf).siIdx (ix1 p) ⟨List.idxOf (0 : Fin 1) (vecScatter N E wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

theorem vecScatter_resultIdx?_eq_some_iff {N E w : Nat}
    (wf : ScatterDims.WF ⟨1, ![N]⟩ ⟨2, ![E, 1]⟩ ⟨1, ![E]⟩ [] [0] [0] 1)
    (idx : IVec ⟨2, ![E, 1]⟩ w) (p : Fin E) (n : Fin N) :
    (vecScatter N E wf).resultIdx? (ix1 p) idx = some (ix1 n)
      ↔ (idx (ix2 p (0 : Fin 1))).toInt = (n.val : ℤ) := by
  have h0 := vecScatter_land wf idx p
  unfold ScatterDims.resultIdx?
  split
  · rename_i h
    rw [Option.some.injEq]
    constructor
    · intro hf
      have e0 : ((vecScatter N E wf).start (ix1 p) idx 0 + ((vecScatter N E wf).window (ix1 p) 0 : ℤ)).toNat = n.val :=
        congrArg Fin.val (congrFun hf 0)
      have p0 := (h 0).1
      rw [h0] at e0 p0
      omega
    · intro hn
      funext a
      refine Fin.ext ?_
      match a with
      | ⟨0, _⟩ =>
        show ((vecScatter N E wf).start (ix1 p) idx 0 + ((vecScatter N E wf).window (ix1 p) 0 : ℤ)).toNat = n.val
        rw [h0, hn]; simp
  · rename_i h
    constructor
    · intro hf; exact absurd hf (by simp)
    · intro hn
      exfalso
      apply h
      intro a
      match a with
      | ⟨0, _⟩ =>
        show 0 ≤ (vecScatter N E wf).start (ix1 p) idx 0 + ((vecScatter N E wf).window (ix1 p) 0 : ℤ)
          ∧ (vecScatter N E wf).start (ix1 p) idx 0 + ((vecScatter N E wf).window (ix1 p) 0 : ℤ) < (N : ℤ)
        rw [h0, hn]
        have := n.isLt
        omega

end Idealize.ShloMosaic.RowOps

end
-- ==== Proof.HostDest.lean ====
import proofs.«417603_j79766132621353_3_alg».proof.Proof.Gen.KernelIdeal.Regions
import proofs.«417603_j79766132621353_3_alg».proof.Proof.HostIdx
import proofs.«417603_j79766132621353_3_alg».proof.Proof.HostDestLib
import proofs.«417603_j79766132621353_3_alg».proof.Proof.Comb
import proofs.«417603_j79766132621353_3_alg».proof.Proof.LibRowOps
import Idealize.ShloMosaic.Lib.StableHlo.Run
import Idealize.ShloMosaic.Lib.StableHlo.Predicate
import Idealize.ShloMosaic.Lib.ValueIdx

set_option maxRecDepth 1200

noncomputable section

namespace Cert.KernelIdeal.Hand

open Cert.KernelIdeal Cert.KernelIdeal.Gen
open Idealize.ShloMosaic Idealize.ShloMosaic.TcCoe

variable {F : FTy → Type} [FloatOps F]

theorem norm_nonneg (a k : BitVec 32) (ha : a.toNat < 2 ^ 31) :
    Scalar.select (IntOp.cmpi .slt a 0#32) (IntOp.addi a k) a = a := by
  have h : ¬ IntOp.cmpi .slt a 0#32 = 1#1 := by
    rw [StableHlo.Predicate.slt_iff_toNat ha (by decide)]
    simp
  rw [ValueIdx.eq_zero_of_ne_one h, ValueIdx.select_zero]

def normCol (k : BitVec 32) (v : S4096.Idx → BitVec 32) : S4096x1.Idx → BitVec 32 :=
  broadcastInDim S4096x1 ![0] bcast_S4096_S4096x1_0
    (select (cmpi .slt v (broadcastInDim S4096 ![] bcast_S_S4096 (constantI S_ 32 0#32)))
      (addi v (broadcastInDim S4096 ![] bcast_S_S4096 (constantI S_ 32 k))) v)

theorem normCol_apply (k : BitVec 32) (v : S4096.Idx → BitVec 32) (s : Fin 4096) (hv : (v (ValueIdx.ix1 s)).toNat < 2 ^ 31) :
    normCol k v (ValueIdx.ix2 s (0 : Fin 1)) = v (ValueIdx.ix1 s) := by
  have e : (ValueIdx.ix2 s (0 : Fin 1) : S4096x1.Idx) = StableHlo.Predicate.ixP s := by
    funext d; match d with | ⟨0, _⟩ => rfl | ⟨1, _⟩ => rfl
  unfold normCol
  rw [e, StableHlo.Predicate.bcast_col1]
  have e1 : (Shape.Idx.ofFin s : S4096.Idx) = ValueIdx.ix1 s := by
    funext d; match d with | ⟨0, _⟩ => rfl
  rw [e1]
  exact norm_nonneg _ k hv

theorem after7_v27 (V : Valuation τ sig (Elt F)) :
    (StableHlo.after hostOps1_7 V (Proc.devRef .tc main_v27) : S4096.Idx → BitVec 32)
      = (Host.sort2 S4096 0 comparator_i32_i32_d0 (V (Proc.devRef .tc main_arg6) : S4096.Idx → BitVec 32) (iotaInDim S4096 32 0)).2 := by
  after_results
  rfl

theorem after8_v28 (V : Valuation τ sig (Elt F)) :
    (StableHlo.after hostOps1_8 V (Proc.devRef .tc main_v28) : S4096.Idx → BitVec 32)
      = Host.sort S4096 0 comparator_i32_d0 (V (Proc.devRef .tc main_arg6) : S4096.Idx → BitVec 32) := by
  after_results
  rfl

def destVec (v26 : S8.Idx → BitVec 32) (v27 v28 : S4096.Idx → BitVec 32) : S4096.Idx → BitVec 32 :=
  Host.scatter scatter_S4096_S4096x1_S4096_n_0_0_1 (fun _ b => b)
    (broadcastInDim S4096 ![] bcast_S_S4096 (constantI S_ 32 0#32))
    (normCol 4096#32 v27)
    (addi (iotaInDim S4096 32 0) (Host.gather gather_S8_S4096x1_S4096_n_0_n_n_0_1_1 v26 (normCol 8#32 v28)))

theorem after9_v45 (V : Valuation τ sig (Elt F)) :
    (StableHlo.after hostOps1_9 V (Proc.devRef .tc main_v45) : S4096.Idx → BitVec 32)
      = destVec (V (Proc.devRef .tc main_v26)) (V (Proc.devRef .tc main_v27)) (V (Proc.devRef .tc main_v28)) := by
  after_results_simp
  rfl

theorem after13_v65 (V : Valuation τ sig (Elt F)) :
    (StableHlo.after hostOps1_13 V (Proc.devRef .tc main_v65) : S6144x4096.Idx → Elt F .bf16)
      = Host.scatter scatter_S6144x4096_S4096x1_S4096x4096_1_0_0_1 (fun _ b => b)
          (broadcastInDim S6144x4096 ![] bcast_S_S6144x4096 (constant S_ .bf16 0x0000#16))
          (normCol 6144#32 (V (Proc.devRef .tc main_v45)))
          (V (Proc.devRef .tc main_v0) : S4096x4096.Idx → Elt F .bf16) := by
  after_results_simp
  rfl

theorem after2_v90 (V : Valuation τ sig (Elt F)) :
    (StableHlo.after hostOps2 V (Proc.devRef .tc main_v90) : S4096x4096.Idx → Elt F .f32)
      = Host.gather gather_S6144x4096_S4096x1_S4096x4096_1_0_n_n_0_1_14096
          (V (Proc.devRef .tc main_v83) : S6144x4096.Idx → Elt F .f32)
          (normCol 6144#32 (V (Proc.devRef .tc main_v45))) := by
  after_results
  rfl

theorem ofFin_eq_ix1_dest_dest {n : Nat} (s : Fin n) : (Shape.Idx.ofFin s : (⟨1, ![n]⟩ : Shape).Idx) = ValueIdx.ix1 s := by
  funext d; match d with | ⟨0, _⟩ => rfl

theorem ixP_eq_ix2_dest {n : Nat} (s : Fin n) : (StableHlo.Predicate.ixP s : (⟨2, ![n, 1]⟩ : Shape).Idx) = ValueIdx.ix2 s (0 : Fin 1) := by
  funext d; match d with | ⟨0, _⟩ => rfl | ⟨1, _⟩ => rfl

theorem destVec_apply (v26 : S8.Idx → BitVec 32) (v27 v28 : S4096.Idx → BitVec 32)
    (σ : Fin 4096 → Fin 4096) (hσ : Function.Injective σ)
    (h27 : ∀ s, v27 (ValueIdx.ix1 s) = BitVec.ofNat 32 (σ s).val)
    (h28 : ∀ s, (v28 (ValueIdx.ix1 s)).toNat < 8) (s : Fin 4096) :
    destVec v26 v27 v28 (ValueIdx.ix1 (σ s))
      = BitVec.ofNat 32 s.val + v26 (ValueIdx.ix1 ⟨(v28 (ValueIdx.ix1 s)).toNat, h28 s⟩) := by
  have hd : scatter_S4096_S4096x1_S4096_n_0_0_1 = RowOps.vecScatter 4096 4096 scatter_S4096_S4096x1_S4096_n_0_0_1_wf := rfl
  have hidx : ∀ p : Fin 4096, normCol 4096#32 v27 (ValueIdx.ix2 p (0 : Fin 1)) = BitVec.ofNat 32 (σ p).val := by
    intro p
    rw [normCol_apply _ _ _ (by rw [h27, BitVec.toNat_ofNat]; have := (σ p).isLt; omega), h27]
  have hland : ∀ p q : Fin 4096,
      scatter_S4096_S4096x1_S4096_n_0_0_1.resultIdx? (ValueIdx.ix1 p) (normCol 4096#32 v27) = some (ValueIdx.ix1 q) ↔ σ p = q := by
    intro p q
    rw [hd, RowOps.vecScatter_resultIdx?_eq_some_iff, hidx,
      StableHlo.Predicate.toInt_ofNat_small _ (by have := (σ p).isLt; omega)]
    constructor
    · intro h; exact Fin.ext (by exact_mod_cast h)
    · intro h; rw [h]
  unfold destVec
  rw [Cert.HostLib.scatter_set_hit _ _ _ _ (ValueIdx.ix1 (σ s)) (ValueIdx.ix1 s) ((hland s (σ s)).mpr rfl)
    (fun j' hj' => by
      have hj'' := hj'
      rw [ValueIdx.eq_ix1 j'] at hj''
      exact (ValueIdx.eq_ix1 j').trans (congrArg (fun a => ValueIdx.ix1 a) (hσ ((hland _ _).mp hj''))))]
  show IntOp.addi (BitVec.ofNat 32 s.val)
    (Host.gather gather_S8_S4096x1_S4096_n_0_n_n_0_1_1 v26 (normCol 8#32 v28) (ValueIdx.ix1 s)) = _
  have h31 : (v28 (ValueIdx.ix1 s)).toNat < 2 ^ 31 := by have := h28 s; omega
  have hg : Host.gather gather_S8_S4096x1_S4096_n_0_n_n_0_1_1 v26 (normCol 8#32 v28) (ValueIdx.ix1 s)
      = v26 (ValueIdx.ix1 ⟨(v28 (ValueIdx.ix1 s)).toNat, h28 s⟩) := by
    have h1 := StableHlo.Predicate.gather_take gather_S8_S4096x1_S4096_n_0_n_n_0_1_1 rfl rfl rfl rfl v26 (normCol 8#32 v28) s (by decide)
    rw [ofFin_eq_ix1_dest_dest] at h1
    rw [h1, ofFin_eq_ix1_dest_dest]
    refine congrArg (fun q => v26 (ValueIdx.ix1 q)) (Fin.ext ?_)
    show min (normCol 8#32 v28 (StableHlo.Predicate.ixP s)).toInt.toNat (8 - 1) = (v28 (ValueIdx.ix1 s)).toNat
    rw [ixP_eq_ix2_dest, normCol_apply _ _ _ h31, StableHlo.Predicate.toInt_eq_toNat_of_lt h31]
    have := h28 s
    simp only [Int.toNat_natCast]
    omega
  rw [hg]
  rfl

theorem rowScatter_apply {α : Type} (x0 : S6144x4096.Idx → α) (dst : S4096.Idx → BitVec 32) (upd : S4096x4096.Idx → α)
    (hlt : ∀ t : Fin 4096, (dst (ValueIdx.ix1 t)).toNat < 6144)
    (hinj : ∀ t t' : Fin 4096, dst (ValueIdx.ix1 t) = dst (ValueIdx.ix1 t') → t = t') (t i : Fin 4096) :
    Host.scatter scatter_S6144x4096_S4096x1_S4096x4096_1_0_0_1 (fun _ b => b) x0 (normCol 6144#32 dst) upd
        (ValueIdx.ix2 (⟨(dst (ValueIdx.ix1 t)).toNat, hlt t⟩ : Fin 6144) i)
      = upd (ValueIdx.ix2 t i) := by
  have hd : scatter_S6144x4096_S4096x1_S4096x4096_1_0_0_1
      = RowOps.rowScatter 6144 4096 4096 scatter_S6144x4096_S4096x1_S4096x4096_1_0_0_1_wf := rfl
  have h31 : ∀ p : Fin 4096, (dst (ValueIdx.ix1 p)).toNat < 2 ^ 31 := fun p => by have := hlt p; omega
  have hland : ∀ (p q : Fin 4096) (n : Fin 6144) (c : Fin 4096),
      scatter_S6144x4096_S4096x1_S4096x4096_1_0_0_1.resultIdx? (ValueIdx.ix2 p q) (normCol 6144#32 dst) = some (ValueIdx.ix2 n c)
        ↔ (q = c ∧ (dst (ValueIdx.ix1 p)).toNat = n.val) := by
    intro p q n c
    rw [hd, RowOps.rowScatter_resultIdx?_eq_some_iff, normCol_apply _ _ _ (h31 p),
      StableHlo.Predicate.toInt_eq_toNat_of_lt (h31 p)]
    constructor
    · rintro ⟨h1, h2⟩; exact ⟨h1, by exact_mod_cast h2⟩
    · rintro ⟨h1, h2⟩; exact ⟨h1, by exact_mod_cast h2⟩
  refine Cert.HostLib.scatter_set_hit _ _ _ _ _ (ValueIdx.ix2 t i) ((hland t i _ i).mpr ⟨rfl, rfl⟩) (fun j' hj' => ?_)
  have hj'' := hj'
  rw [ValueIdx.eq_ix2 j'] at hj''
  obtain ⟨h1, h2⟩ := (hland _ _ _ _).mp hj''
  have h3 : j' 0 = t := hinj _ _ (BitVec.eq_of_toNat_eq h2)
  exact (ValueIdx.eq_ix2 j').trans (congrArg₂ (fun a b => ValueIdx.ix2 a b) h3 h1)

theorem rowGather_apply' {α : Type} (x : S6144x4096.Idx → α) (dst : S4096.Idx → BitVec 32)
    (hlt : ∀ t : Fin 4096, (dst (ValueIdx.ix1 t)).toNat < 6144) (t o : Fin 4096) :
    Host.gather gather_S6144x4096_S4096x1_S4096x4096_1_0_n_n_0_1_14096 x (normCol 6144#32 dst) (ValueIdx.ix2 t o)
      = x (ValueIdx.ix2 (⟨(dst (ValueIdx.ix1 t)).toNat, hlt t⟩ : Fin 6144) o) := by
  have hd : gather_S6144x4096_S4096x1_S4096x4096_1_0_n_n_0_1_14096
      = RowOps.rowGather 6144 4096 4096 gather_S6144x4096_S4096x1_S4096x4096_1_0_n_n_0_1_14096_wf := rfl
  have h31 : (dst (ValueIdx.ix1 t)).toNat < 2 ^ 31 := by have := hlt t; omega
  rw [hd, RowOps.rowGather_apply (by decide)]
  refine congrArg (fun q => x (ValueIdx.ix2 q o)) (Fin.ext ?_)
  show min (normCol 6144#32 dst (ValueIdx.ix2 t (0 : Fin 1))).toInt.toNat (6144 - 1) = (dst (ValueIdx.ix1 t)).toNat
  rw [normCol_apply _ _ _ h31, StableHlo.Predicate.toInt_eq_toNat_of_lt h31]
  have := hlt t
  simp only [Int.toNat_natCast]
  omega

variable (m : (ℓ : Loc nD τ sig) → Buf (Elt F) ℓ) (outs : Outs (F := F)) (c : Dev nD)

theorem argsort_apply {n : Nat} (cmp : BitVec 32 × BitVec 32 → BitVec 32 × BitVec 32 → BitVec 1)
    (hcmp : ∀ l r, cmp l r = IntOp.cmpi .slt l.1 r.1) (x : (⟨1, ![n]⟩ : Shape).Idx → BitVec 32) (k : Fin n) :
    (Host.sort2 ⟨1, ![n]⟩ 0 cmp x (iotaInDim ⟨1, ![n]⟩ 32 0)).2 (ValueIdx.ix1 k)
      = BitVec.ofNat 32 (Cert.HostLib.sortPermOf (fun p => x (ValueIdx.ix1 p)) k).val := by
  rw [Cert.HostLib.sort2_snd_apply cmp hcmp]
  rfl

def sortPerm : Fin 4096 → Fin 4096 :=
  Cert.HostLib.sortPermOf (fun p => (m ((c : Thread nD τ).loc main_arg6) : S4096.Idx → BitVec 32) (ValueIdx.ix1 p))

theorem sortPerm_bijective : Function.Bijective (sortPerm m c) := Cert.HostLib.sortPermOf_bijective _

theorem sortPerm_mono (hidx : ∀ t : Fin 4096, idxN m c t < 8) (s s' : Fin 4096) (h : s ≤ s') :
    idxN m c (sortPerm m c s) ≤ idxN m c (sortPerm m c s') :=
  Cert.HostLib.sortPermOf_mono _ (fun k => by have := hidx k; unfold idxN idxW at this; omega) s s' h

theorem V10_arg6 : (V10 m outs c main_arg6 : S4096.Idx → BitVec 32) = m ((c : Thread nD τ).loc main_arg6) :=
  (V10_of m outs c main_arg6 (by decide)).trans <| (V9_of m outs c main_arg6 (by decide)).trans <| (V8_of m outs c main_arg6 (by decide)).trans <| (V7_of m outs c main_arg6 (by decide)).trans <| (V6_of m outs c main_arg6 (by decide)).trans <| (V5_of m outs c main_arg6 (by decide)).trans <| (V4_of m outs c main_arg6 (by decide)).trans <| (V3_of m outs c main_arg6 (by decide)).trans <| (V2_of m outs c main_arg6 (by decide)).trans <| (V1_of m c main_arg6 (by decide)).trans rfl

theorem V9_arg6 : (V9 m outs c main_arg6 : S4096.Idx → BitVec 32) = m ((c : Thread nD τ).loc main_arg6) :=
  (V10_of m outs c main_arg6 (by decide)).symm.trans (V10_arg6 m outs c)

theorem v27_apply (s : Fin 4096) :
    (V10 m outs c main_v27 : S4096.Idx → BitVec 32) (ValueIdx.ix1 s) = BitVec.ofNat 32 (sortPerm m c s).val := by
  have h : (V10 m outs c main_v27 : S4096.Idx → BitVec 32)
      = (Host.sort2 S4096 0 comparator_i32_i32_d0 (V9 m outs c main_arg6 : S4096.Idx → BitVec 32) (iotaInDim S4096 32 0)).2 :=
    after7_v27 (V9 m outs c)
  rw [h, V9_arg6, argsort_apply (n := 4096) comparator_i32_i32_d0 (fun _ _ => rfl)]
  rfl

theorem v28_apply (s : Fin 4096) :
    (V11 m outs c main_v28 : S4096.Idx → BitVec 32) (ValueIdx.ix1 s) = idxW m c (sortPerm m c s) := by
  have h : (V11 m outs c main_v28 : S4096.Idx → BitVec 32)
      = Host.sort S4096 0 comparator_i32_d0 (V10 m outs c main_arg6 : S4096.Idx → BitVec 32) :=
    after8_v28 (V10 m outs c)
  rw [h, V10_arg6, Cert.HostLib.sort_apply (n := 4096) comparator_i32_d0 (fun _ _ => rfl)]
  rfl

attribute [irreducible] sortPerm

def dest (t : Fin 4096) : BitVec 32 := (V12 m outs c main_v45 : S4096.Idx → BitVec 32) (ValueIdx.ix1 t)

theorem dest_sortPerm (hidx : ∀ t : Fin 4096, idxN m c t < 8)
    (h26 : ∀ d : Fin 8, (V9 m outs c main_v26 : S8.Idx → BitVec 32) (ValueIdx.ix1 d)
      = BitVec.ofNat 32 (Cert.Comb.gsp (idxN m c) d - Cert.Comb.gsu (idxN m c) d))
    (s : Fin 4096) :
    dest m outs c (sortPerm m c s) = BitVec.ofNat 32 (Cert.Comb.pos (idxN m c) (sortPerm m c) s) := by
  have e45 : (V12 m outs c main_v45 : S4096.Idx → BitVec 32)
      = destVec (V11 m outs c main_v26) (V11 m outs c main_v27) (V11 m outs c main_v28) := after9_v45 (V11 m outs c)
  have e27 : (V11 m outs c main_v27 : S4096.Idx → BitVec 32) = V10 m outs c main_v27 := V11_of m outs c main_v27 (by decide)
  have e26 : (V11 m outs c main_v26 : S8.Idx → BitVec 32) = V9 m outs c main_v26 :=
    (V11_of m outs c main_v26 (by decide)).trans (V10_of m outs c main_v26 (by decide))
  have h28 : ∀ s', ((V11 m outs c main_v28 : S4096.Idx → BitVec 32) (ValueIdx.ix1 s')).toNat < 8 := fun s' => by
    rw [v28_apply]; exact hidx _
  unfold dest
  rw [e45, destVec_apply _ _ _ (sortPerm m c) (sortPerm_bijective m c).1
    (fun s' => by rw [e27]; exact v27_apply m outs c s') h28 s]
  have key : ∀ d : Fin 8, d.val = idxN m c (sortPerm m c s) →
      (V11 m outs c main_v26 : S8.Idx → BitVec 32) (ValueIdx.ix1 d)
        = BitVec.ofNat 32 (Cert.Comb.gsp (idxN m c) (idxN m c (sortPerm m c s)) - Cert.Comb.gsu (idxN m c) (idxN m c (sortPerm m c s))) := by
    intro d hd
    rw [e26, h26 d, hd]
  rw [key _ (by show ((V11 m outs c main_v28 : S4096.Idx → BitVec 32) (ValueIdx.ix1 s)).toNat = _; rw [v28_apply]; rfl),
    ← BitVec.ofNat_add]
  refine congrArg (BitVec.ofNat 32) ?_
  have hle := Cert.Comb.gsu_le_gsp (idxN m c) (idxN m c (sortPerm m c s))
  unfold Cert.Comb.pos
  omega

section Dest
variable (hidx : ∀ t : Fin 4096, idxN m c t < 8)
  (h26 : ∀ d : Fin 8, (V9 m outs c main_v26 : S8.Idx → BitVec 32) (ValueIdx.ix1 d)
    = BitVec.ofNat 32 (Cert.Comb.gsp (idxN m c) d - Cert.Comb.gsu (idxN m c) d))
include hidx h26

theorem dest_lt (t : Fin 4096) : (dest m outs c t).toNat < 6144 := by
  obtain ⟨s, rfl⟩ := (sortPerm_bijective m c).2 t
  rw [dest_sortPerm m outs c hidx h26 s, BitVec.toNat_ofNat]
  have hp := Cert.Comb.pos_lt (idxN m c) hidx (sortPerm m c) (sortPerm_bijective m c) (sortPerm_mono m c hidx) s
  generalize Cert.Comb.pos (idxN m c) (sortPerm m c) s = p at hp ⊢
  omega

theorem dest_inj : Function.Injective (dest m outs c) := by
  intro t t' h
  obtain ⟨s, rfl⟩ := (sortPerm_bijective m c).2 t
  obtain ⟨s', rfl⟩ := (sortPerm_bijective m c).2 t'
  rw [dest_sortPerm m outs c hidx h26 s, dest_sortPerm m outs c hidx h26 s'] at h
  have hp := Cert.Comb.pos_lt (idxN m c) hidx (sortPerm m c) (sortPerm_bijective m c) (sortPerm_mono m c hidx) s
  have hp' := Cert.Comb.pos_lt (idxN m c) hidx (sortPerm m c) (sortPerm_bijective m c) (sortPerm_mono m c hidx) s'
  have h2 : Cert.Comb.pos (idxN m c) (sortPerm m c) s = Cert.Comb.pos (idxN m c) (sortPerm m c) s' := by
    have h3 := congrArg BitVec.toNat h
    rw [BitVec.toNat_ofNat, BitVec.toNat_ofNat] at h3
    generalize Cert.Comb.pos (idxN m c) (sortPerm m c) s = p at hp h3 ⊢
    generalize Cert.Comb.pos (idxN m c) (sortPerm m c) s' = p' at hp' h3 ⊢
    omega
  rw [Cert.Comb.pos_inj (idxN m c) hidx (sortPerm m c) (sortPerm_bijective m c) (sortPerm_mono m c hidx) h2]

theorem tile_dest (t : Fin 4096) : Cert.Comb.tile (idxN m c) ((dest m outs c t).toNat / 256) = idxN m c t := by
  obtain ⟨s, rfl⟩ := (sortPerm_bijective m c).2 t
  have hp := Cert.Comb.pos_lt (idxN m c) hidx (sortPerm m c) (sortPerm_bijective m c) (sortPerm_mono m c hidx) s
  have e : (dest m outs c (sortPerm m c s)).toNat = Cert.Comb.pos (idxN m c) (sortPerm m c) s := by
    rw [dest_sortPerm m outs c hidx h26 s, BitVec.toNat_ofNat]
    generalize Cert.Comb.pos (idxN m c) (sortPerm m c) s = p at hp ⊢
    omega
  rw [e]
  exact Cert.Comb.tile_pos (idxN m c) hidx (sortPerm m c) (sortPerm_bijective m c) (sortPerm_mono m c hidx) s

theorem xpad_row (t i : Fin 4096) :
    (V16 m outs c main_v65 : S6144x4096.Idx → Elt F .bf16)
        (ValueIdx.ix2 (⟨(dest m outs c t).toNat, dest_lt m outs c hidx h26 t⟩ : Fin 6144) i)
      = (V1 m c main_v0 : S4096x4096.Idx → Elt F .bf16) (ValueIdx.ix2 t i) := by
  have e65 : (V16 m outs c main_v65 : S6144x4096.Idx → Elt F .bf16)
      = Host.scatter scatter_S6144x4096_S4096x1_S4096x4096_1_0_0_1 (fun _ b => b)
          (broadcastInDim S6144x4096 ![] bcast_S_S6144x4096 (constant S_ .bf16 0x0000#16))
          (normCol 6144#32 (V15 m outs c main_v45))
          (V15 m outs c main_v0 : S4096x4096.Idx → Elt F .bf16) := after13_v65 (V15 m outs c)
  have e45 : (V15 m outs c main_v45 : S4096.Idx → BitVec 32) = V12 m outs c main_v45 :=
    (V15_of m outs c main_v45 (by decide)).trans <| (V14_of m outs c main_v45 (by decide)).trans (V13_of m outs c main_v45 (by decide))
  have e0 : (V15 m outs c main_v0 : S4096x4096.Idx → Elt F .bf16) = V1 m c main_v0 :=
    (V15_of m outs c main_v0 (by decide)).trans <| (V14_of m outs c main_v0 (by decide)).trans <| (V13_of m outs c main_v0 (by decide)).trans <| (V12_of m outs c main_v0 (by decide)).trans <| (V11_of m outs c main_v0 (by decide)).trans <| (V10_of m outs c main_v0 (by decide)).trans <| (V9_of m outs c main_v0 (by decide)).trans <| (V8_of m outs c main_v0 (by decide)).trans <| (V7_of m outs c main_v0 (by decide)).trans <| (V6_of m outs c main_v0 (by decide)).trans <| (V5_of m outs c main_v0 (by decide)).trans <| (V4_of m outs c main_v0 (by decide)).trans <| (V3_of m outs c main_v0 (by decide)).trans (V2_of m outs c main_v0 (by decide))
  rw [e65, e45, e0]
  exact rowScatter_apply _ (V12 m outs c main_v45) _ (fun t' => dest_lt m outs c hidx h26 t')
    (fun t' t'' h => dest_inj m outs c hidx h26 h) t i

theorem out_row (t o : Fin 4096) :
    (V18 m outs c main_v90 : S4096x4096.Idx → Elt F .f32) (ValueIdx.ix2 t o)
      = (outs 17 main_v83 c : S6144x4096.Idx → Elt F .f32)
          (ValueIdx.ix2 (⟨(dest m outs c t).toNat, dest_lt m outs c hidx h26 t⟩ : Fin 6144) o) := by
  have e90 : (V18 m outs c main_v90 : S4096x4096.Idx → Elt F .f32)
      = Host.gather gather_S6144x4096_S4096x1_S4096x4096_1_0_n_n_0_1_14096
          (V17 m outs c main_v83 : S6144x4096.Idx → Elt F .f32)
          (normCol 6144#32 (V17 m outs c main_v45)) := after2_v90 (V17 m outs c)
  have e45 : (V17 m outs c main_v45 : S4096.Idx → BitVec 32) = V12 m outs c main_v45 :=
    (V17_of m outs c main_v45 (by decide)).trans <| (V16_of m outs c main_v45 (by decide)).trans <| (V15_of m outs c main_v45 (by decide)).trans <| (V14_of m outs c main_v45 (by decide)).trans (V13_of m outs c main_v45 (by decide))
  have e83 : (V17 m outs c main_v83 : S6144x4096.Idx → Elt F .f32) = outs 17 main_v83 c := Function.update_self ..
  rw [e90, e45, e83]
  exact rowGather_apply' _ (V12 m outs c main_v45) (fun t' => dest_lt m outs c hidx h26 t') t o

end Dest

end Cert.KernelIdeal.Hand
-- ==== Proof.HostFloat.lean ====
import proofs.«417603_j79766132621353_3_alg».proof.Proof.Gen.KernelIdeal.Regions
import proofs.«417603_j79766132621353_3_alg».proof.Proof.Spec
import Idealize.ShloMosaic.Lib.ValueIdx
import Idealize.ShloMosaic.Lib.ValueLayout
import Idealize.ShloMosaic.Lib.StableHlo.Run
import Idealize.ShloMosaic.PureOps.Ideal

set_option maxRecDepth 1200

noncomputable section

namespace Cert.KernelIdeal.Hand

open Cert.KernelIdeal Cert.KernelIdeal.Gen Idealize.ShloMosaic Idealize.ShloMosaic.TcCoe Idealize.ShloMosaic.ValueIdx

variable (m : (ℓ : Loc nD τ sig) → Buf (Elt Ideal) ℓ) (outs : Gen.Outs (F := Ideal))

local notation:65 a:65 " +ₑ " b:66 => @HAdd.hAdd EReal EReal EReal instHAdd a b

theorem V1_v0_apply (c : Dev nD) (t i : Fin 4096) :
    (Gen.V1 m c main_v0 : S4096x4096.Idx → EReal) (ix2 t i)
      = (m ((c.tc : Thread nD τ).loc main_arg0) : S4096x4096.Idx → EReal) (ix2 t i) := by
  show (StableHlo.after hostOps0 (Gen.V0 m c) (Proc.devRef .tc main_v0) : S4096x4096.Idx → EReal) (ix2 t i) = _
  after_results
  rfl

theorem V1_v1_apply (c : Dev nD) (o i : Fin 4096) :
    (Gen.V1 m c main_v1 : S4096x4096.Idx → EReal) (ix2 o i)
      = (m ((c.tc : Thread nD τ).loc main_arg1) : S4096x4096.Idx → EReal) (ix2 o i) := by
  show (StableHlo.after hostOps0 (Gen.V0 m c) (Proc.devRef .tc main_v1) : S4096x4096.Idx → EReal) (ix2 o i) = _
  after_results
  rfl

theorem V15_arg3 (c : Dev nD) : Gen.V15 m outs c main_arg3 = m ((c.tc : Thread nD τ).loc main_arg3) :=
  ((Gen.V18_of m outs c main_arg3 (by decide)).trans <| (Gen.V17_of m outs c main_arg3 (by decide)).trans <|
    Gen.V16_of m outs c main_arg3 (by decide)).symm.trans (Gen.V18_main_arg3 m outs c)

theorem V15_arg4 (c : Dev nD) : Gen.V15 m outs c main_arg4 = m ((c.tc : Thread nD τ).loc main_arg4) :=
  ((Gen.V18_of m outs c main_arg4 (by decide)).trans <| (Gen.V17_of m outs c main_arg4 (by decide)).trans <|
    Gen.V16_of m outs c main_arg4 (by decide)).symm.trans (Gen.V18_main_arg4 m outs c)

theorem V15_arg5 (c : Dev nD) : Gen.V15 m outs c main_arg5 = m ((c.tc : Thread nD τ).loc main_arg5) :=
  ((Gen.V18_of m outs c main_arg5 (by decide)).trans <| (Gen.V17_of m outs c main_arg5 (by decide)).trans <|
    Gen.V16_of m outs c main_arg5 (by decide)).symm.trans (Gen.V18_main_arg5 m outs c)

theorem v66_of (W : Valuation τ sig (Elt Ideal)) (d : Fin 8) (r : Fin 512) (o : Fin 4096) :
    (StableHlo.after hostOps1_13 W (Proc.devRef .tc main_v66) : S8x512x4096.Idx → BitVec 32) (ix3 d r o)
      = (W (Proc.devRef .tc main_arg3) : S8x1x512x4096.Idx → BitVec 32) (ix4 d (0 : Fin 1) r o) := by
  after_results
  exact shapeCast_apply (s := S8x1x512x4096) (t := S8x512x4096) _ _ (ix3 d r o) (ix4 d (0 : Fin 1) r o) (by
    rw [Shape.rowMajor_val_four, Shape.rowMajor_val_three]
    show ((d.val * 1 + 0) * 512 + r.val) * 4096 + o.val = (d.val * 512 + r.val) * 4096 + o.val
    omega)

theorem v82_of (W : Valuation τ sig (Elt Ideal)) (d : Fin 8) (o : Fin 4096) :
    (StableHlo.after hostOps1_13 W (Proc.devRef .tc main_v82) : S8x1x4096.Idx → EReal) (ix3 d (0 : Fin 1) o)
      = (W (Proc.devRef .tc main_arg5) : S8x1x1x4096.Idx → EReal) (ix4 d (0 : Fin 1) (0 : Fin 1) o) := by
  after_results
  refine (shapeCast_apply (s := S8x4096) (t := S8x1x4096) _ _ (ix3 d (0 : Fin 1) o) (ix2 d o) ?_).trans ?_
  · rw [Shape.rowMajor_val_two, Shape.rowMajor_val_three]
    show d.val * 4096 + o.val = (d.val * 1 + 0) * 4096 + o.val
    omega
  · exact shapeCast_apply (s := S8x1x1x4096) (t := S8x4096) _ _ (ix2 d o) (ix4 d (0 : Fin 1) (0 : Fin 1) o) (by
      rw [Shape.rowMajor_val_four, Shape.rowMajor_val_two]
      show ((d.val * 1 + 0) * 1 + 0) * 4096 + o.val = d.val * 4096 + o.val
      omega)

theorem unpack_word_host (w : BitVec 32) (n : Fin 8) :
    IntOp.andi (IntOp.shrsi .host w (IntOp.muli (BitVec.ofNat 32 n.val) 4#32)) 15#32 = Cert.Spec.nibw w n := by
  have h : ∀ n : Fin 8, BitVec.ofNat 32 n.val * 4#32 = BitVec.ofNat 32 (4 * n.val) ∧ (BitVec.ofNat 32 (4 * n.val)).toNat < 32 := by decide
  unfold Cert.Spec.nibw IntOp.andi IntOp.shrsi IntOp.muli
  rw [(h n).1, if_pos (h n).2]

theorem v80_of (W : Valuation τ sig (Elt Ideal)) (d : Fin 8) (o : Fin 4096) :
    (StableHlo.after hostOps1_13 W (Proc.devRef .tc main_v80) : S8x1x4096.Idx → EReal) (ix3 d (0 : Fin 1) o)
      = Cert.Spec.z (W (Proc.devRef .tc main_arg4)) d o := by
  after_results
  refine (shapeCast_apply (s := S8x4096) (t := S8x1x4096) _ _ (ix3 d (0 : Fin 1) o) (ix2 d o) ?_).trans ?_
  · rw [Shape.rowMajor_val_two, Shape.rowMajor_val_three]
    show d.val * 4096 + o.val = (d.val * 1 + 0) * 4096 + o.val
    omega
  have hcast : ∀ (A : S8x512x8.Idx → BitVec 32),
      shapeCast S8x4096 A shapeCasts_S8x512x8_S8x4096 (ix2 d o)
        = A (ix3 d (⟨o.val / 8, by omega⟩ : Fin 512) (⟨o.val % 8, by omega⟩ : Fin 8)) := fun A =>
    shapeCast_apply (s := S8x512x8) (t := S8x4096) A _ (ix2 d o) _ (by
      rw [Shape.rowMajor_val_three, Shape.rowMajor_val_two]
      show (d.val * 512 + o.val / 8) * 8 + o.val % 8 = d.val * 4096 + o.val
      omega)
  show FloatOps.sitofp (F := Ideal) .f32 (shapeCast S8x4096 _ shapeCasts_S8x512x8_S8x4096 (ix2 d o)) = _
  rw [hcast]
  generalize hw : (⟨o.val / 8, by omega⟩ : Fin 512) = w
  generalize hn : (⟨o.val % 8, by omega⟩ : Fin 8) = n
  have hB : (broadcastInDim S8x512x8 ![0, 1, 2] bcast_S8x512x1_S8x512x8_0_1_2 (broadcastInDim S8x512x1 ![0, 1] bcast_S8x512_S8x512x1_0_1 (fun i => shapeCast S8x512 (W (Proc.devRef .tc main_arg4) : S8x1x1x512.Idx → BitVec 32) shapeCasts_S8x1x1x512_S8x512 i))) (ix3 d w n)
      = (W (Proc.devRef .tc main_arg4) : S8x1x1x512.Idx → BitVec 32) (ix4 d (0 : Fin 1) (0 : Fin 1) w) := by
    refine (broadcastInDim_apply _ _ _ (ix3 d w n) (ix3 d w (0 : Fin 1)) ?_).trans ?_
    · exact fun a => match a with | ⟨0, _⟩ => rfl | ⟨1, _⟩ => rfl | ⟨2, _⟩ => rfl
    refine (broadcastInDim_apply _ _ _ (ix3 d w (0 : Fin 1)) (ix2 d w) ?_).trans ?_
    · exact fun a => match a with | ⟨0, _⟩ => rfl | ⟨1, _⟩ => rfl
    exact shapeCast_apply (s := S8x1x1x512) (t := S8x512) _ _ (ix2 d w) (ix4 d (0 : Fin 1) (0 : Fin 1) w) (by
      rw [Shape.rowMajor_val_four, Shape.rowMajor_val_two]
      show ((d.val * 1 + 0) * 1 + 0) * 512 + w.val = d.val * 512 + w.val
      omega)
  have hC : (broadcastInDim S8x512x8 ![0, 1, 2] bcast_S1x1x8_S8x512x8_0_1_2 (broadcastInDim S1x1x8 ![2] bcast_S8_S1x1x8_2 (muli (iotaInDim S8 32 0) (broadcastInDim S8 ![] bcast_S_S8 (constantI S_ 32 4#32))))) (ix3 d w n) = IntOp.muli (BitVec.ofNat 32 n.val) 4#32 := by
    refine (broadcastInDim_apply _ _ _ (ix3 d w n) (ix3 (0 : Fin 1) (0 : Fin 1) n) ?_).trans ?_
    · exact fun a => match a with | ⟨0, _⟩ => rfl | ⟨1, _⟩ => rfl | ⟨2, _⟩ => rfl
    refine (broadcastInDim_apply _ _ _ (ix3 (0 : Fin 1) (0 : Fin 1) n) (ValueIdx.ix1 n) ?_).trans ?_
    · exact fun a => match a with | ⟨0, _⟩ => rfl
    rfl
  have hK : (broadcastInDim S8x512x8 ![] bcast_S_S8x512x8 (constantI S_ 32 15#32)) (ix3 d w n) = 15#32 := rfl
  show FloatOps.sitofp (F := Ideal) .f32 (IntOp.andi (IntOp.shrsi .host ((broadcastInDim S8x512x8 ![0, 1, 2] bcast_S8x512x1_S8x512x8_0_1_2 (broadcastInDim S8x512x1 ![0, 1] bcast_S8x512_S8x512x1_0_1 (fun i => shapeCast S8x512 (W (Proc.devRef .tc main_arg4) : S8x1x1x512.Idx → BitVec 32) shapeCasts_S8x1x1x512_S8x512 i))) (ix3 d w n)) ((broadcastInDim S8x512x8 ![0, 1, 2] bcast_S1x1x8_S8x512x8_0_1_2 (broadcastInDim S1x1x8 ![2] bcast_S8_S1x1x8_2 (muli (iotaInDim S8 32 0) (broadcastInDim S8 ![] bcast_S_S8 (constantI S_ 32 4#32))))) (ix3 d w n))) ((broadcastInDim S8x512x8 ![] bcast_S_S8x512x8 (constantI S_ 32 15#32)) (ix3 d w n))) = _
  rw [hB, hC, hK, unpack_word_host]
  subst hw hn
  rfl

theorem V16_v66_apply (c : Dev nD) (d : Fin 8) (r : Fin 512) (o : Fin 4096) :
    (Gen.V16 m outs c main_v66 : S8x512x4096.Idx → BitVec 32) (ix3 d r o)
      = (m ((c.tc : Thread nD τ).loc main_arg3) : S8x1x512x4096.Idx → BitVec 32) (ix4 d (0 : Fin 1) r o) := by
  rw [← V15_arg3 m outs c]
  exact v66_of (Gen.V15 m outs c) d r o

theorem V16_v82_apply (c : Dev nD) (d : Fin 8) (o : Fin 4096) :
    (Gen.V16 m outs c main_v82 : S8x1x4096.Idx → EReal) (ix3 d (0 : Fin 1) o)
      = (m ((c.tc : Thread nD τ).loc main_arg5) : S8x1x1x4096.Idx → EReal) (ix4 d (0 : Fin 1) (0 : Fin 1) o) := by
  rw [← V15_arg5 m outs c]
  exact v82_of (Gen.V15 m outs c) d o

theorem V16_v80_apply (c : Dev nD) (d : Fin 8) (o : Fin 4096) :
    (Gen.V16 m outs c main_v80 : S8x1x4096.Idx → EReal) (ix3 d (0 : Fin 1) o)
      = Cert.Spec.z (m ((c.tc : Thread nD τ).loc main_arg4)) d o := by
  rw [← V15_arg4 m outs c]
  exact v80_of (Gen.V15 m outs c) d o

theorem V17_arg2 (c : Dev nD) : Gen.V17 m outs c main_arg2 = m ((c.tc : Thread nD τ).loc main_arg2) :=
  (Gen.V18_of m outs c main_arg2 (by decide)).symm.trans (Gen.V18_main_arg2 m outs c)

theorem bias_bcast_apply (b : S4096.Idx → EReal) (t o : Fin 4096) :
    broadcastInDim S4096x4096 ![0, 1] bcast_S1x4096_S4096x4096_0_1 (broadcastInDim S1x4096 ![1] bcast_S4096_S1x4096_1 b) (ix2 t o)
      = b (ValueIdx.ix1 o) := by
  refine (broadcastInDim_apply _ _ _ (ix2 t o) (ix2 (0 : Fin 1) o) ?_).trans ?_
  · exact fun a => match a with | ⟨0, _⟩ => rfl | ⟨1, _⟩ => rfl
  exact broadcastInDim_apply _ _ _ (ix2 (0 : Fin 1) o) (ValueIdx.ix1 o) (fun a => match a with | ⟨0, _⟩ => rfl)

theorem v94_of (W : Valuation τ sig (Elt Ideal)) (t o : Fin 4096) :
    (StableHlo.after hostOps2 W (Proc.devRef .tc main_v94) : S4096x4096.Idx → EReal) (ix2 t o)
      = (W (Proc.devRef .tc main_v2) : S4096x4096.Idx → EReal) (ix2 t o)
        +ₑ (StableHlo.after hostOps2 W (Proc.devRef .tc main_v90) : S4096x4096.Idx → EReal) (ix2 t o)
        +ₑ (W (Proc.devRef .tc main_arg2) : S4096.Idx → EReal) (ValueIdx.ix1 o) := by
  generalize hg : (StableHlo.after hostOps2 W (Proc.devRef .tc main_v90) : S4096x4096.Idx → EReal) = g
  after_results
  subst hg
  after_results
  rw [addf_apply, addf_apply, bias_bcast_apply]

theorem V17_v2 (c : Dev nD) : Gen.V17 m outs c main_v2 = outs 2 main_v2 c := by
  refine (Gen.V17_of m outs c main_v2 (by decide)).trans <|
    (Gen.V16_of m outs c main_v2 (by decide)).trans <|
    (Gen.V15_of m outs c main_v2 (by decide)).trans <|
    (Gen.V14_of m outs c main_v2 (by decide)).trans <|
    (Gen.V13_of m outs c main_v2 (by decide)).trans <|
    (Gen.V12_of m outs c main_v2 (by decide)).trans <|
    (Gen.V11_of m outs c main_v2 (by decide)).trans <|
    (Gen.V10_of m outs c main_v2 (by decide)).trans <|
    (Gen.V9_of m outs c main_v2 (by decide)).trans <|
    (Gen.V8_of m outs c main_v2 (by decide)).trans <|
    (Gen.V7_of m outs c main_v2 (by decide)).trans <|
    (Gen.V6_of m outs c main_v2 (by decide)).trans <|
    (Gen.V5_of m outs c main_v2 (by decide)).trans <|
    (Gen.V4_of m outs c main_v2 (by decide)).trans <|
    (Gen.V3_of m outs c main_v2 (by decide)).trans ?_
  exact Function.update_self _ _ _

theorem V18_v94_apply (c : Dev nD) (t o : Fin 4096) :
    (Gen.V18 m outs c main_v94 : S4096x4096.Idx → EReal) (ix2 t o)
      = (Gen.V17 m outs c main_v2 : S4096x4096.Idx → EReal) (ix2 t o)
        +ₑ (Gen.V18 m outs c main_v90 : S4096x4096.Idx → EReal) (ix2 t o)
        +ₑ (m ((c.tc : Thread nD τ).loc main_arg2) : S4096.Idx → EReal) (ValueIdx.ix1 o) := by
  rw [← V17_arg2 m outs c]
  exact v94_of (Gen.V17 m outs c) t o

end Cert.KernelIdeal.Hand

end
-- ==== Proof.HostTable.lean ====
import proofs.«417603_j79766132621353_3_alg».proof.Proof.Gen.KernelIdeal.Regions
import proofs.«417603_j79766132621353_3_alg».proof.Proof.HostRead
import proofs.«417603_j79766132621353_3_alg».proof.Proof.HostArith
import proofs.«417603_j79766132621353_3_alg».proof.Proof.HostIdx
import proofs.«417603_j79766132621353_3_alg».proof.Proof.Comb
import Idealize.ShloMosaic.Lib.StableHlo.Predicate

set_option maxRecDepth 4096

noncomputable section

namespace Cert.KernelIdeal.Hand

open Cert.KernelIdeal Cert.KernelIdeal.Gen
open Idealize.ShloMosaic Idealize.ShloMosaic.TcCoe Idealize.SL.Sem
open Idealize.ShloMosaic.StableHlo.Predicate Cert.HostArith

variable {F : FTy → Type} [FloatOps F]

theorem cnt_le (idx : Fin 4096 → ℕ) (d : ℕ) : Cert.Comb.cnt idx d ≤ 4096 := by
  unfold Cert.Comb.cnt
  exact le_trans (Finset.card_le_univ _) (by simp)

theorem count_eq (X : S4096.Idx → BitVec 32) (i : S8.Idx) :
    Host.reduce IntOp.addi (extui 32 (cmpi CmpIPredicate.eq
        (broadcastInDim S8x4096 ![0, 1] bcast_S1x4096_S8x4096_0_1 (broadcastInDim S1x4096 ![1] bcast_S4096_S1x4096_1 X))
        (broadcastInDim S8x4096 ![0, 1] bcast_S8x1_S8x4096_0_1 (broadcastInDim S8x1 ![0] bcast_S8_S8x1_0 (iotaInDim S8 32 0))))
      natLt_1_32) (constantI S_ 32 0#32) reducesTo_S8x4096_S8_d1 h_S_ i
      = BitVec.ofNat 32 (Cert.Comb.cnt (fun t => (X (ValueIdx.ix1 t)).toNat) (i 0).val) := by
  apply BitVec.eq_of_toNat_eq
  rw [toNat_reduce_count_cols (n := 8) (m := 4096) (by norm_num) _ natLt_1_32 reducesTo_S8x4096_S8_d1 h_S_ i,
    BitVec.toNat_ofNat, Nat.mod_eq_of_lt (lt_of_le_of_lt (cnt_le _ _) (by norm_num))]
  unfold Cert.Comb.cnt
  refine congrArg Finset.card (Finset.filter_congr fun q _ => ?_)
  have hi : (i 0).val < 8 := (i 0).isLt
  show IntOp.cmpi CmpIPredicate.eq _ _ = 1#1 ↔ _
  have e1 := bcast_cols (n := 8) (m := 4096) bcast_S4096_S1x4096_1 bcast_S1x4096_S8x4096_0_1 X (i 0) q
  have e2 := bcast_rows (n := 8) (m := 4096) bcast_S8_S8x1_0 bcast_S8x1_S8x4096_0_1 (iotaInDim S8 32 0) (i 0) q
  rw [cmpi_eq_iff, e1, e2]
  show X (Shape.Idx.ofFin q) = BitVec.ofNat 32 (i 0).val ↔ (X (ValueIdx.ix1 q)).toNat = (i 0).val
  rw [ofFin_eq_ix1]
  constructor
  · intro e; rw [e, BitVec.toNat_ofNat]; exact Nat.mod_eq_of_lt (by omega)
  · intro e; apply BitVec.eq_of_toNat_eq; rw [e, BitVec.toNat_ofNat]; exact (Nat.mod_eq_of_lt (by omega)).symm

variable (m : (ℓ : Loc nD τ sig) → Buf (Elt F) ℓ) (outs : Outs (F := F)) (c : Dev nD)

theorem V2_arg6 : Gen.V2 m outs c main_arg6 = m ((c : Thread nD τ).loc main_arg6) :=
  (Gen.V2_of m outs c main_arg6 (by decide)).trans (Gen.V1_of m c main_arg6 (by decide))

theorem v10_eq3 (i : S8.Idx) :
    (Gen.V3 m outs c main_v10 : S8.Idx → BitVec 32) i = BitVec.ofNat 32 (Cert.Comb.cnt (idxN m c) (i 0).val) := by
  rw [show Gen.V3 m outs c main_v10 = _ from rd_v10 (Gen.V2 m outs c), V2_arg6]
  exact count_eq _ i

theorem v10_eq4 (i : S8.Idx) :
    (Gen.V4 m outs c main_v10 : S8.Idx → BitVec 32) i = BitVec.ofNat 32 (Cert.Comb.cnt (idxN m c) (i 0).val) := by
  rw [Gen.V4_of m outs c main_v10 (by decide)]; exact v10_eq3 m outs c i

theorem v12_eq4 (i : S8.Idx) :
    (Gen.V4 m outs c main_v12 : S8.Idx → BitVec 32) i = BitVec.ofNat 32 (Cert.Comb.gsu (idxN m c) ((i 0).val + 1)) := by
  rw [show Gen.V4 m outs c main_v12 = _ from rd_v12 (Gen.V3 m outs c)]
  exact cumsum8_ofNat _ _ reduceWindows_S8_S8_w8s1p7_0 h_S_ (fun _ => rfl) (Cert.Comb.cnt (idxN m c)) (v10_eq3 m outs c) i

theorem v11_eq4 : (Gen.V4 m outs c main_v11 : S1.Idx → BitVec 32) = broadcastInDim S1 ![] bcast_S_S1 (constantI S_ 32 0#32) := by
  rw [Gen.V4_of m outs c main_v11 (by decide)]; exact rd_v11 (Gen.V2 m outs c)

theorem v14_eq5 (d : Fin 8) :
    (Gen.V5 m outs c main_v14 : S8.Idx → BitVec 32) (ValueIdx.ix1 d) = BitVec.ofNat 32 (Cert.Comb.gsu (idxN m c) d.val) := by
  rw [show Gen.V5 m outs c main_v14 = _ from rd_v14 (Gen.V4 m outs c)]
  unfold shift8
  rw [shift8_apply]
  split
  · rename_i h
    rw [v11_eq4, h]
    show (0#32 : BitVec 32) = BitVec.ofNat 32 (Cert.Comb.gsu (idxN m c) 0)
    simp [Cert.Comb.gsu]
  · rename_i h
    rw [v12_eq4]
    show BitVec.ofNat 32 (Cert.Comb.gsu (idxN m c) (d.val - 1 + 1)) = _
    rw [Nat.sub_add_cancel (by omega)]

theorem v18_eq5 (i : S8.Idx) :
    (Gen.V5 m outs c main_v18 : S8.Idx → BitVec 32) i = BitVec.ofNat 32 (Cert.Comb.cnt (idxN m c) (i 0).val + 255) := by
  rw [show Gen.V5 m outs c main_v18 = _ from rd_v18 (Gen.V4 m outs c)]
  show IntOp.subi (IntOp.addi ((Gen.V4 m outs c main_v10 : S8.Idx → BitVec 32) i) 256#32) 1#32 = _
  rw [v10_eq4]
  exact ofNat_add256_sub1 _

theorem c3_eq5 : (Gen.V5 m outs c main_c_3 : S_.Idx → BitVec 32) = constantI S_ 32 256#32 := rd_c3 (Gen.V4 m outs c)

theorem v19_eq6 (i : S8.Idx) :
    (Gen.V6 m outs c main_v19 : S8.Idx → BitVec 32) i = BitVec.ofNat 32 ((Cert.Comb.cnt (idxN m c) (i 0).val + 255) / 256) := by
  rw [show Gen.V6 m outs c main_v19 = _ from rd_v19 (Gen.V5 m outs c), c3_eq5]
  have hc := cnt_le (idxN m c) (i 0).val
  have hx := v18_eq5 m outs c i
  have hN : ((Gen.V5 m outs c main_v18 : S8.Idx → BitVec 32) i).toNat = Cert.Comb.cnt (idxN m c) (i 0).val + 255 := by
    rw [hx, BitVec.toNat_ofNat]; exact Nat.mod_eq_of_lt (by omega)
  have key := floorDiv256 ((Gen.V5 m outs c main_v18 : S8.Idx → BitVec 32) i)
    (IntOp.cmpi CmpIPredicate.ne (IntOp.remsi .host ((Gen.V5 m outs c main_v18 : S8.Idx → BitVec 32) i) 256#32) 0#32) (by omega) (by omega)
  rw [hN] at key
  exact key

theorem v21_eq7i (i : S8.Idx) :
    (Gen.V7 m outs c main_v21 : S8.Idx → BitVec 32) i = BitVec.ofNat 32 (Cert.Comb.pc (idxN m c) (i 0).val) := by
  rw [show Gen.V7 m outs c main_v21 = _ from rd_v21 (Gen.V6 m outs c)]
  show IntOp.muli ((Gen.V6 m outs c main_v19 : S8.Idx → BitVec 32) i) 256#32 = _
  rw [v19_eq6]
  exact ofNat_mul256 _

theorem v21_eq7 (d : Fin 8) :
    (Gen.V7 m outs c main_v21 : S8.Idx → BitVec 32) (ValueIdx.ix1 d) = BitVec.ofNat 32 (Cert.Comb.pc (idxN m c) d.val) :=
  v21_eq7i m outs c (ValueIdx.ix1 d)

theorem v23_eq8 (i : S8.Idx) :
    (Gen.V8 m outs c main_v23 : S8.Idx → BitVec 32) i = BitVec.ofNat 32 (Cert.Comb.gsp (idxN m c) ((i 0).val + 1)) := by
  rw [show Gen.V8 m outs c main_v23 = _ from rd_v23 (Gen.V7 m outs c)]
  exact cumsum8_ofNat _ _ reduceWindows_S8_S8_w8s1p7_0 h_S_ (fun _ => rfl) (Cert.Comb.pc (idxN m c)) (v21_eq7i m outs c) i

theorem v22_eq8 : (Gen.V8 m outs c main_v22 : S1.Idx → BitVec 32) = broadcastInDim S1 ![] bcast_S_S1 (constantI S_ 32 0#32) := by
  rw [Gen.V8_of m outs c main_v22 (by decide)]; exact rd_v22 (Gen.V6 m outs c)

theorem v14_eq8 (d : Fin 8) :
    (Gen.V8 m outs c main_v14 : S8.Idx → BitVec 32) (ValueIdx.ix1 d) = BitVec.ofNat 32 (Cert.Comb.gsu (idxN m c) d.val) := by
  rw [Gen.V8_of m outs c main_v14 (by decide), Gen.V7_of m outs c main_v14 (by decide), Gen.V6_of m outs c main_v14 (by decide)]
  exact v14_eq5 m outs c d

theorem v25_eq8 (d : Fin 8) :
    shift8 (Gen.V8 m outs c main_v22) (Gen.V8 m outs c main_v23) (ValueIdx.ix1 d) = BitVec.ofNat 32 (Cert.Comb.gsp (idxN m c) d.val) := by
  unfold shift8
  rw [shift8_apply]
  split
  · rename_i h
    rw [v22_eq8, h]
    show (0#32 : BitVec 32) = BitVec.ofNat 32 (Cert.Comb.gsp (idxN m c) 0)
    simp [Cert.Comb.gsp]
  · rename_i h
    rw [v23_eq8]
    show BitVec.ofNat 32 (Cert.Comb.gsp (idxN m c) (d.val - 1 + 1)) = _
    rw [Nat.sub_add_cancel (by omega)]

theorem v26_eq9 (d : Fin 8) :
    (Gen.V9 m outs c main_v26 : S8.Idx → BitVec 32) (ValueIdx.ix1 d)
      = BitVec.ofNat 32 (Cert.Comb.gsp (idxN m c) d - Cert.Comb.gsu (idxN m c) d) := by
  rw [show Gen.V9 m outs c main_v26 = _ from rd_v26 (Gen.V8 m outs c)]
  show IntOp.subi (shift8 (Gen.V8 m outs c main_v22) (Gen.V8 m outs c main_v23) (ValueIdx.ix1 d))
    ((Gen.V8 m outs c main_v14 : S8.Idx → BitVec 32) (ValueIdx.ix1 d)) = _
  rw [v25_eq8, v14_eq8]
  exact ofNat_sub_of_le _ _ (Cert.Comb.gsu_le_gsp (idxN m c) d.val)

end Cert.KernelIdeal.Hand

end
-- ==== Proof.KVal.lean ====
import proofs.«417603_j79766132621353_3_alg».proof.Proof.KValMid
import proofs.«417603_j79766132621353_3_alg».proof.Proof.KRun
import proofs.«417603_j79766132621353_3_alg».proof.Proof.RegVal0
import proofs.«417603_j79766132621353_3_alg».proof.Proof.RegVal1
import proofs.«417603_j79766132621353_3_alg».proof.Proof.HostDest
import proofs.«417603_j79766132621353_3_alg».proof.Proof.HostFloat
import proofs.«417603_j79766132621353_3_alg».proof.Proof.HostTable
import proofs.«417603_j79766132621353_3_alg».proof.Proof.HostTile

set_option maxRecDepth 16384

noncomputable section

namespace Cert.KernelIdeal.Hand

open Cert.KernelIdeal Cert.KernelIdeal.Gen Idealize.ShloMosaic Idealize.ShloMosaic.TcCoe

variable (m : (ℓ : Loc nD τ sig) → Buf (Elt Ideal) ℓ) (hok : ok1 (tbl m)) (c : Dev nD)

theorem adm_one : adm m hok 1 = (⟨tbl m, hok⟩ : (pcfg1 (F := Ideal)).Adm) := rfl

theorem adm_tbl : ((⟨tbl m, hok⟩ : (pcfg1 (F := Ideal)).Adm).1 : pre1.Contents (Elt Ideal)) = tbl m := rfl

theorem tbl_zero : (tbl m 0 : S24.Idx → BitVec 32) = Gen.V16 m (outsM m) (0 : Dev nD) main_v57 := rfl

theorem outs_v83' : outs m hok 17 main_v83 c
    = (dat1 (F := Ideal) (⟨tbl m, hok⟩ : (pcfg1 (F := Ideal)).Adm) (W16 m (outsA m)) c).arrAt 4
        (cfg1 (⟨tbl m, hok⟩ : (pcfg1 (F := Ideal)).Adm)).N := by
  rw [← adm_one m hok]
  exact outs_v83 m hok c

theorem kval_tab (hpre : Cert.Pre_KernelIdeal m)
    (h26 : ∀ d : Fin 8, (Gen.V9 m (outs m hok) c main_v26 : S8.Idx → BitVec 32) (ValueIdx.ix1 d)
      = BitVec.ofNat 32 (Cert.Comb.gsp (idxN m c) d - Cert.Comb.gsu (idxN m c) d))
    (h57 : ∀ i : Fin 24, (Gen.V16 m (outsM m) (0 : Dev nD) main_v57 : S24.Idx → BitVec 32) (ValueIdx.ix1 i)
      = BitVec.ofNat 32 (Cert.Comb.tile (idxN m (0 : Dev nD)) i.val)) :
    (Gen.V18 m (outs m hok) c main_v94 : S4096x4096.Idx → EReal)
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  have hidx := idxN_lt_of_pre m c hpre
  have hdl : ∀ t : Fin 4096, (dest m (outs m hok) c t).toNat < 6144 := fun t => dest_lt m (outs m hok) c hidx h26 t
  have hval0 : ∀ r o : Fin 4096,
      ((dat0 (F := Ideal) (W1 m) c).arrAt 2 cfg0.N : S4096x4096.Idx → EReal) (ValueIdx.ix2 r o)
        = baseBlocked (v1X m c) (v1W m c) r o := by
    intro r o
    unfold baseBlocked blk
    exact out0_val (VR1 m) c r o
  have hval1 : ∀ t o : Fin 4096,
      ((dat1 (F := Ideal) (⟨tbl m, hok⟩ : (pcfg1 (F := Ideal)).Adm) (W16 m (outsA m)) c).arrAt 4
          (cfg1 (⟨tbl m, hok⟩ : (pcfg1 (F := Ideal)).Adm)).N : S6144x4096.Idx → EReal)
          (ValueIdx.ix2 ⟨(dest m (outs m hok) c t).toNat, hdl t⟩ o)
        = deltaBlocked (v16Xp m (outsA m) c) (v16Q m (outsA m) c) (v16Z m (outsA m) c) (v16S m (outsA m) c)
            ⟨(dest m (outs m hok) c t).toNat, hdl t⟩ o ⟨idxN m c t, hidx t⟩ := by
    intro t o
    have key : ∀ (r : Fin 6144) (g : Fin 8), r = ⟨(dest m (outs m hok) c t).toNat, hdl t⟩ → g = ⟨idxN m c t, hidx t⟩ →
        ((dat1 (F := Ideal) (⟨tbl m, hok⟩ : (pcfg1 (F := Ideal)).Adm) (W16 m (outsA m)) c).arrAt 4
            (cfg1 (⟨tbl m, hok⟩ : (pcfg1 (F := Ideal)).Adm)).N : S6144x4096.Idx → EReal) (ValueIdx.ix2 r o)
          = deltaBlocked (v16Xp m (outsA m) c) (v16Q m (outsA m) c) (v16Z m (outsA m) c) (v16S m (outsA m) c) r o g := by
      intro r g hr' hgv'
      have hr : r.val = (dest m (outs m hok) c t).toNat := (congrArg Fin.val hr').trans (Fin.val_mk _)
      have hgv : g.val = idxN m c t := (congrArg Fin.val hgv').trans (Fin.val_mk _)
      have hg : (((⟨tbl m, hok⟩ : (pcfg1 (F := Ideal)).Adm).1 0 : S24.Idx → BitVec 32))
          (ValueIdx.ix1 (⟨r.val / 256, by have := r.isLt; omega⟩ : Fin 24)) = BitVec.ofNat 32 g.val := by
        rw [adm_tbl m hok, tbl_zero m, h57]
        have hc : c = (0 : Dev nD) := Subsingleton.elim _ _
        subst hc
        show BitVec.ofNat 32 (Cert.Comb.tile (idxN m (0 : Dev nD)) (r.val / 256)) = BitVec.ofNat 32 g.val
        rw [hr, hgv]
        exact congrArg (BitVec.ofNat 32) (tile_dest m (outs m hok) _ hidx h26 t)
      unfold deltaBlocked
      exact out1_val (⟨tbl m, hok⟩ : (pcfg1 (F := Ideal)).Adm) (VR16 m) c r o g hg
    exact key ⟨(dest m (outs m hok) c t).toNat, hdl t⟩ ⟨idxN m c t, hidx t⟩ rfl rfl
  exact kval_mid m (outs m hok) c hpre (⟨tbl m, hok⟩ : (pcfg1 (F := Ideal)).Adm) (outsA m)
    (fun t => (dest m (outs m hok) c t).toNat) hdl
    (V1_v0_apply m c) (V1_v1_apply m c) (V16_v66_apply m (outs m hok) c) (V16_v82_apply m (outs m hok) c)
    (V16_v80_apply m (outs m hok) c) (V17_v2 m (outs m hok) c) (V18_v94_apply m (outs m hok) c)
    (xpad_row m (outs m hok) c hidx h26) (out_row m (outs m hok) c hidx h26)
    (outs_v2 m hok c) (outs_v83' m hok c) (V16_outs m hok c) hval0 hval1

theorem kval (hpre : Cert.Pre_KernelIdeal m) :
    Gen.V18 m (outs m (tbl_ok m)) c main_v94
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  kval_tab m (tbl_ok m) c hpre (v26_eq9 m (outs m (tbl_ok m)) c)
    (v57_eq m (outsM m) (0 : Dev nD) (v21_eq7 m (outsM m) (0 : Dev nD)))

end Cert.KernelIdeal.Hand

end
-- ==== Proof.RefTerm.lean ====
import proofs.«417603_j79766132621353_3_alg».proof.ReferenceIdeal

noncomputable section

namespace Cert.ReferenceIdeal.Hand

open Cert.ReferenceIdeal Idealize.ShloMosaic Idealize.SL.Sem

variable {F : FTy → Type} [FloatOps F] [Facts]
open Facts₀ Facts

abbrev Arr (F : FTy → Type) (s : Shape) (e : EltTy) : Type := (⟨s, e⟩ : BufTy).Contents (Elt F)

def shifts : Arr F S8 .i32 := fun i => lit0 (S8.rowMajor i)

def base (x w : Arr F S4096x4096 .f32) : Arr F S4096x4096 .f32 :=
  Host.dotGeneral dot_S4096x4096_S4096x4096_S4096x4096_1_0_0_1_n_n none x
    (transpose S4096x4096 [1, 0] w transposes_S4096x4096_S4096x4096_1_0)

def rowBcast {e : EltTy} (v : Arr F S4096 e) : Arr F S4096x4096 e :=
  (broadcastInDim S4096x4096 ![0, 1] bcast_S1x4096_S4096x4096_0_1 : Arr F S1x4096 e → Arr F S4096x4096 e)
    ((broadcastInDim S1x4096 ![1] bcast_S4096_S1x4096_1 : Arr F S4096 e → Arr F S1x4096 e) v)

def qwOf (d : Nat) (h : S8x1x512x4096.Slices ![d, 0, 0, 0] S1x1x512x4096) (qw : Arr F S8x1x512x4096 .i32) :
    Arr F S512x4096 .i32 :=
  shapeCast S512x4096 (extractStridedSlice S1x1x512x4096 ![d, 0, 0, 0] qw h) shapeCasts_S1x1x512x4096_S512x4096

def qzOf (d : Nat) (h : S8x1x1x512.Slices ![d, 0, 0, 0] S1x1x1x512) (qz : Arr F S8x1x1x512 .i32) : Arr F S512 .i32 :=
  shapeCast S512 (extractStridedSlice S1x1x1x512 ![d, 0, 0, 0] qz h) shapeCasts_S1x1x1x512_S512

def scOf (d : Nat) (h : S8x1x1x4096.Slices ![d, 0, 0, 0] S1x1x1x4096) (sc : Arr F S8x1x1x4096 .f32) : Arr F S4096 .f32 :=
  shapeCast S4096 (extractStridedSlice S1x1x1x4096 ![d, 0, 0, 0] sc h) shapeCasts_S1x1x1x4096_S4096

def fieldsW (q : Arr F S512x4096 .i32) : Arr F S512x8x4096 .i32 :=
  (andi : Arr F S512x8x4096 .i32 → Arr F S512x8x4096 .i32 → Arr F S512x8x4096 .i32)
    ((Host.shrsi : Arr F S512x8x4096 .i32 → Arr F S512x8x4096 .i32 → Arr F S512x8x4096 .i32)
      ((broadcastInDim S512x8x4096 ![0, 1, 2] bcast_S512x1x4096_S512x8x4096_0_1_2 : Arr F S512x1x4096 .i32 → Arr F S512x8x4096 .i32)
        ((broadcastInDim S512x1x4096 ![0, 2] bcast_S512x4096_S512x1x4096_0_2 : Arr F S512x4096 .i32 → Arr F S512x1x4096 .i32) q))
      ((broadcastInDim S512x8x4096 ![0, 1, 2] bcast_S1x8x1_S512x8x4096_0_1_2 : Arr F S1x8x1 .i32 → Arr F S512x8x4096 .i32)
        ((broadcastInDim S1x8x1 ![1] bcast_S8_S1x8x1_1 : Arr F S8 .i32 → Arr F S1x8x1 .i32) shifts)))
    ((broadcastInDim S512x8x4096 ![] bcast_S_S512x8x4096 : Arr F S_ .i32 → Arr F S512x8x4096 .i32) (constantI S_ 32 15#32))

def unpackW (q : Arr F S512x4096 .i32) : Arr F S4096x4096 .f32 :=
  (sitofp .f32 : Arr F S4096x4096 .i32 → Arr F S4096x4096 .f32)
    (shapeCast S4096x4096 (fieldsW q) shapeCasts_S512x8x4096_S4096x4096)

def fieldsZ (z : Arr F S512 .i32) : Arr F S512x8 .i32 :=
  (andi : Arr F S512x8 .i32 → Arr F S512x8 .i32 → Arr F S512x8 .i32)
    ((Host.shrsi : Arr F S512x8 .i32 → Arr F S512x8 .i32 → Arr F S512x8 .i32)
      ((broadcastInDim S512x8 ![0, 1] bcast_S512x1_S512x8_0_1 : Arr F S512x1 .i32 → Arr F S512x8 .i32)
        ((broadcastInDim S512x1 ![0] bcast_S512_S512x1_0 : Arr F S512 .i32 → Arr F S512x1 .i32) z))
      ((broadcastInDim S512x8 ![0, 1] bcast_S1x8_S512x8_0_1 : Arr F S1x8 .i32 → Arr F S512x8 .i32)
        ((broadcastInDim S1x8 ![1] bcast_S8_S1x8_1 : Arr F S8 .i32 → Arr F S1x8 .i32) shifts)))
    ((broadcastInDim S512x8 ![] bcast_S_S512x8 : Arr F S_ .i32 → Arr F S512x8 .i32) (constantI S_ 32 15#32))

def unpackZ (z : Arr F S512 .i32) : Arr F S4096 .f32 :=
  (sitofp .f32 : Arr F S4096 .i32 → Arr F S4096 .f32) (shapeCast S4096 (fieldsZ z) shapeCasts_S512x8_S4096)

def deq (q : Arr F S512x4096 .i32) (z : Arr F S512 .i32) (s : Arr F S4096 .f32) : Arr F S4096x4096 .f32 :=
  (mulf : Arr F S4096x4096 .f32 → Arr F S4096x4096 .f32 → Arr F S4096x4096 .f32) (rowBcast s)
    ((subf : Arr F S4096x4096 .f32 → Arr F S4096x4096 .f32 → Arr F S4096x4096 .f32) (unpackW q) (rowBcast (unpackZ z)))

def masked (dc : BitVec 32) (x : Arr F S4096x4096 .f32) (idx : Arr F S4096 .i32) : Arr F S4096x4096 .f32 :=
  select
    ((broadcastInDim S4096x4096 ![0, 1] bcast_S4096x1_S4096x4096_0_1 : Arr F S4096x1 .i1 → Arr F S4096x4096 .i1)
      ((broadcastInDim S4096x1 ![0] bcast_S4096_S4096x1_0 : Arr F S4096 .i1 → Arr F S4096x1 .i1)
        ((cmpi .eq : Arr F S4096 .i32 → Arr F S4096 .i32 → Arr F S4096 .i1) idx
          ((broadcastInDim S4096 ![] bcast_S_S4096 : Arr F S_ .i32 → Arr F S4096 .i32) (constantI S_ 32 dc)))))
    x
    ((broadcastInDim S4096x4096 ![] bcast_S_S4096x4096 : Arr F S_ .f32 → Arr F S4096x4096 .f32) (constant S_ .f32 0x00000000#32))

def delta (d : Nat) (h3 : S8x1x512x4096.Slices ![d, 0, 0, 0] S1x1x512x4096) (h4 : S8x1x1x512.Slices ![d, 0, 0, 0] S1x1x1x512)
    (h5 : S8x1x1x4096.Slices ![d, 0, 0, 0] S1x1x1x4096)
    (x : Arr F S4096x4096 .f32) (qw : Arr F S8x1x512x4096 .i32) (qz : Arr F S8x1x1x512 .i32) (sc : Arr F S8x1x1x4096 .f32)
    (idx : Arr F S4096 .i32) : Arr F S4096x4096 .f32 :=
  Host.dotGeneral dot_S4096x4096_S4096x4096_S4096x4096_1_0_0_1_n_n none (masked (BitVec.ofNat 32 d) x idx)
    (deq (qwOf d h3 qw) (qzOf d h4 qz) (scOf d h5 sc))

/-- One adapter's turn: the rows of x routed to adapter `d` (the others zeroed) against its dequantised weights, added on. -/
def step (d : Nat) (h3 : S8x1x512x4096.Slices ![d, 0, 0, 0] S1x1x512x4096) (h4 : S8x1x1x512.Slices ![d, 0, 0, 0] S1x1x1x512)
    (h5 : S8x1x1x4096.Slices ![d, 0, 0, 0] S1x1x1x4096)
    (acc x : Arr F S4096x4096 .f32) (qw : Arr F S8x1x512x4096 .i32) (qz : Arr F S8x1x1x512 .i32) (sc : Arr F S8x1x1x4096 .f32)
    (idx : Arr F S4096 .i32) : Arr F S4096x4096 .f32 :=
  (addf : Arr F S4096x4096 .f32 → Arr F S4096x4096 .f32 → Arr F S4096x4096 .f32) acc (delta d h3 h4 h5 x qw qz sc idx)

theorem sl3 (d : Nat) (hd : d < 8) : S8x1x512x4096.Slices ![d, 0, 0, 0] S1x1x512x4096 := by revert d; decide
theorem sl4 (d : Nat) (hd : d < 8) : S8x1x1x512.Slices ![d, 0, 0, 0] S1x1x1x512 := by revert d; decide
theorem sl5 (d : Nat) (hd : d < 8) : S8x1x1x4096.Slices ![d, 0, 0, 0] S1x1x1x4096 := by revert d; decide

/-- The accumulator after the first `d` adapters: the base product, then one `step` for each adapter in turn. -/
def acc (x w : Arr F S4096x4096 .f32) (qw : Arr F S8x1x512x4096 .i32) (qz : Arr F S8x1x1x512 .i32)
    (sc : Arr F S8x1x1x4096 .f32) (idx : Arr F S4096 .i32) : Nat → Arr F S4096x4096 .f32
  | 0 => base x w
  | d + 1 => if hd : d < 8 then step d (sl3 d hd) (sl4 d hd) (sl5 d hd) (acc x w qw qz sc idx d) x qw qz sc idx
      else acc x w qw qz sc idx d

theorem acc_succ (x w : Arr F S4096x4096 .f32) (qw : Arr F S8x1x512x4096 .i32) (qz : Arr F S8x1x1x512 .i32)
    (sc : Arr F S8x1x1x4096 .f32) (idx : Arr F S4096 .i32) (d : Nat) (hd : d < 8) :
    acc x w qw qz sc idx (d + 1)
      = step d (sl3 d hd) (sl4 d hd) (sl5 d hd) (acc x w qw qz sc idx d) x qw qz sc idx := by
  rw [acc, dif_pos hd]

def result (x w : Arr F S4096x4096 .f32) (b : Arr F S4096 .f32) (qw : Arr F S8x1x512x4096 .i32) (qz : Arr F S8x1x1x512 .i32)
    (sc : Arr F S8x1x1x4096 .f32) (idx : Arr F S4096 .i32) : Arr F S4096x4096 .f32 :=
  (addf : Arr F S4096x4096 .f32 → Arr F S4096x4096 .f32 → Arr F S4096x4096 .f32) (acc x w qw qz sc idx 8) (rowBcast b)

end Cert.ReferenceIdeal.Hand

end
-- ==== Proof.RefAdapter.lean ====
import proofs.«417603_j79766132621353_3_alg».proof.Proof.RefTerm
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-- The buffers one adapter's group writes, in order, each with the type of the value it holds (named as adapter 0's). -/
structure ABufs where
  v2 : TRef sig ⟨S1x1x512x4096, .i32⟩
  v3 : TRef sig ⟨S512x4096, .i32⟩
  v4 : TRef sig ⟨S512x1x4096, .i32⟩
  v5 : TRef sig ⟨S1x8x1, .i32⟩
  v6 : TRef sig ⟨S512x8x4096, .i32⟩
  v7 : TRef sig ⟨S512x8x4096, .i32⟩
  v8 : TRef sig ⟨S512x8x4096, .i32⟩
  c0 : TRef sig ⟨S_, .i32⟩
  v9 : TRef sig ⟨S512x8x4096, .i32⟩
  v10 : TRef sig ⟨S512x8x4096, .i32⟩
  v11 : TRef sig ⟨S4096x4096, .i32⟩
  v12 : TRef sig ⟨S4096x4096, .f32⟩
  v13 : TRef sig ⟨S1x1x1x512, .i32⟩
  v14 : TRef sig ⟨S512, .i32⟩
  v15 : TRef sig ⟨S512x1, .i32⟩
  v16 : TRef sig ⟨S1x8, .i32⟩
  v17 : TRef sig ⟨S512x8, .i32⟩
  v18 : TRef sig ⟨S512x8, .i32⟩
  v19 : TRef sig ⟨S512x8, .i32⟩
  c1 : TRef sig ⟨S_, .i32⟩
  v20 : TRef sig ⟨S512x8, .i32⟩
  v21 : TRef sig ⟨S512x8, .i32⟩
  v22 : TRef sig ⟨S4096, .i32⟩
  v23 : TRef sig ⟨S4096, .f32⟩
  v24 : TRef sig ⟨S1x1x1x4096, .f32⟩
  v25 : TRef sig ⟨S4096, .f32⟩
  v26 : TRef sig ⟨S1x4096, .f32⟩
  v27 : TRef sig ⟨S4096x4096, .f32⟩
  v28 : TRef sig ⟨S4096x4096, .f32⟩
  v29 : TRef sig ⟨S1x4096, .f32⟩
  v30 : TRef sig ⟨S4096x4096, .f32⟩
  v31 : TRef sig ⟨S4096x4096, .f32⟩
  c2 : TRef sig ⟨S_, .i32⟩
  v32 : TRef sig ⟨S4096, .i32⟩
  v33 : TRef sig ⟨S4096, .i1⟩
  v34 : TRef sig ⟨S4096x1, .i1⟩
  cst : TRef sig ⟨S_, .f32⟩
  w0 : TRef sig ⟨S4096x4096, .i1⟩
  w1 : TRef sig ⟨S4096x4096, .f32⟩
  v35 : TRef sig ⟨S4096x4096, .f32⟩
  v36 : TRef sig ⟨S4096x4096, .f32⟩
  v37 : TRef sig ⟨S4096x4096, .f32⟩

def ABufs.refs (b : ABufs) : List (Ref sig .tc) :=
  [b.v2.ref, b.v3.ref, b.v4.ref, b.v5.ref, b.v6.ref, b.v7.ref, b.v8.ref, b.c0.ref, b.v9.ref, b.v10.ref, b.v11.ref, b.v12.ref, b.v13.ref, b.v14.ref, b.v15.ref, b.v16.ref, b.v17.ref, b.v18.ref, b.v19.ref, b.c1.ref, b.v20.ref, b.v21.ref, b.v22.ref, b.v23.ref, b.v24.ref, b.v25.ref, b.v26.ref, b.v27.ref, b.v28.ref, b.v29.ref, b.v30.ref, b.v31.ref, b.c2.ref, b.v32.ref, b.v33.ref, b.v34.ref, b.cst.ref, b.w0.ref, b.w1.ref, b.v35.ref, b.v36.ref, b.v37.ref]

abbrev rX : TRef sig ⟨S4096x4096, .f32⟩ := .of main_arg0
abbrev rQw : TRef sig ⟨S8x1x512x4096, .i32⟩ := .of main_arg3
abbrev rQz : TRef sig ⟨S8x1x1x512, .i32⟩ := .of main_arg4
abbrev rSc : TRef sig ⟨S8x1x1x4096, .f32⟩ := .of main_arg5
abbrev rIdx : TRef sig ⟨S4096, .i32⟩ := .of main_arg6
abbrev rTbl : TRef sig ⟨S8, .i32⟩ := .of main_c

/-- Adapter d's 42 operations over its own buffers: unpack the adapter's packed weights and zero points by the table of
    field offsets, dequantise with its scales, keep the rows of x whose routing index is d, multiply, add to the accumulator. -/
noncomputable def adapterOps (d : Nat) (hd : d < 8) (accIn : TRef sig ⟨S4096x4096, .f32⟩) (b : ABufs) :
    List (HloOp τ sig (Elt F)) :=
  [ TRef.unary rQw b.v2 (extractStridedSlice S1x1x512x4096 ![d, 0, 0, 0] · (sl3 d hd)),
    TRef.reshape b.v2 b.v3 rfl shapeCasts_S1x1x512x4096_S512x4096,
    TRef.unary b.v3 b.v4 (broadcastInDim S512x1x4096 ![0, 2] bcast_S512x4096_S512x1x4096_0_2),
    TRef.unary rTbl b.v5 (broadcastInDim S1x8x1 ![1] bcast_S8_S1x8x1_1),
    TRef.unary b.v4 b.v6 (broadcastInDim S512x8x4096 ![0, 1, 2] bcast_S512x1x4096_S512x8x4096_0_1_2),
    TRef.unary b.v5 b.v7 (broadcastInDim S512x8x4096 ![0, 1, 2] bcast_S1x8x1_S512x8x4096_0_1_2),
    TRef.binary b.v6 b.v7 b.v8 Host.shrsi,
    TRef.nullary b.c0 (constantI S_ 32 15#32),
    TRef.unary b.c0 b.v9 (broadcastInDim S512x8x4096 ![] bcast_S_S512x8x4096),
    TRef.binary b.v8 b.v9 b.v10 andi,
    TRef.reshape b.v10 b.v11 rfl shapeCasts_S512x8x4096_S4096x4096,
    TRef.unary b.v11 b.v12 (sitofp .f32),
    TRef.unary rQz b.v13 (extractStridedSlice S1x1x1x512 ![d, 0, 0, 0] · (sl4 d hd)),
    TRef.reshape b.v13 b.v14 rfl shapeCasts_S1x1x1x512_S512,
    TRef.unary b.v14 b.v15 (broadcastInDim S512x1 ![0] bcast_S512_S512x1_0),
    TRef.unary rTbl b.v16 (broadcastInDim S1x8 ![1] bcast_S8_S1x8_1),
    TRef.unary b.v15 b.v17 (broadcastInDim S512x8 ![0, 1] bcast_S512x1_S512x8_0_1),
    TRef.unary b.v16 b.v18 (broadcastInDim S512x8 ![0, 1] bcast_S1x8_S512x8_0_1),
    TRef.binary b.v17 b.v18 b.v19 Host.shrsi,
    TRef.nullary b.c1 (constantI S_ 32 15#32),
    TRef.unary b.c1 b.v20 (broadcastInDim S512x8 ![] bcast_S_S512x8),
    TRef.binary b.v19 b.v20 b.v21 andi,
    TRef.reshape b.v21 b.v22 rfl shapeCasts_S512x8_S4096,
    TRef.unary b.v22 b.v23 (sitofp .f32),
    TRef.unary rSc b.v24 (extractStridedSlice S1x1x1x4096 ![d, 0, 0, 0] · (sl5 d hd)),
    TRef.reshape b.v24 b.v25 rfl shapeCasts_S1x1x1x4096_S4096,
    TRef.unary b.v23 b.v26 (broadcastInDim S1x4096 ![1] bcast_S4096_S1x4096_1),
    TRef.unary b.v26 b.v27 (broadcastInDim S4096x4096 ![0, 1] bcast_S1x4096_S4096x4096_0_1),
    TRef.binary b.v12 b.v27 b.v28 subf,
    TRef.unary b.v25 b.v29 (broadcastInDim S1x4096 ![1] bcast_S4096_S1x4096_1),
    TRef.unary b.v29 b.v30 (broadcastInDim S4096x4096 ![0, 1] bcast_S1x4096_S4096x4096_0_1),
    TRef.binary b.v30 b.v28 b.v31 mulf,
    TRef.nullary b.c2 (constantI S_ 32 (BitVec.ofNat 32 d)),
    TRef.unary b.c2 b.v32 (broadcastInDim S4096 ![] bcast_S_S4096),
    TRef.binary rIdx b.v32 b.v33 (cmpi .eq),
    TRef.unary b.v33 b.v34 (broadcastInDim S4096x1 ![0] bcast_S4096_S4096x1_0),
    TRef.nullary b.cst (constant S_ .f32 0x00000000#32),
    TRef.unary b.v34 b.w0 (broadcastInDim S4096x4096 ![0, 1] bcast_S4096x1_S4096x4096_0_1),
    TRef.unary b.cst b.w1 (broadcastInDim S4096x4096 ![] bcast_S_S4096x4096),
    TRef.ternary b.w0 rX b.w1 b.v35 select,
    TRef.binary b.v35 b.v31 b.v36 (fun l r => Host.dotGeneral dot_S4096x4096_S4096x4096_S4096x4096_1_0_0_1_n_n none l r),
    TRef.binary accIn b.v36 b.v37 addf ]

end Cert.ReferenceIdeal.Hand

end
-- ==== Proof.RefOpsTab.lean ====
import proofs.«417603_j79766132621353_3_alg».proof.Proof.RefAdapter

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

abbrev pre : List (HloOp τ sig (Elt F)) :=
  [ StableHlo.nullary main_c (fun i => lit0 (S8.rowMajor i)),
    StableHlo.unary main_arg1 main_v0 ((transpose S4096x4096 [1, 0] · transposes_S4096x4096_S4096x4096_1_0) : (⟨S4096x4096, .f32⟩ : BufTy).Contents (Elt F) → (⟨S4096x4096, .f32⟩ : BufTy).Contents (Elt F)),
    StableHlo.binary main_arg0 main_v0 main_v1 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)) ]
abbrev pre_W : List (Ref sig .tc) := [main_c, main_v0, main_v1]

abbrev bufs0 : ABufs :=
  ⟨.of main_v2, .of main_v3, .of main_v4, .of main_v5, .of main_v6, .of main_v7, .of main_v8, .of main_c_0, .of main_v9, .of main_v10, .of main_v11, .of main_v12, .of main_v13, .of main_v14, .of main_v15, .of main_v16, .of main_v17, .of main_v18, .of main_v19, .of main_c_1, .of main_v20, .of main_v21, .of main_v22, .of main_v23, .of main_v24, .of main_v25, .of main_v26, .of main_v27, .of main_v28, .of main_v29, .of main_v30, .of main_v31, .of main_c_2, .of main_v32, .of main_v33, .of main_v34, .of main_cst, .of main_call0_v0, .of main_call0_v1, .of main_v35, .of main_v36, .of main_v37⟩

abbrev bufs1 : ABufs :=
  ⟨.of main_v38, .of main_v39, .of main_v40, .of main_v41, .of main_v42, .of main_v43, .of main_v44, .of main_c_3, .of main_v45, .of main_v46, .of main_v47, .of main_v48, .of main_v49, .of main_v50, .of main_v51, .of main_v52, .of main_v53, .of main_v54, .of main_v55, .of main_c_4, .of main_v56, .of main_v57, .of main_v58, .of main_v59, .of main_v60, .of main_v61, .of main_v62, .of main_v63, .of main_v64, .of main_v65, .of main_v66, .of main_v67, .of main_c_5, .of main_v68, .of main_v69, .of main_v70, .of main_cst_6, .of main_call1_v0, .of main_call1_v1, .of main_v71, .of main_v72, .of main_v73⟩

abbrev bufs2 : ABufs :=
  ⟨.of main_v74, .of main_v75, .of main_v76, .of main_v77, .of main_v78, .of main_v79, .of main_v80, .of main_c_7, .of main_v81, .of main_v82, .of main_v83, .of main_v84, .of main_v85, .of main_v86, .of main_v87, .of main_v88, .of main_v89, .of main_v90, .of main_v91, .of main_c_8, .of main_v92, .of main_v93, .of main_v94, .of main_v95, .of main_v96, .of main_v97, .of main_v98, .of main_v99, .of main_v100, .of main_v101, .of main_v102, .of main_v103, .of main_c_9, .of main_v104, .of main_v105, .of main_v106, .of main_cst_10, .of main_call2_v0, .of main_call2_v1, .of main_v107, .of main_v108, .of main_v109⟩

abbrev bufs3 : ABufs :=
  ⟨.of main_v110, .of main_v111, .of main_v112, .of main_v113, .of main_v114, .of main_v115, .of main_v116, .of main_c_11, .of main_v117, .of main_v118, .of main_v119, .of main_v120, .of main_v121, .of main_v122, .of main_v123, .of main_v124, .of main_v125, .of main_v126, .of main_v127, .of main_c_12, .of main_v128, .of main_v129, .of main_v130, .of main_v131, .of main_v132, .of main_v133, .of main_v134, .of main_v135, .of main_v136, .of main_v137, .of main_v138, .of main_v139, .of main_c_13, .of main_v140, .of main_v141, .of main_v142, .of main_cst_14, .of main_call3_v0, .of main_call3_v1, .of main_v143, .of main_v144, .of main_v145⟩

abbrev bufs4 : ABufs :=
  ⟨.of main_v146, .of main_v147, .of main_v148, .of main_v149, .of main_v150, .of main_v151, .of main_v152, .of main_c_15, .of main_v153, .of main_v154, .of main_v155, .of main_v156, .of main_v157, .of main_v158, .of main_v159, .of main_v160, .of main_v161, .of main_v162, .of main_v163, .of main_c_16, .of main_v164, .of main_v165, .of main_v166, .of main_v167, .of main_v168, .of main_v169, .of main_v170, .of main_v171, .of main_v172, .of main_v173, .of main_v174, .of main_v175, .of main_c_17, .of main_v176, .of main_v177, .of main_v178, .of main_cst_18, .of main_call4_v0, .of main_call4_v1, .of main_v179, .of main_v180, .of main_v181⟩

abbrev bufs5 : ABufs :=
  ⟨.of main_v182, .of main_v183, .of main_v184, .of main_v185, .of main_v186, .of main_v187, .of main_v188, .of main_c_19, .of main_v189, .of main_v190, .of main_v191, .of main_v192, .of main_v193, .of main_v194, .of main_v195, .of main_v196, .of main_v197, .of main_v198, .of main_v199, .of main_c_20, .of main_v200, .of main_v201, .of main_v202, .of main_v203, .of main_v204, .of main_v205, .of main_v206, .of main_v207, .of main_v208, .of main_v209, .of main_v210, .of main_v211, .of main_c_21, .of main_v212, .of main_v213, .of main_v214, .of main_cst_22, .of main_call5_v0, .of main_call5_v1, .of main_v215, .of main_v216, .of main_v217⟩

abbrev bufs6 : ABufs :=
  ⟨.of main_v218, .of main_v219, .of main_v220, .of main_v221, .of main_v222, .of main_v223, .of main_v224, .of main_c_23, .of main_v225, .of main_v226, .of main_v227, .of main_v228, .of main_v229, .of main_v230, .of main_v231, .of main_v232, .of main_v233, .of main_v234, .of main_v235, .of main_c_24, .of main_v236, .of main_v237, .of main_v238, .of main_v239, .of main_v240, .of main_v241, .of main_v242, .of main_v243, .of main_v244, .of main_v245, .of main_v246, .of main_v247, .of main_c_25, .of main_v248, .of main_v249, .of main_v250, .of main_cst_26, .of main_call6_v0, .of main_call6_v1, .of main_v251, .of main_v252, .of main_v253⟩

abbrev bufs7 : ABufs :=
  ⟨.of main_v254, .of main_v255, .of main_v256, .of main_v257, .of main_v258, .of main_v259, .of main_v260, .of main_c_27, .of main_v261, .of main_v262, .of main_v263, .of main_v264, .of main_v265, .of main_v266, .of main_v267, .of main_v268, .of main_v269, .of main_v270, .of main_v271, .of main_c_28, .of main_v272, .of main_v273, .of main_v274, .of main_v275, .of main_v276, .of main_v277, .of main_v278, .of main_v279, .of main_v280, .of main_v281, .of main_v282, .of main_v283, .of main_c_29, .of main_v284, .of main_v285, .of main_v286, .of main_cst_30, .of main_call7_v0, .of main_call7_v1, .of main_v287, .of main_v288, .of main_v289⟩

abbrev tail : List (HloOp τ sig (Elt F)) :=
  [ StableHlo.unary main_arg2 main_v290 (broadcastInDim S1x4096 ![1] bcast_S4096_S1x4096_1 : (⟨S4096, .f32⟩ : BufTy).Contents (Elt F) → (⟨S1x4096, .f32⟩ : BufTy).Contents (Elt F)),
    StableHlo.unary main_v290 main_v291 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v289 main_v291 main_v292 (addf : (⟨S4096x4096, .f32⟩ : BufTy).Contents (Elt F) → (⟨S4096x4096, .f32⟩ : BufTy).Contents (Elt F) → (⟨S4096x4096, .f32⟩ : BufTy).Contents (Elt F)) ]
abbrev tail_W : List (Ref sig .tc) := [main_v290, main_v291, main_v292]

end Cert.ReferenceIdeal.Hand

end
-- ==== Proof.RefRunOps.lean ====
import proofs.«417603_j79766132621353_3_alg».proof.Proof.RefOpsTab

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-- The program in ten groups: the base product, one group for each adapter, the bias. -/
noncomputable def grp : Nat → List (HloOp τ sig (Elt F))
  | 0 => pre
  | 1 => adapterOps 0 (by decide) (.of main_v1) bufs0
  | 2 => adapterOps 1 (by decide) (.of main_v37) bufs1
  | 3 => adapterOps 2 (by decide) (.of main_v73) bufs2
  | 4 => adapterOps 3 (by decide) (.of main_v109) bufs3
  | 5 => adapterOps 4 (by decide) (.of main_v145) bufs4
  | 6 => adapterOps 5 (by decide) (.of main_v181) bufs5
  | 7 => adapterOps 6 (by decide) (.of main_v217) bufs6
  | 8 => adapterOps 7 (by decide) (.of main_v253) bufs7
  | 9 => tail
  | _ => []

abbrev ops : List (HloOp τ sig (Elt F)) :=
  grp 0 ++ (grp 1 ++ (grp 2 ++ (grp 3 ++ (grp 4 ++ (grp 5 ++ (grp 6 ++ (grp 7 ++ (grp 8 ++ grp 9))))))))

/-- The printed program is the straight line over the list: the list spells its operations again, in order (the outlined
    select at its calls, sequencing reassociated), so the two are one term once the definitions are opened. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.RefGroup.lean ====
import proofs.«417603_j79766132621353_3_alg».proof.Proof.RefRunOps
import proofs.«417603_j79766132621353_3_alg».proof.Proof.RefTerm
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

macro "hlo_writes" : tactic =>
  `(tactic| (simp only [nullary_writes, unary_writes, binary_writes, ternary_writes, reshape_writes,
      Finset.singleton_subset_iff, List.mem_toFinset]; exact List.mem_map_of_mem (by decide)))

macro "hlo_bufs" : tactic =>
  `(tactic| simp only [nullary_bufs_sub, unary_bufs_sub, binary_bufs_sub, ternary_bufs_sub, reshape_bufs_sub])

abbrev args : List (Ref sig .tc) := [main_arg0, main_arg1, main_arg2, main_arg3, main_arg4, main_arg5, main_arg6]

/-- The buffers each group writes. -/
noncomputable def grpW : Nat → List (Ref sig .tc)
  | 0 => pre_W
  | 1 => bufs0.refs
  | 2 => bufs1.refs
  | 3 => bufs2.refs
  | 4 => bufs3.refs
  | 5 => bufs4.refs
  | 6 => bufs5.refs
  | 7 => bufs6.refs
  | 8 => bufs7.refs
  | 9 => tail_W
  | _ => []

/-- The accumulator's buffer after the first `d` adapters. -/
noncomputable def accAt (W : Valuation τ sig (Elt F)) : Nat → Arr F S4096x4096 .f32
  | 0 => W (Proc.devRef .tc main_v1)
  | 1 => W (Proc.devRef .tc main_v37)
  | 2 => W (Proc.devRef .tc main_v73)
  | 3 => W (Proc.devRef .tc main_v109)
  | 4 => W (Proc.devRef .tc main_v145)
  | 5 => W (Proc.devRef .tc main_v181)
  | 6 => W (Proc.devRef .tc main_v217)
  | 7 => W (Proc.devRef .tc main_v253)
  | _ => W (Proc.devRef .tc main_v289)

set_option maxRecDepth 8192 in
theorem grp_writes (k : Nat) :
    (grp (F := F) k).Forall fun op => op.writes ⊆ ((grpW k).map (Proc.devRef (τ := τ) .tc)).toFinset := by
  match k with
  | 0 | 1 | 2 | 3 | 4 | 5 | 6 | 7 | 8 | 9 =>
    simp only [grp, grpW, adapterOps, ABufs.refs, List.Forall]
    repeat' apply And.intro
    all_goals hlo_writes
  | _ + 10 => trivial

set_option maxRecDepth 8192 in
theorem grp_sub (k : Nat) : (grp (F := F) k).Forall fun op => op.bufs ⊆ tcRefs τ sig := by
  match k with
  | 0 | 1 | 2 | 3 | 4 | 5 | 6 | 7 | 8 | 9 =>
    simp only [grp, adapterOps, List.Forall]
    repeat' apply And.intro
    all_goals hlo_bufs
  | _ + 10 => trivial

set_option maxRecDepth 8192 in
theorem grp_fresh (k : Nat) : (grp (F := F) k).Forall fun op => op.fresh = ∅ := by
  match k with
  | 0 | 1 | 2 | 3 | 4 | 5 | 6 | 7 | 8 | 9 =>
    simp only [grp, adapterOps, List.Forall]
    repeat' apply And.intro
    all_goals rfl
  | _ + 10 => trivial

theorem grp_keep (k : Nat) (W : Valuation τ sig (Elt F)) (r : Ref sig .tc) (h : r ∉ grpW k) :
    after (grp k) W (Proc.devRef .tc r) = W (Proc.devRef .tc r) :=
  after_of_writes_sub (grp k) _ (grp_writes k) h

theorem grpW_args (k : Nat) : ∀ r ∈ args, r ∉ grpW k := by
  match k with
  | 0 | 1 | 2 | 3 | 4 | 5 | 6 | 7 | 8 | 9 => decide
  | _ + 10 => exact fun _ _ h => nomatch h

theorem grpW_c (k : Nat) : main_c ∉ grpW (k + 1) := by
  match k with
  | 0 | 1 | 2 | 3 | 4 | 5 | 6 | 7 | 8 => decide
  | _ + 9 => exact fun h => nomatch h

/-- The first group leaves the table of field offsets and the base product. -/
theorem pre_c (V : Valuation τ sig (Elt F)) : after (grp 0) V (Proc.devRef .tc main_c) = (shifts (F := F)) := by
  simp only [grp, pre]; after_results_simp; rfl

theorem pre_acc (V : Valuation τ sig (Elt F)) :
    accAt (after (grp 0) V) 0 = base (V (Proc.devRef .tc main_arg0)) (V (Proc.devRef .tc main_arg1)) := by
  simp only [grp, accAt, pre]; after_results_simp; rfl

set_option maxRecDepth 8192 in
set_option maxHeartbeats 4000000 in
/-- Read back operation by operation, the group's composed result is `step d` of what it started from. -/
theorem it_step (d : Nat) (hd : d < 8) (W : Valuation τ sig (Elt F)) (hc : W (Proc.devRef .tc main_c) = (shifts (F := F))) :
    accAt (after (grp (d + 1)) W) (d + 1)
      = step d (sl3 d hd) (sl4 d hd) (sl5 d hd) (accAt W d) (W (Proc.devRef .tc main_arg0)) (W (Proc.devRef .tc main_arg3))
          (W (Proc.devRef .tc main_arg4)) (W (Proc.devRef .tc main_arg5)) (W (Proc.devRef .tc main_arg6)) := by
  match d, hd with
  | 0, _ | 1, _ | 2, _ | 3, _ | 4, _ | 5, _ | 6, _ | 7, _ =>
    simp only [grp, accAt, Nat.reduceAdd, adapterOps]
    after_results_simp
    simp only [hc]
    rfl
  | _ + 8, h => exact absurd h (by omega)

/-- The last group adds the bias along rows. -/
theorem tail_out (W : Valuation τ sig (Elt F)) :
    after (grp 9) W (Proc.devRef .tc main_v292)
      = (addf : Arr F S4096x4096 .f32 → Arr F S4096x4096 .f32 → Arr F S4096x4096 .f32)
          (accAt W 8) (rowBcast (W (Proc.devRef .tc main_arg2))) := by
  simp only [grp, accAt, tail]; after_results_simp; rfl

end Cert.ReferenceIdeal.Hand

end
-- ==== Proof.RefRun.lean ====
import proofs.«417603_j79766132621353_3_alg».proof.Proof.RefGroup

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-- The contents after the first `k` groups. -/
noncomputable def Wd (V : Valuation τ sig (Elt F)) : Nat → Valuation τ sig (Elt F)
  | 0 => V
  | k + 1 => after (grp k) (Wd V k)

theorem after_ops (V : Valuation τ sig (Elt F)) : after ops V = Wd V 10 := by
  simp only [ops, StableHlo.after_append]
  rfl

/-- No group writes an argument. -/
theorem Wd_args (V : Valuation τ sig (Elt F)) (k : Nat) : ∀ r ∈ args, Wd V k (Proc.devRef .tc r) = V (Proc.devRef .tc r) := by
  induction k with
  | zero => exact fun _ _ => rfl
  | succ k ih => exact fun r hr => (grp_keep k _ r (grpW_args k r hr)).trans (ih r hr)

/-- Only the first group writes the table of field offsets. -/
theorem Wd_c (V : Valuation τ sig (Elt F)) (k : Nat) : Wd V (k + 1) (Proc.devRef .tc main_c) = (shifts (F := F)) := by
  induction k with
  | zero => exact pre_c V
  | succ k ih => exact (grp_keep (k + 1) _ main_c (grpW_c k)).trans ih

theorem Wd_acc (V : Valuation τ sig (Elt F)) (d : Nat) (hd : d ≤ 8) :
    accAt (Wd V (d + 1)) d = acc (V (Proc.devRef .tc main_arg0)) (V (Proc.devRef .tc main_arg1)) (V (Proc.devRef .tc main_arg3)) (V (Proc.devRef .tc main_arg4)) (V (Proc.devRef .tc main_arg5)) (V (Proc.devRef .tc main_arg6)) d := by
  induction d with
  | zero => exact pre_acc V
  | succ d ih =>
    have hd' : d < 8 := hd
    refine (it_step d hd' (Wd V (d + 1)) (Wd_c V d)).trans ?_
    rw [acc_succ _ _ _ _ _ _ d hd', ← ih (Nat.le_of_lt hd'), Wd_args V (d + 1) main_arg0 (by decide),
      Wd_args V (d + 1) main_arg3 (by decide), Wd_args V (d + 1) main_arg4 (by decide),
      Wd_args V (d + 1) main_arg5 (by decide), Wd_args V (d + 1) main_arg6 (by decide)]

theorem Wd_out (V : Valuation τ sig (Elt F)) : Wd V 10 (Proc.devRef .tc main_v292) = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  (tail_out (Wd V 9)).trans (by rw [Wd_acc V 8 le_rfl, Wd_args V 9 main_arg2 (by decide)]; rfl)

theorem ops_all {p : HloOp τ sig (Elt F) → Prop} (h : ∀ k, (grp k).Forall p) : (ops : List (HloOp τ sig (Elt F))).Forall p := by
  simp only [ops, List.forall_append]
  exact ⟨h 0, h 1, h 2, h 3, h 4, h 5, h 6, h 7, h 8, h 9⟩

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v292)
          = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      have hk : ∀ a ∈ args, _ = m ((c.tc : Thread nD τ).loc a) := fun a ha =>
        (h c a).trans (by rw [after_ops]; exact Wd_args (launchContents m c) 10 a ha)
      ⟨(h c main_v292).trans (by rw [after_ops]; exact Wd_out (launchContents m c)),
       hk main_arg0 (by decide), hk main_arg1 (by decide), hk main_arg2 (by decide), hk main_arg3 (by decide),
       hk main_arg4 (by decide), hk main_arg5 (by decide), hk main_arg6 (by decide)⟩)
    (run_seq scopedRefs_eq scopedSems_eq defs main (fun _ => ops) main_eq (fun _ => ops_all grp_sub) m ρ
      (fun _ => List.forall_iff_forall_mem.mp (ops_all grp_fresh)))

theorem run_args (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run m ρ)

end Cert.ReferenceIdeal.Hand

end
-- ==== Proof.RefValue.lean ====
import proofs.«417603_j79766132621353_3_alg».proof.Proof.RefTerm
import proofs.«417603_j79766132621353_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.ReferenceIdeal.Hand

open Idealize.ShloMosaic Idealize.ShloMosaic.ValueIdx
open Cert.ReferenceIdeal
open scoped BigOperators

variable [Facts]
open Facts₀ Facts

section Layout
variable {F : FTy → Type} [FloatOps F]

theorem rowBcast_apply {e : EltTy} (v : Arr F S4096 e) (t o : Fin 4096) : rowBcast v (ix2 t o) = v (ix1 o) := by
  unfold rowBcast
  refine (broadcastInDim_apply _ _ _ (ix2 t o) (ix2 (0 : Fin 1) o) (fun a => match a with | ⟨0, _⟩ => rfl | ⟨1, _⟩ => rfl)).trans ?_
  exact broadcastInDim_apply _ _ _ (ix2 (0 : Fin 1) o) (ix1 o) (fun a => match a with | ⟨0, _⟩ => rfl)

theorem qwOf_apply (d : ℕ) (hd : d < 8) (h : S8x1x512x4096.Slices ![d, 0, 0, 0] S1x1x512x4096) (qw : Arr F S8x1x512x4096 .i32)
    (r : Fin 512) (o : Fin 4096) : qwOf d h qw (ix2 r o) = qw (ix4 (⟨d, hd⟩ : Fin 8) (0 : Fin 1) r o) := by
  unfold qwOf
  refine (shapeCast_apply _ _ (ix2 r o) (ix4 (0 : Fin 1) (0 : Fin 1) r o) ?_).trans ?_
  · rw [Shape.rowMajor_val_four, Shape.rowMajor_val_two]
    show ((0 * 1 + 0) * 512 + r.val) * 4096 + o.val = r.val * 4096 + o.val
    omega
  · exact extractStridedSlice_apply _ _ _ _ (ix4 (⟨d, hd⟩ : Fin 8) (0 : Fin 1) r o) (fun a => match a with
      | ⟨0, _⟩ => rfl | ⟨1, _⟩ => rfl | ⟨2, _⟩ => (Nat.zero_add _).symm | ⟨3, _⟩ => (Nat.zero_add _).symm)

theorem qzOf_apply (d : ℕ) (hd : d < 8) (h : S8x1x1x512.Slices ![d, 0, 0, 0] S1x1x1x512) (qz : Arr F S8x1x1x512 .i32)
    (r : Fin 512) : qzOf d h qz (ix1 r) = qz (ix4 (⟨d, hd⟩ : Fin 8) (0 : Fin 1) (0 : Fin 1) r) := by
  unfold qzOf
  refine (shapeCast_apply _ _ (ix1 r) (ix4 (0 : Fin 1) (0 : Fin 1) (0 : Fin 1) r) ?_).trans ?_
  · rw [Shape.rowMajor_val_four, Shape.rowMajor_val_one]
    show ((0 * 1 + 0) * 1 + 0) * 512 + r.val = r.val
    omega
  · exact extractStridedSlice_apply _ _ _ _ (ix4 (⟨d, hd⟩ : Fin 8) (0 : Fin 1) (0 : Fin 1) r) (fun a => match a with
      | ⟨0, _⟩ => rfl | ⟨1, _⟩ => rfl | ⟨2, _⟩ => rfl | ⟨3, _⟩ => (Nat.zero_add _).symm)

theorem scOf_apply (d : ℕ) (hd : d < 8) (h : S8x1x1x4096.Slices ![d, 0, 0, 0] S1x1x1x4096) (sc : Arr F S8x1x1x4096 .f32)
    (o : Fin 4096) : scOf d h sc (ix1 o) = sc (ix4 (⟨d, hd⟩ : Fin 8) (0 : Fin 1) (0 : Fin 1) o) := by
  unfold scOf
  refine (shapeCast_apply _ _ (ix1 o) (ix4 (0 : Fin 1) (0 : Fin 1) (0 : Fin 1) o) ?_).trans ?_
  · rw [Shape.rowMajor_val_four, Shape.rowMajor_val_one]
    show ((0 * 1 + 0) * 1 + 0) * 4096 + o.val = o.val
    omega
  · exact extractStridedSlice_apply _ _ _ _ (ix4 (⟨d, hd⟩ : Fin 8) (0 : Fin 1) (0 : Fin 1) o) (fun a => match a with
      | ⟨0, _⟩ => rfl | ⟨1, _⟩ => rfl | ⟨2, _⟩ => rfl | ⟨3, _⟩ => (Nat.zero_add _).symm)

end Layout

theorem dot_apply (l r : FVec Ideal S4096x4096 .f32) (t o : Fin 4096) :
    Host.dotGeneral (F := Ideal) dot_S4096x4096_S4096x4096_S4096x4096_1_0_0_1_n_n none l r (ix2 t o)
      = ∑ i : Fin 4096, l (ix2 t i) * r (ix2 i o) :=
  StackMember.dotGeneral_plain_apply (m := 4096) (n := 4096) (k := 4096) none l r t o

theorem base_apply (x w : FVec Ideal S4096x4096 .f32) (t o : Fin 4096) :
    base (F := Ideal) x w (ix2 t o) = ∑ i : Fin 4096, x (ix2 t i) * w (ix2 o i) := by
  unfold base
  rw [dot_apply]
  refine Finset.sum_congr rfl fun i _ => ?_
  congr 1
  exact transpose_apply _ _ _ (ix2 i o) (ix2 o i) (fun b => match b with | ⟨0, _⟩ => rfl | ⟨1, _⟩ => rfl)

section Words
variable {s : Shape} {w : Nat}

theorem andi_apply (a b : IVec s w) (i : s.Idx) : andi a b i = IntOp.andi (a i) (b i) := rfl
theorem hostShrsi_apply (a b : IVec s w) (i : s.Idx) : Host.shrsi a b i = IntOp.shrsi .host (a i) (b i) := rfl
theorem cmpi_apply (p : CmpIPredicate) (a b : IVec s w) (i : s.Idx) : cmpi p a b i = IntOp.cmpi p (a i) (b i) := rfl

theorem cmpi_eq_word (a b : BitVec w) : IntOp.cmpi .eq a b = if a = b then 1#1 else 0#1 := by
  show BitVec.ofBool (a == b) = _
  by_cases h : a = b
  · rw [if_pos h, h, beq_self_eq_true]; rfl
  · rw [if_neg h, beq_eq_false_iff_ne.mpr h]; rfl

theorem splat_apply {α : Type} {t : Shape} (h : S_.BroadcastsInDim t (![] : Fin 0 → Fin t.rank)) (x : S_.Idx → α) (j : t.Idx) :
    broadcastInDim t ![] h x j = x ix0 :=
  broadcastInDim_apply _ _ _ j ix0 (fun a => a.elim0)

theorem field_word (v : BitVec 32) (j : Fin 8) :
    IntOp.andi (IntOp.shrsi .host v (BitVec.ofNat 32 (4 * j.val))) 15#32 = Cert.Spec.nibw v j := by
  have hj := j.isLt
  have hlt : (BitVec.ofNat 32 (4 * j.val)).toNat < 32 := by
    rw [BitVec.toNat_ofNat]; omega
  unfold Cert.Spec.nibw IntOp.andi IntOp.shrsi
  rw [if_pos hlt]

end Words

section Fields
variable {F : FTy → Type} [FloatOps F]

theorem shifts_apply (j : Fin 8) : shifts (F := F) (ix1 j) = BitVec.ofNat 32 (4 * j.val) := by
  have key : ∀ k : Fin 8, lit0 k = BitVec.ofNat 32 (4 * k.val) := by decide
  show lit0 (S8.rowMajor (ix1 j)) = _
  refine (key (S8.rowMajor (ix1 j))).trans ?_
  exact congrArg (fun n => BitVec.ofNat 32 (4 * n)) (Shape.rowMajor_val_one (ix1 j))

theorem fieldsW_apply (Q : Arr F S512x4096 .i32) (r : Fin 512) (j : Fin 8) (o : Fin 4096) :
    fieldsW Q (ix3 r j o) = Cert.Spec.nibw (Q (ix2 r o)) j := by
  unfold fieldsW
  rw [andi_apply, hostShrsi_apply, splat_apply]
  rw [broadcastInDim_apply _ _ _ (ix3 r j o) (ix3 r (0 : Fin 1) o)
      (fun a => match a with | ⟨0, _⟩ => rfl | ⟨1, _⟩ => rfl | ⟨2, _⟩ => rfl),
    broadcastInDim_apply _ _ _ (ix3 r (0 : Fin 1) o) (ix2 r o) (fun a => match a with | ⟨0, _⟩ => rfl | ⟨1, _⟩ => rfl),
    broadcastInDim_apply _ _ _ (ix3 r j o) (ix3 (0 : Fin 1) j (0 : Fin 1))
      (fun a => match a with | ⟨0, _⟩ => rfl | ⟨1, _⟩ => rfl | ⟨2, _⟩ => rfl),
    broadcastInDim_apply _ _ _ (ix3 (0 : Fin 1) j (0 : Fin 1)) (ix1 j) (fun a => match a with | ⟨0, _⟩ => rfl),
    shifts_apply]
  exact field_word _ j

theorem fieldsZ_apply (Z : Arr F S512 .i32) (c : Fin 512) (j : Fin 8) :
    fieldsZ Z (ix2 c j) = Cert.Spec.nibw (Z (ix1 c)) j := by
  unfold fieldsZ
  rw [andi_apply, hostShrsi_apply, splat_apply]
  rw [broadcastInDim_apply _ _ _ (ix2 c j) (ix2 c (0 : Fin 1)) (fun a => match a with | ⟨0, _⟩ => rfl | ⟨1, _⟩ => rfl),
    broadcastInDim_apply _ _ _ (ix2 c (0 : Fin 1)) (ix1 c) (fun a => match a with | ⟨0, _⟩ => rfl),
    broadcastInDim_apply _ _ _ (ix2 c j) (ix2 (0 : Fin 1) j) (fun a => match a with | ⟨0, _⟩ => rfl | ⟨1, _⟩ => rfl),
    broadcastInDim_apply _ _ _ (ix2 (0 : Fin 1) j) (ix1 j) (fun a => match a with | ⟨0, _⟩ => rfl),
    shifts_apply]
  exact field_word _ j

end Fields

theorem unpackW_apply (Q : Arr Ideal S512x4096 .i32) (i o : Fin 4096) :
    unpackW (F := Ideal) Q (ix2 i o)
      = Cert.Spec.nib (Q (ix2 (⟨i.val / 8, by omega⟩ : Fin 512) o)) ⟨i.val % 8, by omega⟩ := by
  unfold unpackW
  rw [sitofp_apply,
    shapeCast_apply _ _ (ix2 i o) (ix3 (⟨i.val / 8, by omega⟩ : Fin 512) (⟨i.val % 8, by omega⟩ : Fin 8) o) (by
      rw [Shape.rowMajor_val_three, Shape.rowMajor_val_two]
      show (i.val / 8 * 8 + i.val % 8) * 4096 + o.val = i.val * 4096 + o.val
      omega),
    fieldsW_apply]
  rfl

theorem unpackZ_apply (Z : Arr Ideal S512 .i32) (o : Fin 4096) :
    unpackZ (F := Ideal) Z (ix1 o)
      = Cert.Spec.nib (Z (ix1 (⟨o.val / 8, by omega⟩ : Fin 512))) ⟨o.val % 8, by omega⟩ := by
  unfold unpackZ
  rw [sitofp_apply,
    shapeCast_apply _ _ (ix1 o) (ix2 (⟨o.val / 8, by omega⟩ : Fin 512) (⟨o.val % 8, by omega⟩ : Fin 8)) (by
      rw [Shape.rowMajor_val_two, Shape.rowMajor_val_one]
      show o.val / 8 * 8 + o.val % 8 = o.val
      omega),
    fieldsZ_apply]
  rfl

theorem deq_apply (Q : Arr Ideal S512x4096 .i32) (Z : Arr Ideal S512 .i32) (s : Arr Ideal S4096 .f32) (i o : Fin 4096) :
    deq (F := Ideal) Q Z s (ix2 i o)
      = s (ix1 o) * (Cert.Spec.nib (Q (ix2 (⟨i.val / 8, by omega⟩ : Fin 512) o)) ⟨i.val % 8, by omega⟩
          - Cert.Spec.nib (Z (ix1 (⟨o.val / 8, by omega⟩ : Fin 512))) ⟨o.val % 8, by omega⟩) := by
  unfold deq
  rw [mulf_apply, subf_apply, rowBcast_apply, rowBcast_apply, unpackW_apply, unpackZ_apply]

theorem masked_apply (dc : BitVec 32) (x : Arr Ideal S4096x4096 .f32) (idx : Arr Ideal S4096 .i32) (t i : Fin 4096) :
    masked (F := Ideal) dc x idx (ix2 t i) = if idx (ix1 t) = dc then x (ix2 t i) else 0 := by
  unfold masked
  rw [select_apply, splat_apply,
    broadcastInDim_apply _ _ _ (ix2 t i) (ix2 t (0 : Fin 1)) (fun a => match a with | ⟨0, _⟩ => rfl | ⟨1, _⟩ => rfl),
    broadcastInDim_apply _ _ _ (ix2 t (0 : Fin 1)) (ix1 t) (fun a => match a with | ⟨0, _⟩ => rfl),
    cmpi_apply, splat_apply, constantI_apply, constant_apply, Ideal.ofBits_zero_f32]
  rw [cmpi_eq_word]
  unfold Scalar.select
  by_cases h : idx (ix1 t) = dc
  · rw [if_pos h, if_pos h]; exact if_pos rfl
  · rw [if_neg h, if_neg h]; exact if_neg (by decide)

def mdelta (x : FVec Ideal S4096x4096 .f32) (qw : IVec S8x1x512x4096 32) (qz : IVec S8x1x1x512 32)
    (sc : FVec Ideal S8x1x1x4096 .f32) (idx : IVec S4096 32) (d : Fin 8) (t o : Fin 4096) : EReal :=
  ∑ i : Fin 4096, (if idx (ix1 t) = BitVec.ofNat 32 d.val then x (ix2 t i) else 0)
    * (sc (ix4 d (0 : Fin 1) (0 : Fin 1) o) * (Cert.Spec.q qw d i o - Cert.Spec.z qz d o))

theorem delta_apply (d : ℕ) (hd : d < 8) (h3 : S8x1x512x4096.Slices ![d, 0, 0, 0] S1x1x512x4096) (h4 : S8x1x1x512.Slices ![d, 0, 0, 0] S1x1x1x512)
    (h5 : S8x1x1x4096.Slices ![d, 0, 0, 0] S1x1x1x4096)
    (x : Arr Ideal S4096x4096 .f32) (qw : Arr Ideal S8x1x512x4096 .i32) (qz : Arr Ideal S8x1x1x512 .i32) (sc : Arr Ideal S8x1x1x4096 .f32)
    (idx : Arr Ideal S4096 .i32) (t o : Fin 4096) :
    delta (F := Ideal) d h3 h4 h5 x qw qz sc idx (ix2 t o) = mdelta x qw qz sc idx ⟨d, hd⟩ t o := by
  unfold delta mdelta
  rw [dot_apply]
  refine Finset.sum_congr rfl fun i _ => ?_
  rw [masked_apply, deq_apply, scOf_apply d hd, qwOf_apply d hd, qzOf_apply d hd]
  rfl

theorem step_apply (d : ℕ) (hd : d < 8) (h3 : S8x1x512x4096.Slices ![d, 0, 0, 0] S1x1x512x4096) (h4 : S8x1x1x512.Slices ![d, 0, 0, 0] S1x1x1x512)
    (h5 : S8x1x1x4096.Slices ![d, 0, 0, 0] S1x1x1x4096)
    (acc x : Arr Ideal S4096x4096 .f32) (qw : Arr Ideal S8x1x512x4096 .i32) (qz : Arr Ideal S8x1x1x512 .i32) (sc : Arr Ideal S8x1x1x4096 .f32)
    (idx : Arr Ideal S4096 .i32) (t o : Fin 4096) :
    step (F := Ideal) d h3 h4 h5 acc x qw qz sc idx (ix2 t o) = acc (ix2 t o) + mdelta x qw qz sc idx ⟨d, hd⟩ t o := by
  unfold step
  rw [addf_apply, delta_apply d hd]

theorem result_apply (x w : Arr Ideal S4096x4096 .f32) (b : Arr Ideal S4096 .f32) (qw : Arr Ideal S8x1x512x4096 .i32) (qz : Arr Ideal S8x1x1x512 .i32)
    (sc : Arr Ideal S8x1x1x4096 .f32) (idx : Arr Ideal S4096 .i32) (t o : Fin 4096) :
    result (F := Ideal) x w b qw qz sc idx (ix2 t o)
      = (((((((((∑ i : Fin 4096, x (ix2 t i) * w (ix2 o i))
          + mdelta x qw qz sc idx 0 t o) + mdelta x qw qz sc idx 1 t o) + mdelta x qw qz sc idx 2 t o)
          + mdelta x qw qz sc idx 3 t o) + mdelta x qw qz sc idx 4 t o) + mdelta x qw qz sc idx 5 t o)
          + mdelta x qw qz sc idx 6 t o) + mdelta x qw qz sc idx 7 t o) + b (ix1 o) := by
  simp only [result, acc, Nat.reduceLT, ↓reduceDIte]
  rw [addf_apply, rowBcast_apply, step_apply 7 (by decide), step_apply 6 (by decide), step_apply 5 (by decide),
    step_apply 4 (by decide), step_apply 3 (by decide), step_apply 2 (by decide), step_apply 1 (by decide),
    step_apply 0 (by decide), base_apply]
  rfl

theorem mdelta_of_eq (x : FVec Ideal S4096x4096 .f32) (qw : IVec S8x1x512x4096 32) (qz : IVec S8x1x1x512 32)
    (sc : FVec Ideal S8x1x1x4096 .f32) (idx : IVec S4096 32) (d : Fin 8) (t o : Fin 4096)
    (h : idx (ix1 t) = BitVec.ofNat 32 d.val) : mdelta x qw qz sc idx d t o = Cert.Spec.delta x qw qz sc d t o := by
  unfold mdelta Cert.Spec.delta
  exact Finset.sum_congr rfl fun i _ => by rw [if_pos h]

theorem mdelta_of_ne (x : FVec Ideal S4096x4096 .f32) (qw : IVec S8x1x512x4096 32) (qz : IVec S8x1x1x512 32)
    (sc : FVec Ideal S8x1x1x4096 .f32) (idx : IVec S4096 32) (d : Fin 8) (t o : Fin 4096)
    (h : idx (ix1 t) ≠ BitVec.ofNat 32 d.val) : mdelta x qw qz sc idx d t o = 0 := by
  unfold mdelta
  exact Finset.sum_eq_zero fun i _ => by rw [if_neg h, zero_mul]

theorem result_eq_G (x w : Arr Ideal S4096x4096 .f32) (b : Arr Ideal S4096 .f32) (qw : Arr Ideal S8x1x512x4096 .i32) (qz : Arr Ideal S8x1x1x512 .i32)
    (sc : Arr Ideal S8x1x1x4096 .f32) (idx : Arr Ideal S4096 .i32) (hidx : ∀ t : Fin 4096, (idx (ix1 t)).toNat < 8) :
    result (F := Ideal) x w b qw qz sc idx = Cert.Spec.G x w b qw qz sc idx := by
  funext j
  obtain ⟨t, o, rfl⟩ : ∃ (t o : Fin 4096), j = ix2 t o := ⟨j 0, j 1, eq_ix2 j⟩
  rw [result_apply, Cert.Spec.G_apply]
  have hv := hidx t
  have hA : idx (ix1 t) = BitVec.ofNat 32 (Cert.Spec.adapter idx t).val := by
    unfold Cert.Spec.adapter
    show idx (ix1 t) = BitVec.ofNat 32 ((idx (ix1 t)).toNat % 8)
    rw [Nat.mod_eq_of_lt hv, BitVec.ofNat_toNat, BitVec.setWidth_eq]
  have hk : ∀ k : Fin 8, mdelta x qw qz sc idx k t o
      = if k = Cert.Spec.adapter idx t then Cert.Spec.delta x qw qz sc (Cert.Spec.adapter idx t) t o else 0 := by
    intro k
    by_cases h : k = Cert.Spec.adapter idx t
    · rw [if_pos h, h]; exact mdelta_of_eq x qw qz sc idx _ t o hA
    · rw [if_neg h]
      refine mdelta_of_ne x qw qz sc idx k t o fun e => h ?_
      have e2 := congrArg BitVec.toNat (hA.symm.trans e)
      rw [BitVec.toNat_ofNat, BitVec.toNat_ofNat] at e2
      have h1 := k.isLt
      have h2 := (Cert.Spec.adapter idx t).isLt
      exact Fin.ext (by omega)
  rw [hk 0, hk 1, hk 2, hk 3, hk 4, hk 5, hk 6, hk 7]
  generalize Cert.Spec.adapter idx t = a
  fin_cases a <;> simp

end Cert.ReferenceIdeal.Hand

end
-- ==== Proof.lean ====
/-
  For token t with adapter d = idx(t) (below 8 by the precondition) and output o, both programs end at
      Σ_i x(t,i) · W(o,i)  +  Σ_i x(t,i) · ( s_d(o) · (q_d(i,o) − z_d(o)) )  +  b(o)
  over the extended reals, q and z being the 4-bit fields of the packed words. The kernel program sorts the tokens by
  adapter, pads every group to whole tiles of 256 rows and multiplies tile by tile; the reference adds the eight
  adapters' masked products one after another.
-/
import proofs.«417603_j79766132621353_3_alg».proof.Defs
import proofs.«417603_j79766132621353_3_alg».proof.Proof.Gen.Kernel
import proofs.«417603_j79766132621353_3_alg».proof.Proof.Gen.KernelIdeal
import proofs.«417603_j79766132621353_3_alg».proof.Proof.Gen.ReferenceIdeal
import proofs.«417603_j79766132621353_3_alg».proof.Proof.Gen.Pre_finite_inputs
import proofs.«417603_j79766132621353_3_alg».proof.Proof.KRun
import proofs.«417603_j79766132621353_3_alg».proof.Proof.KRunB
import proofs.«417603_j79766132621353_3_alg».proof.Proof.HostTile
import proofs.«417603_j79766132621353_3_alg».proof.Proof.HostTileB
import proofs.«417603_j79766132621353_3_alg».proof.Proof.KVal
import proofs.«417603_j79766132621353_3_alg».proof.Proof.RefRun
import proofs.«417603_j79766132621353_3_alg».proof.Proof.RefValue
import proofs.«417603_j79766132621353_3_alg».proof.Proof.PreFacts
import Idealize.ShloMosaic.Adequacy
import Idealize.ShloMosaic.Init

noncomputable section

namespace Cert.Proof

open Idealize.ShloMosaic Idealize.SL.Sem

theorem frame_k : Cert.frame_Kernel := fun m ρ _ =>
  Cert.Kernel.Hand.frame m ρ (Cert.Kernel.Hand.tbl_ok m) (Cert.Kernel.Hand.v57_indep m)

theorem frame_ki : Cert.frame_KernelIdeal := fun m ρ _ =>
  Cert.KernelIdeal.Hand.frame m ρ (Cert.KernelIdeal.Hand.tbl_ok m) (Cert.KernelIdeal.Hand.v57_indep m)

theorem frame_ri : Cert.frame_ReferenceIdeal := fun m ρ _ =>
  Cert.ReferenceIdeal.Hand.run_args (F := Ideal) m ρ

theorem preserves : Cert.preserves_Kernel_KernelIdeal := trivial

theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun _ h c => ⟨(h c).1.trans ?_, (h c).2⟩)
      (Cert.KernelIdeal.Hand.run_main (F := Ideal) m ρ (Cert.KernelIdeal.Hand.tbl_ok m) (Cert.KernelIdeal.Hand.v57_indep m))
    exact Cert.KernelIdeal.Hand.kval m c hpre
  · refine (θ_run Cert.ReferenceIdeal.defs _ _).mono (fun _ h c => ⟨(h c).1.trans ?_, (h c).2⟩)
      (Cert.ReferenceIdeal.Hand.run (F := Ideal) m' ρ')
    have hf := Cert.PreFacts.of_pre _ _ _ _ _ _ _ (hpre c)
    rw [(hagree c).1, (hagree c).2.1, (hagree c).2.2.1, (hagree c).2.2.2.1, (hagree c).2.2.2.2.1, (hagree c).2.2.2.2.2.1,
      (hagree c).2.2.2.2.2.2]
    exact Cert.ReferenceIdeal.Hand.result_eq_G _ _ _ _ _ _ _ (fun t => hf.2.2.2.2 _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
